-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S5000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S30x128 : Shape := ⟨2, ![30, 128]⟩
abbrev S3x128x128 : Shape := ⟨3, ![3, 128, 128]⟩
abbrev S3x128 : Shape := ⟨2, ![3, 128]⟩
abbrev S_ : Shape := ⟨0, ![]⟩

class Facts : Prop where
  bcast_S_S30x128 : S_.BroadcastsInDim S30x128 (![] : Fin 0 → Fin S30x128.rank)
  reducesTo_S30x128_S_d0_1 : S30x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_v30 : IVec S_ 1) (main_v32 : IVec S50000 1) (main_c_12 : IVec S_ 32) : IVec S_ 1 :=
  let main_v33 : IVec S50000 32 := broadcastInDim S50000 ![] bcast_S_S50000 main_c_12
  let main_v34 : IVec S50000 1 := cmpi .slt main_arg2 main_v33
  let main_v35 : IVec S50000 1 := andi main_v32 main_v34
  let main_c_13 : IVec S_ 1 := constantI S_ 1 1#1
  let main_v36 : IVec S_ 1 := (fun x v => Host.reduce IntOp.andi x v reducesTo_S50000_S_d0 h_S_) main_v35 main_c_13
  let main_v37 : IVec S_ 1 := andi main_v30 main_v36
  main_v37

def fn_part1 {F : FTy → Type} [FloatOps F] (main_arg0 : IVec S50000 32) (main_arg2 : IVec S50000 32) (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_c_8 : IVec S_ 32 := constantI S_ 32 0#32
  let main_v24 : IVec S50000 32 := broadcastInDim S50000 ![] bcast_S_S50000 main_c_8
  let main_v25 : IVec S50000 1 := cmpi .sge main_arg0 main_v24
  let main_c_9 : IVec S_ 32 := constantI S_ 32 30#32
  let main_v26 : IVec S50000 32 := broadcastInDim S50000 ![] bcast_S_S50000 main_c_9
  let main_v27 : IVec S50000 1 := cmpi .slt main_arg0 main_v26
  let main_v28 : IVec S50000 1 := andi main_v25 main_v27
  let main_c_10 : IVec S_ 1 := constantI S_ 1 1#1
  let main_v29 : IVec S_ 1 := (fun x v => Host.reduce IntOp.andi x v reducesTo_S50000_S_d0 h_S_) main_v28 main_c_10
  let main_v30 : IVec S_ 1 := andi main_v23 main_v29
  let main_c_11 : IVec S_ 32 := constantI S_ 32 0#32
  let main_v31 : IVec S50000 32 := broadcastInDim S50000 ![] bcast_S_S50000 main_c_11
  let main_v32 : IVec S50000 1 := cmpi .sge main_arg2 main_v31
  let main_c_12 : IVec S_ 32 := constantI S_ 32 64#32
  fn_part2 (F := F) main_arg2 main_v30 main_v32 main_c_12

def fn {F : FTy → Type} [FloatOps F] (main_arg0 : IVec S50000 32) (main_arg1 : IVec S2x800000 32) (main_arg2 : IVec S50000 32) (main_arg3 : FVec F S30x128 .f32) (main_arg4 : FVec F S3x128x128 .f32) (main_arg5 : FVec F S3x128 .f32) (main_arg6 : FVec F S3x128 .f32) (main_arg7 : FVec F S3x128 .f32) : IVec S_ 1 :=
  let main_v0 : FVec F S30x128 .f32 := Host.absf main_arg3
  let main_cst : FVec F S_ .f32 := constant S_ .f32 0x7F800000#32
  let main_v1 : FVec F S30x128 .f32 := broadcastInDim S30x128 ![] bcast_S_S30x128 main_cst
  let main_v2 : IVec S30x128 1 := cmpf .olt main_v0 main_v1
  let main_c : IVec S_ 1 := constantI S_ 1 1#1
  let main_v3 : IVec S_ 1 := (fun x v => Host.reduce IntOp.andi x v reducesTo_S30x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg2 main_arg7 main_v13 main_v16
-- ==== Kernel.lean ====
abbrev S50000 : Shape := ⟨1, ![50000]⟩
abbrev S2x800000 : Shape := ⟨2, ![2, 800000]⟩
abbrev S30x128 : Shape := ⟨2, ![30, 128]⟩
abbrev S3x128x128 : Shape := ⟨3, ![3, 128, 128]⟩
abbrev S3x128 : Shape := ⟨2, ![3, 128]⟩
abbrev S_ : Shape := ⟨0, ![]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S50000x1 : Shape := ⟨2, ![50000, 1]⟩
abbrev S1x128x128 : Shape := ⟨3, ![1, 128, 128]⟩
abbrev S128x128 : Shape := ⟨2, ![128, 128]⟩
abbrev S50000x128 : Shape := ⟨2, ![50000, 128]⟩
abbrev S5000x1 : Shape := ⟨2, ![5000, 1]⟩
abbrev S5000x128 : Shape := ⟨2, ![5000, 128]⟩
abbrev S5000 : Shape := ⟨1, ![5000]⟩
abbrev S5000x30 : Shape := ⟨2, ![5000, 30]⟩
abbrev S850000x128 : Shape := ⟨2, ![850000, 128]⟩
abbrev S1x128 : Shape := ⟨2, ![1, 128]⟩
abbrev S128 : Shape := ⟨1, ![128]⟩
abbrev S64x128 : Shape := ⟨2, ![64, 128]⟩
abbrev S1x64 : Shape := ⟨2, ![1, 64]⟩
abbrev S5000x64 : Shape := ⟨2, ![5000, 64]⟩
abbrev S64 : Shape := ⟨1, ![64]⟩
abbrev S64x1 : Shape := ⟨2, ![64, 1]⟩

abbrev nBuf : Space → Nat
  | .hbm => 180
  | .vmem => 74
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S30x128, .f32⟩
  | 4 => ⟨S3x128x128, .f32⟩
  | 5 => ⟨S3x128, .f32⟩
  | 6 => ⟨S3x128, .f32⟩
  | 7 => ⟨S3x128, .f32⟩
  | 8 => ⟨S_, .i32⟩
  | 9 => ⟨S_, .i32⟩
  | 10 => ⟨S_, .i32⟩
  | 11 => ⟨S50000, .i32⟩
  | 12 => ⟨S50000, .i32⟩
  | 13 => ⟨S_, .i32⟩
  | 14 => ⟨S50000, .i32⟩
  | 15 => ⟨S50000, .i32⟩
  | 16 => ⟨S_, .i32⟩
  | 17 => ⟨S_, .i32⟩
  | 18 => ⟨S_, .i32⟩
  | 19 => ⟨S50000, .i32⟩
  | 20 => ⟨S50000, .i32⟩
  | 21 => ⟨S_, .i32⟩
  | 22 => ⟨S50000, .i32⟩
  | 23 => ⟨S50000, .i32⟩
  | 24 => ⟨S1x800000, .i32⟩
  | 25 => ⟨S800000, .i32⟩
  | 26 => ⟨S1x800000, .i32⟩
  | 27 => ⟨S800000, .i32⟩
  | 28 => ⟨S50000, .i32⟩
  | 29 => ⟨S850000, .i32⟩
  | 30 => ⟨S850000, .i32⟩
  | 31 => ⟨S_, .f32⟩
  | 32 => ⟨S850000, .f32⟩
  | 33 => ⟨S_, .f32⟩
  | 34 => ⟨S50000, .f32⟩
  | 35 => ⟨S850000x1, .i32⟩
  | 36 => ⟨S50000, .f32⟩
  | 37 => ⟨S_, .f32⟩
  | 38 => ⟨S50000, .f32⟩
  | 39 => ⟨S50000, .i1⟩
  | 40 => ⟨S50000, .f32⟩
  | 41 => ⟨S_, .f32⟩
  | 42 => ⟨S_, .f32⟩
  | 43 => ⟨S50000, .f32⟩
  | 44 => ⟨S50000, .f32⟩
  | 45 => ⟨S50000x1, .f32⟩
  | 46 => ⟨S1x128x128, .f32⟩
  | 47 => ⟨S128x128, .f32⟩
  | 48 => ⟨S30x128, .f32⟩
  | 49 => ⟨S50000x1, .i32⟩
  | 50 => ⟨S50000x128, .f32⟩
  | 51 => ⟨S50000x128, .bf16⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .bf16⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S1x128, .f32⟩
  | 91 => ⟨S50000x128, .f32⟩
  | 92 => ⟨S50000x128, .bf16⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x128, .bf16⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S128, .f32⟩
  | 126 => ⟨S1x128, .f32⟩
  | 127 => ⟨S128, .f32⟩
  | _ => ⟨S50000, .i32⟩

abbrev hbmTy0_1 (i : Nat) : BufTy := match i % 128 with
  | 0 => ⟨S1x128x128, .f32⟩
  | 1 => ⟨S128x128, .f32⟩
  | 2 => ⟨S1x128, .f32⟩
  | 3 => ⟨S1x128, .f32⟩
  | 4 => ⟨S50000x128, .f32⟩
  | 5 => ⟨S50000x128, .bf16⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .bf16⟩
  | 15 => ⟨S850000x128, .f32⟩
  | 16 => ⟨S_, .f32⟩
  | 17 => ⟨S50000x128, .f32⟩
  | 18 => ⟨S850000x1, .i32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S128, .f32⟩
  | 39 => ⟨S1x128, .f32⟩
  | 40 => ⟨S128, .f32⟩
  | 41 => ⟨S50000x1, .i32⟩
  | 42 => ⟨S1x128, .f32⟩
  | 43 => ⟨S1x128, .f32⟩
  | 44 => ⟨S64x128, .f32⟩
  | 45 => ⟨S1x64, .f32⟩
  | 46 => ⟨S64x1, .f32⟩
  | 47 => ⟨S_, .f32⟩
  | 48 => ⟨S64x1, .f32⟩
  | 49 => ⟨S64x1, .f32⟩
  | 50 => ⟨S64x128, .f32⟩
  | 51 => ⟨S64x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x1, .i32⟩
  | .local _ .vmem, ⟨1, _⟩ => ⟨S5000x1, .i32⟩
  | .local _ .vmem, ⟨2, _⟩ => ⟨S30x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S5000x1, .f32⟩
  | .local _ .vmem, ⟨48, _⟩ => ⟨S5000x1, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x1, .f32⟩
  | .local _ .vmem, ⟨54, _⟩ => ⟨S5000x1, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x1, .i32⟩
  | .local _ .vmem, ⟨63, _⟩ => ⟨S5000x1, .i32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S64x128, .f32⟩
  | .local _ .vmem, ⟨71, _⟩ => ⟨S1x64, .f32⟩
  | .local _ .vmem, ⟨72, _⟩ => ⟨S64x128, .f32⟩
  | .local _ .vmem, ⟨73, _⟩ => ⟨S1x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_4 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_cst_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_12 : Ref sig .tc := ⟨.hbm, 93, rfl⟩
abbrev main_v57 : Ref sig .tc := ⟨.hbm, 94, rfl⟩
abbrev main_v58 : Ref sig .tc := ⟨.hbm, 95, rfl⟩
abbrev main_c_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71_0 : Ref sig .tc := ⟨.hbm, 110, rfl⟩
abbrev main_v71_1 : Ref sig .tc := ⟨.hbm, 111, rfl⟩
abbrev main_v71_2 : Ref sig .tc := ⟨.hbm, 112, rfl⟩
abbrev main_cst_15 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_17 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_18 : Ref sig .tc := ⟨.hbm, 134, rfl⟩
abbrev main_v90 : Ref sig .tc := ⟨.hbm, 135, rfl⟩
abbrev main_v91 : Ref sig .tc := ⟨.hbm, 136, rfl⟩
abbrev main_c_19 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_20 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104_0 : Ref sig .tc := ⟨.hbm, 151, rfl⟩
abbrev main_v104_1 : Ref sig .tc := ⟨.hbm, 152, rfl⟩
abbrev main_v104_2 : Ref sig .tc := ⟨.hbm, 153, rfl⟩
abbrev main_cst_21 : Ref sig .tc := ⟨.hbm, 154, rfl⟩
abbrev main_v105 : Ref sig .tc := ⟨.hbm, 155, rfl⟩
abbrev main_v106 : Ref sig .tc := ⟨.hbm, 156, rfl⟩
abbrev main_cst_22 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_23 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120_0 : Ref sig .tc := ⟨.hbm, 172, rfl⟩
abbrev main_v120_1 : Ref sig .tc := ⟨.hbm, 173, rfl⟩
abbrev main_v121 : Ref sig .tc := ⟨.hbm, 174, rfl⟩
abbrev main_cst_24 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg5_0 : Ref sig .tc := ⟨.vmem, 59, rfl⟩
abbrev cc5_scratch0 : Ref sig .tc := ⟨.vmem, 60, rfl⟩
abbrev cc5_scratch1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg7_0 : Ref sig .tc := ⟨.vmem, 71, rfl⟩
abbrev cc6_scratch0 : Ref sig .tc := ⟨.vmem, 72, rfl⟩
abbrev cc6_scratch1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem5_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc4_sem7_0 : DmaSem sig := 45
abbrev cc4_sem7_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem3_1 : DmaSem sig := 53
abbrev cc5_sem4_0 : DmaSem sig := 54
abbrev cc5_sem5_0 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem7_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_18 : BitVec 32 := 0#32
  let v33 : BitVec 1 := Scalar.cmpi .ne v32 c0_i32_18
  v33

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_18 : BitVec 32 := 0#32
  let v33 : BitVec 1 := Scalar.cmpi .ne v32 c0_i32_18
  v33

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_18 : BitVec 32 := 0#32
  let v33 : BitVec 1 := Scalar.cmpi .ne v32 c0_i32_18
  v33

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_22 : BitVec 32 := 0#32
  let v50 : BitVec 1 := Scalar.cmpi .ne v49 c0_i32_22
  v50

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  bcast_S_S50000 : S_.BroadcastsInDim S50000 (![] : Fin 0 → Fin S50000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000 : S5000x1.ShapeCasts S5000
  iota_S5000x30_d1_w32 : S5000x30.Iotas .tc 32 [1]
  shapeCasts_S5000_S5000x1 : S5000.ShapeCasts S5000x1
  broadcasts_S5000x1_S5000x30 : S5000x1.Broadcasts S5000x30
  natLt_1_32 : 1 < 32
  bitsLt_bf16_f32 : FTy.bits .bf16 < FTy.bits .f32
  inb_S30x128_S30x128_0_0 : ∀ a, (![0, 0] : Fin 2 → Nat) a + S30x128.size a ≤ S30x128.size a
  h_S30x128 : 0 < S30x128.numel
  shapeCasts_S30x128_S30x128 : S30x128.ShapeCasts S30x128
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S5000x64_d1_w32 : S5000x64.Iotas .tc 32 [1]
  broadcasts_S5000x1_S5000x64 : S5000x1.Broadcasts S5000x64
  reduces_S5000x64_S64 : S5000x64.Reduces [0] S64
  shapeCasts_S64_S1x64 : S64.ShapeCasts S1x64
  shapeCasts_S1x64_S64x1 : S1x64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  scatter_S50000_S850000x1_S850000_n_0_0_1_wf : ScatterDims.WF S50000 S850000x1 S850000 [] [0] [0] 1
  dot_S30x128_S128x128_S30x128_1_0_0_1_n_n_wf : DotDims.WF S30x128 S128x128 S30x128 [1] [0] [0] [1] [] []
  dot_S5000x30_S30x128_S5000x128_1_0_0_1_n_n_wf : DotDims.WF S5000x30 S30x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x128.size a ≤ S30x128.size a
  hwx0_1 : ∀ i : grid0.Coords, EltTy.bits .f32 = 32 ∨ (Rect.block (s := S30x128) S30x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S50000x1.size a
  hwx4_6 : ∀ i : grid4.Coords, EltTy.bits .f32 = 32 ∨ (Rect.block (s := S50000x1) S5000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S50000x1.size a
  hwx6_0 : ∀ i : grid6.Coords, EltTy.bits .i32 = 32 ∨ (Rect.block (s := S50000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x128.size a ≤ S64x128.size a
  hwx6_6 : ∀ i : grid6.Coords, EltTy.bits .f32 = 32 ∨ (Rect.block (s := S64x128) S64x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S30x128_S128x128_S30x128_1_0_0_1_n_n : DotDims S30x128 S128x128 S30x128 where
  lhsContracting := [1]
  rhsContracting := [0]
  lhsNonContracting := [0]
  rhsNonContracting := [1]
  lhsBatch := []
  rhsBatch := []
  wf := dot_S30x128_S128x128_S30x128_1_0_0_1_n_n_wf
def dot_S5000x30_S30x128_S5000x128_1_0_0_1_n_n : DotDims S5000x30 S30x128 S5000x128 where
  lhsContracting := [1]
  rhsContracting := [0]
  lhsNonContracting := [0]
  rhsNonContracting := [1]
  lhsBatch := []
  rhsBatch := []
  wf := dot_S5000x30_S30x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_v21) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S30x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v38_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v55) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v71_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v71_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v17) S5000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v88) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v100) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104_0) S5000x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v104_1) S1x128.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104_2) S1x128.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun i => !(k5_cond2 i == 1#1) | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v117) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v104_0) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v118) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v120_0) S64x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v120_1) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun i => !(k6_cond2 i == 1#1) | 7 => fun i => !(k6_cond2 i == 1#1) | ⟨_ + 8, h⟩ => absurd h (Nat.not_lt.2 (Nat.le_add_left _ _))

class Facts : Prop extends Facts₀ where

variable [Facts]
-- ==== ReferenceIdeal.lean ====
abbrev S50000 : Shape := ⟨1, ![50000]⟩
abbrev S2x800000 : Shape := ⟨2, ![2, 800000]⟩
abbrev S30x128 : Shape := ⟨2, ![30, 128]⟩
abbrev S3x128x128 : Shape := ⟨3, ![3, 128, 128]⟩
abbrev S3x128 : Shape := ⟨2, ![3, 128]⟩
abbrev S_ : Shape := ⟨0, ![]⟩
abbrev S50000x1 : Shape := ⟨2, ![50000, 1]⟩
abbrev S50000x128 : Shape := ⟨2, ![50000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S64x1 : Shape := ⟨2, ![64, 1]⟩

abbrev nBuf : Space → Nat
  | .hbm => 298
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S30x128, .f32⟩
  | 4 => ⟨S3x128x128, .f32⟩
  | 5 => ⟨S3x128, .f32⟩
  | 6 => ⟨S3x128, .f32⟩
  | 7 => ⟨S3x128, .f32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S1x128x128, .f32⟩
  | 58 => ⟨S128x128, .f32⟩
  | 59 => ⟨S50000x128, .f32⟩
  | 60 => ⟨S850000x1, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S_, .i32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S50000x128, .f32⟩
  | 97 => ⟨S50000x128, .f32⟩
  | 98 => ⟨S50000x128, .f32⟩
  | 99 => ⟨S_, .f32⟩
  | 100 => ⟨S_, .f32⟩
  | 101 => ⟨S_, .f32⟩
  | 102 => ⟨S_, .f32⟩
  | 103 => ⟨S128, .f32⟩
  | 104 => ⟨S128, .f32⟩
  | 105 => ⟨S128, .f32⟩
  | 106 => ⟨S_, .f32⟩
  | 107 => ⟨S_, .i1⟩
  | 108 => ⟨S_, .f32⟩
  | 109 => ⟨S_, .f32⟩
  | 110 => ⟨S128, .f32⟩
  | 111 => ⟨S128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000, .i32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S850000x1, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x128, .f32⟩
  | 18 => ⟨S850000x128, .f32⟩
  | 19 => ⟨S_, .f32⟩
  | 20 => ⟨S50000x128, .f32⟩
  | 21 => ⟨S850000x1, .i32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S850000x1, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000, .i32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S64x128, .f32⟩
  | 28 => ⟨S50000x1, .i32⟩
  | 29 => ⟨S64x128, .f32⟩
  | 30 => ⟨S_, .f32⟩
  | 31 => ⟨S50000, .f32⟩
  | 32 => ⟨S_, .f32⟩
  | 33 => ⟨S64, .f32⟩
  | 34 => ⟨S50000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x128, .f32⟩
  | 41 => ⟨S64x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_cst_1 : Ref sig .tc := ⟨.hbm, 100, rfl⟩
abbrev main_call2_v8 : Ref sig .tc := ⟨.hbm, 101, rfl⟩
abbrev main_call2_cst_2 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_cst_3 : Ref sig .tc := ⟨.hbm, 106, rfl⟩
abbrev main_call2_v12 : Ref sig .tc := ⟨.hbm, 107, rfl⟩
abbrev main_call2_cst_4 : Ref sig .tc := ⟨.hbm, 108, rfl⟩
abbrev main_call2_call0_v0 : Ref sig .tc := ⟨.hbm, 109, rfl⟩
abbrev main_call2_call0_v1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_15 : Ref sig .tc := ⟨.hbm, 136, rfl⟩
abbrev main_v86 : Ref sig .tc := ⟨.hbm, 137, rfl⟩
abbrev main_v87 : Ref sig .tc := ⟨.hbm, 138, rfl⟩
abbrev main_c_16 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_17 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_call3_cst : Ref sig .tc := ⟨.hbm, 156, rfl⟩
abbrev main_call3_v0 : Ref sig .tc := ⟨.hbm, 157, rfl⟩
abbrev main_v103 : Ref sig .tc := ⟨.hbm, 158, rfl⟩
abbrev main_cst_18 : Ref sig .tc := ⟨.hbm, 159, rfl⟩
abbrev main_v104 : Ref sig .tc := ⟨.hbm, 160, rfl⟩
abbrev main_cst_19 : Ref sig .tc := ⟨.hbm, 161, rfl⟩
abbrev main_v105 : Ref sig .tc := ⟨.hbm, 162, rfl⟩
abbrev main_v106 : Ref sig .tc := ⟨.hbm, 163, rfl⟩
abbrev main_c_20 : Ref sig .tc := ⟨.hbm, 164, rfl⟩
abbrev main_call4_cst : Ref sig .tc := ⟨.hbm, 165, rfl⟩
abbrev main_call4_v0 : Ref sig .tc := ⟨.hbm, 166, rfl⟩
abbrev main_call4_v1 : Ref sig .tc := ⟨.hbm, 167, rfl⟩
abbrev main_call4_cst_0 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_v6 : Ref sig .tc := ⟨.hbm, 173, rfl⟩
abbrev main_call4_v7 : Ref sig .tc := ⟨.hbm, 174, rfl⟩
abbrev main_call4_cst_1 : Ref sig .tc := ⟨.hbm, 175, rfl⟩
abbrev main_call4_v8 : Ref sig .tc := ⟨.hbm, 176, rfl⟩
abbrev main_call4_cst_2 : Ref sig .tc := ⟨.hbm, 177, rfl⟩
abbrev main_call4_v9 : Ref sig .tc := ⟨.hbm, 178, rfl⟩
abbrev main_call4_v10 : Ref sig .tc := ⟨.hbm, 179, rfl⟩
abbrev main_call4_v11 : Ref sig .tc := ⟨.hbm, 180, rfl⟩
abbrev main_call4_cst_3 : Ref sig .tc := ⟨.hbm, 181, rfl⟩
abbrev main_call4_v12 : Ref sig .tc := ⟨.hbm, 182, rfl⟩
abbrev main_call4_cst_4 : Ref sig .tc := ⟨.hbm, 183, rfl⟩
abbrev main_call4_call0_v0 : Ref sig .tc := ⟨.hbm, 184, rfl⟩
abbrev main_call4_call0_v1 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_21 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_c_22 : Ref sig .tc := ⟨.hbm, 211, rfl⟩
abbrev main_v131 : Ref sig .tc := ⟨.hbm, 212, rfl⟩
abbrev main_v132 : Ref sig .tc := ⟨.hbm, 213, rfl⟩
abbrev main_c_23 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_cst_24 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_call5_cst : Ref sig .tc := ⟨.hbm, 231, rfl⟩
abbrev main_call5_v0 : Ref sig .tc := ⟨.hbm, 232, rfl⟩
abbrev main_v148 : Ref sig .tc := ⟨.hbm, 233, rfl⟩
abbrev main_cst_25 : Ref sig .tc := ⟨.hbm, 234, rfl⟩
abbrev main_v149 : Ref sig .tc := ⟨.hbm, 235, rfl⟩
abbrev main_cst_26 : Ref sig .tc := ⟨.hbm, 236, rfl⟩
abbrev main_v150 : Ref sig .tc := ⟨.hbm, 237, rfl⟩
abbrev main_v151 : Ref sig .tc := ⟨.hbm, 238, rfl⟩
abbrev main_c_27 : Ref sig .tc := ⟨.hbm, 239, rfl⟩
abbrev main_call6_cst : Ref sig .tc := ⟨.hbm, 240, rfl⟩
abbrev main_call6_v0 : Ref sig .tc := ⟨.hbm, 241, rfl⟩
abbrev main_call6_v1 : Ref sig .tc := ⟨.hbm, 242, rfl⟩
abbrev main_call6_cst_0 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_v7 : Ref sig .tc := ⟨.hbm, 249, rfl⟩
abbrev main_call6_cst_1 : Ref sig .tc := ⟨.hbm, 250, rfl⟩
abbrev main_call6_v8 : Ref sig .tc := ⟨.hbm, 251, rfl⟩
abbrev main_call6_cst_2 : Ref sig .tc := ⟨.hbm, 252, rfl⟩
abbrev main_call6_v9 : Ref sig .tc := ⟨.hbm, 253, rfl⟩
abbrev main_call6_v10 : Ref sig .tc := ⟨.hbm, 254, rfl⟩
abbrev main_call6_v11 : Ref sig .tc := ⟨.hbm, 255, rfl⟩
abbrev main_call6_cst_3 : Ref sig .tc := ⟨.hbm, 256, rfl⟩
abbrev main_call6_v12 : Ref sig .tc := ⟨.hbm, 257, rfl⟩
abbrev main_call6_cst_4 : Ref sig .tc := ⟨.hbm, 258, rfl⟩
abbrev main_call6_call0_v0 : Ref sig .tc := ⟨.hbm, 259, rfl⟩
abbrev main_call6_call0_v1 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_cst_28 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_cst_29 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_cst_30 : Ref sig .tc := ⟨.hbm, 286, rfl⟩
abbrev main_v175 : Ref sig .tc := ⟨.hbm, 287, rfl⟩
abbrev main_cst_31 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_cst_32 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S30x128_S50000x1_S50000x128_1_0_n_n_0_1_1128_wf : GatherDims.WF S30x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S30x128_S50000x1_S50000x128_1_0_n_n_0_1_1128 : GatherDims S30x128 S50000x1 S50000x128 where
  offsetDims := [1]
  collapsedSliceDims := [0]
  operandBatchingDims := []
  startIndicesBatchingDims := []
  startIndexMap := [0]
  indexVectorDim := 1
  sliceSizes := ![1, 128]
  wf := gather_S30x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KB.Reg0.lean ====
import proofs.«412548_j82308753260928_3_alg».proof.Proof.Gen.Kernel.Launch
import proofs.«412548_j82308753260928_3_alg».proof.Proof.Gen.Kernel.Skeleton
import proofs.«412548_j82308753260928_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rCol0 : Rect S5000x1 := Rect.unit (s := S5000x1) ![0, 0] S5000x1.size inb_S5000x1_S5000x1_0_0
abbrev rTab0 : Rect S30x128 := Rect.unit (s := S30x128) ![0, 0] S30x128.size inb_S30x128_S30x128_0_0
abbrev rOut0 : Rect S5000x128 := Rect.unit (s := S5000x128) ![0, 0] S5000x128.size inb_S5000x128_S5000x128_0_0

def embedOut0 (ids : Vec F S5000x1 .i32) (tab : Vec F S30x128 .f32) (col : Vec F S5000x1 .f32) : Vec F S5000x128 .f32 :=
  View.canon [⟨rOut0, k0_pay1 (View.ld ids rCol0) (View.ld tab rTab0) (View.ld col rCol0)⟩]

theorem embedCover0 (p0 : Vec F S5000x128 .f32) (y : S5000x128.Idx) :
    ∃ pc ∈ ([⟨rOut0, p0⟩] : List (View.Piece (Elt F) S5000x128 .f32)), y ∈ pc.1.set :=
  View.cover_of_tiled [⟨rOut0, p0⟩] S5000x128.size (by rfl) y

set_option maxHeartbeats 1000000 in
theorem sound_embed0 (c : Dev nD) (E : Set ℕ) (i : grid0.Coords)
    (arg1 : Memref sig .tc .vmem S5000x1 .i32) (harg1 : arg1.IsWhole) (arg2 : Memref sig .tc .vmem S30x128 .f32) (harg2 : arg2.IsWhole)
    (arg3 : Memref sig .tc .vmem S5000x1 .f32) (harg3 : arg3.IsWhole) (arg4 : Memref sig .tc .vmem S5000x128 .f32) (harg4 : arg4.IsWhole)
    (ids : Vec F S5000x1 .i32) (tab : Vec F S30x128 .f32) (col : Vec F S5000x1 .f32) (K : PUnit → sProp 𝕄) :
    iprop(owns (c : Thread nD τ) arg1 fullShare ids ∗ owns (c : Thread nD τ) arg2 fullShare tab ∗ owns (c : Thread nD τ) arg3 fullShare col
        ∗ (∃ d, owns (c : Thread nD τ) arg4 fullShare d)
        ∗ (iprop(owns (c : Thread nD τ) arg1 fullShare ids ∗ owns (c : Thread nD τ) arg2 fullShare tab ∗ owns (c : Thread nD τ) arg3 fullShare col
            ∗ owns (c : Thread nD τ) arg4 fullShare (embedOut0 ids tab col)) -∗ K ⟨⟩))
      ⊢ wp frame (wpE (defs₀ (F := F)) Variants.none c none) E (cc0__embed_lin_kernel i arg1 harg1 arg2 harg2 arg3 harg3 arg4 harg4) K := by
  simp only [cc0__embed_lin_kernel_eq_skeleton]; unfold cc0__embed_lin_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (embedCover0 _)

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => embedOut0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = embedOut0 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_embed0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Hand

end
-- ==== Proof.KB.RS.lean ====
import proofs.«412548_j82308753260928_3_alg».proof.Proof.Gen.Kernel.Launch
import proofs.«412548_j82308753260928_3_alg».proof.Proof.Gen.Kernel.Skeleton
import proofs.«412548_j82308753260928_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem zeros_two : (![0, 0] : Fin 2 → ℕ) = fun _ => 0 := by
  funext a
  match a with
  | ⟨0, _⟩ => rfl
  | ⟨1, _⟩ => rfl
theorem read_store_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e
theorem load_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) :
    (v.readAt Val (Rect.unit off S.size inb).toLoadRect f : S.Idx → Val e) = v.read Val f := by
  subst h; funext x
  show v.read Val f ((Rect.whole S).emb x) = v.read Val f x
  rw [Rect.emb_whole_apply]
abbrev condF (i : grid1.Coords) : Prop := (Scalar.cmpi .ne (Scalar.extui (Scalar.cmpi .eq (BitVec.ofNat 32 (i 0).val) 0#32)) 0#32) = 1#1
theorem hcondF : ∀ t : Fin cfg1.N, condF (grid1.coords t) ↔ t.val = 0 :=
  (by decide +kernel : ∀ t : Fin grid1.N, condF (grid1.coords t) ↔ t.val = 0)
abbrev condL (i : grid1.Coords) : Prop := k1_cond2 i = 1#1
theorem hcondL : ∀ t : Fin cfg1.N, condL (grid1.coords t) ↔ t.val = 9 :=
  (by decide +kernel : ∀ t : Fin grid1.N, condL (grid1.coords t) ↔ t.val = 9)
local macro "store_reads" : tactic =>
  `(tactic| (sl_unfold_run_names; simp only [read_store_whole (S := S5000x128) _ _ zeros_two, read_store_whole (S := S1x128) _ _ zeros_two,
                load_whole (S := S5000x128) _ _ zeros_two, load_whole (S := S5000x1) _ _ zeros_two, load_whole (S := S1x128) _ _ zeros_two,
                Memref.IsWhole.read_unread, View.readCov_cons_toLoadRect]))
-- Middle grid point: the running sums grow by this block's column sums.
set_option maxHeartbeats 1000000 in
theorem pointB (c : Dev nD) (i : grid1.Coords)
    (m0 : Memref sig .tc .vmem S5000x128 .f32) (h0 : m0.IsWhole) (m1 : Memref sig .tc .vmem S5000x1 .f32) (h1 : m1.IsWhole)
    (m2 : Memref sig .tc .vmem S1x128 .f32) (h2 : m2.IsWhole) (m3 : Memref sig .tc .vmem S5000x128 .f32) (h3 : m3.IsWhole)
    (m4 : Memref sig .tc .vmem S1x128 .f32) (h4 : m4.IsWhole) (m5 : Memref sig .tc .vmem S1x128 .f32) (h5 : m5.IsWhole)
    (s0 : Memref sig .tc .vmem S1x128 .f32) (hs0 : s0.IsWhole) (s1 : Memref sig .tc .vmem S1x128 .f32) (hs1 : s1.IsWhole)
    (hc0 : ¬condF i) (hc1 : ¬condL i)
    (x0 : Vec F S5000x128 .f32) (x1 : Vec F S5000x1 .f32) (x2 : Vec F S1x128 .f32) (xs0 xs1 : Vec F S1x128 .f32)
    {β0 β1 β2 α3 α4 α5 : Type} (g3 : α3 → Vec F S5000x128 .f32) (g4 : α4 → Vec F S1x128 .f32) (g5 : α5 → Vec F S1x128 .f32)
    (Rr G O : sProp 𝕄) :
    iprop(iprop(iprop(iprop(owns (c : Thread nD τ) s0 fullShare xs0 ∗ owns (c : Thread nD τ) s1 fullShare xs1) ∗ Rr) ∗ G) ∗ O
        ∗ (∃ _d : β0, owns (c : Thread nD τ) m0 fullShare x0) ∗ (∃ _d : β1, owns (c : Thread nD τ) m1 fullShare x1) ∗ (∃ _d : β2, owns (c : Thread nD τ) m2 fullShare x2)
        ∗ (∃ d, owns (c : Thread nD τ) m3 fullShare (g3 d)) ∗ (∃ d, owns (c : Thread nD τ) m4 fullShare (g4 d)) ∗ (∃ d, owns (c : Thread nD τ) m5 fullShare (g5 d)))
      ⊢ wp frame (wpE (defs₀ (F := F)) Variants.none c none) Set.univ (cc1__relu_stats_kernel i m0 h0 m1 h1 m2 h2 m3 h3 m4 h4 m5 h5 s0 hs0 s1 hs1)
        (fun _ => iprop(iprop(iprop(iprop(owns (c : Thread nD τ) s0 fullShare (k1_pay4 x1 x0 x2 xs0) ∗ owns (c : Thread nD τ) s1 fullShare (k1_pay5 x1 x0 x2 xs1)) ∗ Rr) ∗ G) ∗ O
          ∗ owns (c : Thread nD τ) m0 fullShare x0 ∗ owns (c : Thread nD τ) m1 fullShare x1 ∗ owns (c : Thread nD τ) m2 fullShare x2 ∗ owns (c : Thread nD τ) m3 fullShare (k1_pay3 x1 x0 x2)
          ∗ (∃ d, owns (c : Thread nD τ) m4 fullShare (g4 d)) ∗ (∃ d, owns (c : Thread nD τ) m5 fullShare (g5 d)))) := by
  simp only [cc1__relu_stats_kernel_eq_skeleton]; unfold cc1__relu_stats_kernel_skel
  unfold owns
  iintro ⟨⟨⟨⟨⟨%fs0, %hfs0, HS0⟩, ⟨%fs1, %hfs1, HS1⟩⟩, HR⟩, Hg⟩, Ho, ⟨%_, %f0, %hf0, H0⟩, ⟨%_, %f1, %hf1, H1⟩, ⟨%_, %f2, %hf2, H2⟩, ⟨%d3, %f3, -, H3⟩, ⟨%d4, %f4, %hf4, H4⟩, ⟨%d5, %f5, %hf5, H5⟩⟩
  obtain rfl := h0.eq_unread hf0; obtain rfl := h1.eq_unread hf1; obtain rfl := h2.eq_unread hf2
  obtain rfl := h4.eq_unread hf4; obtain rfl := h5.eq_unread hf5
  obtain rfl := hs0.eq_unread hfs0; obtain rfl := hs1.eq_unread hfs1
  sl_exec (disch := first | exact hc0 | exact hc1)
  sl_step
  isplitl [HS0 HS1 HR Hg]
  · isplitl [HS0 HS1 HR]
    · isplitl [HS0 HS1]
      · isplitl [HS0]
        · iexists _; isplitr; swap; · iexact HS0
          ipureintro; store_reads
        · iexists _; isplitr; swap; · iexact HS1
          ipureintro; store_reads
      · iexact HR
    · iexact Hg
  isplitl [Ho]; · iexact Ho
  isplitl [H0]
  · iexists _; isplitr; swap; · iexact H0
    ipureintro; store_reads
  isplitl [H1]
  · iexists _; isplitr; swap; · iexact H1
    ipureintro; store_reads
  isplitl [H2]
  · iexists _; isplitr; swap; · iexact H2
    ipureintro; store_reads
  isplitl [H3]
  · iexists _; isplitr; swap; · iexact H3
    ipureintro; store_reads
  isplitl [H4]
  · iexists d4; iexists _; isplitr; swap; · iexact H4
    ipureintro; store_reads
  iexists d5; iexists _; isplitr; swap; · iexact H5
  ipureintro; store_reads
-- First grid point: both running sums restart from zero and take this block's column sums of the rectified values and of their squares.
set_option maxHeartbeats 1000000 in
theorem pointA (c : Dev nD) (i : grid1.Coords)
    (m0 : Memref sig .tc .vmem S5000x128 .f32) (h0 : m0.IsWhole) (m1 : Memref sig .tc .vmem S5000x1 .f32) (h1 : m1.IsWhole)
    (m2 : Memref sig .tc .vmem S1x128 .f32) (h2 : m2.IsWhole) (m3 : Memref sig .tc .vmem S5000x128 .f32) (h3 : m3.IsWhole)
    (m4 : Memref sig .tc .vmem S1x128 .f32) (h4 : m4.IsWhole) (m5 : Memref sig .tc .vmem S1x128 .f32) (h5 : m5.IsWhole)
    (s0 : Memref sig .tc .vmem S1x128 .f32) (hs0 : s0.IsWhole) (s1 : Memref sig .tc .vmem S1x128 .f32) (hs1 : s1.IsWhole)
    (hc0 : condF i) (hc1 : ¬condL i)
    (x0 : Vec F S5000x128 .f32) (x1 : Vec F S5000x1 .f32) (x2 : Vec F S1x128 .f32)
    {β0 β1 β2 α3 α4 α5 : Type} (g3 : α3 → Vec F S5000x128 .f32) (g4 : α4 → Vec F S1x128 .f32) (g5 : α5 → Vec F S1x128 .f32)
    (Rr G O : sProp 𝕄) :
    iprop(iprop(iprop(iprop((∃ d, owns (c : Thread nD τ) s0 fullShare d) ∗ (∃ d, owns (c : Thread nD τ) s1 fullShare d)) ∗ Rr) ∗ G) ∗ O
        ∗ (∃ _d : β0, owns (c : Thread nD τ) m0 fullShare x0) ∗ (∃ _d : β1, owns (c : Thread nD τ) m1 fullShare x1) ∗ (∃ _d : β2, owns (c : Thread nD τ) m2 fullShare x2)
        ∗ (∃ d, owns (c : Thread nD τ) m3 fullShare (g3 d)) ∗ (∃ d, owns (c : Thread nD τ) m4 fullShare (g4 d)) ∗ (∃ d, owns (c : Thread nD τ) m5 fullShare (g5 d)))
      ⊢ wp frame (wpE (defs₀ (F := F)) Variants.none c none) Set.univ (cc1__relu_stats_kernel i m0 h0 m1 h1 m2 h2 m3 h3 m4 h4 m5 h5 s0 hs0 s1 hs1)
        (fun _ => iprop(iprop(iprop(iprop(owns (c : Thread nD τ) s0 fullShare (k1_pay4 x1 x0 x2 (k1_pay1 (F := F))) ∗ owns (c : Thread nD τ) s1 fullShare (k1_pay5 x1 x0 x2 (k1_pay2 (F := F)))) ∗ Rr) ∗ G) ∗ O
          ∗ owns (c : Thread nD τ) m0 fullShare x0 ∗ owns (c : Thread nD τ) m1 fullShare x1 ∗ owns (c : Thread nD τ) m2 fullShare x2 ∗ owns (c : Thread nD τ) m3 fullShare (k1_pay3 x1 x0 x2)
          ∗ (∃ d, owns (c : Thread nD τ) m4 fullShare (g4 d)) ∗ (∃ d, owns (c : Thread nD τ) m5 fullShare (g5 d)))) := by
  simp only [cc1__relu_stats_kernel_eq_skeleton]; unfold cc1__relu_stats_kernel_skel
  unfold owns
  iintro ⟨⟨⟨⟨⟨%ds0, %fs0, -, HS0⟩, ⟨%ds1, %fs1, -, HS1⟩⟩, HR⟩, Hg⟩, Ho, ⟨%_, %f0, %hf0, H0⟩, ⟨%_, %f1, %hf1, H1⟩, ⟨%_, %f2, %hf2, H2⟩, ⟨%d3, %f3, -, H3⟩, ⟨%d4, %f4, %hf4, H4⟩, ⟨%d5, %f5, %hf5, H5⟩⟩
  obtain rfl := h0.eq_unread hf0; obtain rfl := h1.eq_unread hf1; obtain rfl := h2.eq_unread hf2
  obtain rfl := h4.eq_unread hf4; obtain rfl := h5.eq_unread hf5
  sl_exec (disch := first | exact hc0 | exact hc1)
  sl_step
  isplitl [HS0 HS1 HR Hg]
  · isplitl [HS0 HS1 HR]
    · isplitl [HS0 HS1]
      · isplitl [HS0]
        · iexists _; isplitr; swap; · iexact HS0
          ipureintro; store_reads
        · iexists _; isplitr; swap; · iexact HS1
          ipureintro; store_reads
      · iexact HR
    · iexact Hg
  isplitl [Ho]; · iexact Ho
  isplitl [H0]
  · iexists _; isplitr; swap; · iexact H0
    ipureintro; store_reads
  isplitl [H1]
  · iexists _; isplitr; swap; · iexact H1
    ipureintro; store_reads
  isplitl [H2]
  · iexists _; isplitr; swap; · iexact H2
    ipureintro; store_reads
  isplitl [H3]
  · iexists _; isplitr; swap; · iexact H3
    ipureintro; store_reads
  isplitl [H4]
  · iexists d4; iexists _; isplitr; swap; · iexact H4
    ipureintro; store_reads
  iexists d5; iexists _; isplitr; swap; · iexact H5
  ipureintro; store_reads
-- Last grid point: the running sums are also the two statistics results.
set_option maxHeartbeats 1000000 in
theorem pointC (c : Dev nD) (i : grid1.Coords)
    (m0 : Memref sig .tc .vmem S5000x128 .f32) (h0 : m0.IsWhole) (m1 : Memref sig .tc .vmem S5000x1 .f32) (h1 : m1.IsWhole)
    (m2 : Memref sig .tc .vmem S1x128 .f32) (h2 : m2.IsWhole) (m3 : Memref sig .tc .vmem S5000x128 .f32) (h3 : m3.IsWhole)
    (m4 : Memref sig .tc .vmem S1x128 .f32) (h4 : m4.IsWhole) (m5 : Memref sig .tc .vmem S1x128 .f32) (h5 : m5.IsWhole)
    (s0 : Memref sig .tc .vmem S1x128 .f32) (hs0 : s0.IsWhole) (s1 : Memref sig .tc .vmem S1x128 .f32) (hs1 : s1.IsWhole)
    (hc0 : ¬condF i) (hc1 : condL i)
    (x0 : Vec F S5000x128 .f32) (x1 : Vec F S5000x1 .f32) (x2 : Vec F S1x128 .f32) (xs0 xs1 : Vec F S1x128 .f32)
    {β0 β1 β2 α3 α4 α5 : Type} (g3 : α3 → Vec F S5000x128 .f32) (g4 : α4 → Vec F S1x128 .f32) (g5 : α5 → Vec F S1x128 .f32)
    (Rr G O : sProp 𝕄) :
    iprop(iprop(iprop(iprop(owns (c : Thread nD τ) s0 fullShare xs0 ∗ owns (c : Thread nD τ) s1 fullShare xs1) ∗ Rr) ∗ G) ∗ O
        ∗ (∃ _d : β0, owns (c : Thread nD τ) m0 fullShare x0) ∗ (∃ _d : β1, owns (c : Thread nD τ) m1 fullShare x1) ∗ (∃ _d : β2, owns (c : Thread nD τ) m2 fullShare x2)
        ∗ (∃ d, owns (c : Thread nD τ) m3 fullShare (g3 d)) ∗ (∃ d, owns (c : Thread nD τ) m4 fullShare (g4 d)) ∗ (∃ d, owns (c : Thread nD τ) m5 fullShare (g5 d)))
      ⊢ wp frame (wpE (defs₀ (F := F)) Variants.none c none) Set.univ (cc1__relu_stats_kernel i m0 h0 m1 h1 m2 h2 m3 h3 m4 h4 m5 h5 s0 hs0 s1 hs1)
        (fun _ => iprop(iprop(iprop(iprop(owns (c : Thread nD τ) s0 fullShare (k1_pay4 x1 x0 x2 xs0) ∗ owns (c : Thread nD τ) s1 fullShare (k1_pay5 x1 x0 x2 xs1)) ∗ Rr) ∗ G) ∗ O
          ∗ owns (c : Thread nD τ) m0 fullShare x0 ∗ owns (c : Thread nD τ) m1 fullShare x1 ∗ owns (c : Thread nD τ) m2 fullShare x2 ∗ owns (c : Thread nD τ) m3 fullShare (k1_pay3 x1 x0 x2)
          ∗ owns (c : Thread nD τ) m4 fullShare (k1_pay4 x1 x0 x2 xs0) ∗ owns (c : Thread nD τ) m5 fullShare (k1_pay5 x1 x0 x2 xs1))) := by
  simp only [cc1__relu_stats_kernel_eq_skeleton]; unfold cc1__relu_stats_kernel_skel
  unfold owns
  iintro ⟨⟨⟨⟨⟨%fs0, %hfs0, HS0⟩, ⟨%fs1, %hfs1, HS1⟩⟩, HR⟩, Hg⟩, Ho, ⟨%_, %f0, %hf0, H0⟩, ⟨%_, %f1, %hf1, H1⟩, ⟨%_, %f2, %hf2, H2⟩, ⟨%d3, %f3, -, H3⟩, ⟨%d4, %f4, -, H4⟩, ⟨%d5, %f5, -, H5⟩⟩
  obtain rfl := h0.eq_unread hf0; obtain rfl := h1.eq_unread hf1; obtain rfl := h2.eq_unread hf2
  obtain rfl := hs0.eq_unread hfs0; obtain rfl := hs1.eq_unread hfs1
  sl_exec (disch := first | exact hc0 | exact hc1)
  sl_step
  isplitl [HS0 HS1 HR Hg]
  · isplitl [HS0 HS1 HR]
    · isplitl [HS0 HS1]
      · isplitl [HS0]
        · iexists _; isplitr; swap; · iexact HS0
          ipureintro; store_reads
        · iexists _; isplitr; swap; · iexact HS1
          ipureintro; store_reads
      · iexact HR
    · iexact Hg
  isplitl [Ho]; · iexact Ho
  isplitl [H0]
  · iexists _; isplitr; swap; · iexact H0
    ipureintro; store_reads
  isplitl [H1]
  · iexists _; isplitr; swap; · iexact H1
    ipureintro; store_reads
  isplitl [H2]
  · iexists _; isplitr; swap; · iexact H2
    ipureintro; store_reads
  isplitl [H3]
  · iexists _; isplitr; swap; · iexact H3
    ipureintro; store_reads
  isplitl [H4]
  · iexists _; isplitr; swap; · iexact H4
    ipureintro; store_reads
  iexists _; isplitr; swap; · iexact H5
  ipureintro; store_reads
end Cert.Kernel.Hand
end
-- ==== Proof.KB.Reg1.lean ====
import proofs.«412548_j82308753260928_3_alg».proof.Proof.KB.RS
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem idleAt1_4 : ∀ t : Fin cfg1.N, t.val ≠ 9 → cfg1.idle 4 (grid1.coords t) = true := by decide +kernel
theorem idleAt1_5 : ∀ t : Fin cfg1.N, t.val ≠ 9 → cfg1.idle 5 (grid1.coords t) = true := by decide +kernel
theorem noFlush1_4 : ∀ t : Fin cfg1.N, t.val ≠ 9 → (cfg1.win 4).flush t = false := by decide +kernel
theorem noFlush1_5 : ∀ t : Fin cfg1.N, t.val ≠ 9 → (cfg1.win 5).flush t = false := by decide +kernel
theorem liveAt1_4 : ∀ t : Fin cfg1.N, t.val = 9 → cfg1.idle 4 (grid1.coords t) = false := by decide +kernel
theorem liveAt1_5 : ∀ t : Fin cfg1.N, t.val = 9 → cfg1.idle 5 (grid1.coords t) = false := by decide +kernel
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev scM1_0 : Memref sig .tc .vmem S1x128 .f32 := Memref.whole cc1_scratch0
abbrev scM1_1 : Memref sig .tc .vmem S1x128 .f32 := Memref.whole cc1_scratch1
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def relu1 (c : Dev nD) (t : Fin cfg1.N) : Vec F S5000x128 .f32 :=
  k1_pay3 (iblk1 V c 1 t) (iblk1 V c 0 t) (iblk1 V c 2 t)
-- Running column sums of the rectified values (and of their squares) over blocks 0 … n.
def csum1 (c : Dev nD) : (n : ℕ) → n < cfg1.N → Vec F S1x128 .f32
  | 0, hn => k1_pay4 (iblk1 V c 1 ⟨0, hn⟩) (iblk1 V c 0 ⟨0, hn⟩) (iblk1 V c 2 ⟨0, hn⟩) (k1_pay1 (F := F))
  | n + 1, hn => k1_pay4 (iblk1 V c 1 ⟨n + 1, hn⟩) (iblk1 V c 0 ⟨n + 1, hn⟩) (iblk1 V c 2 ⟨n + 1, hn⟩) (csum1 c n (Nat.lt_of_succ_lt hn))
def csq1 (c : Dev nD) : (n : ℕ) → n < cfg1.N → Vec F S1x128 .f32
  | 0, hn => k1_pay5 (iblk1 V c 1 ⟨0, hn⟩) (iblk1 V c 0 ⟨0, hn⟩) (iblk1 V c 2 ⟨0, hn⟩) (k1_pay2 (F := F))
  | n + 1, hn => k1_pay5 (iblk1 V c 1 ⟨n + 1, hn⟩) (iblk1 V c 0 ⟨n + 1, hn⟩) (iblk1 V c 2 ⟨n + 1, hn⟩) (csq1 c n (Nat.lt_of_succ_lt hn))
theorem csum1_first (c : Dev nD) (t : Fin cfg1.N) (h : t.val = 0) :
    csum1 V c t.val t.isLt = k1_pay4 (iblk1 V c 1 t) (iblk1 V c 0 t) (iblk1 V c 2 t) (k1_pay1 (F := F)) := by
  obtain ⟨n, hn⟩ := t
  cases n with
  | zero => rfl
  | succ n => exact absurd h (Nat.succ_ne_zero n)
theorem csq1_first (c : Dev nD) (t : Fin cfg1.N) (h : t.val = 0) :
    csq1 V c t.val t.isLt = k1_pay5 (iblk1 V c 1 t) (iblk1 V c 0 t) (iblk1 V c 2 t) (k1_pay2 (F := F)) := by
  obtain ⟨n, hn⟩ := t
  cases n with
  | zero => rfl
  | succ n => exact absurd h (Nat.succ_ne_zero n)
theorem csum1_next (c : Dev nD) (t : Fin cfg1.N) (h : t.val ≠ 0) :
    csum1 V c t.val t.isLt = k1_pay4 (iblk1 V c 1 t) (iblk1 V c 0 t) (iblk1 V c 2 t)
      (csum1 V c (t.val - 1) (Nat.lt_of_le_of_lt (Nat.sub_le _ _) t.isLt)) := by
  obtain ⟨n, hn⟩ := t
  cases n with
  | zero => exact absurd rfl h
  | succ n => rfl
theorem csq1_next (c : Dev nD) (t : Fin cfg1.N) (h : t.val ≠ 0) :
    csq1 V c t.val t.isLt = k1_pay5 (iblk1 V c 1 t) (iblk1 V c 0 t) (iblk1 V c 2 t)
      (csq1 V c (t.val - 1) (Nat.lt_of_le_of_lt (Nat.sub_le _ _) t.isLt)) := by
  obtain ⟨n, hn⟩ := t
  cases n with
  | zero => exact absurd rfl h
  | succ n => rfl
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl
def PhiS1 (c : Dev nD) : (n : ℕ) → n ≤ cfg1.N → sProp 𝕄
  | 0, _ => Pipeline.ΦA spec1 c
  | n + 1, hn => iprop(iprop(iprop(owns (c : Thread nD τ) scM1_0 fullShare (csum1 V c n hn) ∗ owns (c : Thread nD τ) scM1_1 fullShare (csq1 V c n hn))
      ∗ Pipeline.scopedRestBut (Ix := Unit) (Name := ℕ) (U := UR sig nD τ) (Lvl := ℕ) (Val := Elt F) spec1 c [cc1_scratch0, cc1_scratch1])
      ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (csum1 V c n hn) ∗ owns (c : Thread nD τ) scM1_1 fullShare (csq1 V c n hn))
      ∗ Pipeline.scopedRestBut (Ix := Unit) (Name := ℕ) (U := UR sig nD τ) (Lvl := ℕ) (Val := Elt F) spec1 c [cc1_scratch0, cc1_scratch1])
      ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (csum1 V c (n - 1) (by omega)) ∗ owns (c : Thread nD τ) scM1_1 fullShare (csq1 V c (n - 1) (by omega)))
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => relu1 V c t
    | ⟨4, _⟩ => csum1 V c t.val t.isLt
    | ⟨5, _⟩ => csq1 V c t.val t.isLt
  Φ t := PhiS1 V c t.val (Nat.le_of_lt_succ t.isLt)
  q _ := fullShare
  owed _ := 0
theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = relu1 V c t := by dsimp only [dat1]
theorem after1_4 (c : Dev nD) (t : Fin cfg1.N) : (dat1 V c).after 4 t = csum1 V c t.val t.isLt := by dsimp only [dat1]
theorem after1_5 (c : Dev nD) (t : Fin cfg1.N) : (dat1 V c).after 5 t = csq1 V c t.val t.isLt := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
-- Regions 1, 3 and 5 run one kernel function: the printed functions are the same term.
private theorem bodyAt_eq (t : Fin cfg1.N) : bodyAt1 (F := F) t = cc1__relu_stats_kernel (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) := rfl
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1; rw [bodyAt_eq]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [show cfg1.idle 0 (grid1.coords t) = false from rfl], after1_0]
  rw [show (dat1 V c).leavesExact 1 t = owns (c : Thread nD τ) (ms1_1 t) fullShare ((dat1 V c).after 1 t) from by
    unfold Dat.leavesExact; rw [show cfg1.idle 1 (grid1.coords t) = false from rfl], after1_1]
  rw [show (dat1 V c).leavesExact 2 t = owns (c : Thread nD τ) (ms1_2 t) fullShare ((dat1 V c).after 2 t) from by
    unfold Dat.leavesExact; rw [show cfg1.idle 2 (grid1.coords t) = false from rfl], after1_2]
  rw [show (dat1 V c).leavesExact 3 t = owns (c : Thread nD τ) (ms1_3 t) fullShare ((dat1 V c).after 3 t) from by
    unfold Dat.leavesExact; rw [show cfg1.idle 3 (grid1.coords t) = false from rfl], after1_3]
  unfold relu1
  by_cases h0 : t.val = 0
  · have h9 : t.val ≠ 9 := by omega
    rw [Dat.leavesExact_idle (dat1 V c) 4 t (idleAt1_4 t h9) (noFlush1_4 t h9), Dat.leavesExact_idle (dat1 V c) 5 t (idleAt1_5 t h9) (noFlush1_5 t h9),
      csum1_first V c t h0, csq1_first V c t h0, PhiS1_castSucc V c t, PhiS1_zero V c _ _ h0, PhiA1_eq]
    exact pointA c _ _ _ _ _ _ _ _ _ _ _ _ _ _ _ _ _ ((hcondF t).mpr h0) (fun h => h9 ((hcondL t).mp h)) _ _ _ _ _ _ _ _ _
  · rw [csum1_next V c t h0, csq1_next V c t h0, PhiS1_castSucc V c t, PhiS1_pos V c _ _ h0]
    by_cases h9 : t.val = 9
    · rw [show (dat1 V c).leavesExact 4 t = owns (c : Thread nD τ) (ms1_4 t) fullShare ((dat1 V c).after 4 t) from by
        unfold Dat.leavesExact; rw [liveAt1_4 t h9], after1_4,
        show (dat1 V c).leavesExact 5 t = owns (c : Thread nD τ) (ms1_5 t) fullShare ((dat1 V c).after 5 t) from by
        unfold Dat.leavesExact; rw [liveAt1_5 t h9], after1_5, csum1_next V c t h0, csq1_next V c t h0]
      exact pointC c _ _ _ _ _ _ _ _ _ _ _ _ _ _ _ _ _ (fun h => h0 ((hcondF t).mp h)) ((hcondL t).mpr h9) _ _ _ _ _ _ _ _ _ _ _
    · rw [Dat.leavesExact_idle (dat1 V c) 4 t (idleAt1_4 t h9) (noFlush1_4 t h9), Dat.leavesExact_idle (dat1 V c) 5 t (idleAt1_5 t h9) (noFlush1_5 t h9)]
      exact pointB c _ _ _ _ _ _ _ _ _ _ _ _ _ _ _ _ _ (fun h => h0 ((hcondF t).mp h)) (fun h => h9 ((hcondL t).mp h)) _ _ _ _ _ _ _ _ _ _ _
theorem body_obligation1 (c : Dev nD) : BodyObligation (dat1 (F := F) V c) (defs₀ (F := F)) Variants.none () Set.univ := fun t => by
  rw [bigSep_W1, bigSep_W1]
  exact sound_body1 V c t
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg
end Cert.Kernel.Hand
end
-- ==== Proof.KB.LB.lean ====
import proofs.«412548_j82308753260928_3_alg».proof.Proof.Gen.Kernel.Launch
import proofs.«412548_j82308753260928_3_alg».proof.Proof.Gen.Kernel.Skeleton
import proofs.«412548_j82308753260928_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev lb_blk : Rect S5000x128 := Rect.unit (s := S5000x128) ![0, 0] S5000x128.size inb_S5000x128_S5000x128_0_0
abbrev lb_row : Rect S1x128 := Rect.unit (s := S1x128) ![0, 0] S1x128.size inb_S1x128_S1x128_0_0
abbrev lb_mat : Rect S128x128 := Rect.unit (s := S128x128) ![0, 0] S128x128.size inb_S128x128_S128x128_0_0
abbrev lb_col : Rect S5000x1 := Rect.unit (s := S5000x1) ![0, 0] S5000x1.size inb_S5000x1_S5000x1_0_0
-- The output block as one function of the seven input blocks.
def lb_out (x0 : Vec F S5000x128 .f32) (x1 x2 x3 x4 : Vec F S1x128 .f32) (x5 : Vec F S128x128 .f32) (x6 : Vec F S5000x1 .f32) : Vec F S5000x128 .f32 :=
  View.canon [⟨lb_blk, k2_pay1 (View.ld x0 lb_blk) (View.ld x1 lb_row) (View.ld x2 lb_row) (View.ld x3 lb_row) (View.ld x4 lb_row) (View.ld x5 lb_mat) (View.ld x6 lb_col)⟩]
theorem lb_cover (p0 : Vec F S5000x128 .f32) (y : S5000x128.Idx) :
    ∃ pc ∈ ([⟨lb_blk, p0⟩] : List (View.Piece (Elt F) S5000x128 .f32)), y ∈ pc.1.set :=
  View.cover_of_tiled [⟨lb_blk, p0⟩] S5000x128.size (by rfl) y
set_option maxHeartbeats 1000000 in
theorem lb_point (c : Dev nD) (i : grid2.Coords)
    (m0 : Memref sig .tc .vmem S5000x128 .f32) (h0 : m0.IsWhole) (m1 : Memref sig .tc .vmem S1x128 .f32) (h1 : m1.IsWhole) (m2 : Memref sig .tc .vmem S1x128 .f32) (h2 : m2.IsWhole) (m3 : Memref sig .tc .vmem S1x128 .f32) (h3 : m3.IsWhole)
    (m4 : Memref sig .tc .vmem S1x128 .f32) (h4 : m4.IsWhole) (m5 : Memref sig .tc .vmem S128x128 .f32) (h5 : m5.IsWhole) (m6 : Memref sig .tc .vmem S5000x1 .f32) (h6 : m6.IsWhole) (m7 : Memref sig .tc .vmem S5000x128 .f32) (h7 : m7.IsWhole)
    (x0 : Vec F S5000x128 .f32) (x1 x2 x3 x4 : Vec F S1x128 .f32) (x5 : Vec F S128x128 .f32) (x6 : Vec F S5000x1 .f32)
    {β0 β1 β2 β3 β4 β5 β6 α7 : Type} (g7 : α7 → Vec F S5000x128 .f32) (Φ O : sProp 𝕄) :
    iprop(Φ ∗ O ∗ (∃ _d : β0, owns (c : Thread nD τ) m0 fullShare x0) ∗ (∃ _d : β1, owns (c : Thread nD τ) m1 fullShare x1) ∗ (∃ _d : β2, owns (c : Thread nD τ) m2 fullShare x2) ∗ (∃ _d : β3, owns (c : Thread nD τ) m3 fullShare x3) ∗ (∃ _d : β4, owns (c : Thread nD τ) m4 fullShare x4) ∗ (∃ _d : β5, owns (c : Thread nD τ) m5 fullShare x5) ∗ (∃ _d : β6, owns (c : Thread nD τ) m6 fullShare x6) ∗ (∃ d, owns (c : Thread nD τ) m7 fullShare (g7 d)))
      ⊢ wp frame (wpE (defs₀ (F := F)) Variants.none c none) Set.univ (cc2__lin_bn_kernel i m0 h0 m1 h1 m2 h2 m3 h3 m4 h4 m5 h5 m6 h6 m7 h7)
        (fun _ => iprop(Φ ∗ O ∗ owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare (lb_out x0 x1 x2 x3 x4 x5 x6))) := by
  simp only [cc2__lin_bn_kernel_eq_skeleton]; unfold cc2__lin_bn_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%d7, %f7, -, H7⟩⟩
  subst hf0 hf1 hf2 hf3 hf4 hf5 hf6
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (lb_cover _)
end Cert.Kernel.Hand
end
-- ==== Proof.KB.Reg2.lean ====
import proofs.«412548_j82308753260928_3_alg».proof.Proof.KB.LB
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t := by
  have hkeep : ∀ t, (cfg2.win 5).cut (cfg2.grid.coords t) (dat.after 5 t) = dat.blockOf 5 t := fun t => by
    rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t := by
  have hkeep : ∀ t, (cfg2.win 6).cut (cfg2.grid.coords t) (dat.after 6 t) = dat.blockOf 6 t := fun t => by
    rw [hafter]; unfold Dat.blockOf iblk2; rw [hA]; try rfl
  rw [dat.before_in_eq_fetched 6 rfl (fun _ => rfl) (fun _ _ _ => rfl) hkeep t d]
  unfold Dat.fetched Dat.blockOf iblk2; rw [hA]; try rfl
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => lb_out (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = lb_out (iblk2 V c 0 t) (iblk2 V c 1 t) (iblk2 V c 2 t) (iblk2 V c 3 t) (iblk2 V c 4 t) (iblk2 V c 5 t) (iblk2 V c 6 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
-- Regions 2 and 4 run one kernel function: the printed functions are the same term.
private theorem bodyAt_eq (t : Fin cfg2.N) : bodyAt2 (F := F) t = cc2__lin_bn_kernel (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) := rfl
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2; rw [bodyAt_eq]
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  exact lb_point c _ _ _ _ _ _ _ _ _ _ _ _ _ _ _ _ _ _ _ _ _ _ _ _ _ _ _
theorem body_obligation2 (c : Dev nD) : BodyObligation (dat2 (F := F) V c) (defs₀ (F := F)) Variants.none () Set.univ := fun t => by
  rw [bigSep_W2, bigSep_W2]
  exact sound_body2 V c t
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl
end Cert.Kernel.Hand
end
-- ==== Proof.KB.Reg3.lean ====
import proofs.«412548_j82308753260928_3_alg».proof.Proof.KB.RS
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem idleAt3_4 : ∀ t : Fin cfg3.N, t.val ≠ 9 → cfg3.idle 4 (grid3.coords t) = true := by decide +kernel
theorem idleAt3_5 : ∀ t : Fin cfg3.N, t.val ≠ 9 → cfg3.idle 5 (grid3.coords t) = true := by decide +kernel
theorem noFlush3_4 : ∀ t : Fin cfg3.N, t.val ≠ 9 → (cfg3.win 4).flush t = false := by decide +kernel
theorem noFlush3_5 : ∀ t : Fin cfg3.N, t.val ≠ 9 → (cfg3.win 5).flush t = false := by decide +kernel
theorem liveAt3_4 : ∀ t : Fin cfg3.N, t.val = 9 → cfg3.idle 4 (grid3.coords t) = false := by decide +kernel
theorem liveAt3_5 : ∀ t : Fin cfg3.N, t.val = 9 → cfg3.idle 5 (grid3.coords t) = false := by decide +kernel
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev scM3_0 : Memref sig .tc .vmem S1x128 .f32 := Memref.whole cc3_scratch0
abbrev scM3_1 : Memref sig .tc .vmem S1x128 .f32 := Memref.whole cc3_scratch1
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def relu3 (c : Dev nD) (t : Fin cfg3.N) : Vec F S5000x128 .f32 :=
  k1_pay3 (iblk3 V c 1 t) (iblk3 V c 0 t) (iblk3 V c 2 t)
-- Running column sums of the rectified values (and of their squares) over blocks 0 … n.
def csum3 (c : Dev nD) : (n : ℕ) → n < cfg3.N → Vec F S1x128 .f32
  | 0, hn => k1_pay4 (iblk3 V c 1 ⟨0, hn⟩) (iblk3 V c 0 ⟨0, hn⟩) (iblk3 V c 2 ⟨0, hn⟩) (k1_pay1 (F := F))
  | n + 1, hn => k1_pay4 (iblk3 V c 1 ⟨n + 1, hn⟩) (iblk3 V c 0 ⟨n + 1, hn⟩) (iblk3 V c 2 ⟨n + 1, hn⟩) (csum3 c n (Nat.lt_of_succ_lt hn))
def csq3 (c : Dev nD) : (n : ℕ) → n < cfg3.N → Vec F S1x128 .f32
  | 0, hn => k1_pay5 (iblk3 V c 1 ⟨0, hn⟩) (iblk3 V c 0 ⟨0, hn⟩) (iblk3 V c 2 ⟨0, hn⟩) (k1_pay2 (F := F))
  | n + 1, hn => k1_pay5 (iblk3 V c 1 ⟨n + 1, hn⟩) (iblk3 V c 0 ⟨n + 1, hn⟩) (iblk3 V c 2 ⟨n + 1, hn⟩) (csq3 c n (Nat.lt_of_succ_lt hn))
theorem csum3_first (c : Dev nD) (t : Fin cfg3.N) (h : t.val = 0) :
    csum3 V c t.val t.isLt = k1_pay4 (iblk3 V c 1 t) (iblk3 V c 0 t) (iblk3 V c 2 t) (k1_pay1 (F := F)) := by
  obtain ⟨n, hn⟩ := t
  cases n with
  | zero => rfl
  | succ n => exact absurd h (Nat.succ_ne_zero n)
theorem csq3_first (c : Dev nD) (t : Fin cfg3.N) (h : t.val = 0) :
    csq3 V c t.val t.isLt = k1_pay5 (iblk3 V c 1 t) (iblk3 V c 0 t) (iblk3 V c 2 t) (k1_pay2 (F := F)) := by
  obtain ⟨n, hn⟩ := t
  cases n with
  | zero => rfl
  | succ n => exact absurd h (Nat.succ_ne_zero n)
theorem csum3_next (c : Dev nD) (t : Fin cfg3.N) (h : t.val ≠ 0) :
    csum3 V c t.val t.isLt = k1_pay4 (iblk3 V c 1 t) (iblk3 V c 0 t) (iblk3 V c 2 t)
      (csum3 V c (t.val - 1) (Nat.lt_of_le_of_lt (Nat.sub_le _ _) t.isLt)) := by
  obtain ⟨n, hn⟩ := t
  cases n with
  | zero => exact absurd rfl h
  | succ n => rfl
theorem csq3_next (c : Dev nD) (t : Fin cfg3.N) (h : t.val ≠ 0) :
    csq3 V c t.val t.isLt = k1_pay5 (iblk3 V c 1 t) (iblk3 V c 0 t) (iblk3 V c 2 t)
      (csq3 V c (t.val - 1) (Nat.lt_of_le_of_lt (Nat.sub_le _ _) t.isLt)) := by
  obtain ⟨n, hn⟩ := t
  cases n with
  | zero => exact absurd rfl h
  | succ n => rfl
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl
def PhiS3 (c : Dev nD) : (n : ℕ) → n ≤ cfg3.N → sProp 𝕄
  | 0, _ => Pipeline.ΦA spec3 c
  | n + 1, hn => iprop(iprop(iprop(owns (c : Thread nD τ) scM3_0 fullShare (csum3 V c n hn) ∗ owns (c : Thread nD τ) scM3_1 fullShare (csq3 V c n hn))
      ∗ Pipeline.scopedRestBut (Ix := Unit) (Name := ℕ) (U := UR sig nD τ) (Lvl := ℕ) (Val := Elt F) spec3 c [cc3_scratch0, cc3_scratch1])
      ∗ (∃ r, prngReg c r))
theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare (csum3 V c n hn) ∗ owns (c : Thread nD τ) scM3_1 fullShare (csq3 V c n hn))
      ∗ Pipeline.scopedRestBut (Ix := Unit) (Name := ℕ) (U := UR sig nD τ) (Lvl := ℕ) (Val := Elt F) spec3 c [cc3_scratch0, cc3_scratch1])
      ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare (csum3 V c (n - 1) (by omega)) ∗ owns (c : Thread nD τ) scM3_1 fullShare (csq3 V c (n - 1) (by omega)))
      ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl
def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => relu3 V c t
    | ⟨4, _⟩ => csum3 V c t.val t.isLt
    | ⟨5, _⟩ => csq3 V c t.val t.isLt
  Φ t := PhiS3 V c t.val (Nat.le_of_lt_succ t.isLt)
  q _ := fullShare
  owed _ := 0
theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = relu3 V c t := by dsimp only [dat3]
theorem after3_4 (c : Dev nD) (t : Fin cfg3.N) : (dat3 V c).after 4 t = csum3 V c t.val t.isLt := by dsimp only [dat3]
theorem after3_5 (c : Dev nD) (t : Fin cfg3.N) : (dat3 V c).after 5 t = csq3 V c t.val t.isLt := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
-- Regions 1, 3 and 5 run one kernel function: the printed functions are the same term.
private theorem bodyAt_eq (t : Fin cfg3.N) : bodyAt3 (F := F) t = cc1__relu_stats_kernel (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) := rfl
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3; rw [bodyAt_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [show cfg3.idle 0 (grid3.coords t) = false from rfl], after3_0]
  rw [show (dat3 V c).leavesExact 1 t = owns (c : Thread nD τ) (ms3_1 t) fullShare ((dat3 V c).after 1 t) from by
    unfold Dat.leavesExact; rw [show cfg3.idle 1 (grid3.coords t) = false from rfl], after3_1]
  rw [show (dat3 V c).leavesExact 2 t = owns (c : Thread nD τ) (ms3_2 t) fullShare ((dat3 V c).after 2 t) from by
    unfold Dat.leavesExact; rw [show cfg3.idle 2 (grid3.coords t) = false from rfl], after3_2]
  rw [show (dat3 V c).leavesExact 3 t = owns (c : Thread nD τ) (ms3_3 t) fullShare ((dat3 V c).after 3 t) from by
    unfold Dat.leavesExact; rw [show cfg3.idle 3 (grid3.coords t) = false from rfl], after3_3]
  unfold relu3
  by_cases h0 : t.val = 0
  · have h9 : t.val ≠ 9 := by omega
    rw [Dat.leavesExact_idle (dat3 V c) 4 t (idleAt3_4 t h9) (noFlush3_4 t h9), Dat.leavesExact_idle (dat3 V c) 5 t (idleAt3_5 t h9) (noFlush3_5 t h9),
      csum3_first V c t h0, csq3_first V c t h0, PhiS3_castSucc V c t, PhiS3_zero V c _ _ h0, PhiA3_eq]
    exact pointA c _ _ _ _ _ _ _ _ _ _ _ _ _ _ _ _ _ ((hcondF t).mpr h0) (fun h => h9 ((hcondL t).mp h)) _ _ _ _ _ _ _ _ _
  · rw [csum3_next V c t h0, csq3_next V c t h0, PhiS3_castSucc V c t, PhiS3_pos V c _ _ h0]
    by_cases h9 : t.val = 9
    · rw [show (dat3 V c).leavesExact 4 t = owns (c : Thread nD τ) (ms3_4 t) fullShare ((dat3 V c).after 4 t) from by
        unfold Dat.leavesExact; rw [liveAt3_4 t h9], after3_4,
        show (dat3 V c).leavesExact 5 t = owns (c : Thread nD τ) (ms3_5 t) fullShare ((dat3 V c).after 5 t) from by
        unfold Dat.leavesExact; rw [liveAt3_5 t h9], after3_5, csum3_next V c t h0, csq3_next V c t h0]
      exact pointC c _ _ _ _ _ _ _ _ _ _ _ _ _ _ _ _ _ (fun h => h0 ((hcondF t).mp h)) ((hcondL t).mpr h9) _ _ _ _ _ _ _ _ _ _ _
    · rw [Dat.leavesExact_idle (dat3 V c) 4 t (idleAt3_4 t h9) (noFlush3_4 t h9), Dat.leavesExact_idle (dat3 V c) 5 t (idleAt3_5 t h9) (noFlush3_5 t h9)]
      exact pointB c _ _ _ _ _ _ _ _ _ _ _ _ _ _ _ _ _ (fun h => h0 ((hcondF t).mp h)) (fun h => h9 ((hcondL t).mp h)) _ _ _ _ _ _ _ _ _ _ _
theorem body_obligation3 (c : Dev nD) : BodyObligation (dat3 (F := F) V c) (defs₀ (F := F)) Variants.none () Set.univ := fun t => by
  rw [bigSep_W3, bigSep_W3]
  exact sound_body3 V c t
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _
theorem hout3 (c : Dev nD) : (dat3 V c).Φ (Fin.last cfg3.N) ⊢ (Pipeline.ΦA spec3 c : sProp 𝕄) := by
  have hne : (Fin.last cfg3.N).val ≠ 0 := by rw [Fin.val_last]; have : cfg3.N = 10 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg
end Cert.Kernel.Hand
end
-- ==== Proof.KB.Reg4.lean ====
import proofs.«412548_j82308753260928_3_alg».proof.Proof.KB.LB
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t := by
  have hkeep : ∀ t, (cfg4.win 0).cut (cfg4.grid.coords t) (dat.after 0 t) = dat.blockOf 0 t := fun t => by
    rw [hafter]; unfold Dat.blockOf iblk4; rw [hA]; try rfl
  rw [dat.before_in_eq_fetched 0 rfl (fun _ => rfl) (fun _ _ _ => rfl) hkeep t d]
  unfold Dat.fetched Dat.blockOf iblk4; rw [hA]; try rfl
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t := by
  have hkeep : ∀ t, (cfg4.win 1).cut (cfg4.grid.coords t) (dat.after 1 t) = dat.blockOf 1 t := fun t => by
    rw [hafter]; unfold Dat.blockOf iblk4; rw [hA]; try rfl
  rw [dat.before_in_eq_fetched 1 rfl (fun _ => rfl) (fun _ _ _ => rfl) hkeep t d]
  unfold Dat.fetched Dat.blockOf iblk4; rw [hA]; try rfl
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t := by
  have hkeep : ∀ t, (cfg4.win 2).cut (cfg4.grid.coords t) (dat.after 2 t) = dat.blockOf 2 t := fun t => by
    rw [hafter]; unfold Dat.blockOf iblk4; rw [hA]; try rfl
  rw [dat.before_in_eq_fetched 2 rfl (fun _ => rfl) (fun _ _ _ => rfl) hkeep t d]
  unfold Dat.fetched Dat.blockOf iblk4; rw [hA]; try rfl
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t := by
  have hkeep : ∀ t, (cfg4.win 3).cut (cfg4.grid.coords t) (dat.after 3 t) = dat.blockOf 3 t := fun t => by
    rw [hafter]; unfold Dat.blockOf iblk4; rw [hA]; try rfl
  rw [dat.before_in_eq_fetched 3 rfl (fun _ => rfl) (fun _ _ _ => rfl) hkeep t d]
  unfold Dat.fetched Dat.blockOf iblk4; rw [hA]; try rfl
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t := by
  have hkeep : ∀ t, (cfg4.win 4).cut (cfg4.grid.coords t) (dat.after 4 t) = dat.blockOf 4 t := fun t => by
    rw [hafter]; unfold Dat.blockOf iblk4; rw [hA]; try rfl
  rw [dat.before_in_eq_fetched 4 rfl (fun _ => rfl) (fun _ _ _ => rfl) hkeep t d]
  unfold Dat.fetched Dat.blockOf iblk4; rw [hA]; try rfl
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t := by
  have hkeep : ∀ t, (cfg4.win 5).cut (cfg4.grid.coords t) (dat.after 5 t) = dat.blockOf 5 t := fun t => by
    rw [hafter]; unfold Dat.blockOf iblk4; rw [hA]; try rfl
  rw [dat.before_in_eq_fetched 5 rfl (fun _ => rfl) (fun _ _ _ => rfl) hkeep t d]
  unfold Dat.fetched Dat.blockOf iblk4; rw [hA]; try rfl
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t := by
  have hkeep : ∀ t, (cfg4.win 6).cut (cfg4.grid.coords t) (dat.after 6 t) = dat.blockOf 6 t := fun t => by
    rw [hafter]; unfold Dat.blockOf iblk4; rw [hA]; try rfl
  rw [dat.before_in_eq_fetched 6 rfl (fun _ => rfl) (fun _ _ _ => rfl) hkeep t d]
  unfold Dat.fetched Dat.blockOf iblk4; rw [hA]; try rfl
def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => lb_out (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0
theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = lb_out (iblk4 V c 0 t) (iblk4 V c 1 t) (iblk4 V c 2 t) (iblk4 V c 3 t) (iblk4 V c 4 t) (iblk4 V c 5 t) (iblk4 V c 6 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
-- Regions 2 and 4 run one kernel function: the printed functions are the same term.
private theorem bodyAt_eq (t : Fin cfg4.N) : bodyAt4 (F := F) t = cc2__lin_bn_kernel (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) := rfl
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4; rw [bodyAt_eq]
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  exact lb_point c _ _ _ _ _ _ _ _ _ _ _ _ _ _ _ _ _ _ _ _ _ _ _ _ _ _ _
theorem body_obligation4 (c : Dev nD) : BodyObligation (dat4 (F := F) V c) (defs₀ (F := F)) Variants.none () Set.univ := fun t => by
  rw [bigSep_W4, bigSep_W4]
  exact sound_body4 V c t
theorem hin4 (c : Dev nD) : (Pipeline.ΦA spec4 c : sProp 𝕄) ⊢ (dat4 V c).Φ 0 := .rfl
theorem hout4 (c : Dev nD) : (dat4 V c).Φ (Fin.last cfg4.N) ⊢ (Pipeline.ΦA spec4 c : sProp 𝕄) := .rfl
end Cert.Kernel.Hand
end
-- ==== Proof.KB.Reg5.lean ====
import proofs.«412548_j82308753260928_3_alg».proof.Proof.KB.RS
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem idleAt5_4 : ∀ t : Fin cfg5.N, t.val ≠ 9 → cfg5.idle 4 (grid5.coords t) = true := by decide +kernel
theorem idleAt5_5 : ∀ t : Fin cfg5.N, t.val ≠ 9 → cfg5.idle 5 (grid5.coords t) = true := by decide +kernel
theorem noFlush5_4 : ∀ t : Fin cfg5.N, t.val ≠ 9 → (cfg5.win 4).flush t = false := by decide +kernel
theorem noFlush5_5 : ∀ t : Fin cfg5.N, t.val ≠ 9 → (cfg5.win 5).flush t = false := by decide +kernel
theorem liveAt5_4 : ∀ t : Fin cfg5.N, t.val = 9 → cfg5.idle 4 (grid5.coords t) = false := by decide +kernel
theorem liveAt5_5 : ∀ t : Fin cfg5.N, t.val = 9 → cfg5.idle 5 (grid5.coords t) = false := by decide +kernel
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S5000x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev scM5_0 : Memref sig .tc .vmem S1x128 .f32 := Memref.whole cc5_scratch0
abbrev scM5_1 : Memref sig .tc .vmem S1x128 .f32 := Memref.whole cc5_scratch1
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def relu5 (c : Dev nD) (t : Fin cfg5.N) : Vec F S5000x128 .f32 :=
  k1_pay3 (iblk5 V c 1 t) (iblk5 V c 0 t) (iblk5 V c 2 t)
-- Running column sums of the rectified values (and of their squares) over blocks 0 … n.
def csum5 (c : Dev nD) : (n : ℕ) → n < cfg5.N → Vec F S1x128 .f32
  | 0, hn => k1_pay4 (iblk5 V c 1 ⟨0, hn⟩) (iblk5 V c 0 ⟨0, hn⟩) (iblk5 V c 2 ⟨0, hn⟩) (k1_pay1 (F := F))
  | n + 1, hn => k1_pay4 (iblk5 V c 1 ⟨n + 1, hn⟩) (iblk5 V c 0 ⟨n + 1, hn⟩) (iblk5 V c 2 ⟨n + 1, hn⟩) (csum5 c n (Nat.lt_of_succ_lt hn))
def csq5 (c : Dev nD) : (n : ℕ) → n < cfg5.N → Vec F S1x128 .f32
  | 0, hn => k1_pay5 (iblk5 V c 1 ⟨0, hn⟩) (iblk5 V c 0 ⟨0, hn⟩) (iblk5 V c 2 ⟨0, hn⟩) (k1_pay2 (F := F))
  | n + 1, hn => k1_pay5 (iblk5 V c 1 ⟨n + 1, hn⟩) (iblk5 V c 0 ⟨n + 1, hn⟩) (iblk5 V c 2 ⟨n + 1, hn⟩) (csq5 c n (Nat.lt_of_succ_lt hn))
theorem csum5_first (c : Dev nD) (t : Fin cfg5.N) (h : t.val = 0) :
    csum5 V c t.val t.isLt = k1_pay4 (iblk5 V c 1 t) (iblk5 V c 0 t) (iblk5 V c 2 t) (k1_pay1 (F := F)) := by
  obtain ⟨n, hn⟩ := t
  cases n with
  | zero => rfl
  | succ n => exact absurd h (Nat.succ_ne_zero n)
theorem csq5_first (c : Dev nD) (t : Fin cfg5.N) (h : t.val = 0) :
    csq5 V c t.val t.isLt = k1_pay5 (iblk5 V c 1 t) (iblk5 V c 0 t) (iblk5 V c 2 t) (k1_pay2 (F := F)) := by
  obtain ⟨n, hn⟩ := t
  cases n with
  | zero => rfl
  | succ n => exact absurd h (Nat.succ_ne_zero n)
theorem csum5_next (c : Dev nD) (t : Fin cfg5.N) (h : t.val ≠ 0) :
    csum5 V c t.val t.isLt = k1_pay4 (iblk5 V c 1 t) (iblk5 V c 0 t) (iblk5 V c 2 t)
      (csum5 V c (t.val - 1) (Nat.lt_of_le_of_lt (Nat.sub_le _ _) t.isLt)) := by
  obtain ⟨n, hn⟩ := t
  cases n with
  | zero => exact absurd rfl h
  | succ n => rfl
theorem csq5_next (c : Dev nD) (t : Fin cfg5.N) (h : t.val ≠ 0) :
    csq5 V c t.val t.isLt = k1_pay5 (iblk5 V c 1 t) (iblk5 V c 0 t) (iblk5 V c 2 t)
      (csq5 V c (t.val - 1) (Nat.lt_of_le_of_lt (Nat.sub_le _ _) t.isLt)) := by
  obtain ⟨n, hn⟩ := t
  cases n with
  | zero => exact absurd rfl h
  | succ n => rfl
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
          ∗ (∃ r, prngReg c r)) := by
  unfold Pipeline.ΦA; rw [scopedRest5_split]; simp only [scM5_0, scM5_1, owns_whole]; try rfl
def PhiS5 (c : Dev nD) : (n : ℕ) → n ≤ cfg5.N → sProp 𝕄
  | 0, _ => Pipeline.ΦA spec5 c
  | n + 1, hn => iprop(iprop(iprop(owns (c : Thread nD τ) scM5_0 fullShare (csum5 V c n hn) ∗ owns (c : Thread nD τ) scM5_1 fullShare (csq5 V c n hn))
      ∗ Pipeline.scopedRestBut (Ix := Unit) (Name := ℕ) (U := UR sig nD τ) (Lvl := ℕ) (Val := Elt F) spec5 c [cc5_scratch0, cc5_scratch1])
      ∗ (∃ r, prngReg c r))
theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare (csum5 V c n hn) ∗ owns (c : Thread nD τ) scM5_1 fullShare (csq5 V c n hn))
      ∗ Pipeline.scopedRestBut (Ix := Unit) (Name := ℕ) (U := UR sig nD τ) (Lvl := ℕ) (Val := Elt F) spec5 c [cc5_scratch0, cc5_scratch1])
      ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare (csum5 V c (n - 1) (by omega)) ∗ owns (c : Thread nD τ) scM5_1 fullShare (csq5 V c (n - 1) (by omega)))
      ∗ Pipeline.scopedRestBut (Ix := Unit) (Name := ℕ) (U := UR sig nD τ) (Lvl := ℕ) (Val := Elt F) spec5 c [cc5_scratch0, cc5_scratch1])
      ∗ (∃ r, prngReg c r)) := by
  cases n with
  | zero => exact absurd rfl hz
  | succ n => rfl
def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => relu5 V c t
    | ⟨4, _⟩ => csum5 V c t.val t.isLt
    | ⟨5, _⟩ => csq5 V c t.val t.isLt
  Φ t := PhiS5 V c t.val (Nat.le_of_lt_succ t.isLt)
  q _ := fullShare
  owed _ := 0
theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = relu5 V c t := by dsimp only [dat5]
theorem after5_4 (c : Dev nD) (t : Fin cfg5.N) : (dat5 V c).after 4 t = csum5 V c t.val t.isLt := by dsimp only [dat5]
theorem after5_5 (c : Dev nD) (t : Fin cfg5.N) : (dat5 V c).after 5 t = csq5 V c t.val t.isLt := by dsimp only [dat5]
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
-- Regions 1, 3 and 5 run one kernel function: the printed functions are the same term.
private theorem bodyAt_eq (t : Fin cfg5.N) : bodyAt5 (F := F) t = cc1__relu_stats_kernel (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) scM5_1 (Memref.isWhole_whole _) := rfl
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)
set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5; rw [bodyAt_eq]
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (ms5_0 t) fullShare ((dat5 V c).after 0 t) from by
    unfold Dat.leavesExact; rw [show cfg5.idle 0 (grid5.coords t) = false from rfl], after5_0]
  rw [show (dat5 V c).leavesExact 1 t = owns (c : Thread nD τ) (ms5_1 t) fullShare ((dat5 V c).after 1 t) from by
    unfold Dat.leavesExact; rw [show cfg5.idle 1 (grid5.coords t) = false from rfl], after5_1]
  rw [show (dat5 V c).leavesExact 2 t = owns (c : Thread nD τ) (ms5_2 t) fullShare ((dat5 V c).after 2 t) from by
    unfold Dat.leavesExact; rw [show cfg5.idle 2 (grid5.coords t) = false from rfl], after5_2]
  rw [show (dat5 V c).leavesExact 3 t = owns (c : Thread nD τ) (ms5_3 t) fullShare ((dat5 V c).after 3 t) from by
    unfold Dat.leavesExact; rw [show cfg5.idle 3 (grid5.coords t) = false from rfl], after5_3]
  unfold relu5
  by_cases h0 : t.val = 0
  · have h9 : t.val ≠ 9 := by omega
    rw [Dat.leavesExact_idle (dat5 V c) 4 t (idleAt5_4 t h9) (noFlush5_4 t h9), Dat.leavesExact_idle (dat5 V c) 5 t (idleAt5_5 t h9) (noFlush5_5 t h9),
      csum5_first V c t h0, csq5_first V c t h0, PhiS5_castSucc V c t, PhiS5_zero V c _ _ h0, PhiA5_eq]
    exact pointA c _ _ _ _ _ _ _ _ _ _ _ _ _ _ _ _ _ ((hcondF t).mpr h0) (fun h => h9 ((hcondL t).mp h)) _ _ _ _ _ _ _ _ _
  · rw [csum5_next V c t h0, csq5_next V c t h0, PhiS5_castSucc V c t, PhiS5_pos V c _ _ h0]
    by_cases h9 : t.val = 9
    · rw [show (dat5 V c).leavesExact 4 t = owns (c : Thread nD τ) (ms5_4 t) fullShare ((dat5 V c).after 4 t) from by
        unfold Dat.leavesExact; rw [liveAt5_4 t h9], after5_4,
        show (dat5 V c).leavesExact 5 t = owns (c : Thread nD τ) (ms5_5 t) fullShare ((dat5 V c).after 5 t) from by
        unfold Dat.leavesExact; rw [liveAt5_5 t h9], after5_5, csum5_next V c t h0, csq5_next V c t h0]
      exact pointC c _ _ _ _ _ _ _ _ _ _ _ _ _ _ _ _ _ (fun h => h0 ((hcondF t).mp h)) ((hcondL t).mpr h9) _ _ _ _ _ _ _ _ _ _ _
    · rw [Dat.leavesExact_idle (dat5 V c) 4 t (idleAt5_4 t h9) (noFlush5_4 t h9), Dat.leavesExact_idle (dat5 V c) 5 t (idleAt5_5 t h9) (noFlush5_5 t h9)]
      exact pointB c _ _ _ _ _ _ _ _ _ _ _ _ _ _ _ _ _ (fun h => h0 ((hcondF t).mp h)) (fun h => h9 ((hcondL t).mp h)) _ _ _ _ _ _ _ _ _ _ _
theorem body_obligation5 (c : Dev nD) : BodyObligation (dat5 (F := F) V c) (defs₀ (F := F)) Variants.none () Set.univ := fun t => by
  rw [bigSep_W5, bigSep_W5]
  exact sound_body5 V c t
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _
theorem hout5 (c : Dev nD) : (dat5 V c).Φ (Fin.last cfg5.N) ⊢ (Pipeline.ΦA spec5 c : sProp 𝕄) := by
  have hne : (Fin.last cfg5.N).val ≠ 0 := by rw [Fin.val_last]; have : cfg5.N = 10 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg
end Cert.Kernel.Hand
end
-- ==== Proof.KB.Reg6.lean ====
import proofs.«412548_j82308753260928_3_alg».proof.Proof.Gen.Kernel.Launch
import proofs.«412548_j82308753260928_3_alg».proof.Proof.Gen.Kernel.Skeleton
import proofs.«412548_j82308753260928_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero2 : (![0, 0] : Fin 2 → ℕ) = fun _ => 0 := by
  funext a; fin_cases a <;> rfl

theorem readAt6 {κ : Kind} {sp : Space} {e : EltTy} {sz : Fin 2 → ℕ} {m : Memref sig κ sp ⟨2, sz⟩ e} (h : m.IsWhole)
    (inb : ∀ a, (![0, 0] : Fin 2 → ℕ) a + sz a ≤ sz a) (X : Shape.Idx ⟨2, sz⟩ → Elt F e) :
    View.readAt (Elt F) m.view (Rect.unit (s := ⟨2, sz⟩) ![0, 0] sz inb).toLoadRect (h.unread X) = X :=
  (congrArg (View.ld · _) (h.read_unread X)).trans (View.ld_unit_zero zero2 inb X)

theorem read6 {κ : Kind} {sp : Space} {e : EltTy} {sz : Fin 2 → ℕ} (v : View sig κ sp ⟨2, sz⟩ e) (f : v.ty.Contents (Elt F))
    (inb : ∀ a, (![0, 0] : Fin 2 → ℕ) a + sz a ≤ sz a) (w : Shape.Idx ⟨2, sz⟩ → Elt F e) (L : List (View.Piece (Elt F) ⟨2, sz⟩ e)) :
    v.read (Elt F) (v.writes (Elt F) f ((⟨Rect.unit (s := ⟨2, sz⟩) ![0, 0] sz inb, w⟩ : View.Piece (Elt F) ⟨2, sz⟩ e) :: L)) = w :=
  (View.read_writes_eq_canon v f _ fun y => ⟨_, List.mem_cons_self, View.mem_set_unit_zero zero2 inb y⟩).trans
    (View.canon_cons_unit_zero zero2 inb w L)

theorem back6 (c : Thread nD τ) {sp : Space} {sh : Shape} {e : EltTy} {m : Memref sig c.2.kind sp sh e} (h : m.IsWhole)
    (q : PosShare TreeShare) (X : sh.Idx → Elt F e) :
    (m.view.loc c ↦[m.view.set]{q} h.unread X : sProp 𝕄)
      ⊢ iprop(∃ f, ⌜m.view.read (Elt F) f = X⌝ ∗ (m.view.loc c ↦[m.view.set]{q} f)) := by
  iintro H; iexists _; isplitr
  · ipureintro; exact h.read_unread X
  · iexact H

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

section Run

variable (c : Dev nD) (i : grid6.Coords)
  (arg1 : Memref sig .tc .vmem S5000x1 .i32) (harg1 : arg1.IsWhole) (arg2 : Memref sig .tc .vmem S5000x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S64x128 .f32) (harg7 : arg7.IsWhole) (arg8 : Memref sig .tc .vmem S1x64 .f32) (harg8 : arg8.IsWhole)
  (arg9 : Memref sig .tc .vmem S64x128 .f32) (harg9 : arg9.IsWhole) (arg10 : Memref sig .tc .vmem S1x64 .f32) (harg10 : arg10.IsWhole)
  (x0 : Vec F S5000x1 .i32) (x1 : Vec F S5000x128 .f32) (x2 x3 x4 x5 : Vec F S1x128 .f32)
  (xs0 : Vec F S64x128 .f32) (xs1 : Vec F S1x64 .f32)
  {D6 D7 : Type} (b6 : D6 → Vec F S64x128 .f32) (b7 : D7 → Vec F S1x64 .f32) (E : Set ℕ)

abbrev ins6 (P : sProp 𝕄) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5 ∗ P)

set_option maxHeartbeats 1000000 in
theorem run6_first (K : PUnit → sProp 𝕄) (hc0 : cond6_0 i) (hc1 : ¬cond6_1 i) :
    ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ iprop((∃ d, owns (c : Thread nD τ) arg9 fullShare d) ∗ (∃ d, owns (c : Thread nD τ) arg10 fullShare d))
      ∗ (ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ owns (c : Thread nD τ) arg9 fullShare (k6_pay1 (k6_pay6 x1 x2 x3 x4 x5 x0 (k6_pay3 (F := F))))
        ∗ owns (c : Thread nD τ) arg10 fullShare (k6_pay2 (k6_pay5 x0) (k6_pay4 (F := F)))) -∗ K ⟨⟩))
      ⊢ wp frame (wpE (defs₀ (F := F)) Variants.none c none) E (cc6__pool_bn_kernel i arg1 harg1 arg2 harg2 arg3 harg3 arg4 harg4 arg5 harg5 arg6 harg6 arg7 harg7 arg8 harg8 arg9 harg9 arg10 harg10) K := by
  simp only [cc6__pool_bn_kernel_eq_skeleton]; unfold cc6__pool_bn_kernel_skel
  simp only [k6_part1_eq_skeleton]; unfold k6_part1_skel
  unfold ins6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨⟨%d6, %f6, %hf6, H6⟩, ⟨%d7, %f7, %hf7, H7⟩⟩, ⟨⟨%ds0, %fs0, -, HS0⟩, ⟨%ds1, %fs1, -, HS1⟩⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hc0 | exact hc1)
  sl_step
  iapply Hk
  isplitl [H0]; · iapply (back6 _ harg1 _ _); iexact H0
  isplitl [H1]; · iapply (back6 _ harg2 _ _); iexact H1
  isplitl [H2]; · iapply (back6 _ harg3 _ _); iexact H2
  isplitl [H3]; · iapply (back6 _ harg4 _ _); iexact H3
  isplitl [H4]; · iapply (back6 _ harg5 _ _); iexact H4
  isplitl [H5]; · iapply (back6 _ harg6 _ _); iexact H5
  isplitl [H6 H7]
  · isplitl [H6]
    · iexists d6; iapply (back6 _ harg7 _ _); iexact H6
    iexists d7; iapply (back6 _ harg8 _ _); iexact H7
  isplitl [HS0]
  · iexists _; isplitr
    swap; · iexact HS0
    ipureintro; sl_unfold_run_names
    exact (read6 _ _ _ _ _).trans (by simp only [readAt6, View.readCov_cons_toLoadRect])
  iexists _; isplitr
  swap; · iexact HS1
  ipureintro; sl_unfold_run_names
  exact (read6 _ _ _ _ _).trans (by simp only [readAt6, View.readCov_cons_toLoadRect])

set_option maxHeartbeats 1000000 in
theorem run6_mid (K : PUnit → sProp 𝕄) (hc0 : ¬cond6_0 i) (hc1 : ¬cond6_1 i) :
    ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ iprop(owns (c : Thread nD τ) arg9 fullShare xs0 ∗ owns (c : Thread nD τ) arg10 fullShare xs1)
      ∗ (ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ owns (c : Thread nD τ) arg9 fullShare (k6_pay1 (k6_pay6 x1 x2 x3 x4 x5 x0 xs0))
        ∗ owns (c : Thread nD τ) arg10 fullShare (k6_pay2 (k6_pay5 x0) xs1)) -∗ K ⟨⟩))
      ⊢ wp frame (wpE (defs₀ (F := F)) Variants.none c none) E (cc6__pool_bn_kernel i arg1 harg1 arg2 harg2 arg3 harg3 arg4 harg4 arg5 harg5 arg6 harg6 arg7 harg7 arg8 harg8 arg9 harg9 arg10 harg10) K := by
  simp only [cc6__pool_bn_kernel_eq_skeleton]; unfold cc6__pool_bn_kernel_skel
  simp only [k6_part1_eq_skeleton]; unfold k6_part1_skel
  unfold ins6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨⟨%d6, %f6, %hf6, H6⟩, ⟨%d7, %f7, %hf7, H7⟩⟩, ⟨⟨%fs0, %hfs0, HS0⟩, ⟨%fs1, %hfs1, HS1⟩⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hfs0; obtain rfl := harg10.eq_unread hfs1
  sl_exec (disch := first | exact hc0 | exact hc1)
  sl_step
  iapply Hk
  isplitl [H0]; · iapply (back6 _ harg1 _ _); iexact H0
  isplitl [H1]; · iapply (back6 _ harg2 _ _); iexact H1
  isplitl [H2]; · iapply (back6 _ harg3 _ _); iexact H2
  isplitl [H3]; · iapply (back6 _ harg4 _ _); iexact H3
  isplitl [H4]; · iapply (back6 _ harg5 _ _); iexact H4
  isplitl [H5]; · iapply (back6 _ harg6 _ _); iexact H5
  isplitl [H6 H7]
  · isplitl [H6]
    · iexists d6; iapply (back6 _ harg7 _ _); iexact H6
    iexists d7; iapply (back6 _ harg8 _ _); iexact H7
  isplitl [HS0]
  · iexists _; isplitr
    swap; · iexact HS0
    ipureintro
    exact (read6 _ _ _ _ _).trans (by simp only [readAt6])
  iexists _; isplitr
  swap; · iexact HS1
  ipureintro
  exact (read6 _ _ _ _ _).trans (by simp only [readAt6])

set_option maxHeartbeats 1000000 in
theorem run6_last (K : PUnit → sProp 𝕄) (hc0 : ¬cond6_0 i) (hc1 : cond6_1 i) :
    ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ iprop(owns (c : Thread nD τ) arg9 fullShare xs0 ∗ owns (c : Thread nD τ) arg10 fullShare xs1)
      ∗ (ins6 c arg1 arg2 arg3 arg4 arg5 arg6 x0 x1 x2 x3 x4 x5 iprop(iprop(owns (c : Thread nD τ) arg7 fullShare (k6_pay1 (k6_pay6 x1 x2 x3 x4 x5 x0 xs0))
          ∗ owns (c : Thread nD τ) arg8 fullShare (k6_pay2 (k6_pay5 x0) xs1))
        ∗ owns (c : Thread nD τ) arg9 fullShare (k6_pay1 (k6_pay6 x1 x2 x3 x4 x5 x0 xs0))
        ∗ owns (c : Thread nD τ) arg10 fullShare (k6_pay2 (k6_pay5 x0) xs1)) -∗ K ⟨⟩))
      ⊢ wp frame (wpE (defs₀ (F := F)) Variants.none c none) E (cc6__pool_bn_kernel i arg1 harg1 arg2 harg2 arg3 harg3 arg4 harg4 arg5 harg5 arg6 harg6 arg7 harg7 arg8 harg8 arg9 harg9 arg10 harg10) K := by
  simp only [cc6__pool_bn_kernel_eq_skeleton]; unfold cc6__pool_bn_kernel_skel
  simp only [k6_part1_eq_skeleton]; unfold k6_part1_skel
  unfold ins6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨⟨%d6, %f6, -, H6⟩, ⟨%d7, %f7, -, H7⟩⟩, ⟨⟨%fs0, %hfs0, HS0⟩, ⟨%fs1, %hfs1, HS1⟩⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg9.eq_unread hfs0; obtain rfl := harg10.eq_unread hfs1
  sl_exec (disch := first | exact hc0 | exact hc1)
  sl_step
  iapply Hk
  isplitl [H0]; · iapply (back6 _ harg1 _ _); iexact H0
  isplitl [H1]; · iapply (back6 _ harg2 _ _); iexact H1
  isplitl [H2]; · iapply (back6 _ harg3 _ _); iexact H2
  isplitl [H3]; · iapply (back6 _ harg4 _ _); iexact H3
  isplitl [H4]; · iapply (back6 _ harg5 _ _); iexact H4
  isplitl [H5]; · iapply (back6 _ harg6 _ _); iexact H5
  isplitl [H6 H7]
  · isplitl [H6]
    · iexists _; isplitr
      swap; · iexact H6
      ipureintro; sl_unfold_run_names
      exact (read6 _ _ _ _ _).trans (by simp only [readAt6, View.readCov_cons_toLoadRect])
    iexists _; isplitr
    swap; · iexact H7
    ipureintro; sl_unfold_run_names
    exact (read6 _ _ _ _ _).trans (by simp only [readAt6, View.readCov_cons_toLoadRect])
  isplitl [HS0]
  · iexists _; isplitr
    swap; · iexact HS0
    ipureintro; sl_unfold_run_names
    exact (read6 _ _ _ _ _).trans (by simp only [readAt6, View.readCov_cons_toLoadRect])
  iexists _; isplitr
  swap; · iexact HS1
  ipureintro; sl_unfold_run_names
  exact (read6 _ _ _ _ _).trans (by simp only [readAt6, View.readCov_cons_toLoadRect])

end Run

theorem liveAt6 : ∀ (w : Fin cfg6.W) (t : Fin cfg6.N), w.val < 6 → cfg6.idle w (grid6.coords t) = false := by decide +kernel

theorem out6 : ∀ t : Fin cfg6.N,
    (t.val % 10 = 9 → cfg6.idle 6 (grid6.coords t) = false ∧ cfg6.idle 7 (grid6.coords t) = false)
    ∧ (¬t.val % 10 = 9 → (cfg6.idle 6 (grid6.coords t) = true ∧ (cfg6.win 6).flush t = false)
      ∧ cfg6.idle 7 (grid6.coords t) = true ∧ (cfg6.win 7).flush t = false) := by decide +kernel

abbrev ms6_0 (t : Fin cfg6.N) : Memref sig .tc .vmem S5000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S64x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x64 .f32 := win6_7.stage (cfg6.slots t 7)
abbrev hs6_7 (t : Fin cfg6.N) : (ms6_7 t).IsWhole := hstage6_7 ((cfg6.slots t 7).cast nbuf6_7)
abbrev scM6_0 : Memref sig .tc .vmem S64x128 .f32 := Memref.whole cc6_scratch0
abbrev scM6_1 : Memref sig .tc .vmem S1x64 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def step6 (c : Dev nD) (t : Fin cfg6.N) (s : Vec F S64x128 .f32 × Vec F S1x64 .f32) : Vec F S64x128 .f32 × Vec F S1x64 .f32 :=
  (k6_pay1 (k6_pay6 (iblk6 V c 1 t) (iblk6 V c 2 t) (iblk6 V c 3 t) (iblk6 V c 4 t) (iblk6 V c 5 t) (iblk6 V c 0 t) s.1),
   k6_pay2 (k6_pay5 (iblk6 V c 0 t)) s.2)

-- The iterate of step6 over the points up to n, starting from the zero pair.
def scrAt6 (c : Dev nD) : (n : ℕ) → n < cfg6.N → Vec F S64x128 .f32 × Vec F S1x64 .f32
  | 0, hn => step6 V c ⟨0, hn⟩ (k6_pay3 (F := F), k6_pay4 (F := F))
  | n + 1, hn => step6 V c ⟨n + 1, hn⟩ (scrAt6 c n (Nat.lt_of_succ_lt hn))

theorem scrAt6_zero (c : Dev nD) (t : Fin cfg6.N) (h : t.val = 0) :
    scrAt6 V c t.val t.isLt = step6 V c t (k6_pay3 (F := F), k6_pay4 (F := F)) := by
  obtain ⟨n, hn⟩ := t
  cases n with
  | zero => rfl
  | succ n => exact absurd h (Nat.succ_ne_zero n)

theorem scrAt6_pos (c : Dev nD) (t : Fin cfg6.N) (h : t.val ≠ 0) :
    scrAt6 V c t.val t.isLt = step6 V c t (scrAt6 V c (t.val - 1) (Nat.lt_of_le_of_lt (Nat.sub_le _ _) t.isLt)) := by
  obtain ⟨n, hn⟩ := t
  cases n with
  | zero => exact absurd rfl h
  | succ n => rfl

def PhiS6 (c : Dev nD) : (n : ℕ) → n ≤ cfg6.N → sProp 𝕄
  | 0, _ => Pipeline.ΦA spec6 c
  | n + 1, hn => iprop(iprop(iprop(owns (c : Thread nD τ) scM6_0 fullShare (scrAt6 V c n hn).1 ∗ owns (c : Thread nD τ) scM6_1 fullShare (scrAt6 V c n hn).2)
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (scrAt6 V c n hn).1 ∗ owns (c : Thread nD τ) scM6_1 fullShare (scrAt6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (scrAt6 V c (n - 1) (by omega)).1 ∗ owns (c : Thread nD τ) scM6_1 fullShare (scrAt6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

def dat6 (V : (c : Dev nD) → (b : Ref sig .tc) → Buf (Elt F) ((c : Thread nD τ).loc b)) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (scrAt6 V c t.val t.isLt).1
    | ⟨7, _⟩ => (scrAt6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) (t : Fin (cfg6.N + 1)) : (dat6 V c).owed t = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (scrAt6 V c t.val t.isLt).1 := by dsimp only [dat6]
theorem after6_7 (c : Dev nD) (t : Fin cfg6.N) : (dat6 V c).after 7 t = (scrAt6 V c t.val t.isLt).2 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl
theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl

theorem leaves6 (c : Dev nD) (w : Fin cfg6.W) (t : Fin cfg6.N) (h : cfg6.idle w (grid6.coords t) = false) :
    (dat6 V c).leavesExact w t = owns (c : Thread nD τ) ((cfg6.win w).stage (cfg6.slots t w)) fullShare ((dat6 V c).after w t) := by
  unfold Dat.leavesExact; rw [h]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

-- Frame rule: R, G and O are carried unchanged around a triple that turns S, X into S', X'.
theorem hand6 (W : (PUnit → sProp 𝕄) → sProp 𝕄) {α0 α1 α2 α3 α4 α5 : Type} {S S' R G O I0 I1 I2 I3 I4 I5 X X' : sProp 𝕄}
    (run : ∀ K, iprop(I0 ∗ I1 ∗ I2 ∗ I3 ∗ I4 ∗ I5 ∗ X ∗ S ∗ (iprop(I0 ∗ I1 ∗ I2 ∗ I3 ∗ I4 ∗ I5 ∗ X' ∗ S') -∗ K ⟨⟩)) ⊢ W K) :
    iprop(iprop(iprop(S ∗ R) ∗ G) ∗ O ∗ (∃ _ : α0, I0) ∗ (∃ _ : α1, I1) ∗ (∃ _ : α2, I2) ∗ (∃ _ : α3, I3) ∗ (∃ _ : α4, I4) ∗ (∃ _ : α5, I5) ∗ X)
      ⊢ W fun _ => iprop(iprop(iprop(S' ∗ R) ∗ G) ∗ O ∗ I0 ∗ I1 ∗ I2 ∗ I3 ∗ I4 ∗ I5 ∗ X') := by
  iintro ⟨⟨⟨HS, HR⟩, HG⟩, HO, ⟨%_, H0⟩, ⟨%_, H1⟩, ⟨%_, H2⟩, ⟨%_, H3⟩, ⟨%_, H4⟩, ⟨%_, H5⟩, HX⟩
  iapply run
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HS]; · iexact HS
  iintro ⟨H0, H1, H2, H3, H4, H5, HX, HS⟩
  isplitl [HS HR HG]
  · isplitl [HS HR]
    · isplitl [HS]; · iexact HS
      iexact HR
    iexact HG
  isplitl [HO]; · iexact HO
  isplitl [H0]; · iexact H0
  isplitl [H1]; · iexact H1
  isplitl [H2]; · iexact H2
  isplitl [H3]; · iexact H3
  isplitl [H4]; · iexact H4
  isplitl [H5]; · iexact H5
  iexact HX

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl,
    show (dat6 V c).Φ t.succ = PhiS6 V c (t.val + 1) t.isLt from rfl, PhiS6_succ,
    show (dat6 V c).Φ t.castSucc = PhiS6 V c t.val (Nat.le_of_lt t.isLt) from rfl,
    leaves6 V c 0 t (liveAt6 0 t (by decide)), after6_0, leaves6 V c 1 t (liveAt6 1 t (by decide)), after6_1,
    leaves6 V c 2 t (liveAt6 2 t (by decide)), after6_2, leaves6 V c 3 t (liveAt6 3 t (by decide)), after6_3,
    leaves6 V c 4 t (liveAt6 4 t (by decide)), after6_4, leaves6 V c 5 t (liveAt6 5 t (by decide)), after6_5]
  have hN : t.val < 10 := lt_of_lt_of_eq t.isLt (show cfg6.N = 10 from N_6)
  by_cases h1 : t.val % 10 = 9
  · have hz : t.val ≠ 0 := by omega
    rw [leaves6 V c 6 t ((out6 t).1 h1).1, after6_6, leaves6 V c 7 t ((out6 t).1 h1).2, after6_7, scrAt6_pos V c t hz,
      PhiS6_pos V c _ _ hz]
    unfold step6; dsimp only
    refine hand6 _ fun K => ?_
    exact run6_last c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) _ _ _ _ _ _ _ _ _ _ Set.univ K (fun h => hz (by have := (hcond6_0 t).mp h; omega)) ((hcond6_1 t).mpr h1)
  · rw [Dat.leavesExact_idle (dat6 V c) 6 t ((out6 t).2 h1).1.1 ((out6 t).2 h1).1.2,
      Dat.leavesExact_idle (dat6 V c) 7 t ((out6 t).2 h1).2.1 ((out6 t).2 h1).2.2]
    by_cases h0 : t.val % 10 = 0
    · have hz : t.val = 0 := by omega
      rw [scrAt6_zero V c t hz, PhiS6_zero V c _ _ hz, PhiA6_eq]
      unfold step6; dsimp only
      refine hand6 _ fun K => ?_
      exact run6_first c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) _ _ _ _ _ _ _ _ Set.univ K ((hcond6_0 t).mpr h0) (fun h => h1 ((hcond6_1 t).mp h))
    · have hz : t.val ≠ 0 := by omega
      rw [scrAt6_pos V c t hz, PhiS6_pos V c _ _ hz]
      unfold step6; dsimp only
      refine hand6 _ fun K => ?_
      exact run6_mid c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) _ _ _ _ _ _ _ _ _ _ Set.univ K (fun h => h0 ((hcond6_0 t).mp h)) (fun h => h1 ((hcond6_1 t).mp h))

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]

theorem hout6 (c : Dev nD) : (dat6 V c).Φ (Fin.last cfg6.N) ⊢ (Pipeline.ΦA spec6 c : sProp 𝕄) := by
  have h : cfg6.N ≠ 0 := by rw [show cfg6.N = 10 from N_6]; decide
  rw [show (dat6 V c).Φ (Fin.last cfg6.N) = PhiS6 V c cfg6.N (Nat.le_refl _) from rfl, PhiS6_pos V c _ _ h, PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.KB.Frame.lean ====
import proofs.«412548_j82308753260928_3_alg».proof.Proof.Gen.Kernel.Launch
import proofs.«412548_j82308753260928_3_alg».proof.Proof.Gen.Kernel.Skeleton
import proofs.«412548_j82308753260928_3_alg».proof.Proof.Gen.Kernel.Points
import proofs.«412548_j82308753260928_3_alg».proof.Proof.Gen.Kernel.Regions
import proofs.«412548_j82308753260928_3_alg».proof.Proof.KB.Reg0
import proofs.«412548_j82308753260928_3_alg».proof.Proof.KB.Reg1
import proofs.«412548_j82308753260928_3_alg».proof.Proof.KB.Reg2
import proofs.«412548_j82308753260928_3_alg».proof.Proof.KB.Reg3
import proofs.«412548_j82308753260928_3_alg».proof.Proof.KB.Reg4
import proofs.«412548_j82308753260928_3_alg».proof.Proof.KB.Reg5
import proofs.«412548_j82308753260928_3_alg».proof.Proof.KB.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def exit_main_v22 (c : Dev nD) : Buf (Elt F) ((c : Thread nD τ).loc main_v22) := (dat0 (fun c b => Gen.V7 m c b) c).arrAt 3 cfg0.N
def W8 (c : Dev nD) : Valuation τ sig (Elt F) := Function.update (Gen.V7 m c) main_v22 (exit_main_v22 m c)
def W9 (c : Dev nD) : Valuation τ sig (Elt F) := StableHlo.after hostOps1 (W8 m c)
def exit_main_v38_0 (c : Dev nD) : Buf (Elt F) ((c : Thread nD τ).loc main_v38_0) := (dat1 (fun c b => W9 m c b) c).arrAt 3 cfg1.N
def exit_main_v38_1 (c : Dev nD) : Buf (Elt F) ((c : Thread nD τ).loc main_v38_1) := (dat1 (fun c b => W9 m c b) c).arrAt 4 cfg1.N
def exit_main_v38_2 (c : Dev nD) : Buf (Elt F) ((c : Thread nD τ).loc main_v38_2) := (dat1 (fun c b => W9 m c b) c).arrAt 5 cfg1.N
def W10 (c : Dev nD) : Valuation τ sig (Elt F) := Function.update (Function.update (Function.update (W9 m c) main_v38_0 (exit_main_v38_0 m c)) main_v38_1 (exit_main_v38_1 m c)) main_v38_2 (exit_main_v38_2 m c)
def W11 (c : Dev nD) : Valuation τ sig (Elt F) := StableHlo.after hostOps2 (W10 m c)
def exit_main_v55 (c : Dev nD) : Buf (Elt F) ((c : Thread nD τ).loc main_v55) := (dat2 (fun c b => W11 m c b) c).arrAt 7 cfg2.N
def W12 (c : Dev nD) : Valuation τ sig (Elt F) := Function.update (W11 m c) main_v55 (exit_main_v55 m c)
def W13 (c : Dev nD) : Valuation τ sig (Elt F) := StableHlo.after hostOps3 (W12 m c)
def exit_main_v71_0 (c : Dev nD) : Buf (Elt F) ((c : Thread nD τ).loc main_v71_0) := (dat3 (fun c b => W13 m c b) c).arrAt 3 cfg3.N
def exit_main_v71_1 (c : Dev nD) : Buf (Elt F) ((c : Thread nD τ).loc main_v71_1) := (dat3 (fun c b => W13 m c b) c).arrAt 4 cfg3.N
def exit_main_v71_2 (c : Dev nD) : Buf (Elt F) ((c : Thread nD τ).loc main_v71_2) := (dat3 (fun c b => W13 m c b) c).arrAt 5 cfg3.N
def W14 (c : Dev nD) : Valuation τ sig (Elt F) := Function.update (Function.update (Function.update (W13 m c) main_v71_0 (exit_main_v71_0 m c)) main_v71_1 (exit_main_v71_1 m c)) main_v71_2 (exit_main_v71_2 m c)
def W15 (c : Dev nD) : Valuation τ sig (Elt F) := StableHlo.after hostOps4 (W14 m c)
def exit_main_v88 (c : Dev nD) : Buf (Elt F) ((c : Thread nD τ).loc main_v88) := (dat4 (fun c b => W15 m c b) c).arrAt 7 cfg4.N
def W16 (c : Dev nD) : Valuation τ sig (Elt F) := Function.update (W15 m c) main_v88 (exit_main_v88 m c)
def W17 (c : Dev nD) : Valuation τ sig (Elt F) := StableHlo.after hostOps5 (W16 m c)
def exit_main_v104_0 (c : Dev nD) : Buf (Elt F) ((c : Thread nD τ).loc main_v104_0) := (dat5 (fun c b => W17 m c b) c).arrAt 3 cfg5.N
def exit_main_v104_1 (c : Dev nD) : Buf (Elt F) ((c : Thread nD τ).loc main_v104_1) := (dat5 (fun c b => W17 m c b) c).arrAt 4 cfg5.N
def exit_main_v104_2 (c : Dev nD) : Buf (Elt F) ((c : Thread nD τ).loc main_v104_2) := (dat5 (fun c b => W17 m c b) c).arrAt 5 cfg5.N
def W18 (c : Dev nD) : Valuation τ sig (Elt F) := Function.update (Function.update (Function.update (W17 m c) main_v104_0 (exit_main_v104_0 m c)) main_v104_1 (exit_main_v104_1 m c)) main_v104_2 (exit_main_v104_2 m c)
def W19 (c : Dev nD) : Valuation τ sig (Elt F) := StableHlo.after hostOps6 (W18 m c)
def exit_main_v120_0 (c : Dev nD) : Buf (Elt F) ((c : Thread nD τ).loc main_v120_0) := (dat6 (fun c b => W19 m c b) c).arrAt 6 cfg6.N
def exit_main_v120_1 (c : Dev nD) : Buf (Elt F) ((c : Thread nD τ).loc main_v120_1) := (dat6 (fun c b => W19 m c b) c).arrAt 7 cfg6.N
def W20 (c : Dev nD) : Valuation τ sig (Elt F) := Function.update (Function.update (W19 m c) main_v120_0 (exit_main_v120_0 m c)) main_v120_1 (exit_main_v120_1 m c)
def outs : Gen.Outs (F := F) := fun _ r c =>
  if h : r = main_v22 then h ▸ exit_main_v22 m c
  else if h : r = main_v38_0 then h ▸ exit_main_v38_0 m c
  else if h : r = main_v38_1 then h ▸ exit_main_v38_1 m c
  else if h : r = main_v38_2 then h ▸ exit_main_v38_2 m c
  else if h : r = main_v55 then h ▸ exit_main_v55 m c
  else if h : r = main_v71_0 then h ▸ exit_main_v71_0 m c
  else if h : r = main_v71_1 then h ▸ exit_main_v71_1 m c
  else if h : r = main_v71_2 then h ▸ exit_main_v71_2 m c
  else if h : r = main_v88 then h ▸ exit_main_v88 m c
  else if h : r = main_v104_0 then h ▸ exit_main_v104_0 m c
  else if h : r = main_v104_1 then h ▸ exit_main_v104_1 m c
  else if h : r = main_v104_2 then h ▸ exit_main_v104_2 m c
  else if h : r = main_v120_0 then h ▸ exit_main_v120_0 m c
  else if h : r = main_v120_1 then h ▸ exit_main_v120_1 m c
  else m ((c : Thread nD τ).loc r)
theorem V8_eq (c : Dev nD) : Gen.V8 m (outs m) c = W8 m c := rfl
theorem V9_eq (c : Dev nD) : Gen.V9 m (outs m) c = W9 m c := by
  unfold W9; rw [← V8_eq m c]
theorem V10_eq (c : Dev nD) : Gen.V10 m (outs m) c = W10 m c := by
  unfold W10; rw [← V9_eq m c]; rfl
theorem V11_eq (c : Dev nD) : Gen.V11 m (outs m) c = W11 m c := by
  unfold W11; rw [← V10_eq m c]
theorem V12_eq (c : Dev nD) : Gen.V12 m (outs m) c = W12 m c := by
  unfold W12; rw [← V11_eq m c]; rfl
theorem V13_eq (c : Dev nD) : Gen.V13 m (outs m) c = W13 m c := by
  unfold W13; rw [← V12_eq m c]
theorem V14_eq (c : Dev nD) : Gen.V14 m (outs m) c = W14 m c := by
  unfold W14; rw [← V13_eq m c]; rfl
theorem V15_eq (c : Dev nD) : Gen.V15 m (outs m) c = W15 m c := by
  unfold W15; rw [← V14_eq m c]
theorem V16_eq (c : Dev nD) : Gen.V16 m (outs m) c = W16 m c := by
  unfold W16; rw [← V15_eq m c]; rfl
theorem V17_eq (c : Dev nD) : Gen.V17 m (outs m) c = W17 m c := by
  unfold W17; rw [← V16_eq m c]
theorem V18_eq (c : Dev nD) : Gen.V18 m (outs m) c = W18 m c := by
  unfold W18; rw [← V17_eq m c]; rfl
theorem V19_eq (c : Dev nD) : Gen.V19 m (outs m) c = W19 m c := by
  unfold W19; rw [← V18_eq m c]
theorem V20_eq (c : Dev nD) : Gen.V20 m (outs m) c = W20 m c := by
  unfold W20; rw [← V19_eq m c]; rfl

/-- Anything built from a family of valuations is the same at two families that agree core by core. -/
theorem at_entry {α : Sort _} {V V' : Dev nD → Valuation τ sig (Elt F)} (h : ∀ c, V c = V' c)
    (f : ((c : Dev nD) → (b : Ref sig .tc) → Buf (Elt F) ((c : Thread nD τ).loc b)) → α) :
    f (fun c b => V' c b) = f (fun c b => V c b) :=
  congrArg f (funext fun c => funext fun b => by rw [h])
theorem outs_main_v22 (c : Dev nD) : outs m 8 main_v22 c = (dat0 (fun c b => Gen.V7 m c b) c).arrAt 3 cfg0.N := rfl
theorem outs_main_v38_0 (c : Dev nD) : outs m 10 main_v38_0 c = (dat1 (fun c b => Gen.V9 m (outs m) c b) c).arrAt 3 cfg1.N :=
  at_entry (V9_eq m) fun V => (dat1 V c).arrAt 3 cfg1.N
theorem outs_main_v38_1 (c : Dev nD) : outs m 10 main_v38_1 c = (dat1 (fun c b => Gen.V9 m (outs m) c b) c).arrAt 4 cfg1.N :=
  at_entry (V9_eq m) fun V => (dat1 V c).arrAt 4 cfg1.N
theorem outs_main_v38_2 (c : Dev nD) : outs m 10 main_v38_2 c = (dat1 (fun c b => Gen.V9 m (outs m) c b) c).arrAt 5 cfg1.N :=
  at_entry (V9_eq m) fun V => (dat1 V c).arrAt 5 cfg1.N
theorem outs_main_v55 (c : Dev nD) : outs m 12 main_v55 c = (dat2 (fun c b => Gen.V11 m (outs m) c b) c).arrAt 7 cfg2.N :=
  at_entry (V11_eq m) fun V => (dat2 V c).arrAt 7 cfg2.N
theorem outs_main_v71_0 (c : Dev nD) : outs m 14 main_v71_0 c = (dat3 (fun c b => Gen.V13 m (outs m) c b) c).arrAt 3 cfg3.N :=
  at_entry (V13_eq m) fun V => (dat3 V c).arrAt 3 cfg3.N
theorem outs_main_v71_1 (c : Dev nD) : outs m 14 main_v71_1 c = (dat3 (fun c b => Gen.V13 m (outs m) c b) c).arrAt 4 cfg3.N :=
  at_entry (V13_eq m) fun V => (dat3 V c).arrAt 4 cfg3.N
theorem outs_main_v71_2 (c : Dev nD) : outs m 14 main_v71_2 c = (dat3 (fun c b => Gen.V13 m (outs m) c b) c).arrAt 5 cfg3.N :=
  at_entry (V13_eq m) fun V => (dat3 V c).arrAt 5 cfg3.N
theorem outs_main_v88 (c : Dev nD) : outs m 16 main_v88 c = (dat4 (fun c b => Gen.V15 m (outs m) c b) c).arrAt 7 cfg4.N :=
  at_entry (V15_eq m) fun V => (dat4 V c).arrAt 7 cfg4.N
theorem outs_main_v104_0 (c : Dev nD) : outs m 18 main_v104_0 c = (dat5 (fun c b => Gen.V17 m (outs m) c b) c).arrAt 3 cfg5.N :=
  at_entry (V17_eq m) fun V => (dat5 V c).arrAt 3 cfg5.N
theorem outs_main_v104_1 (c : Dev nD) : outs m 18 main_v104_1 c = (dat5 (fun c b => Gen.V17 m (outs m) c b) c).arrAt 4 cfg5.N :=
  at_entry (V17_eq m) fun V => (dat5 V c).arrAt 4 cfg5.N
theorem outs_main_v104_2 (c : Dev nD) : outs m 18 main_v104_2 c = (dat5 (fun c b => Gen.V17 m (outs m) c b) c).arrAt 5 cfg5.N :=
  at_entry (V17_eq m) fun V => (dat5 V c).arrAt 5 cfg5.N
theorem outs_main_v120_0 (c : Dev nD) : outs m 20 main_v120_0 c = (dat6 (fun c b => Gen.V19 m (outs m) c b) c).arrAt 6 cfg6.N :=
  at_entry (V19_eq m) fun V => (dat6 V c).arrAt 6 cfg6.N
theorem outs_main_v120_1 (c : Dev nD) : outs m 20 main_v120_1 c = (dat6 (fun c b => Gen.V19 m (outs m) c b) c).arrAt 7 cfg6.N :=
  at_entry (V19_eq m) fun V => (dat6 V c).arrAt 7 cfg6.N

/-- A valuation updated, at each reference of a list, to a value that depends only on the reference. -/
abbrev updAll (x : (o : Ref sig .tc) → (o : DevRef τ sig).ty.Contents (Elt F)) (O : List (Ref sig .tc)) (V : Valuation τ sig (Elt F)) : Valuation τ sig (Elt F) :=
  O.foldl (fun W (o : Ref sig .tc) => Function.update W (o : DevRef τ sig) (x o)) V
/-- It holds the new value at a listed reference (or wherever the old value was already the new one), -/
theorem updAll_at (x : (o : Ref sig .tc) → (o : DevRef τ sig).ty.Contents (Elt F)) (O : List (Ref sig .tc)) (V : Valuation τ sig (Elt F)) {o : Ref sig .tc}
    (h : o ∈ O ∨ V o = x o) : updAll x O V o = x o := by
  induction O generalizing V with
  | nil => exact h.resolve_left List.not_mem_nil
  | cons a l ih =>
    rw [updAll, List.foldl_cons]
    refine ih _ ?_
    by_cases hoa : o = a
    · subst hoa; exact Or.inr (Function.update_self ..)
    · exact h.imp (fun h => (List.mem_cons.mp h).resolve_left hoa) fun h => (Function.update_of_ne (StableHlo.devRef_ne_of_ne hoa) _ _).trans h
/-- and the old value off the list. -/
theorem updAll_off (x : (o : Ref sig .tc) → (o : DevRef τ sig).ty.Contents (Elt F)) (O : List (Ref sig .tc)) (V : Valuation τ sig (Elt F)) {b : Ref sig .tc}
    (h : b ∉ O) : updAll x O V b = V b := by
  induction O generalizing V with
  | nil => rfl
  | cons a l ih =>
    rw [updAll, List.foldl_cons]
    exact (ih _ fun hm => h (List.mem_cons_of_mem _ hm)).trans
      (Function.update_of_ne (StableHlo.devRef_ne_of_ne fun e => h (List.mem_cons.mpr (Or.inl e))) _ _)

theorem out_is0 : ∀ w : Fin 4, ¬ (cfg0.win w).isOut = false → w = 3 := by decide
theorem out_is1 : ∀ w : Fin 6, ¬ (cfg1.win w).isOut = false → w = 3 ∨ w = 4 ∨ w = 5 := by decide
theorem out_is2 : ∀ w : Fin 8, ¬ (cfg2.win w).isOut = false → w = 7 := by decide
theorem out_is3 : ∀ w : Fin 6, ¬ (cfg3.win w).isOut = false → w = 3 ∨ w = 4 ∨ w = 5 := by decide
theorem out_is4 : ∀ w : Fin 8, ¬ (cfg4.win w).isOut = false → w = 7 := by decide
theorem out_is5 : ∀ w : Fin 6, ¬ (cfg5.win w).isOut = false → w = 3 ∨ w = 4 ∨ w = 5 := by decide
theorem out_is6 : ∀ w : Fin 8, ¬ (cfg6.win w).isOut = false → w = 6 ∨ w = 7 := by decide

def pdats : (p : Fin 7) → (c : Dev nD) → Dat τ (Elt F) Unit ℕ (UR sig nD τ) ℕ (cfgs p) c
  | ⟨0, _⟩ => fun c => dat0 (fun c b => Gen.V7 m c b) c
  | ⟨1, _⟩ => fun c => dat1 (fun c b => Gen.V9 m (outs m) c b) c
  | ⟨2, _⟩ => fun c => dat2 (fun c b => Gen.V11 m (outs m) c b) c
  | ⟨3, _⟩ => fun c => dat3 (fun c b => Gen.V13 m (outs m) c b) c
  | ⟨4, _⟩ => fun c => dat4 (fun c b => Gen.V15 m (outs m) c b) c
  | ⟨5, _⟩ => fun c => dat5 (fun c b => Gen.V17 m (outs m) c b) c
  | ⟨6, _⟩ => fun c => dat6 (fun c b => Gen.V19 m (outs m) c b) c
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 8 → Dev nD → sProp 𝕄 := fun _ c => R c

/-- A family of valuations as a family of buffers indexed by core and reference. -/
abbrev ent (V : Dev nD → Valuation τ sig (Elt F)) (c : Dev nD) (b : Ref sig .tc) : Buf (Elt F) ((c : Thread nD τ).loc b) := V c b
abbrev Reg (p : Fin 7) := Pipeline.RegionSeg (pcfgs (F := F)) Gen.adm (pdats m) () defs₀ Variants.none L lv p

set_option backward.isDefEq.respectTransparency.types false in
/-- One region's record from its proof data: entered at `V`, left at `V` updated at the outputs `O`, each to its window's last array. -/
def mkReg (p : Fin 7) (lf : Pipeline.LaunchFacts (nD := nD) (τ := τ) cfgs p) (V : Dev nD → Valuation τ sig (Elt F)) (J : ℕ) (O : List (Ref sig .tc))
    (hb : ∀ c, BodyObligation (pdats m p c) (defs₀ (F := F)) Variants.none () Set.univ)
    (hA : ∀ c w, (pdats m p c).A w = V c (Pipeline.arrRef (cfgs p).spec w))
    (hq : ∀ c w, (pdats m p c).q w = fullShare)
    (howed : ∀ c t, (pdats m p c).owed t = 0) (hrec : ∀ c, (pdats m p c).recorded 0 = Set.univ)
    (h0 : ∀ c, (Pipeline.ΦA (cfgs p).spec c : sProp 𝕄) ⊢ (pdats m p c).Φ 0)
    (hN : ∀ c, (pdats m p c).Φ (Fin.last (cfgs p).N) ⊢ (Pipeline.ΦA (cfgs p).spec c : sProp 𝕄))
    (hio : ∀ w, ((cfgs p).win w).isOut = false → Pipeline.arrRef (cfgs p).spec w ∉ O)
    (hO : ∀ r ∈ O, ∃ w, Pipeline.arrRef (cfgs p).spec w = r)
    (hoi : ∀ w, ¬ ((cfgs p).win w).isOut = false → Pipeline.arrRef (cfgs p).spec w ∈ O)
    (ho : ∀ c w, ¬ ((cfgs p).win w).isOut = false → (pdats m p c).arrAt w (cfgs p).N = outs m J (Pipeline.arrRef (cfgs p).spec w) c) :
    Reg m p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (updAll (outs m J · c) O (V c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) Gen.adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m p c).owed 0 = 0 from howed c 0]
      icases HO with ⟨%W, HO⟩; iexists W; isplitr; · ipureintro; exact fun x _ => Or.inl ((hrec c).symm ▸ Set.mem_univ x)
      iexact HO
    isplitl [Hp]; · iexact Hp
    iexact Hrest
  hin c := by
    refine BIBase.Entails.trans ?_ (h0 c)
    unfold Pipeline.ΦA
    iintro ⟨Hp, -, Hr⟩
    isplitl [Hr]; · iexact Hr
    iexact Hp
  hout c := by
    refine (hN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => V c b) (fun b => updAll (outs m J · c) O (V c) b) ((pdats m p c).arrAt · (cfgs p).N)
      (fun w => if hw : ((cfgs p).win w).isOut = false
        then ((pdats m p c).arrAt_in w hw _).trans ((hA c w).trans (updAll_off (outs m J · c) O _ (hio w hw)).symm)
        else (ho c w hw).trans (updAll_at (outs m J · c) O _ (Or.inl (hoi w hw))).symm)
      fun b hb => updAll_off (outs m J · c) O _ fun hm => hb (let ⟨w, h⟩ := hO b hm; Finset.mem_image.mpr ⟨w, Finset.mem_univ _, h⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m p c).owed (Fin.last (Pipeline.pin (pcfgs (F := F)) Gen.adm p).N) = 0 from howed c _]
    icases HO with ⟨%W, -, HO⟩; iexists W; iexact HO

def reg0 : Reg m 0 :=
  let e := ent (Gen.V7 m)
  mkReg m 0 launch0 (Gen.V7 m) 8 [main_v22] (body_obligation0 e) (A_eq0 e) (q_eq0 e) (owed_eq0 e) (fun _ => rfl) (hin0 e) (hout0 e)
    (by decide) (by decide) (by decide) fun c w hw => by
    rcases out_is0 w hw with rfl
    exacts [(outs_main_v22 m c).symm]

def reg1 : Reg m 1 :=
  let e := ent (Gen.V9 m (outs m))
  mkReg m 1 launch1 (Gen.V9 m (outs m)) 10 [main_v38_0, main_v38_1, main_v38_2] (body_obligation1 e) (A_eq1 e) (q_eq1 e) (owed_eq1 e) (fun _ => rfl) (hin1 e) (hout1 e)
    (by decide) (by decide) (by decide) fun c w hw => by
    rcases out_is1 w hw with rfl | rfl | rfl
    exacts [(outs_main_v38_0 m c).symm, (outs_main_v38_1 m c).symm, (outs_main_v38_2 m c).symm]

def reg2 : Reg m 2 :=
  let e := ent (Gen.V11 m (outs m))
  mkReg m 2 launch2 (Gen.V11 m (outs m)) 12 [main_v55] (body_obligation2 e) (A_eq2 e) (q_eq2 e) (owed_eq2 e) (fun _ => rfl) (hin2 e) (hout2 e)
    (by decide) (by decide) (by decide) fun c w hw => by
    rcases out_is2 w hw with rfl
    exacts [(outs_main_v55 m c).symm]

def reg3 : Reg m 3 :=
  let e := ent (Gen.V13 m (outs m))
  mkReg m 3 launch3 (Gen.V13 m (outs m)) 14 [main_v71_0, main_v71_1, main_v71_2] (body_obligation3 e) (A_eq3 e) (q_eq3 e) (owed_eq3 e) (fun _ => rfl) (hin3 e) (hout3 e)
    (by decide) (by decide) (by decide) fun c w hw => by
    rcases out_is3 w hw with rfl | rfl | rfl
    exacts [(outs_main_v71_0 m c).symm, (outs_main_v71_1 m c).symm, (outs_main_v71_2 m c).symm]

def reg4 : Reg m 4 :=
  let e := ent (Gen.V15 m (outs m))
  mkReg m 4 launch4 (Gen.V15 m (outs m)) 16 [main_v88] (body_obligation4 e) (A_eq4 e) (q_eq4 e) (owed_eq4 e) (fun _ => rfl) (hin4 e) (hout4 e)
    (by decide) (by decide) (by decide) fun c w hw => by
    rcases out_is4 w hw with rfl
    exacts [(outs_main_v88 m c).symm]

def reg5 : Reg m 5 :=
  let e := ent (Gen.V17 m (outs m))
  mkReg m 5 launch5 (Gen.V17 m (outs m)) 18 [main_v104_0, main_v104_1, main_v104_2] (body_obligation5 e) (A_eq5 e) (q_eq5 e) (owed_eq5 e) (fun _ => rfl) (hin5 e) (hout5 e)
    (by decide) (by decide) (by decide) fun c w hw => by
    rcases out_is5 w hw with rfl | rfl | rfl
    exacts [(outs_main_v104_0 m c).symm, (outs_main_v104_1 m c).symm, (outs_main_v104_2 m c).symm]

def reg6 : Reg m 6 :=
  let e := ent (Gen.V19 m (outs m))
  mkReg m 6 launch6 (Gen.V19 m (outs m)) 20 [main_v120_0, main_v120_1] (body_obligation6 e) (A_eq6 e) (q_eq6 e) (owed_eq6 e) (fun _ => rfl) (hin6 e) (hout6 e)
    (by decide) (by decide) (by decide) fun c w hw => by
    rcases out_is6 w hw with rfl | rfl
    exacts [(outs_main_v120_0 m c).symm, (outs_main_v120_1 m c).symm]

abbrev u₀ : UR sig nD τ := initOf (Pipeline.cells cfgs cellOf_inj) (Pipeline.launchToks cfgs cellOf_inj)

theorem hu₀ : (ownU (u₀) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE7 (c : Dev nD) : E (F := F) 7 c ⊢ (iprop(∃ W, owes (c : Thread nD τ) (0 : CellTallies nD τ sig Unit) W) : sProp 𝕄) := by
  iintro ⟨-, HO⟩; iexact HO

set_option backward.isDefEq.respectTransparency.types false in
theorem run_named : θ_run defs (onTc (τ := τ) (main (F := F))) ⟨m, fun _ => 0, ρ⟩ (fun r => ∀ c : Dev nD,
      r.2.mem ((c.tc : Thread nD τ).loc main_v125) = Gen.V21 m (outs m) c main_v125
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m) (reg2 m) (reg3 m) (reg4 m) (reg5 m) (reg6 m))
    (fun c Q => by
      rewrite [main_chain c, Pipeline.Seg.run_eq_chain,
        show ((Gen.segs m (outs m) Variants.none L lv E () (pdats m) (reg0 m) (reg1 m) (reg2 m) (reg3 m) (reg4 m) (reg5 m) (reg6 m)) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [Gen.segs, Pipeline.Seg.pipes_host, Pipeline.Seg.pipes_region, Pipeline.Seg.pipes_nil]; decide) 0 (fun _ _ => rfl) (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => s.mem ((c.tc : Thread nD τ).loc main_v125) = Gen.V21 m (outs m) c main_v125
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V21 m (outs m) c) s') $$ [Hh HSI]
    · isplitl [Hh] <;> iassumption
    icases Hr with ⟨%h, HSI⟩
    imodintro
    isplitr
    · ipureintro
      have rd (b : Ref sig .tc) (hb : ¬ (Proc.devRef .tc b : DevRef τ sig).isScoped) := h _ (Finset.mem_filter.mpr ⟨StableHlo.devRef_mem_tcRefs b, hb⟩)
      exact ⟨rd main_v125 (by decide), (rd main_arg0 (by decide)).trans (Gen.V21_main_arg0 m (outs m) c), (rd main_arg1 (by decide)).trans (Gen.V21_main_arg1 m (outs m) c),
        (rd main_arg2 (by decide)).trans (Gen.V21_main_arg2 m (outs m) c), (rd main_arg3 (by decide)).trans (Gen.V21_main_arg3 m (outs m) c), (rd main_arg4 (by decide)).trans (Gen.V21_main_arg4 m (outs m) c),
        (rd main_arg5 (by decide)).trans (Gen.V21_main_arg5 m (outs m) c), (rd main_arg6 (by decide)).trans (Gen.V21_main_arg6 m (outs m) c), (rd main_arg7 (by decide)).trans (Gen.V21_main_arg7 m (outs m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

/-- info: 'Cert.Kernel.Hand.run_named' depends on axioms: [propext, Classical.choice, Quot.sound] -/
#guard_msgs in #print axioms run_named
/-- info: 'Cert.Kernel.Hand.frame' depends on axioms: [propext, Classical.choice, Quot.sound] -/
#guard_msgs in #print axioms frame

end Cert.Kernel.Hand

end
-- ==== Proof.KI.Reg0.lean ====
import proofs.«412548_j82308753260928_3_alg».proof.Proof.Gen.KernelIdeal.Launch
import proofs.«412548_j82308753260928_3_alg».proof.Proof.Gen.KernelIdeal.Skeleton
import proofs.«412548_j82308753260928_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rCol0 : Rect S5000x1 := Rect.unit (s := S5000x1) ![0, 0] S5000x1.size inb_S5000x1_S5000x1_0_0
abbrev rTab0 : Rect S30x128 := Rect.unit (s := S30x128) ![0, 0] S30x128.size inb_S30x128_S30x128_0_0
abbrev rOut0 : Rect S5000x128 := Rect.unit (s := S5000x128) ![0, 0] S5000x128.size inb_S5000x128_S5000x128_0_0

def embedOut0 (ids : Vec F S5000x1 .i32) (tab : Vec F S30x128 .f32) (col : Vec F S5000x1 .f32) : Vec F S5000x128 .f32 :=
  View.canon [⟨rOut0, k0_pay1 (View.ld ids rCol0) (View.ld tab rTab0) (View.ld col rCol0)⟩]

theorem embedCover0 (p0 : Vec F S5000x128 .f32) (y : S5000x128.Idx) :
    ∃ pc ∈ ([⟨rOut0, p0⟩] : List (View.Piece (Elt F) S5000x128 .f32)), y ∈ pc.1.set :=
  View.cover_of_tiled [⟨rOut0, p0⟩] S5000x128.size (by rfl) y

set_option maxHeartbeats 1000000 in
theorem sound_embed0 (c : Dev nD) (E : Set ℕ) (i : grid0.Coords)
    (arg1 : Memref sig .tc .vmem S5000x1 .i32) (harg1 : arg1.IsWhole) (arg2 : Memref sig .tc .vmem S30x128 .f32) (harg2 : arg2.IsWhole)
    (arg3 : Memref sig .tc .vmem S5000x1 .f32) (harg3 : arg3.IsWhole) (arg4 : Memref sig .tc .vmem S5000x128 .f32) (harg4 : arg4.IsWhole)
    (ids : Vec F S5000x1 .i32) (tab : Vec F S30x128 .f32) (col : Vec F S5000x1 .f32) (K : PUnit → sProp 𝕄) :
    iprop(owns (c : Thread nD τ) arg1 fullShare ids ∗ owns (c : Thread nD τ) arg2 fullShare tab ∗ owns (c : Thread nD τ) arg3 fullShare col
        ∗ (∃ d, owns (c : Thread nD τ) arg4 fullShare d)
        ∗ (iprop(owns (c : Thread nD τ) arg1 fullShare ids ∗ owns (c : Thread nD τ) arg2 fullShare tab ∗ owns (c : Thread nD τ) arg3 fullShare col
            ∗ owns (c : Thread nD τ) arg4 fullShare (embedOut0 ids tab col)) -∗ K ⟨⟩))
      ⊢ wp frame (wpE (defs₀ (F := F)) Variants.none c none) E (cc0__embed_lin_kernel i arg1 harg1 arg2 harg2 arg3 harg3 arg4 harg4) K := by
  simp only [cc0__embed_lin_kernel_eq_skeleton]; unfold cc0__embed_lin_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (embedCover0 _)

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => embedOut0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = embedOut0 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_embed0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Hand

end
-- ==== Proof.KI.RS.lean ====
import proofs.«412548_j82308753260928_3_alg».proof.Proof.Gen.KernelIdeal.Launch
import proofs.«412548_j82308753260928_3_alg».proof.Proof.Gen.KernelIdeal.Skeleton
import proofs.«412548_j82308753260928_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem zeros_two : (![0, 0] : Fin 2 → ℕ) = fun _ => 0 := by
  funext a
  match a with
  | ⟨0, _⟩ => rfl
  | ⟨1, _⟩ => rfl
theorem read_store_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e
theorem load_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) :
    (v.readAt Val (Rect.unit off S.size inb).toLoadRect f : S.Idx → Val e) = v.read Val f := by
  subst h; funext x
  show v.read Val f ((Rect.whole S).emb x) = v.read Val f x
  rw [Rect.emb_whole_apply]
abbrev condF (i : grid1.Coords) : Prop := (Scalar.cmpi .ne (Scalar.extui (Scalar.cmpi .eq (BitVec.ofNat 32 (i 0).val) 0#32)) 0#32) = 1#1
theorem hcondF : ∀ t : Fin cfg1.N, condF (grid1.coords t) ↔ t.val = 0 :=
  (by decide +kernel : ∀ t : Fin grid1.N, condF (grid1.coords t) ↔ t.val = 0)
abbrev condL (i : grid1.Coords) : Prop := k1_cond2 i = 1#1
theorem hcondL : ∀ t : Fin cfg1.N, condL (grid1.coords t) ↔ t.val = 9 :=
  (by decide +kernel : ∀ t : Fin grid1.N, condL (grid1.coords t) ↔ t.val = 9)
local macro "store_reads" : tactic =>
  `(tactic| (sl_unfold_run_names; simp only [read_store_whole (S := S5000x128) _ _ zeros_two, read_store_whole (S := S1x128) _ _ zeros_two,
                load_whole (S := S5000x128) _ _ zeros_two, load_whole (S := S5000x1) _ _ zeros_two, load_whole (S := S1x128) _ _ zeros_two,
                Memref.IsWhole.read_unread, View.readCov_cons_toLoadRect]))
-- Middle grid point: the running sums grow by this block's column sums.
set_option maxHeartbeats 1000000 in
theorem pointB (c : Dev nD) (i : grid1.Coords)
    (m0 : Memref sig .tc .vmem S5000x128 .f32) (h0 : m0.IsWhole) (m1 : Memref sig .tc .vmem S5000x1 .f32) (h1 : m1.IsWhole)
    (m2 : Memref sig .tc .vmem S1x128 .f32) (h2 : m2.IsWhole) (m3 : Memref sig .tc .vmem S5000x128 .f32) (h3 : m3.IsWhole)
    (m4 : Memref sig .tc .vmem S1x128 .f32) (h4 : m4.IsWhole) (m5 : Memref sig .tc .vmem S1x128 .f32) (h5 : m5.IsWhole)
    (s0 : Memref sig .tc .vmem S1x128 .f32) (hs0 : s0.IsWhole) (s1 : Memref sig .tc .vmem S1x128 .f32) (hs1 : s1.IsWhole)
    (hc0 : ¬condF i) (hc1 : ¬condL i)
    (x0 : Vec F S5000x128 .f32) (x1 : Vec F S5000x1 .f32) (x2 : Vec F S1x128 .f32) (xs0 xs1 : Vec F S1x128 .f32)
    {β0 β1 β2 α3 α4 α5 : Type} (g3 : α3 → Vec F S5000x128 .f32) (g4 : α4 → Vec F S1x128 .f32) (g5 : α5 → Vec F S1x128 .f32)
    (Rr G O : sProp 𝕄) :
    iprop(iprop(iprop(iprop(owns (c : Thread nD τ) s0 fullShare xs0 ∗ owns (c : Thread nD τ) s1 fullShare xs1) ∗ Rr) ∗ G) ∗ O
        ∗ (∃ _d : β0, owns (c : Thread nD τ) m0 fullShare x0) ∗ (∃ _d : β1, owns (c : Thread nD τ) m1 fullShare x1) ∗ (∃ _d : β2, owns (c : Thread nD τ) m2 fullShare x2)
        ∗ (∃ d, owns (c : Thread nD τ) m3 fullShare (g3 d)) ∗ (∃ d, owns (c : Thread nD τ) m4 fullShare (g4 d)) ∗ (∃ d, owns (c : Thread nD τ) m5 fullShare (g5 d)))
      ⊢ wp frame (wpE (defs₀ (F := F)) Variants.none c none) Set.univ (cc1__relu_stats_kernel i m0 h0 m1 h1 m2 h2 m3 h3 m4 h4 m5 h5 s0 hs0 s1 hs1)
        (fun _ => iprop(iprop(iprop(iprop(owns (c : Thread nD τ) s0 fullShare (k1_pay4 x1 x0 x2 xs0) ∗ owns (c : Thread nD τ) s1 fullShare (k1_pay5 x1 x0 x2 xs1)) ∗ Rr) ∗ G) ∗ O
          ∗ owns (c : Thread nD τ) m0 fullShare x0 ∗ owns (c : Thread nD τ) m1 fullShare x1 ∗ owns (c : Thread nD τ) m2 fullShare x2 ∗ owns (c : Thread nD τ) m3 fullShare (k1_pay3 x1 x0 x2)
          ∗ (∃ d, owns (c : Thread nD τ) m4 fullShare (g4 d)) ∗ (∃ d, owns (c : Thread nD τ) m5 fullShare (g5 d)))) := by
  simp only [cc1__relu_stats_kernel_eq_skeleton]; unfold cc1__relu_stats_kernel_skel
  unfold owns
  iintro ⟨⟨⟨⟨⟨%fs0, %hfs0, HS0⟩, ⟨%fs1, %hfs1, HS1⟩⟩, HR⟩, Hg⟩, Ho, ⟨%_, %f0, %hf0, H0⟩, ⟨%_, %f1, %hf1, H1⟩, ⟨%_, %f2, %hf2, H2⟩, ⟨%d3, %f3, -, H3⟩, ⟨%d4, %f4, %hf4, H4⟩, ⟨%d5, %f5, %hf5, H5⟩⟩
  obtain rfl := h0.eq_unread hf0; obtain rfl := h1.eq_unread hf1; obtain rfl := h2.eq_unread hf2
  obtain rfl := h4.eq_unread hf4; obtain rfl := h5.eq_unread hf5
  obtain rfl := hs0.eq_unread hfs0; obtain rfl := hs1.eq_unread hfs1
  sl_exec (disch := first | exact hc0 | exact hc1)
  sl_step
  isplitl [HS0 HS1 HR Hg]
  · isplitl [HS0 HS1 HR]
    · isplitl [HS0 HS1]
      · isplitl [HS0]
        · iexists _; isplitr; swap; · iexact HS0
          ipureintro; store_reads
        · iexists _; isplitr; swap; · iexact HS1
          ipureintro; store_reads
      · iexact HR
    · iexact Hg
  isplitl [Ho]; · iexact Ho
  isplitl [H0]
  · iexists _; isplitr; swap; · iexact H0
    ipureintro; store_reads
  isplitl [H1]
  · iexists _; isplitr; swap; · iexact H1
    ipureintro; store_reads
  isplitl [H2]
  · iexists _; isplitr; swap; · iexact H2
    ipureintro; store_reads
  isplitl [H3]
  · iexists _; isplitr; swap; · iexact H3
    ipureintro; store_reads
  isplitl [H4]
  · iexists d4; iexists _; isplitr; swap; · iexact H4
    ipureintro; store_reads
  iexists d5; iexists _; isplitr; swap; · iexact H5
  ipureintro; store_reads
-- First grid point: both running sums restart from zero and take this block's column sums of the rectified values and of their squares.
set_option maxHeartbeats 1000000 in
theorem pointA (c : Dev nD) (i : grid1.Coords)
    (m0 : Memref sig .tc .vmem S5000x128 .f32) (h0 : m0.IsWhole) (m1 : Memref sig .tc .vmem S5000x1 .f32) (h1 : m1.IsWhole)
    (m2 : Memref sig .tc .vmem S1x128 .f32) (h2 : m2.IsWhole) (m3 : Memref sig .tc .vmem S5000x128 .f32) (h3 : m3.IsWhole)
    (m4 : Memref sig .tc .vmem S1x128 .f32) (h4 : m4.IsWhole) (m5 : Memref sig .tc .vmem S1x128 .f32) (h5 : m5.IsWhole)
    (s0 : Memref sig .tc .vmem S1x128 .f32) (hs0 : s0.IsWhole) (s1 : Memref sig .tc .vmem S1x128 .f32) (hs1 : s1.IsWhole)
    (hc0 : condF i) (hc1 : ¬condL i)
    (x0 : Vec F S5000x128 .f32) (x1 : Vec F S5000x1 .f32) (x2 : Vec F S1x128 .f32)
    {β0 β1 β2 α3 α4 α5 : Type} (g3 : α3 → Vec F S5000x128 .f32) (g4 : α4 → Vec F S1x128 .f32) (g5 : α5 → Vec F S1x128 .f32)
    (Rr G O : sProp 𝕄) :
    iprop(iprop(iprop(iprop((∃ d, owns (c : Thread nD τ) s0 fullShare d) ∗ (∃ d, owns (c : Thread nD τ) s1 fullShare d)) ∗ Rr) ∗ G) ∗ O
        ∗ (∃ _d : β0, owns (c : Thread nD τ) m0 fullShare x0) ∗ (∃ _d : β1, owns (c : Thread nD τ) m1 fullShare x1) ∗ (∃ _d : β2, owns (c : Thread nD τ) m2 fullShare x2)
        ∗ (∃ d, owns (c : Thread nD τ) m3 fullShare (g3 d)) ∗ (∃ d, owns (c : Thread nD τ) m4 fullShare (g4 d)) ∗ (∃ d, owns (c : Thread nD τ) m5 fullShare (g5 d)))
      ⊢ wp frame (wpE (defs₀ (F := F)) Variants.none c none) Set.univ (cc1__relu_stats_kernel i m0 h0 m1 h1 m2 h2 m3 h3 m4 h4 m5 h5 s0 hs0 s1 hs1)
        (fun _ => iprop(iprop(iprop(iprop(owns (c : Thread nD τ) s0 fullShare (k1_pay4 x1 x0 x2 (k1_pay1 (F := F))) ∗ owns (c : Thread nD τ) s1 fullShare (k1_pay5 x1 x0 x2 (k1_pay2 (F := F)))) ∗ Rr) ∗ G) ∗ O
          ∗ owns (c : Thread nD τ) m0 fullShare x0 ∗ owns (c : Thread nD τ) m1 fullShare x1 ∗ owns (c : Thread nD τ) m2 fullShare x2 ∗ owns (c : Thread nD τ) m3 fullShare (k1_pay3 x1 x0 x2)
          ∗ (∃ d, owns (c : Thread nD τ) m4 fullShare (g4 d)) ∗ (∃ d, owns (c : Thread nD τ) m5 fullShare (g5 d)))) := by
  simp only [cc1__relu_stats_kernel_eq_skeleton]; unfold cc1__relu_stats_kernel_skel
  unfold owns
  iintro ⟨⟨⟨⟨⟨%ds0, %fs0, -, HS0⟩, ⟨%ds1, %fs1, -, HS1⟩⟩, HR⟩, Hg⟩, Ho, ⟨%_, %f0, %hf0, H0⟩, ⟨%_, %f1, %hf1, H1⟩, ⟨%_, %f2, %hf2, H2⟩, ⟨%d3, %f3, -, H3⟩, ⟨%d4, %f4, %hf4, H4⟩, ⟨%d5, %f5, %hf5, H5⟩⟩
  obtain rfl := h0.eq_unread hf0; obtain rfl := h1.eq_unread hf1; obtain rfl := h2.eq_unread hf2
  obtain rfl := h4.eq_unread hf4; obtain rfl := h5.eq_unread hf5
  sl_exec (disch := first | exact hc0 | exact hc1)
  sl_step
  isplitl [HS0 HS1 HR Hg]
  · isplitl [HS0 HS1 HR]
    · isplitl [HS0 HS1]
      · isplitl [HS0]
        · iexists _; isplitr; swap; · iexact HS0
          ipureintro; store_reads
        · iexists _; isplitr; swap; · iexact HS1
          ipureintro; store_reads
      · iexact HR
    · iexact Hg
  isplitl [Ho]; · iexact Ho
  isplitl [H0]
  · iexists _; isplitr; swap; · iexact H0
    ipureintro; store_reads
  isplitl [H1]
  · iexists _; isplitr; swap; · iexact H1
    ipureintro; store_reads
  isplitl [H2]
  · iexists _; isplitr; swap; · iexact H2
    ipureintro; store_reads
  isplitl [H3]
  · iexists _; isplitr; swap; · iexact H3
    ipureintro; store_reads
  isplitl [H4]
  · iexists d4; iexists _; isplitr; swap; · iexact H4
    ipureintro; store_reads
  iexists d5; iexists _; isplitr; swap; · iexact H5
  ipureintro; store_reads
-- Last grid point: the running sums are also the two statistics results.
set_option maxHeartbeats 1000000 in
theorem pointC (c : Dev nD) (i : grid1.Coords)
    (m0 : Memref sig .tc .vmem S5000x128 .f32) (h0 : m0.IsWhole) (m1 : Memref sig .tc .vmem S5000x1 .f32) (h1 : m1.IsWhole)
    (m2 : Memref sig .tc .vmem S1x128 .f32) (h2 : m2.IsWhole) (m3 : Memref sig .tc .vmem S5000x128 .f32) (h3 : m3.IsWhole)
    (m4 : Memref sig .tc .vmem S1x128 .f32) (h4 : m4.IsWhole) (m5 : Memref sig .tc .vmem S1x128 .f32) (h5 : m5.IsWhole)
    (s0 : Memref sig .tc .vmem S1x128 .f32) (hs0 : s0.IsWhole) (s1 : Memref sig .tc .vmem S1x128 .f32) (hs1 : s1.IsWhole)
    (hc0 : ¬condF i) (hc1 : condL i)
    (x0 : Vec F S5000x128 .f32) (x1 : Vec F S5000x1 .f32) (x2 : Vec F S1x128 .f32) (xs0 xs1 : Vec F S1x128 .f32)
    {β0 β1 β2 α3 α4 α5 : Type} (g3 : α3 → Vec F S5000x128 .f32) (g4 : α4 → Vec F S1x128 .f32) (g5 : α5 → Vec F S1x128 .f32)
    (Rr G O : sProp 𝕄) :
    iprop(iprop(iprop(iprop(owns (c : Thread nD τ) s0 fullShare xs0 ∗ owns (c : Thread nD τ) s1 fullShare xs1) ∗ Rr) ∗ G) ∗ O
        ∗ (∃ _d : β0, owns (c : Thread nD τ) m0 fullShare x0) ∗ (∃ _d : β1, owns (c : Thread nD τ) m1 fullShare x1) ∗ (∃ _d : β2, owns (c : Thread nD τ) m2 fullShare x2)
        ∗ (∃ d, owns (c : Thread nD τ) m3 fullShare (g3 d)) ∗ (∃ d, owns (c : Thread nD τ) m4 fullShare (g4 d)) ∗ (∃ d, owns (c : Thread nD τ) m5 fullShare (g5 d)))
      ⊢ wp frame (wpE (defs₀ (F := F)) Variants.none c none) Set.univ (cc1__relu_stats_kernel i m0 h0 m1 h1 m2 h2 m3 h3 m4 h4 m5 h5 s0 hs0 s1 hs1)
        (fun _ => iprop(iprop(iprop(iprop(owns (c : Thread nD τ) s0 fullShare (k1_pay4 x1 x0 x2 xs0) ∗ owns (c : Thread nD τ) s1 fullShare (k1_pay5 x1 x0 x2 xs1)) ∗ Rr) ∗ G) ∗ O
          ∗ owns (c : Thread nD τ) m0 fullShare x0 ∗ owns (c : Thread nD τ) m1 fullShare x1 ∗ owns (c : Thread nD τ) m2 fullShare x2 ∗ owns (c : Thread nD τ) m3 fullShare (k1_pay3 x1 x0 x2)
          ∗ owns (c : Thread nD τ) m4 fullShare (k1_pay4 x1 x0 x2 xs0) ∗ owns (c : Thread nD τ) m5 fullShare (k1_pay5 x1 x0 x2 xs1))) := by
  simp only [cc1__relu_stats_kernel_eq_skeleton]; unfold cc1__relu_stats_kernel_skel
  unfold owns
  iintro ⟨⟨⟨⟨⟨%fs0, %hfs0, HS0⟩, ⟨%fs1, %hfs1, HS1⟩⟩, HR⟩, Hg⟩, Ho, ⟨%_, %f0, %hf0, H0⟩, ⟨%_, %f1, %hf1, H1⟩, ⟨%_, %f2, %hf2, H2⟩, ⟨%d3, %f3, -, H3⟩, ⟨%d4, %f4, -, H4⟩, ⟨%d5, %f5, -, H5⟩⟩
  obtain rfl := h0.eq_unread hf0; obtain rfl := h1.eq_unread hf1; obtain rfl := h2.eq_unread hf2
  obtain rfl := hs0.eq_unread hfs0; obtain rfl := hs1.eq_unread hfs1
  sl_exec (disch := first | exact hc0 | exact hc1)
  sl_step
  isplitl [HS0 HS1 HR Hg]
  · isplitl [HS0 HS1 HR]
    · isplitl [HS0 HS1]
      · isplitl [HS0]
        · iexists _; isplitr; swap; · iexact HS0
          ipureintro; store_reads
        · iexists _; isplitr; swap; · iexact HS1
          ipureintro; store_reads
      · iexact HR
    · iexact Hg
  isplitl [Ho]; · iexact Ho
  isplitl [H0]
  · iexists _; isplitr; swap; · iexact H0
    ipureintro; store_reads
  isplitl [H1]
  · iexists _; isplitr; swap; · iexact H1
    ipureintro; store_reads
  isplitl [H2]
  · iexists _; isplitr; swap; · iexact H2
    ipureintro; store_reads
  isplitl [H3]
  · iexists _; isplitr; swap; · iexact H3
    ipureintro; store_reads
  isplitl [H4]
  · iexists _; isplitr; swap; · iexact H4
    ipureintro; store_reads
  iexists _; isplitr; swap; · iexact H5
  ipureintro; store_reads
end Cert.KernelIdeal.Hand
end
-- ==== Proof.KI.Reg1.lean ====
import proofs.«412548_j82308753260928_3_alg».proof.Proof.KI.RS
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem idleAt1_4 : ∀ t : Fin cfg1.N, t.val ≠ 9 → cfg1.idle 4 (grid1.coords t) = true := by decide +kernel
theorem idleAt1_5 : ∀ t : Fin cfg1.N, t.val ≠ 9 → cfg1.idle 5 (grid1.coords t) = true := by decide +kernel
theorem noFlush1_4 : ∀ t : Fin cfg1.N, t.val ≠ 9 → (cfg1.win 4).flush t = false := by decide +kernel
theorem noFlush1_5 : ∀ t : Fin cfg1.N, t.val ≠ 9 → (cfg1.win 5).flush t = false := by decide +kernel
theorem liveAt1_4 : ∀ t : Fin cfg1.N, t.val = 9 → cfg1.idle 4 (grid1.coords t) = false := by decide +kernel
theorem liveAt1_5 : ∀ t : Fin cfg1.N, t.val = 9 → cfg1.idle 5 (grid1.coords t) = false := by decide +kernel
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev scM1_0 : Memref sig .tc .vmem S1x128 .f32 := Memref.whole cc1_scratch0
abbrev scM1_1 : Memref sig .tc .vmem S1x128 .f32 := Memref.whole cc1_scratch1
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def relu1 (c : Dev nD) (t : Fin cfg1.N) : Vec F S5000x128 .f32 :=
  k1_pay3 (iblk1 V c 1 t) (iblk1 V c 0 t) (iblk1 V c 2 t)
-- Running column sums of the rectified values (and of their squares) over blocks 0 … n.
def csum1 (c : Dev nD) : (n : ℕ) → n < cfg1.N → Vec F S1x128 .f32
  | 0, hn => k1_pay4 (iblk1 V c 1 ⟨0, hn⟩) (iblk1 V c 0 ⟨0, hn⟩) (iblk1 V c 2 ⟨0, hn⟩) (k1_pay1 (F := F))
  | n + 1, hn => k1_pay4 (iblk1 V c 1 ⟨n + 1, hn⟩) (iblk1 V c 0 ⟨n + 1, hn⟩) (iblk1 V c 2 ⟨n + 1, hn⟩) (csum1 c n (Nat.lt_of_succ_lt hn))
def csq1 (c : Dev nD) : (n : ℕ) → n < cfg1.N → Vec F S1x128 .f32
  | 0, hn => k1_pay5 (iblk1 V c 1 ⟨0, hn⟩) (iblk1 V c 0 ⟨0, hn⟩) (iblk1 V c 2 ⟨0, hn⟩) (k1_pay2 (F := F))
  | n + 1, hn => k1_pay5 (iblk1 V c 1 ⟨n + 1, hn⟩) (iblk1 V c 0 ⟨n + 1, hn⟩) (iblk1 V c 2 ⟨n + 1, hn⟩) (csq1 c n (Nat.lt_of_succ_lt hn))
theorem csum1_first (c : Dev nD) (t : Fin cfg1.N) (h : t.val = 0) :
    csum1 V c t.val t.isLt = k1_pay4 (iblk1 V c 1 t) (iblk1 V c 0 t) (iblk1 V c 2 t) (k1_pay1 (F := F)) := by
  obtain ⟨n, hn⟩ := t
  cases n with
  | zero => rfl
  | succ n => exact absurd h (Nat.succ_ne_zero n)
theorem csq1_first (c : Dev nD) (t : Fin cfg1.N) (h : t.val = 0) :
    csq1 V c t.val t.isLt = k1_pay5 (iblk1 V c 1 t) (iblk1 V c 0 t) (iblk1 V c 2 t) (k1_pay2 (F := F)) := by
  obtain ⟨n, hn⟩ := t
  cases n with
  | zero => rfl
  | succ n => exact absurd h (Nat.succ_ne_zero n)
theorem csum1_next (c : Dev nD) (t : Fin cfg1.N) (h : t.val ≠ 0) :
    csum1 V c t.val t.isLt = k1_pay4 (iblk1 V c 1 t) (iblk1 V c 0 t) (iblk1 V c 2 t)
      (csum1 V c (t.val - 1) (Nat.lt_of_le_of_lt (Nat.sub_le _ _) t.isLt)) := by
  obtain ⟨n, hn⟩ := t
  cases n with
  | zero => exact absurd rfl h
  | succ n => rfl
theorem csq1_next (c : Dev nD) (t : Fin cfg1.N) (h : t.val ≠ 0) :
    csq1 V c t.val t.isLt = k1_pay5 (iblk1 V c 1 t) (iblk1 V c 0 t) (iblk1 V c 2 t)
      (csq1 V c (t.val - 1) (Nat.lt_of_le_of_lt (Nat.sub_le _ _) t.isLt)) := by
  obtain ⟨n, hn⟩ := t
  cases n with
  | zero => exact absurd rfl h
  | succ n => rfl
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl
def PhiS1 (c : Dev nD) : (n : ℕ) → n ≤ cfg1.N → sProp 𝕄
  | 0, _ => Pipeline.ΦA spec1 c
  | n + 1, hn => iprop(iprop(iprop(owns (c : Thread nD τ) scM1_0 fullShare (csum1 V c n hn) ∗ owns (c : Thread nD τ) scM1_1 fullShare (csq1 V c n hn))
      ∗ Pipeline.scopedRestBut (Ix := Unit) (Name := ℕ) (U := UR sig nD τ) (Lvl := ℕ) (Val := Elt F) spec1 c [cc1_scratch0, cc1_scratch1])
      ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (csum1 V c n hn) ∗ owns (c : Thread nD τ) scM1_1 fullShare (csq1 V c n hn))
      ∗ Pipeline.scopedRestBut (Ix := Unit) (Name := ℕ) (U := UR sig nD τ) (Lvl := ℕ) (Val := Elt F) spec1 c [cc1_scratch0, cc1_scratch1])
      ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (csum1 V c (n - 1) (by omega)) ∗ owns (c : Thread nD τ) scM1_1 fullShare (csq1 V c (n - 1) (by omega)))
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => relu1 V c t
    | ⟨4, _⟩ => csum1 V c t.val t.isLt
    | ⟨5, _⟩ => csq1 V c t.val t.isLt
  Φ t := PhiS1 V c t.val (Nat.le_of_lt_succ t.isLt)
  q _ := fullShare
  owed _ := 0
theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = relu1 V c t := by dsimp only [dat1]
theorem after1_4 (c : Dev nD) (t : Fin cfg1.N) : (dat1 V c).after 4 t = csum1 V c t.val t.isLt := by dsimp only [dat1]
theorem after1_5 (c : Dev nD) (t : Fin cfg1.N) : (dat1 V c).after 5 t = csq1 V c t.val t.isLt := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
-- Regions 1, 3 and 5 run one kernel function: the printed functions are the same term.
private theorem bodyAt_eq (t : Fin cfg1.N) : bodyAt1 (F := F) t = cc1__relu_stats_kernel (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) := rfl
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1; rw [bodyAt_eq]
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [show cfg1.idle 0 (grid1.coords t) = false from rfl], after1_0]
  rw [show (dat1 V c).leavesExact 1 t = owns (c : Thread nD τ) (ms1_1 t) fullShare ((dat1 V c).after 1 t) from by
    unfold Dat.leavesExact; rw [show cfg1.idle 1 (grid1.coords t) = false from rfl], after1_1]
  rw [show (dat1 V c).leavesExact 2 t = owns (c : Thread nD τ) (ms1_2 t) fullShare ((dat1 V c).after 2 t) from by
    unfold Dat.leavesExact; rw [show cfg1.idle 2 (grid1.coords t) = false from rfl], after1_2]
  rw [show (dat1 V c).leavesExact 3 t = owns (c : Thread nD τ) (ms1_3 t) fullShare ((dat1 V c).after 3 t) from by
    unfold Dat.leavesExact; rw [show cfg1.idle 3 (grid1.coords t) = false from rfl], after1_3]
  unfold relu1
  by_cases h0 : t.val = 0
  · have h9 : t.val ≠ 9 := by omega
    rw [Dat.leavesExact_idle (dat1 V c) 4 t (idleAt1_4 t h9) (noFlush1_4 t h9), Dat.leavesExact_idle (dat1 V c) 5 t (idleAt1_5 t h9) (noFlush1_5 t h9),
      csum1_first V c t h0, csq1_first V c t h0, PhiS1_castSucc V c t, PhiS1_zero V c _ _ h0, PhiA1_eq]
    exact pointA c _ _ _ _ _ _ _ _ _ _ _ _ _ _ _ _ _ ((hcondF t).mpr h0) (fun h => h9 ((hcondL t).mp h)) _ _ _ _ _ _ _ _ _
  · rw [csum1_next V c t h0, csq1_next V c t h0, PhiS1_castSucc V c t, PhiS1_pos V c _ _ h0]
    by_cases h9 : t.val = 9
    · rw [show (dat1 V c).leavesExact 4 t = owns (c : Thread nD τ) (ms1_4 t) fullShare ((dat1 V c).after 4 t) from by
        unfold Dat.leavesExact; rw [liveAt1_4 t h9], after1_4,
        show (dat1 V c).leavesExact 5 t = owns (c : Thread nD τ) (ms1_5 t) fullShare ((dat1 V c).after 5 t) from by
        unfold Dat.leavesExact; rw [liveAt1_5 t h9], after1_5, csum1_next V c t h0, csq1_next V c t h0]
      exact pointC c _ _ _ _ _ _ _ _ _ _ _ _ _ _ _ _ _ (fun h => h0 ((hcondF t).mp h)) ((hcondL t).mpr h9) _ _ _ _ _ _ _ _ _ _ _
    · rw [Dat.leavesExact_idle (dat1 V c) 4 t (idleAt1_4 t h9) (noFlush1_4 t h9), Dat.leavesExact_idle (dat1 V c) 5 t (idleAt1_5 t h9) (noFlush1_5 t h9)]
      exact pointB c _ _ _ _ _ _ _ _ _ _ _ _ _ _ _ _ _ (fun h => h0 ((hcondF t).mp h)) (fun h => h9 ((hcondL t).mp h)) _ _ _ _ _ _ _ _ _ _ _
theorem body_obligation1 (c : Dev nD) : BodyObligation (dat1 (F := F) V c) (defs₀ (F := F)) Variants.none () Set.univ := fun t => by
  rw [bigSep_W1, bigSep_W1]
  exact sound_body1 V c t
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg
end Cert.KernelIdeal.Hand
end
-- ==== Proof.KI.LB.lean ====
import proofs.«412548_j82308753260928_3_alg».proof.Proof.Gen.KernelIdeal.Launch
import proofs.«412548_j82308753260928_3_alg».proof.Proof.Gen.KernelIdeal.Skeleton
import proofs.«412548_j82308753260928_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
abbrev lb_blk : Rect S5000x128 := Rect.unit (s := S5000x128) ![0, 0] S5000x128.size inb_S5000x128_S5000x128_0_0
abbrev lb_row : Rect S1x128 := Rect.unit (s := S1x128) ![0, 0] S1x128.size inb_S1x128_S1x128_0_0
abbrev lb_mat : Rect S128x128 := Rect.unit (s := S128x128) ![0, 0] S128x128.size inb_S128x128_S128x128_0_0
abbrev lb_col : Rect S5000x1 := Rect.unit (s := S5000x1) ![0, 0] S5000x1.size inb_S5000x1_S5000x1_0_0
-- The output block as one function of the seven input blocks.
def lb_out (x0 : Vec F S5000x128 .f32) (x1 x2 x3 x4 : Vec F S1x128 .f32) (x5 : Vec F S128x128 .f32) (x6 : Vec F S5000x1 .f32) : Vec F S5000x128 .f32 :=
  View.canon [⟨lb_blk, k2_pay1 (View.ld x0 lb_blk) (View.ld x1 lb_row) (View.ld x2 lb_row) (View.ld x3 lb_row) (View.ld x4 lb_row) (View.ld x5 lb_mat) (View.ld x6 lb_col)⟩]
theorem lb_cover (p0 : Vec F S5000x128 .f32) (y : S5000x128.Idx) :
    ∃ pc ∈ ([⟨lb_blk, p0⟩] : List (View.Piece (Elt F) S5000x128 .f32)), y ∈ pc.1.set :=
  View.cover_of_tiled [⟨lb_blk, p0⟩] S5000x128.size (by rfl) y
set_option maxHeartbeats 1000000 in
theorem lb_point (c : Dev nD) (i : grid2.Coords)
    (m0 : Memref sig .tc .vmem S5000x128 .f32) (h0 : m0.IsWhole) (m1 : Memref sig .tc .vmem S1x128 .f32) (h1 : m1.IsWhole) (m2 : Memref sig .tc .vmem S1x128 .f32) (h2 : m2.IsWhole) (m3 : Memref sig .tc .vmem S1x128 .f32) (h3 : m3.IsWhole)
    (m4 : Memref sig .tc .vmem S1x128 .f32) (h4 : m4.IsWhole) (m5 : Memref sig .tc .vmem S128x128 .f32) (h5 : m5.IsWhole) (m6 : Memref sig .tc .vmem S5000x1 .f32) (h6 : m6.IsWhole) (m7 : Memref sig .tc .vmem S5000x128 .f32) (h7 : m7.IsWhole)
    (x0 : Vec F S5000x128 .f32) (x1 x2 x3 x4 : Vec F S1x128 .f32) (x5 : Vec F S128x128 .f32) (x6 : Vec F S5000x1 .f32)
    {β0 β1 β2 β3 β4 β5 β6 α7 : Type} (g7 : α7 → Vec F S5000x128 .f32) (Φ O : sProp 𝕄) :
    iprop(Φ ∗ O ∗ (∃ _d : β0, owns (c : Thread nD τ) m0 fullShare x0) ∗ (∃ _d : β1, owns (c : Thread nD τ) m1 fullShare x1) ∗ (∃ _d : β2, owns (c : Thread nD τ) m2 fullShare x2) ∗ (∃ _d : β3, owns (c : Thread nD τ) m3 fullShare x3) ∗ (∃ _d : β4, owns (c : Thread nD τ) m4 fullShare x4) ∗ (∃ _d : β5, owns (c : Thread nD τ) m5 fullShare x5) ∗ (∃ _d : β6, owns (c : Thread nD τ) m6 fullShare x6) ∗ (∃ d, owns (c : Thread nD τ) m7 fullShare (g7 d)))
      ⊢ wp frame (wpE (defs₀ (F := F)) Variants.none c none) Set.univ (cc2__lin_bn_kernel i m0 h0 m1 h1 m2 h2 m3 h3 m4 h4 m5 h5 m6 h6 m7 h7)
        (fun _ => iprop(Φ ∗ O ∗ owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare (lb_out x0 x1 x2 x3 x4 x5 x6))) := by
  simp only [cc2__lin_bn_kernel_eq_skeleton]; unfold cc2__lin_bn_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%d7, %f7, -, H7⟩⟩
  subst hf0 hf1 hf2 hf3 hf4 hf5 hf6
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (lb_cover _)
end Cert.KernelIdeal.Hand
end
-- ==== Proof.KI.Reg2.lean ====
import proofs.«412548_j82308753260928_3_alg».proof.Proof.KI.LB
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t := by
  have hkeep : ∀ t, (cfg2.win 5).cut (cfg2.grid.coords t) (dat.after 5 t) = dat.blockOf 5 t := fun t => by
    rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t := by
  have hkeep : ∀ t, (cfg2.win 6).cut (cfg2.grid.coords t) (dat.after 6 t) = dat.blockOf 6 t := fun t => by
    rw [hafter]; unfold Dat.blockOf iblk2; rw [hA]; try rfl
  rw [dat.before_in_eq_fetched 6 rfl (fun _ => rfl) (fun _ _ _ => rfl) hkeep t d]
  unfold Dat.fetched Dat.blockOf iblk2; rw [hA]; try rfl
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => lb_out (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = lb_out (iblk2 V c 0 t) (iblk2 V c 1 t) (iblk2 V c 2 t) (iblk2 V c 3 t) (iblk2 V c 4 t) (iblk2 V c 5 t) (iblk2 V c 6 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
-- Regions 2 and 4 run one kernel function: the printed functions are the same term.
private theorem bodyAt_eq (t : Fin cfg2.N) : bodyAt2 (F := F) t = cc2__lin_bn_kernel (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) := rfl
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2; rw [bodyAt_eq]
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  exact lb_point c _ _ _ _ _ _ _ _ _ _ _ _ _ _ _ _ _ _ _ _ _ _ _ _ _ _ _
theorem body_obligation2 (c : Dev nD) : BodyObligation (dat2 (F := F) V c) (defs₀ (F := F)) Variants.none () Set.univ := fun t => by
  rw [bigSep_W2, bigSep_W2]
  exact sound_body2 V c t
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl
end Cert.KernelIdeal.Hand
end
-- ==== Proof.KI.Reg3.lean ====
import proofs.«412548_j82308753260928_3_alg».proof.Proof.KI.RS
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem idleAt3_4 : ∀ t : Fin cfg3.N, t.val ≠ 9 → cfg3.idle 4 (grid3.coords t) = true := by decide +kernel
theorem idleAt3_5 : ∀ t : Fin cfg3.N, t.val ≠ 9 → cfg3.idle 5 (grid3.coords t) = true := by decide +kernel
theorem noFlush3_4 : ∀ t : Fin cfg3.N, t.val ≠ 9 → (cfg3.win 4).flush t = false := by decide +kernel
theorem noFlush3_5 : ∀ t : Fin cfg3.N, t.val ≠ 9 → (cfg3.win 5).flush t = false := by decide +kernel
theorem liveAt3_4 : ∀ t : Fin cfg3.N, t.val = 9 → cfg3.idle 4 (grid3.coords t) = false := by decide +kernel
theorem liveAt3_5 : ∀ t : Fin cfg3.N, t.val = 9 → cfg3.idle 5 (grid3.coords t) = false := by decide +kernel
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev scM3_0 : Memref sig .tc .vmem S1x128 .f32 := Memref.whole cc3_scratch0
abbrev scM3_1 : Memref sig .tc .vmem S1x128 .f32 := Memref.whole cc3_scratch1
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def relu3 (c : Dev nD) (t : Fin cfg3.N) : Vec F S5000x128 .f32 :=
  k1_pay3 (iblk3 V c 1 t) (iblk3 V c 0 t) (iblk3 V c 2 t)
-- Running column sums of the rectified values (and of their squares) over blocks 0 … n.
def csum3 (c : Dev nD) : (n : ℕ) → n < cfg3.N → Vec F S1x128 .f32
  | 0, hn => k1_pay4 (iblk3 V c 1 ⟨0, hn⟩) (iblk3 V c 0 ⟨0, hn⟩) (iblk3 V c 2 ⟨0, hn⟩) (k1_pay1 (F := F))
  | n + 1, hn => k1_pay4 (iblk3 V c 1 ⟨n + 1, hn⟩) (iblk3 V c 0 ⟨n + 1, hn⟩) (iblk3 V c 2 ⟨n + 1, hn⟩) (csum3 c n (Nat.lt_of_succ_lt hn))
def csq3 (c : Dev nD) : (n : ℕ) → n < cfg3.N → Vec F S1x128 .f32
  | 0, hn => k1_pay5 (iblk3 V c 1 ⟨0, hn⟩) (iblk3 V c 0 ⟨0, hn⟩) (iblk3 V c 2 ⟨0, hn⟩) (k1_pay2 (F := F))
  | n + 1, hn => k1_pay5 (iblk3 V c 1 ⟨n + 1, hn⟩) (iblk3 V c 0 ⟨n + 1, hn⟩) (iblk3 V c 2 ⟨n + 1, hn⟩) (csq3 c n (Nat.lt_of_succ_lt hn))
theorem csum3_first (c : Dev nD) (t : Fin cfg3.N) (h : t.val = 0) :
    csum3 V c t.val t.isLt = k1_pay4 (iblk3 V c 1 t) (iblk3 V c 0 t) (iblk3 V c 2 t) (k1_pay1 (F := F)) := by
  obtain ⟨n, hn⟩ := t
  cases n with
  | zero => rfl
  | succ n => exact absurd h (Nat.succ_ne_zero n)
theorem csq3_first (c : Dev nD) (t : Fin cfg3.N) (h : t.val = 0) :
    csq3 V c t.val t.isLt = k1_pay5 (iblk3 V c 1 t) (iblk3 V c 0 t) (iblk3 V c 2 t) (k1_pay2 (F := F)) := by
  obtain ⟨n, hn⟩ := t
  cases n with
  | zero => rfl
  | succ n => exact absurd h (Nat.succ_ne_zero n)
theorem csum3_next (c : Dev nD) (t : Fin cfg3.N) (h : t.val ≠ 0) :
    csum3 V c t.val t.isLt = k1_pay4 (iblk3 V c 1 t) (iblk3 V c 0 t) (iblk3 V c 2 t)
      (csum3 V c (t.val - 1) (Nat.lt_of_le_of_lt (Nat.sub_le _ _) t.isLt)) := by
  obtain ⟨n, hn⟩ := t
  cases n with
  | zero => exact absurd rfl h
  | succ n => rfl
theorem csq3_next (c : Dev nD) (t : Fin cfg3.N) (h : t.val ≠ 0) :
    csq3 V c t.val t.isLt = k1_pay5 (iblk3 V c 1 t) (iblk3 V c 0 t) (iblk3 V c 2 t)
      (csq3 V c (t.val - 1) (Nat.lt_of_le_of_lt (Nat.sub_le _ _) t.isLt)) := by
  obtain ⟨n, hn⟩ := t
  cases n with
  | zero => exact absurd rfl h
  | succ n => rfl
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl
def PhiS3 (c : Dev nD) : (n : ℕ) → n ≤ cfg3.N → sProp 𝕄
  | 0, _ => Pipeline.ΦA spec3 c
  | n + 1, hn => iprop(iprop(iprop(owns (c : Thread nD τ) scM3_0 fullShare (csum3 V c n hn) ∗ owns (c : Thread nD τ) scM3_1 fullShare (csq3 V c n hn))
      ∗ Pipeline.scopedRestBut (Ix := Unit) (Name := ℕ) (U := UR sig nD τ) (Lvl := ℕ) (Val := Elt F) spec3 c [cc3_scratch0, cc3_scratch1])
      ∗ (∃ r, prngReg c r))
theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare (csum3 V c n hn) ∗ owns (c : Thread nD τ) scM3_1 fullShare (csq3 V c n hn))
      ∗ Pipeline.scopedRestBut (Ix := Unit) (Name := ℕ) (U := UR sig nD τ) (Lvl := ℕ) (Val := Elt F) spec3 c [cc3_scratch0, cc3_scratch1])
      ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare (csum3 V c (n - 1) (by omega)) ∗ owns (c : Thread nD τ) scM3_1 fullShare (csq3 V c (n - 1) (by omega)))
      ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl
def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => relu3 V c t
    | ⟨4, _⟩ => csum3 V c t.val t.isLt
    | ⟨5, _⟩ => csq3 V c t.val t.isLt
  Φ t := PhiS3 V c t.val (Nat.le_of_lt_succ t.isLt)
  q _ := fullShare
  owed _ := 0
theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = relu3 V c t := by dsimp only [dat3]
theorem after3_4 (c : Dev nD) (t : Fin cfg3.N) : (dat3 V c).after 4 t = csum3 V c t.val t.isLt := by dsimp only [dat3]
theorem after3_5 (c : Dev nD) (t : Fin cfg3.N) : (dat3 V c).after 5 t = csq3 V c t.val t.isLt := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
-- Regions 1, 3 and 5 run one kernel function: the printed functions are the same term.
private theorem bodyAt_eq (t : Fin cfg3.N) : bodyAt3 (F := F) t = cc1__relu_stats_kernel (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) := rfl
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3; rw [bodyAt_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [show cfg3.idle 0 (grid3.coords t) = false from rfl], after3_0]
  rw [show (dat3 V c).leavesExact 1 t = owns (c : Thread nD τ) (ms3_1 t) fullShare ((dat3 V c).after 1 t) from by
    unfold Dat.leavesExact; rw [show cfg3.idle 1 (grid3.coords t) = false from rfl], after3_1]
  rw [show (dat3 V c).leavesExact 2 t = owns (c : Thread nD τ) (ms3_2 t) fullShare ((dat3 V c).after 2 t) from by
    unfold Dat.leavesExact; rw [show cfg3.idle 2 (grid3.coords t) = false from rfl], after3_2]
  rw [show (dat3 V c).leavesExact 3 t = owns (c : Thread nD τ) (ms3_3 t) fullShare ((dat3 V c).after 3 t) from by
    unfold Dat.leavesExact; rw [show cfg3.idle 3 (grid3.coords t) = false from rfl], after3_3]
  unfold relu3
  by_cases h0 : t.val = 0
  · have h9 : t.val ≠ 9 := by omega
    rw [Dat.leavesExact_idle (dat3 V c) 4 t (idleAt3_4 t h9) (noFlush3_4 t h9), Dat.leavesExact_idle (dat3 V c) 5 t (idleAt3_5 t h9) (noFlush3_5 t h9),
      csum3_first V c t h0, csq3_first V c t h0, PhiS3_castSucc V c t, PhiS3_zero V c _ _ h0, PhiA3_eq]
    exact pointA c _ _ _ _ _ _ _ _ _ _ _ _ _ _ _ _ _ ((hcondF t).mpr h0) (fun h => h9 ((hcondL t).mp h)) _ _ _ _ _ _ _ _ _
  · rw [csum3_next V c t h0, csq3_next V c t h0, PhiS3_castSucc V c t, PhiS3_pos V c _ _ h0]
    by_cases h9 : t.val = 9
    · rw [show (dat3 V c).leavesExact 4 t = owns (c : Thread nD τ) (ms3_4 t) fullShare ((dat3 V c).after 4 t) from by
        unfold Dat.leavesExact; rw [liveAt3_4 t h9], after3_4,
        show (dat3 V c).leavesExact 5 t = owns (c : Thread nD τ) (ms3_5 t) fullShare ((dat3 V c).after 5 t) from by
        unfold Dat.leavesExact; rw [liveAt3_5 t h9], after3_5, csum3_next V c t h0, csq3_next V c t h0]
      exact pointC c _ _ _ _ _ _ _ _ _ _ _ _ _ _ _ _ _ (fun h => h0 ((hcondF t).mp h)) ((hcondL t).mpr h9) _ _ _ _ _ _ _ _ _ _ _
    · rw [Dat.leavesExact_idle (dat3 V c) 4 t (idleAt3_4 t h9) (noFlush3_4 t h9), Dat.leavesExact_idle (dat3 V c) 5 t (idleAt3_5 t h9) (noFlush3_5 t h9)]
      exact pointB c _ _ _ _ _ _ _ _ _ _ _ _ _ _ _ _ _ (fun h => h0 ((hcondF t).mp h)) (fun h => h9 ((hcondL t).mp h)) _ _ _ _ _ _ _ _ _ _ _
theorem body_obligation3 (c : Dev nD) : BodyObligation (dat3 (F := F) V c) (defs₀ (F := F)) Variants.none () Set.univ := fun t => by
  rw [bigSep_W3, bigSep_W3]
  exact sound_body3 V c t
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _
theorem hout3 (c : Dev nD) : (dat3 V c).Φ (Fin.last cfg3.N) ⊢ (Pipeline.ΦA spec3 c : sProp 𝕄) := by
  have hne : (Fin.last cfg3.N).val ≠ 0 := by rw [Fin.val_last]; have : cfg3.N = 10 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg
end Cert.KernelIdeal.Hand
end
-- ==== Proof.KI.Reg4.lean ====
import proofs.«412548_j82308753260928_3_alg».proof.Proof.KI.LB
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t := by
  have hkeep : ∀ t, (cfg4.win 0).cut (cfg4.grid.coords t) (dat.after 0 t) = dat.blockOf 0 t := fun t => by
    rw [hafter]; unfold Dat.blockOf iblk4; rw [hA]; try rfl
  rw [dat.before_in_eq_fetched 0 rfl (fun _ => rfl) (fun _ _ _ => rfl) hkeep t d]
  unfold Dat.fetched Dat.blockOf iblk4; rw [hA]; try rfl
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t := by
  have hkeep : ∀ t, (cfg4.win 1).cut (cfg4.grid.coords t) (dat.after 1 t) = dat.blockOf 1 t := fun t => by
    rw [hafter]; unfold Dat.blockOf iblk4; rw [hA]; try rfl
  rw [dat.before_in_eq_fetched 1 rfl (fun _ => rfl) (fun _ _ _ => rfl) hkeep t d]
  unfold Dat.fetched Dat.blockOf iblk4; rw [hA]; try rfl
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t := by
  have hkeep : ∀ t, (cfg4.win 2).cut (cfg4.grid.coords t) (dat.after 2 t) = dat.blockOf 2 t := fun t => by
    rw [hafter]; unfold Dat.blockOf iblk4; rw [hA]; try rfl
  rw [dat.before_in_eq_fetched 2 rfl (fun _ => rfl) (fun _ _ _ => rfl) hkeep t d]
  unfold Dat.fetched Dat.blockOf iblk4; rw [hA]; try rfl
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t := by
  have hkeep : ∀ t, (cfg4.win 3).cut (cfg4.grid.coords t) (dat.after 3 t) = dat.blockOf 3 t := fun t => by
    rw [hafter]; unfold Dat.blockOf iblk4; rw [hA]; try rfl
  rw [dat.before_in_eq_fetched 3 rfl (fun _ => rfl) (fun _ _ _ => rfl) hkeep t d]
  unfold Dat.fetched Dat.blockOf iblk4; rw [hA]; try rfl
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t := by
  have hkeep : ∀ t, (cfg4.win 4).cut (cfg4.grid.coords t) (dat.after 4 t) = dat.blockOf 4 t := fun t => by
    rw [hafter]; unfold Dat.blockOf iblk4; rw [hA]; try rfl
  rw [dat.before_in_eq_fetched 4 rfl (fun _ => rfl) (fun _ _ _ => rfl) hkeep t d]
  unfold Dat.fetched Dat.blockOf iblk4; rw [hA]; try rfl
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t := by
  have hkeep : ∀ t, (cfg4.win 5).cut (cfg4.grid.coords t) (dat.after 5 t) = dat.blockOf 5 t := fun t => by
    rw [hafter]; unfold Dat.blockOf iblk4; rw [hA]; try rfl
  rw [dat.before_in_eq_fetched 5 rfl (fun _ => rfl) (fun _ _ _ => rfl) hkeep t d]
  unfold Dat.fetched Dat.blockOf iblk4; rw [hA]; try rfl
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t := by
  have hkeep : ∀ t, (cfg4.win 6).cut (cfg4.grid.coords t) (dat.after 6 t) = dat.blockOf 6 t := fun t => by
    rw [hafter]; unfold Dat.blockOf iblk4; rw [hA]; try rfl
  rw [dat.before_in_eq_fetched 6 rfl (fun _ => rfl) (fun _ _ _ => rfl) hkeep t d]
  unfold Dat.fetched Dat.blockOf iblk4; rw [hA]; try rfl
def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => lb_out (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0
theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = lb_out (iblk4 V c 0 t) (iblk4 V c 1 t) (iblk4 V c 2 t) (iblk4 V c 3 t) (iblk4 V c 4 t) (iblk4 V c 5 t) (iblk4 V c 6 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
-- Regions 2 and 4 run one kernel function: the printed functions are the same term.
private theorem bodyAt_eq (t : Fin cfg4.N) : bodyAt4 (F := F) t = cc2__lin_bn_kernel (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) := rfl
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4; rw [bodyAt_eq]
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  exact lb_point c _ _ _ _ _ _ _ _ _ _ _ _ _ _ _ _ _ _ _ _ _ _ _ _ _ _ _
theorem body_obligation4 (c : Dev nD) : BodyObligation (dat4 (F := F) V c) (defs₀ (F := F)) Variants.none () Set.univ := fun t => by
  rw [bigSep_W4, bigSep_W4]
  exact sound_body4 V c t
theorem hin4 (c : Dev nD) : (Pipeline.ΦA spec4 c : sProp 𝕄) ⊢ (dat4 V c).Φ 0 := .rfl
theorem hout4 (c : Dev nD) : (dat4 V c).Φ (Fin.last cfg4.N) ⊢ (Pipeline.ΦA spec4 c : sProp 𝕄) := .rfl
end Cert.KernelIdeal.Hand
end
-- ==== Proof.KI.Reg5.lean ====
import proofs.«412548_j82308753260928_3_alg».proof.Proof.KI.RS
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
theorem idleAt5_4 : ∀ t : Fin cfg5.N, t.val ≠ 9 → cfg5.idle 4 (grid5.coords t) = true := by decide +kernel
theorem idleAt5_5 : ∀ t : Fin cfg5.N, t.val ≠ 9 → cfg5.idle 5 (grid5.coords t) = true := by decide +kernel
theorem noFlush5_4 : ∀ t : Fin cfg5.N, t.val ≠ 9 → (cfg5.win 4).flush t = false := by decide +kernel
theorem noFlush5_5 : ∀ t : Fin cfg5.N, t.val ≠ 9 → (cfg5.win 5).flush t = false := by decide +kernel
theorem liveAt5_4 : ∀ t : Fin cfg5.N, t.val = 9 → cfg5.idle 4 (grid5.coords t) = false := by decide +kernel
theorem liveAt5_5 : ∀ t : Fin cfg5.N, t.val = 9 → cfg5.idle 5 (grid5.coords t) = false := by decide +kernel
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S5000x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev scM5_0 : Memref sig .tc .vmem S1x128 .f32 := Memref.whole cc5_scratch0
abbrev scM5_1 : Memref sig .tc .vmem S1x128 .f32 := Memref.whole cc5_scratch1
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def relu5 (c : Dev nD) (t : Fin cfg5.N) : Vec F S5000x128 .f32 :=
  k1_pay3 (iblk5 V c 1 t) (iblk5 V c 0 t) (iblk5 V c 2 t)
-- Running column sums of the rectified values (and of their squares) over blocks 0 … n.
def csum5 (c : Dev nD) : (n : ℕ) → n < cfg5.N → Vec F S1x128 .f32
  | 0, hn => k1_pay4 (iblk5 V c 1 ⟨0, hn⟩) (iblk5 V c 0 ⟨0, hn⟩) (iblk5 V c 2 ⟨0, hn⟩) (k1_pay1 (F := F))
  | n + 1, hn => k1_pay4 (iblk5 V c 1 ⟨n + 1, hn⟩) (iblk5 V c 0 ⟨n + 1, hn⟩) (iblk5 V c 2 ⟨n + 1, hn⟩) (csum5 c n (Nat.lt_of_succ_lt hn))
def csq5 (c : Dev nD) : (n : ℕ) → n < cfg5.N → Vec F S1x128 .f32
  | 0, hn => k1_pay5 (iblk5 V c 1 ⟨0, hn⟩) (iblk5 V c 0 ⟨0, hn⟩) (iblk5 V c 2 ⟨0, hn⟩) (k1_pay2 (F := F))
  | n + 1, hn => k1_pay5 (iblk5 V c 1 ⟨n + 1, hn⟩) (iblk5 V c 0 ⟨n + 1, hn⟩) (iblk5 V c 2 ⟨n + 1, hn⟩) (csq5 c n (Nat.lt_of_succ_lt hn))
theorem csum5_first (c : Dev nD) (t : Fin cfg5.N) (h : t.val = 0) :
    csum5 V c t.val t.isLt = k1_pay4 (iblk5 V c 1 t) (iblk5 V c 0 t) (iblk5 V c 2 t) (k1_pay1 (F := F)) := by
  obtain ⟨n, hn⟩ := t
  cases n with
  | zero => rfl
  | succ n => exact absurd h (Nat.succ_ne_zero n)
theorem csq5_first (c : Dev nD) (t : Fin cfg5.N) (h : t.val = 0) :
    csq5 V c t.val t.isLt = k1_pay5 (iblk5 V c 1 t) (iblk5 V c 0 t) (iblk5 V c 2 t) (k1_pay2 (F := F)) := by
  obtain ⟨n, hn⟩ := t
  cases n with
  | zero => rfl
  | succ n => exact absurd h (Nat.succ_ne_zero n)
theorem csum5_next (c : Dev nD) (t : Fin cfg5.N) (h : t.val ≠ 0) :
    csum5 V c t.val t.isLt = k1_pay4 (iblk5 V c 1 t) (iblk5 V c 0 t) (iblk5 V c 2 t)
      (csum5 V c (t.val - 1) (Nat.lt_of_le_of_lt (Nat.sub_le _ _) t.isLt)) := by
  obtain ⟨n, hn⟩ := t
  cases n with
  | zero => exact absurd rfl h
  | succ n => rfl
theorem csq5_next (c : Dev nD) (t : Fin cfg5.N) (h : t.val ≠ 0) :
    csq5 V c t.val t.isLt = k1_pay5 (iblk5 V c 1 t) (iblk5 V c 0 t) (iblk5 V c 2 t)
      (csq5 V c (t.val - 1) (Nat.lt_of_le_of_lt (Nat.sub_le _ _) t.isLt)) := by
  obtain ⟨n, hn⟩ := t
  cases n with
  | zero => exact absurd rfl h
  | succ n => rfl
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
          ∗ (∃ r, prngReg c r)) := by
  unfold Pipeline.ΦA; rw [scopedRest5_split]; simp only [scM5_0, scM5_1, owns_whole]; try rfl
def PhiS5 (c : Dev nD) : (n : ℕ) → n ≤ cfg5.N → sProp 𝕄
  | 0, _ => Pipeline.ΦA spec5 c
  | n + 1, hn => iprop(iprop(iprop(owns (c : Thread nD τ) scM5_0 fullShare (csum5 V c n hn) ∗ owns (c : Thread nD τ) scM5_1 fullShare (csq5 V c n hn))
      ∗ Pipeline.scopedRestBut (Ix := Unit) (Name := ℕ) (U := UR sig nD τ) (Lvl := ℕ) (Val := Elt F) spec5 c [cc5_scratch0, cc5_scratch1])
      ∗ (∃ r, prngReg c r))
theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare (csum5 V c n hn) ∗ owns (c : Thread nD τ) scM5_1 fullShare (csq5 V c n hn))
      ∗ Pipeline.scopedRestBut (Ix := Unit) (Name := ℕ) (U := UR sig nD τ) (Lvl := ℕ) (Val := Elt F) spec5 c [cc5_scratch0, cc5_scratch1])
      ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare (csum5 V c (n - 1) (by omega)) ∗ owns (c : Thread nD τ) scM5_1 fullShare (csq5 V c (n - 1) (by omega)))
      ∗ Pipeline.scopedRestBut (Ix := Unit) (Name := ℕ) (U := UR sig nD τ) (Lvl := ℕ) (Val := Elt F) spec5 c [cc5_scratch0, cc5_scratch1])
      ∗ (∃ r, prngReg c r)) := by
  cases n with
  | zero => exact absurd rfl hz
  | succ n => rfl
def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => relu5 V c t
    | ⟨4, _⟩ => csum5 V c t.val t.isLt
    | ⟨5, _⟩ => csq5 V c t.val t.isLt
  Φ t := PhiS5 V c t.val (Nat.le_of_lt_succ t.isLt)
  q _ := fullShare
  owed _ := 0
theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = relu5 V c t := by dsimp only [dat5]
theorem after5_4 (c : Dev nD) (t : Fin cfg5.N) : (dat5 V c).after 4 t = csum5 V c t.val t.isLt := by dsimp only [dat5]
theorem after5_5 (c : Dev nD) (t : Fin cfg5.N) : (dat5 V c).after 5 t = csq5 V c t.val t.isLt := by dsimp only [dat5]
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
-- Regions 1, 3 and 5 run one kernel function: the printed functions are the same term.
private theorem bodyAt_eq (t : Fin cfg5.N) : bodyAt5 (F := F) t = cc1__relu_stats_kernel (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) scM5_1 (Memref.isWhole_whole _) := rfl
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)
set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5; rw [bodyAt_eq]
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (ms5_0 t) fullShare ((dat5 V c).after 0 t) from by
    unfold Dat.leavesExact; rw [show cfg5.idle 0 (grid5.coords t) = false from rfl], after5_0]
  rw [show (dat5 V c).leavesExact 1 t = owns (c : Thread nD τ) (ms5_1 t) fullShare ((dat5 V c).after 1 t) from by
    unfold Dat.leavesExact; rw [show cfg5.idle 1 (grid5.coords t) = false from rfl], after5_1]
  rw [show (dat5 V c).leavesExact 2 t = owns (c : Thread nD τ) (ms5_2 t) fullShare ((dat5 V c).after 2 t) from by
    unfold Dat.leavesExact; rw [show cfg5.idle 2 (grid5.coords t) = false from rfl], after5_2]
  rw [show (dat5 V c).leavesExact 3 t = owns (c : Thread nD τ) (ms5_3 t) fullShare ((dat5 V c).after 3 t) from by
    unfold Dat.leavesExact; rw [show cfg5.idle 3 (grid5.coords t) = false from rfl], after5_3]
  unfold relu5
  by_cases h0 : t.val = 0
  · have h9 : t.val ≠ 9 := by omega
    rw [Dat.leavesExact_idle (dat5 V c) 4 t (idleAt5_4 t h9) (noFlush5_4 t h9), Dat.leavesExact_idle (dat5 V c) 5 t (idleAt5_5 t h9) (noFlush5_5 t h9),
      csum5_first V c t h0, csq5_first V c t h0, PhiS5_castSucc V c t, PhiS5_zero V c _ _ h0, PhiA5_eq]
    exact pointA c _ _ _ _ _ _ _ _ _ _ _ _ _ _ _ _ _ ((hcondF t).mpr h0) (fun h => h9 ((hcondL t).mp h)) _ _ _ _ _ _ _ _ _
  · rw [csum5_next V c t h0, csq5_next V c t h0, PhiS5_castSucc V c t, PhiS5_pos V c _ _ h0]
    by_cases h9 : t.val = 9
    · rw [show (dat5 V c).leavesExact 4 t = owns (c : Thread nD τ) (ms5_4 t) fullShare ((dat5 V c).after 4 t) from by
        unfold Dat.leavesExact; rw [liveAt5_4 t h9], after5_4,
        show (dat5 V c).leavesExact 5 t = owns (c : Thread nD τ) (ms5_5 t) fullShare ((dat5 V c).after 5 t) from by
        unfold Dat.leavesExact; rw [liveAt5_5 t h9], after5_5, csum5_next V c t h0, csq5_next V c t h0]
      exact pointC c _ _ _ _ _ _ _ _ _ _ _ _ _ _ _ _ _ (fun h => h0 ((hcondF t).mp h)) ((hcondL t).mpr h9) _ _ _ _ _ _ _ _ _ _ _
    · rw [Dat.leavesExact_idle (dat5 V c) 4 t (idleAt5_4 t h9) (noFlush5_4 t h9), Dat.leavesExact_idle (dat5 V c) 5 t (idleAt5_5 t h9) (noFlush5_5 t h9)]
      exact pointB c _ _ _ _ _ _ _ _ _ _ _ _ _ _ _ _ _ (fun h => h0 ((hcondF t).mp h)) (fun h => h9 ((hcondL t).mp h)) _ _ _ _ _ _ _ _ _ _ _
theorem body_obligation5 (c : Dev nD) : BodyObligation (dat5 (F := F) V c) (defs₀ (F := F)) Variants.none () Set.univ := fun t => by
  rw [bigSep_W5, bigSep_W5]
  exact sound_body5 V c t
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _
theorem hout5 (c : Dev nD) : (dat5 V c).Φ (Fin.last cfg5.N) ⊢ (Pipeline.ΦA spec5 c : sProp 𝕄) := by
  have hne : (Fin.last cfg5.N).val ≠ 0 := by rw [Fin.val_last]; have : cfg5.N = 10 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg
end Cert.KernelIdeal.Hand
end
-- ==== Proof.KI.Reg6.lean ====
import proofs.«412548_j82308753260928_3_alg».proof.Proof.Gen.KernelIdeal.Launch
import proofs.«412548_j82308753260928_3_alg».proof.Proof.Gen.KernelIdeal.Skeleton
import proofs.«412548_j82308753260928_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero2 : (![0, 0] : Fin 2 → ℕ) = fun _ => 0 := by
  funext a; fin_cases a <;> rfl

theorem readAt6 {κ : Kind} {sp : Space} {e : EltTy} {sz : Fin 2 → ℕ} {m : Memref sig κ sp ⟨2, sz⟩ e} (h : m.IsWhole)
    (inb : ∀ a, (![0, 0] : Fin 2 → ℕ) a + sz a ≤ sz a) (X : Shape.Idx ⟨2, sz⟩ → Elt F e) :
    View.readAt (Elt F) m.view (Rect.unit (s := ⟨2, sz⟩) ![0, 0] sz inb).toLoadRect (h.unread X) = X :=
  (congrArg (View.ld · _) (h.read_unread X)).trans (View.ld_unit_zero zero2 inb X)

theorem read6 {κ : Kind} {sp : Space} {e : EltTy} {sz : Fin 2 → ℕ} (v : View sig κ sp ⟨2, sz⟩ e) (f : v.ty.Contents (Elt F))
    (inb : ∀ a, (![0, 0] : Fin 2 → ℕ) a + sz a ≤ sz a) (w : Shape.Idx ⟨2, sz⟩ → Elt F e) (L : List (View.Piece (Elt F) ⟨2, sz⟩ e)) :
    v.read (Elt F) (v.writes (Elt F) f ((⟨Rect.unit (s := ⟨2, sz⟩) ![0, 0] sz inb, w⟩ : View.Piece (Elt F) ⟨2, sz⟩ e) :: L)) = w :=
  (View.read_writes_eq_canon v f _ fun y => ⟨_, List.mem_cons_self, View.mem_set_unit_zero zero2 inb y⟩).trans
    (View.canon_cons_unit_zero zero2 inb w L)

theorem back6 (c : Thread nD τ) {sp : Space} {sh : Shape} {e : EltTy} {m : Memref sig c.2.kind sp sh e} (h : m.IsWhole)
    (q : PosShare TreeShare) (X : sh.Idx → Elt F e) :
    (m.view.loc c ↦[m.view.set]{q} h.unread X : sProp 𝕄)
      ⊢ iprop(∃ f, ⌜m.view.read (Elt F) f = X⌝ ∗ (m.view.loc c ↦[m.view.set]{q} f)) := by
  iintro H; iexists _; isplitr
  · ipureintro; exact h.read_unread X
  · iexact H

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

section Run

variable (c : Dev nD) (i : grid6.Coords)
  (arg1 : Memref sig .tc .vmem S5000x1 .i32) (harg1 : arg1.IsWhole) (arg2 : Memref sig .tc .vmem S5000x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S64x128 .f32) (harg7 : arg7.IsWhole) (arg8 : Memref sig .tc .vmem S1x64 .f32) (harg8 : arg8.IsWhole)
  (arg9 : Memref sig .tc .vmem S64x128 .f32) (harg9 : arg9.IsWhole) (arg10 : Memref sig .tc .vmem S1x64 .f32) (harg10 : arg10.IsWhole)
  (x0 : Vec F S5000x1 .i32) (x1 : Vec F S5000x128 .f32) (x2 x3 x4 x5 : Vec F S1x128 .f32)
  (xs0 : Vec F S64x128 .f32) (xs1 : Vec F S1x64 .f32)
  {D6 D7 : Type} (b6 : D6 → Vec F S64x128 .f32) (b7 : D7 → Vec F S1x64 .f32) (E : Set ℕ)

abbrev ins6 (P : sProp 𝕄) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5 ∗ P)

set_option maxHeartbeats 1000000 in
theorem run6_first (K : PUnit → sProp 𝕄) (hc0 : cond6_0 i) (hc1 : ¬cond6_1 i) :
    ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ iprop((∃ d, owns (c : Thread nD τ) arg9 fullShare d) ∗ (∃ d, owns (c : Thread nD τ) arg10 fullShare d))
      ∗ (ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ owns (c : Thread nD τ) arg9 fullShare (k6_pay1 (k6_pay6 x1 x2 x3 x4 x5 x0 (k6_pay3 (F := F))))
        ∗ owns (c : Thread nD τ) arg10 fullShare (k6_pay2 (k6_pay5 x0) (k6_pay4 (F := F)))) -∗ K ⟨⟩))
      ⊢ wp frame (wpE (defs₀ (F := F)) Variants.none c none) E (cc6__pool_bn_kernel i arg1 harg1 arg2 harg2 arg3 harg3 arg4 harg4 arg5 harg5 arg6 harg6 arg7 harg7 arg8 harg8 arg9 harg9 arg10 harg10) K := by
  simp only [cc6__pool_bn_kernel_eq_skeleton]; unfold cc6__pool_bn_kernel_skel
  simp only [k6_part1_eq_skeleton]; unfold k6_part1_skel
  unfold ins6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨⟨%d6, %f6, %hf6, H6⟩, ⟨%d7, %f7, %hf7, H7⟩⟩, ⟨⟨%ds0, %fs0, -, HS0⟩, ⟨%ds1, %fs1, -, HS1⟩⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hc0 | exact hc1)
  sl_step
  iapply Hk
  isplitl [H0]; · iapply (back6 _ harg1 _ _); iexact H0
  isplitl [H1]; · iapply (back6 _ harg2 _ _); iexact H1
  isplitl [H2]; · iapply (back6 _ harg3 _ _); iexact H2
  isplitl [H3]; · iapply (back6 _ harg4 _ _); iexact H3
  isplitl [H4]; · iapply (back6 _ harg5 _ _); iexact H4
  isplitl [H5]; · iapply (back6 _ harg6 _ _); iexact H5
  isplitl [H6 H7]
  · isplitl [H6]
    · iexists d6; iapply (back6 _ harg7 _ _); iexact H6
    iexists d7; iapply (back6 _ harg8 _ _); iexact H7
  isplitl [HS0]
  · iexists _; isplitr
    swap; · iexact HS0
    ipureintro; sl_unfold_run_names
    exact (read6 _ _ _ _ _).trans (by simp only [readAt6, View.readCov_cons_toLoadRect])
  iexists _; isplitr
  swap; · iexact HS1
  ipureintro; sl_unfold_run_names
  exact (read6 _ _ _ _ _).trans (by simp only [readAt6, View.readCov_cons_toLoadRect])

set_option maxHeartbeats 1000000 in
theorem run6_mid (K : PUnit → sProp 𝕄) (hc0 : ¬cond6_0 i) (hc1 : ¬cond6_1 i) :
    ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ iprop(owns (c : Thread nD τ) arg9 fullShare xs0 ∗ owns (c : Thread nD τ) arg10 fullShare xs1)
      ∗ (ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ owns (c : Thread nD τ) arg9 fullShare (k6_pay1 (k6_pay6 x1 x2 x3 x4 x5 x0 xs0))
        ∗ owns (c : Thread nD τ) arg10 fullShare (k6_pay2 (k6_pay5 x0) xs1)) -∗ K ⟨⟩))
      ⊢ wp frame (wpE (defs₀ (F := F)) Variants.none c none) E (cc6__pool_bn_kernel i arg1 harg1 arg2 harg2 arg3 harg3 arg4 harg4 arg5 harg5 arg6 harg6 arg7 harg7 arg8 harg8 arg9 harg9 arg10 harg10) K := by
  simp only [cc6__pool_bn_kernel_eq_skeleton]; unfold cc6__pool_bn_kernel_skel
  simp only [k6_part1_eq_skeleton]; unfold k6_part1_skel
  unfold ins6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨⟨%d6, %f6, %hf6, H6⟩, ⟨%d7, %f7, %hf7, H7⟩⟩, ⟨⟨%fs0, %hfs0, HS0⟩, ⟨%fs1, %hfs1, HS1⟩⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hfs0; obtain rfl := harg10.eq_unread hfs1
  sl_exec (disch := first | exact hc0 | exact hc1)
  sl_step
  iapply Hk
  isplitl [H0]; · iapply (back6 _ harg1 _ _); iexact H0
  isplitl [H1]; · iapply (back6 _ harg2 _ _); iexact H1
  isplitl [H2]; · iapply (back6 _ harg3 _ _); iexact H2
  isplitl [H3]; · iapply (back6 _ harg4 _ _); iexact H3
  isplitl [H4]; · iapply (back6 _ harg5 _ _); iexact H4
  isplitl [H5]; · iapply (back6 _ harg6 _ _); iexact H5
  isplitl [H6 H7]
  · isplitl [H6]
    · iexists d6; iapply (back6 _ harg7 _ _); iexact H6
    iexists d7; iapply (back6 _ harg8 _ _); iexact H7
  isplitl [HS0]
  · iexists _; isplitr
    swap; · iexact HS0
    ipureintro
    exact (read6 _ _ _ _ _).trans (by simp only [readAt6])
  iexists _; isplitr
  swap; · iexact HS1
  ipureintro
  exact (read6 _ _ _ _ _).trans (by simp only [readAt6])

set_option maxHeartbeats 1000000 in
theorem run6_last (K : PUnit → sProp 𝕄) (hc0 : ¬cond6_0 i) (hc1 : cond6_1 i) :
    ins6 c arg1 arg2 arg3 arg4 arg5 arg6 x0 x1 x2 x3 x4 x5 iprop(iprop((∃ d, owns (c : Thread nD τ) arg7 fullShare (b6 d)) ∗ (∃ d, owns (c : Thread nD τ) arg8 fullShare (b7 d))) ∗ iprop(owns (c : Thread nD τ) arg9 fullShare xs0 ∗ owns (c : Thread nD τ) arg10 fullShare xs1)
      ∗ (ins6 c arg1 arg2 arg3 arg4 arg5 arg6 x0 x1 x2 x3 x4 x5 iprop(iprop(owns (c : Thread nD τ) arg7 fullShare (k6_pay1 (k6_pay6 x1 x2 x3 x4 x5 x0 xs0))
          ∗ owns (c : Thread nD τ) arg8 fullShare (k6_pay2 (k6_pay5 x0) xs1))
        ∗ owns (c : Thread nD τ) arg9 fullShare (k6_pay1 (k6_pay6 x1 x2 x3 x4 x5 x0 xs0))
        ∗ owns (c : Thread nD τ) arg10 fullShare (k6_pay2 (k6_pay5 x0) xs1)) -∗ K ⟨⟩))
      ⊢ wp frame (wpE (defs₀ (F := F)) Variants.none c none) E (cc6__pool_bn_kernel i arg1 harg1 arg2 harg2 arg3 harg3 arg4 harg4 arg5 harg5 arg6 harg6 arg7 harg7 arg8 harg8 arg9 harg9 arg10 harg10) K := by
  simp only [cc6__pool_bn_kernel_eq_skeleton]; unfold cc6__pool_bn_kernel_skel
  simp only [k6_part1_eq_skeleton]; unfold k6_part1_skel
  unfold ins6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨⟨%d6, %f6, -, H6⟩, ⟨%d7, %f7, -, H7⟩⟩, ⟨⟨%fs0, %hfs0, HS0⟩, ⟨%fs1, %hfs1, HS1⟩⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg9.eq_unread hfs0; obtain rfl := harg10.eq_unread hfs1
  sl_exec (disch := first | exact hc0 | exact hc1)
  sl_step
  iapply Hk
  isplitl [H0]; · iapply (back6 _ harg1 _ _); iexact H0
  isplitl [H1]; · iapply (back6 _ harg2 _ _); iexact H1
  isplitl [H2]; · iapply (back6 _ harg3 _ _); iexact H2
  isplitl [H3]; · iapply (back6 _ harg4 _ _); iexact H3
  isplitl [H4]; · iapply (back6 _ harg5 _ _); iexact H4
  isplitl [H5]; · iapply (back6 _ harg6 _ _); iexact H5
  isplitl [H6 H7]
  · isplitl [H6]
    · iexists _; isplitr
      swap; · iexact H6
      ipureintro; sl_unfold_run_names
      exact (read6 _ _ _ _ _).trans (by simp only [readAt6, View.readCov_cons_toLoadRect])
    iexists _; isplitr
    swap; · iexact H7
    ipureintro; sl_unfold_run_names
    exact (read6 _ _ _ _ _).trans (by simp only [readAt6, View.readCov_cons_toLoadRect])
  isplitl [HS0]
  · iexists _; isplitr
    swap; · iexact HS0
    ipureintro; sl_unfold_run_names
    exact (read6 _ _ _ _ _).trans (by simp only [readAt6, View.readCov_cons_toLoadRect])
  iexists _; isplitr
  swap; · iexact HS1
  ipureintro; sl_unfold_run_names
  exact (read6 _ _ _ _ _).trans (by simp only [readAt6, View.readCov_cons_toLoadRect])

end Run

theorem liveAt6 : ∀ (w : Fin cfg6.W) (t : Fin cfg6.N), w.val < 6 → cfg6.idle w (grid6.coords t) = false := by decide +kernel

theorem out6 : ∀ t : Fin cfg6.N,
    (t.val % 10 = 9 → cfg6.idle 6 (grid6.coords t) = false ∧ cfg6.idle 7 (grid6.coords t) = false)
    ∧ (¬t.val % 10 = 9 → (cfg6.idle 6 (grid6.coords t) = true ∧ (cfg6.win 6).flush t = false)
      ∧ cfg6.idle 7 (grid6.coords t) = true ∧ (cfg6.win 7).flush t = false) := by decide +kernel

abbrev ms6_0 (t : Fin cfg6.N) : Memref sig .tc .vmem S5000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S64x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x64 .f32 := win6_7.stage (cfg6.slots t 7)
abbrev hs6_7 (t : Fin cfg6.N) : (ms6_7 t).IsWhole := hstage6_7 ((cfg6.slots t 7).cast nbuf6_7)
abbrev scM6_0 : Memref sig .tc .vmem S64x128 .f32 := Memref.whole cc6_scratch0
abbrev scM6_1 : Memref sig .tc .vmem S1x64 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def step6 (c : Dev nD) (t : Fin cfg6.N) (s : Vec F S64x128 .f32 × Vec F S1x64 .f32) : Vec F S64x128 .f32 × Vec F S1x64 .f32 :=
  (k6_pay1 (k6_pay6 (iblk6 V c 1 t) (iblk6 V c 2 t) (iblk6 V c 3 t) (iblk6 V c 4 t) (iblk6 V c 5 t) (iblk6 V c 0 t) s.1),
   k6_pay2 (k6_pay5 (iblk6 V c 0 t)) s.2)

-- The iterate of step6 over the points up to n, starting from the zero pair.
def scrAt6 (c : Dev nD) : (n : ℕ) → n < cfg6.N → Vec F S64x128 .f32 × Vec F S1x64 .f32
  | 0, hn => step6 V c ⟨0, hn⟩ (k6_pay3 (F := F), k6_pay4 (F := F))
  | n + 1, hn => step6 V c ⟨n + 1, hn⟩ (scrAt6 c n (Nat.lt_of_succ_lt hn))

theorem scrAt6_zero (c : Dev nD) (t : Fin cfg6.N) (h : t.val = 0) :
    scrAt6 V c t.val t.isLt = step6 V c t (k6_pay3 (F := F), k6_pay4 (F := F)) := by
  obtain ⟨n, hn⟩ := t
  cases n with
  | zero => rfl
  | succ n => exact absurd h (Nat.succ_ne_zero n)

theorem scrAt6_pos (c : Dev nD) (t : Fin cfg6.N) (h : t.val ≠ 0) :
    scrAt6 V c t.val t.isLt = step6 V c t (scrAt6 V c (t.val - 1) (Nat.lt_of_le_of_lt (Nat.sub_le _ _) t.isLt)) := by
  obtain ⟨n, hn⟩ := t
  cases n with
  | zero => exact absurd rfl h
  | succ n => rfl

def PhiS6 (c : Dev nD) : (n : ℕ) → n ≤ cfg6.N → sProp 𝕄
  | 0, _ => Pipeline.ΦA spec6 c
  | n + 1, hn => iprop(iprop(iprop(owns (c : Thread nD τ) scM6_0 fullShare (scrAt6 V c n hn).1 ∗ owns (c : Thread nD τ) scM6_1 fullShare (scrAt6 V c n hn).2)
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (scrAt6 V c n hn).1 ∗ owns (c : Thread nD τ) scM6_1 fullShare (scrAt6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (scrAt6 V c (n - 1) (by omega)).1 ∗ owns (c : Thread nD τ) scM6_1 fullShare (scrAt6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

def dat6 (V : (c : Dev nD) → (b : Ref sig .tc) → Buf (Elt F) ((c : Thread nD τ).loc b)) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (scrAt6 V c t.val t.isLt).1
    | ⟨7, _⟩ => (scrAt6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) (t : Fin (cfg6.N + 1)) : (dat6 V c).owed t = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (scrAt6 V c t.val t.isLt).1 := by dsimp only [dat6]
theorem after6_7 (c : Dev nD) (t : Fin cfg6.N) : (dat6 V c).after 7 t = (scrAt6 V c t.val t.isLt).2 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl
theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl

theorem leaves6 (c : Dev nD) (w : Fin cfg6.W) (t : Fin cfg6.N) (h : cfg6.idle w (grid6.coords t) = false) :
    (dat6 V c).leavesExact w t = owns (c : Thread nD τ) ((cfg6.win w).stage (cfg6.slots t w)) fullShare ((dat6 V c).after w t) := by
  unfold Dat.leavesExact; rw [h]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

-- Frame rule: R, G and O are carried unchanged around a triple that turns S, X into S', X'.
theorem hand6 (W : (PUnit → sProp 𝕄) → sProp 𝕄) {α0 α1 α2 α3 α4 α5 : Type} {S S' R G O I0 I1 I2 I3 I4 I5 X X' : sProp 𝕄}
    (run : ∀ K, iprop(I0 ∗ I1 ∗ I2 ∗ I3 ∗ I4 ∗ I5 ∗ X ∗ S ∗ (iprop(I0 ∗ I1 ∗ I2 ∗ I3 ∗ I4 ∗ I5 ∗ X' ∗ S') -∗ K ⟨⟩)) ⊢ W K) :
    iprop(iprop(iprop(S ∗ R) ∗ G) ∗ O ∗ (∃ _ : α0, I0) ∗ (∃ _ : α1, I1) ∗ (∃ _ : α2, I2) ∗ (∃ _ : α3, I3) ∗ (∃ _ : α4, I4) ∗ (∃ _ : α5, I5) ∗ X)
      ⊢ W fun _ => iprop(iprop(iprop(S' ∗ R) ∗ G) ∗ O ∗ I0 ∗ I1 ∗ I2 ∗ I3 ∗ I4 ∗ I5 ∗ X') := by
  iintro ⟨⟨⟨HS, HR⟩, HG⟩, HO, ⟨%_, H0⟩, ⟨%_, H1⟩, ⟨%_, H2⟩, ⟨%_, H3⟩, ⟨%_, H4⟩, ⟨%_, H5⟩, HX⟩
  iapply run
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HS]; · iexact HS
  iintro ⟨H0, H1, H2, H3, H4, H5, HX, HS⟩
  isplitl [HS HR HG]
  · isplitl [HS HR]
    · isplitl [HS]; · iexact HS
      iexact HR
    iexact HG
  isplitl [HO]; · iexact HO
  isplitl [H0]; · iexact H0
  isplitl [H1]; · iexact H1
  isplitl [H2]; · iexact H2
  isplitl [H3]; · iexact H3
  isplitl [H4]; · iexact H4
  isplitl [H5]; · iexact H5
  iexact HX

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl,
    show (dat6 V c).Φ t.succ = PhiS6 V c (t.val + 1) t.isLt from rfl, PhiS6_succ,
    show (dat6 V c).Φ t.castSucc = PhiS6 V c t.val (Nat.le_of_lt t.isLt) from rfl,
    leaves6 V c 0 t (liveAt6 0 t (by decide)), after6_0, leaves6 V c 1 t (liveAt6 1 t (by decide)), after6_1,
    leaves6 V c 2 t (liveAt6 2 t (by decide)), after6_2, leaves6 V c 3 t (liveAt6 3 t (by decide)), after6_3,
    leaves6 V c 4 t (liveAt6 4 t (by decide)), after6_4, leaves6 V c 5 t (liveAt6 5 t (by decide)), after6_5]
  have hN : t.val < 10 := lt_of_lt_of_eq t.isLt (show cfg6.N = 10 from N_6)
  by_cases h1 : t.val % 10 = 9
  · have hz : t.val ≠ 0 := by omega
    rw [leaves6 V c 6 t ((out6 t).1 h1).1, after6_6, leaves6 V c 7 t ((out6 t).1 h1).2, after6_7, scrAt6_pos V c t hz,
      PhiS6_pos V c _ _ hz]
    unfold step6; dsimp only
    refine hand6 _ fun K => ?_
    exact run6_last c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) _ _ _ _ _ _ _ _ _ _ Set.univ K (fun h => hz (by have := (hcond6_0 t).mp h; omega)) ((hcond6_1 t).mpr h1)
  · rw [Dat.leavesExact_idle (dat6 V c) 6 t ((out6 t).2 h1).1.1 ((out6 t).2 h1).1.2,
      Dat.leavesExact_idle (dat6 V c) 7 t ((out6 t).2 h1).2.1 ((out6 t).2 h1).2.2]
    by_cases h0 : t.val % 10 = 0
    · have hz : t.val = 0 := by omega
      rw [scrAt6_zero V c t hz, PhiS6_zero V c _ _ hz, PhiA6_eq]
      unfold step6; dsimp only
      refine hand6 _ fun K => ?_
      exact run6_first c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) _ _ _ _ _ _ _ _ Set.univ K ((hcond6_0 t).mpr h0) (fun h => h1 ((hcond6_1 t).mp h))
    · have hz : t.val ≠ 0 := by omega
      rw [scrAt6_pos V c t hz, PhiS6_pos V c _ _ hz]
      unfold step6; dsimp only
      refine hand6 _ fun K => ?_
      exact run6_mid c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) _ _ _ _ _ _ _ _ _ _ Set.univ K (fun h => h0 ((hcond6_0 t).mp h)) (fun h => h1 ((hcond6_1 t).mp h))

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]

theorem hout6 (c : Dev nD) : (dat6 V c).Φ (Fin.last cfg6.N) ⊢ (Pipeline.ΦA spec6 c : sProp 𝕄) := by
  have h : cfg6.N ≠ 0 := by rw [show cfg6.N = 10 from N_6]; decide
  rw [show (dat6 V c).Φ (Fin.last cfg6.N) = PhiS6 V c cfg6.N (Nat.le_refl _) from rfl, PhiS6_pos V c _ _ h, PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Frame.lean ====
import proofs.«412548_j82308753260928_3_alg».proof.Proof.Gen.KernelIdeal.Launch
import proofs.«412548_j82308753260928_3_alg».proof.Proof.Gen.KernelIdeal.Skeleton
import proofs.«412548_j82308753260928_3_alg».proof.Proof.Gen.KernelIdeal.Points
import proofs.«412548_j82308753260928_3_alg».proof.Proof.Gen.KernelIdeal.Regions
import proofs.«412548_j82308753260928_3_alg».proof.Proof.KI.Reg0
import proofs.«412548_j82308753260928_3_alg».proof.Proof.KI.Reg1
import proofs.«412548_j82308753260928_3_alg».proof.Proof.KI.Reg2
import proofs.«412548_j82308753260928_3_alg».proof.Proof.KI.Reg3
import proofs.«412548_j82308753260928_3_alg».proof.Proof.KI.Reg4
import proofs.«412548_j82308753260928_3_alg».proof.Proof.KI.Reg5
import proofs.«412548_j82308753260928_3_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def exit_main_v22 (c : Dev nD) : Buf (Elt F) ((c : Thread nD τ).loc main_v22) := (dat0 (fun c b => Gen.V7 m c b) c).arrAt 3 cfg0.N
def W8 (c : Dev nD) : Valuation τ sig (Elt F) := Function.update (Gen.V7 m c) main_v22 (exit_main_v22 m c)
def W9 (c : Dev nD) : Valuation τ sig (Elt F) := StableHlo.after hostOps1 (W8 m c)
def exit_main_v38_0 (c : Dev nD) : Buf (Elt F) ((c : Thread nD τ).loc main_v38_0) := (dat1 (fun c b => W9 m c b) c).arrAt 3 cfg1.N
def exit_main_v38_1 (c : Dev nD) : Buf (Elt F) ((c : Thread nD τ).loc main_v38_1) := (dat1 (fun c b => W9 m c b) c).arrAt 4 cfg1.N
def exit_main_v38_2 (c : Dev nD) : Buf (Elt F) ((c : Thread nD τ).loc main_v38_2) := (dat1 (fun c b => W9 m c b) c).arrAt 5 cfg1.N
def W10 (c : Dev nD) : Valuation τ sig (Elt F) := Function.update (Function.update (Function.update (W9 m c) main_v38_0 (exit_main_v38_0 m c)) main_v38_1 (exit_main_v38_1 m c)) main_v38_2 (exit_main_v38_2 m c)
def W11 (c : Dev nD) : Valuation τ sig (Elt F) := StableHlo.after hostOps2 (W10 m c)
def exit_main_v55 (c : Dev nD) : Buf (Elt F) ((c : Thread nD τ).loc main_v55) := (dat2 (fun c b => W11 m c b) c).arrAt 7 cfg2.N
def W12 (c : Dev nD) : Valuation τ sig (Elt F) := Function.update (W11 m c) main_v55 (exit_main_v55 m c)
def W13 (c : Dev nD) : Valuation τ sig (Elt F) := StableHlo.after hostOps3 (W12 m c)
def exit_main_v71_0 (c : Dev nD) : Buf (Elt F) ((c : Thread nD τ).loc main_v71_0) := (dat3 (fun c b => W13 m c b) c).arrAt 3 cfg3.N
def exit_main_v71_1 (c : Dev nD) : Buf (Elt F) ((c : Thread nD τ).loc main_v71_1) := (dat3 (fun c b => W13 m c b) c).arrAt 4 cfg3.N
def exit_main_v71_2 (c : Dev nD) : Buf (Elt F) ((c : Thread nD τ).loc main_v71_2) := (dat3 (fun c b => W13 m c b) c).arrAt 5 cfg3.N
def W14 (c : Dev nD) : Valuation τ sig (Elt F) := Function.update (Function.update (Function.update (W13 m c) main_v71_0 (exit_main_v71_0 m c)) main_v71_1 (exit_main_v71_1 m c)) main_v71_2 (exit_main_v71_2 m c)
def W15 (c : Dev nD) : Valuation τ sig (Elt F) := StableHlo.after hostOps4 (W14 m c)
def exit_main_v88 (c : Dev nD) : Buf (Elt F) ((c : Thread nD τ).loc main_v88) := (dat4 (fun c b => W15 m c b) c).arrAt 7 cfg4.N
def W16 (c : Dev nD) : Valuation τ sig (Elt F) := Function.update (W15 m c) main_v88 (exit_main_v88 m c)
def W17 (c : Dev nD) : Valuation τ sig (Elt F) := StableHlo.after hostOps5 (W16 m c)
def exit_main_v104_0 (c : Dev nD) : Buf (Elt F) ((c : Thread nD τ).loc main_v104_0) := (dat5 (fun c b => W17 m c b) c).arrAt 3 cfg5.N
def exit_main_v104_1 (c : Dev nD) : Buf (Elt F) ((c : Thread nD τ).loc main_v104_1) := (dat5 (fun c b => W17 m c b) c).arrAt 4 cfg5.N
def exit_main_v104_2 (c : Dev nD) : Buf (Elt F) ((c : Thread nD τ).loc main_v104_2) := (dat5 (fun c b => W17 m c b) c).arrAt 5 cfg5.N
def W18 (c : Dev nD) : Valuation τ sig (Elt F) := Function.update (Function.update (Function.update (W17 m c) main_v104_0 (exit_main_v104_0 m c)) main_v104_1 (exit_main_v104_1 m c)) main_v104_2 (exit_main_v104_2 m c)
def W19 (c : Dev nD) : Valuation τ sig (Elt F) := StableHlo.after hostOps6 (W18 m c)
def exit_main_v120_0 (c : Dev nD) : Buf (Elt F) ((c : Thread nD τ).loc main_v120_0) := (dat6 (fun c b => W19 m c b) c).arrAt 6 cfg6.N
def exit_main_v120_1 (c : Dev nD) : Buf (Elt F) ((c : Thread nD τ).loc main_v120_1) := (dat6 (fun c b => W19 m c b) c).arrAt 7 cfg6.N
def W20 (c : Dev nD) : Valuation τ sig (Elt F) := Function.update (Function.update (W19 m c) main_v120_0 (exit_main_v120_0 m c)) main_v120_1 (exit_main_v120_1 m c)
def outs : Gen.Outs (F := F) := fun _ r c =>
  if h : r = main_v22 then h ▸ exit_main_v22 m c
  else if h : r = main_v38_0 then h ▸ exit_main_v38_0 m c
  else if h : r = main_v38_1 then h ▸ exit_main_v38_1 m c
  else if h : r = main_v38_2 then h ▸ exit_main_v38_2 m c
  else if h : r = main_v55 then h ▸ exit_main_v55 m c
  else if h : r = main_v71_0 then h ▸ exit_main_v71_0 m c
  else if h : r = main_v71_1 then h ▸ exit_main_v71_1 m c
  else if h : r = main_v71_2 then h ▸ exit_main_v71_2 m c
  else if h : r = main_v88 then h ▸ exit_main_v88 m c
  else if h : r = main_v104_0 then h ▸ exit_main_v104_0 m c
  else if h : r = main_v104_1 then h ▸ exit_main_v104_1 m c
  else if h : r = main_v104_2 then h ▸ exit_main_v104_2 m c
  else if h : r = main_v120_0 then h ▸ exit_main_v120_0 m c
  else if h : r = main_v120_1 then h ▸ exit_main_v120_1 m c
  else m ((c : Thread nD τ).loc r)
theorem V8_eq (c : Dev nD) : Gen.V8 m (outs m) c = W8 m c := rfl
theorem V9_eq (c : Dev nD) : Gen.V9 m (outs m) c = W9 m c := by
  unfold W9; rw [← V8_eq m c]
theorem V10_eq (c : Dev nD) : Gen.V10 m (outs m) c = W10 m c := by
  unfold W10; rw [← V9_eq m c]; rfl
theorem V11_eq (c : Dev nD) : Gen.V11 m (outs m) c = W11 m c := by
  unfold W11; rw [← V10_eq m c]
theorem V12_eq (c : Dev nD) : Gen.V12 m (outs m) c = W12 m c := by
  unfold W12; rw [← V11_eq m c]; rfl
theorem V13_eq (c : Dev nD) : Gen.V13 m (outs m) c = W13 m c := by
  unfold W13; rw [← V12_eq m c]
theorem V14_eq (c : Dev nD) : Gen.V14 m (outs m) c = W14 m c := by
  unfold W14; rw [← V13_eq m c]; rfl
theorem V15_eq (c : Dev nD) : Gen.V15 m (outs m) c = W15 m c := by
  unfold W15; rw [← V14_eq m c]
theorem V16_eq (c : Dev nD) : Gen.V16 m (outs m) c = W16 m c := by
  unfold W16; rw [← V15_eq m c]; rfl
theorem V17_eq (c : Dev nD) : Gen.V17 m (outs m) c = W17 m c := by
  unfold W17; rw [← V16_eq m c]
theorem V18_eq (c : Dev nD) : Gen.V18 m (outs m) c = W18 m c := by
  unfold W18; rw [← V17_eq m c]; rfl
theorem V19_eq (c : Dev nD) : Gen.V19 m (outs m) c = W19 m c := by
  unfold W19; rw [← V18_eq m c]
theorem V20_eq (c : Dev nD) : Gen.V20 m (outs m) c = W20 m c := by
  unfold W20; rw [← V19_eq m c]; rfl

/-- Anything built from a family of valuations is the same at two families that agree core by core. -/
theorem at_entry {α : Sort _} {V V' : Dev nD → Valuation τ sig (Elt F)} (h : ∀ c, V c = V' c)
    (f : ((c : Dev nD) → (b : Ref sig .tc) → Buf (Elt F) ((c : Thread nD τ).loc b)) → α) :
    f (fun c b => V' c b) = f (fun c b => V c b) :=
  congrArg f (funext fun c => funext fun b => by rw [h])
theorem outs_main_v22 (c : Dev nD) : outs m 8 main_v22 c = (dat0 (fun c b => Gen.V7 m c b) c).arrAt 3 cfg0.N := rfl
theorem outs_main_v38_0 (c : Dev nD) : outs m 10 main_v38_0 c = (dat1 (fun c b => Gen.V9 m (outs m) c b) c).arrAt 3 cfg1.N :=
  at_entry (V9_eq m) fun V => (dat1 V c).arrAt 3 cfg1.N
theorem outs_main_v38_1 (c : Dev nD) : outs m 10 main_v38_1 c = (dat1 (fun c b => Gen.V9 m (outs m) c b) c).arrAt 4 cfg1.N :=
  at_entry (V9_eq m) fun V => (dat1 V c).arrAt 4 cfg1.N
theorem outs_main_v38_2 (c : Dev nD) : outs m 10 main_v38_2 c = (dat1 (fun c b => Gen.V9 m (outs m) c b) c).arrAt 5 cfg1.N :=
  at_entry (V9_eq m) fun V => (dat1 V c).arrAt 5 cfg1.N
theorem outs_main_v55 (c : Dev nD) : outs m 12 main_v55 c = (dat2 (fun c b => Gen.V11 m (outs m) c b) c).arrAt 7 cfg2.N :=
  at_entry (V11_eq m) fun V => (dat2 V c).arrAt 7 cfg2.N
theorem outs_main_v71_0 (c : Dev nD) : outs m 14 main_v71_0 c = (dat3 (fun c b => Gen.V13 m (outs m) c b) c).arrAt 3 cfg3.N :=
  at_entry (V13_eq m) fun V => (dat3 V c).arrAt 3 cfg3.N
theorem outs_main_v71_1 (c : Dev nD) : outs m 14 main_v71_1 c = (dat3 (fun c b => Gen.V13 m (outs m) c b) c).arrAt 4 cfg3.N :=
  at_entry (V13_eq m) fun V => (dat3 V c).arrAt 4 cfg3.N
theorem outs_main_v71_2 (c : Dev nD) : outs m 14 main_v71_2 c = (dat3 (fun c b => Gen.V13 m (outs m) c b) c).arrAt 5 cfg3.N :=
  at_entry (V13_eq m) fun V => (dat3 V c).arrAt 5 cfg3.N
theorem outs_main_v88 (c : Dev nD) : outs m 16 main_v88 c = (dat4 (fun c b => Gen.V15 m (outs m) c b) c).arrAt 7 cfg4.N :=
  at_entry (V15_eq m) fun V => (dat4 V c).arrAt 7 cfg4.N
theorem outs_main_v104_0 (c : Dev nD) : outs m 18 main_v104_0 c = (dat5 (fun c b => Gen.V17 m (outs m) c b) c).arrAt 3 cfg5.N :=
  at_entry (V17_eq m) fun V => (dat5 V c).arrAt 3 cfg5.N
theorem outs_main_v104_1 (c : Dev nD) : outs m 18 main_v104_1 c = (dat5 (fun c b => Gen.V17 m (outs m) c b) c).arrAt 4 cfg5.N :=
  at_entry (V17_eq m) fun V => (dat5 V c).arrAt 4 cfg5.N
theorem outs_main_v104_2 (c : Dev nD) : outs m 18 main_v104_2 c = (dat5 (fun c b => Gen.V17 m (outs m) c b) c).arrAt 5 cfg5.N :=
  at_entry (V17_eq m) fun V => (dat5 V c).arrAt 5 cfg5.N
theorem outs_main_v120_0 (c : Dev nD) : outs m 20 main_v120_0 c = (dat6 (fun c b => Gen.V19 m (outs m) c b) c).arrAt 6 cfg6.N :=
  at_entry (V19_eq m) fun V => (dat6 V c).arrAt 6 cfg6.N
theorem outs_main_v120_1 (c : Dev nD) : outs m 20 main_v120_1 c = (dat6 (fun c b => Gen.V19 m (outs m) c b) c).arrAt 7 cfg6.N :=
  at_entry (V19_eq m) fun V => (dat6 V c).arrAt 7 cfg6.N

/-- A valuation updated, at each reference of a list, to a value that depends only on the reference. -/
abbrev updAll (x : (o : Ref sig .tc) → (o : DevRef τ sig).ty.Contents (Elt F)) (O : List (Ref sig .tc)) (V : Valuation τ sig (Elt F)) : Valuation τ sig (Elt F) :=
  O.foldl (fun W (o : Ref sig .tc) => Function.update W (o : DevRef τ sig) (x o)) V
/-- It holds the new value at a listed reference (or wherever the old value was already the new one), -/
theorem updAll_at (x : (o : Ref sig .tc) → (o : DevRef τ sig).ty.Contents (Elt F)) (O : List (Ref sig .tc)) (V : Valuation τ sig (Elt F)) {o : Ref sig .tc}
    (h : o ∈ O ∨ V o = x o) : updAll x O V o = x o := by
  induction O generalizing V with
  | nil => exact h.resolve_left List.not_mem_nil
  | cons a l ih =>
    rw [updAll, List.foldl_cons]
    refine ih _ ?_
    by_cases hoa : o = a
    · subst hoa; exact Or.inr (Function.update_self ..)
    · exact h.imp (fun h => (List.mem_cons.mp h).resolve_left hoa) fun h => (Function.update_of_ne (StableHlo.devRef_ne_of_ne hoa) _ _).trans h
/-- and the old value off the list. -/
theorem updAll_off (x : (o : Ref sig .tc) → (o : DevRef τ sig).ty.Contents (Elt F)) (O : List (Ref sig .tc)) (V : Valuation τ sig (Elt F)) {b : Ref sig .tc}
    (h : b ∉ O) : updAll x O V b = V b := by
  induction O generalizing V with
  | nil => rfl
  | cons a l ih =>
    rw [updAll, List.foldl_cons]
    exact (ih _ fun hm => h (List.mem_cons_of_mem _ hm)).trans
      (Function.update_of_ne (StableHlo.devRef_ne_of_ne fun e => h (List.mem_cons.mpr (Or.inl e))) _ _)

theorem out_is0 : ∀ w : Fin 4, ¬ (cfg0.win w).isOut = false → w = 3 := by decide
theorem out_is1 : ∀ w : Fin 6, ¬ (cfg1.win w).isOut = false → w = 3 ∨ w = 4 ∨ w = 5 := by decide
theorem out_is2 : ∀ w : Fin 8, ¬ (cfg2.win w).isOut = false → w = 7 := by decide
theorem out_is3 : ∀ w : Fin 6, ¬ (cfg3.win w).isOut = false → w = 3 ∨ w = 4 ∨ w = 5 := by decide
theorem out_is4 : ∀ w : Fin 8, ¬ (cfg4.win w).isOut = false → w = 7 := by decide
theorem out_is5 : ∀ w : Fin 6, ¬ (cfg5.win w).isOut = false → w = 3 ∨ w = 4 ∨ w = 5 := by decide
theorem out_is6 : ∀ w : Fin 8, ¬ (cfg6.win w).isOut = false → w = 6 ∨ w = 7 := by decide

def pdats : (p : Fin 7) → (c : Dev nD) → Dat τ (Elt F) Unit ℕ (UR sig nD τ) ℕ (cfgs p) c
  | ⟨0, _⟩ => fun c => dat0 (fun c b => Gen.V7 m c b) c
  | ⟨1, _⟩ => fun c => dat1 (fun c b => Gen.V9 m (outs m) c b) c
  | ⟨2, _⟩ => fun c => dat2 (fun c b => Gen.V11 m (outs m) c b) c
  | ⟨3, _⟩ => fun c => dat3 (fun c b => Gen.V13 m (outs m) c b) c
  | ⟨4, _⟩ => fun c => dat4 (fun c b => Gen.V15 m (outs m) c b) c
  | ⟨5, _⟩ => fun c => dat5 (fun c b => Gen.V17 m (outs m) c b) c
  | ⟨6, _⟩ => fun c => dat6 (fun c b => Gen.V19 m (outs m) c b) c
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 8 → Dev nD → sProp 𝕄 := fun _ c => R c

/-- A family of valuations as a family of buffers indexed by core and reference. -/
abbrev ent (V : Dev nD → Valuation τ sig (Elt F)) (c : Dev nD) (b : Ref sig .tc) : Buf (Elt F) ((c : Thread nD τ).loc b) := V c b
abbrev Reg (p : Fin 7) := Pipeline.RegionSeg (pcfgs (F := F)) Gen.adm (pdats m) () defs₀ Variants.none L lv p

set_option backward.isDefEq.respectTransparency.types false in
/-- One region's record from its proof data: entered at `V`, left at `V` updated at the outputs `O`, each to its window's last array. -/
def mkReg (p : Fin 7) (lf : Pipeline.LaunchFacts (nD := nD) (τ := τ) cfgs p) (V : Dev nD → Valuation τ sig (Elt F)) (J : ℕ) (O : List (Ref sig .tc))
    (hb : ∀ c, BodyObligation (pdats m p c) (defs₀ (F := F)) Variants.none () Set.univ)
    (hA : ∀ c w, (pdats m p c).A w = V c (Pipeline.arrRef (cfgs p).spec w))
    (hq : ∀ c w, (pdats m p c).q w = fullShare)
    (howed : ∀ c t, (pdats m p c).owed t = 0) (hrec : ∀ c, (pdats m p c).recorded 0 = Set.univ)
    (h0 : ∀ c, (Pipeline.ΦA (cfgs p).spec c : sProp 𝕄) ⊢ (pdats m p c).Φ 0)
    (hN : ∀ c, (pdats m p c).Φ (Fin.last (cfgs p).N) ⊢ (Pipeline.ΦA (cfgs p).spec c : sProp 𝕄))
    (hio : ∀ w, ((cfgs p).win w).isOut = false → Pipeline.arrRef (cfgs p).spec w ∉ O)
    (hO : ∀ r ∈ O, ∃ w, Pipeline.arrRef (cfgs p).spec w = r)
    (hoi : ∀ w, ¬ ((cfgs p).win w).isOut = false → Pipeline.arrRef (cfgs p).spec w ∈ O)
    (ho : ∀ c w, ¬ ((cfgs p).win w).isOut = false → (pdats m p c).arrAt w (cfgs p).N = outs m J (Pipeline.arrRef (cfgs p).spec w) c) :
    Reg m p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (updAll (outs m J · c) O (V c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) Gen.adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m p c).owed 0 = 0 from howed c 0]
      icases HO with ⟨%W, HO⟩; iexists W; isplitr; · ipureintro; exact fun x _ => Or.inl ((hrec c).symm ▸ Set.mem_univ x)
      iexact HO
    isplitl [Hp]; · iexact Hp
    iexact Hrest
  hin c := by
    refine BIBase.Entails.trans ?_ (h0 c)
    unfold Pipeline.ΦA
    iintro ⟨Hp, -, Hr⟩
    isplitl [Hr]; · iexact Hr
    iexact Hp
  hout c := by
    refine (hN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => V c b) (fun b => updAll (outs m J · c) O (V c) b) ((pdats m p c).arrAt · (cfgs p).N)
      (fun w => if hw : ((cfgs p).win w).isOut = false
        then ((pdats m p c).arrAt_in w hw _).trans ((hA c w).trans (updAll_off (outs m J · c) O _ (hio w hw)).symm)
        else (ho c w hw).trans (updAll_at (outs m J · c) O _ (Or.inl (hoi w hw))).symm)
      fun b hb => updAll_off (outs m J · c) O _ fun hm => hb (let ⟨w, h⟩ := hO b hm; Finset.mem_image.mpr ⟨w, Finset.mem_univ _, h⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m p c).owed (Fin.last (Pipeline.pin (pcfgs (F := F)) Gen.adm p).N) = 0 from howed c _]
    icases HO with ⟨%W, -, HO⟩; iexists W; iexact HO

def reg0 : Reg m 0 :=
  let e := ent (Gen.V7 m)
  mkReg m 0 launch0 (Gen.V7 m) 8 [main_v22] (body_obligation0 e) (A_eq0 e) (q_eq0 e) (owed_eq0 e) (fun _ => rfl) (hin0 e) (hout0 e)
    (by decide) (by decide) (by decide) fun c w hw => by
    rcases out_is0 w hw with rfl
    exacts [(outs_main_v22 m c).symm]

def reg1 : Reg m 1 :=
  let e := ent (Gen.V9 m (outs m))
  mkReg m 1 launch1 (Gen.V9 m (outs m)) 10 [main_v38_0, main_v38_1, main_v38_2] (body_obligation1 e) (A_eq1 e) (q_eq1 e) (owed_eq1 e) (fun _ => rfl) (hin1 e) (hout1 e)
    (by decide) (by decide) (by decide) fun c w hw => by
    rcases out_is1 w hw with rfl | rfl | rfl
    exacts [(outs_main_v38_0 m c).symm, (outs_main_v38_1 m c).symm, (outs_main_v38_2 m c).symm]

def reg2 : Reg m 2 :=
  let e := ent (Gen.V11 m (outs m))
  mkReg m 2 launch2 (Gen.V11 m (outs m)) 12 [main_v55] (body_obligation2 e) (A_eq2 e) (q_eq2 e) (owed_eq2 e) (fun _ => rfl) (hin2 e) (hout2 e)
    (by decide) (by decide) (by decide) fun c w hw => by
    rcases out_is2 w hw with rfl
    exacts [(outs_main_v55 m c).symm]

def reg3 : Reg m 3 :=
  let e := ent (Gen.V13 m (outs m))
  mkReg m 3 launch3 (Gen.V13 m (outs m)) 14 [main_v71_0, main_v71_1, main_v71_2] (body_obligation3 e) (A_eq3 e) (q_eq3 e) (owed_eq3 e) (fun _ => rfl) (hin3 e) (hout3 e)
    (by decide) (by decide) (by decide) fun c w hw => by
    rcases out_is3 w hw with rfl | rfl | rfl
    exacts [(outs_main_v71_0 m c).symm, (outs_main_v71_1 m c).symm, (outs_main_v71_2 m c).symm]

def reg4 : Reg m 4 :=
  let e := ent (Gen.V15 m (outs m))
  mkReg m 4 launch4 (Gen.V15 m (outs m)) 16 [main_v88] (body_obligation4 e) (A_eq4 e) (q_eq4 e) (owed_eq4 e) (fun _ => rfl) (hin4 e) (hout4 e)
    (by decide) (by decide) (by decide) fun c w hw => by
    rcases out_is4 w hw with rfl
    exacts [(outs_main_v88 m c).symm]

def reg5 : Reg m 5 :=
  let e := ent (Gen.V17 m (outs m))
  mkReg m 5 launch5 (Gen.V17 m (outs m)) 18 [main_v104_0, main_v104_1, main_v104_2] (body_obligation5 e) (A_eq5 e) (q_eq5 e) (owed_eq5 e) (fun _ => rfl) (hin5 e) (hout5 e)
    (by decide) (by decide) (by decide) fun c w hw => by
    rcases out_is5 w hw with rfl | rfl | rfl
    exacts [(outs_main_v104_0 m c).symm, (outs_main_v104_1 m c).symm, (outs_main_v104_2 m c).symm]

def reg6 : Reg m 6 :=
  let e := ent (Gen.V19 m (outs m))
  mkReg m 6 launch6 (Gen.V19 m (outs m)) 20 [main_v120_0, main_v120_1] (body_obligation6 e) (A_eq6 e) (q_eq6 e) (owed_eq6 e) (fun _ => rfl) (hin6 e) (hout6 e)
    (by decide) (by decide) (by decide) fun c w hw => by
    rcases out_is6 w hw with rfl | rfl
    exacts [(outs_main_v120_0 m c).symm, (outs_main_v120_1 m c).symm]

abbrev u₀ : UR sig nD τ := initOf (Pipeline.cells cfgs cellOf_inj) (Pipeline.launchToks cfgs cellOf_inj)

theorem hu₀ : (ownU (u₀) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE7 (c : Dev nD) : E (F := F) 7 c ⊢ (iprop(∃ W, owes (c : Thread nD τ) (0 : CellTallies nD τ sig Unit) W) : sProp 𝕄) := by
  iintro ⟨-, HO⟩; iexact HO

set_option backward.isDefEq.respectTransparency.types false in
theorem run_named : θ_run defs (onTc (τ := τ) (main (F := F))) ⟨m, fun _ => 0, ρ⟩ (fun r => ∀ c : Dev nD,
      r.2.mem ((c.tc : Thread nD τ).loc main_v125) = Gen.V21 m (outs m) c main_v125
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m) (reg2 m) (reg3 m) (reg4 m) (reg5 m) (reg6 m))
    (fun c Q => by
      rewrite [main_chain c, Pipeline.Seg.run_eq_chain,
        show ((Gen.segs m (outs m) Variants.none L lv E () (pdats m) (reg0 m) (reg1 m) (reg2 m) (reg3 m) (reg4 m) (reg5 m) (reg6 m)) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [Gen.segs, Pipeline.Seg.pipes_host, Pipeline.Seg.pipes_region, Pipeline.Seg.pipes_nil]; decide) 0 (fun _ _ => rfl) (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => s.mem ((c.tc : Thread nD τ).loc main_v125) = Gen.V21 m (outs m) c main_v125
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V21 m (outs m) c) s') $$ [Hh HSI]
    · isplitl [Hh] <;> iassumption
    icases Hr with ⟨%h, HSI⟩
    imodintro
    isplitr
    · ipureintro
      have rd (b : Ref sig .tc) (hb : ¬ (Proc.devRef .tc b : DevRef τ sig).isScoped) := h _ (Finset.mem_filter.mpr ⟨StableHlo.devRef_mem_tcRefs b, hb⟩)
      exact ⟨rd main_v125 (by decide), (rd main_arg0 (by decide)).trans (Gen.V21_main_arg0 m (outs m) c), (rd main_arg1 (by decide)).trans (Gen.V21_main_arg1 m (outs m) c),
        (rd main_arg2 (by decide)).trans (Gen.V21_main_arg2 m (outs m) c), (rd main_arg3 (by decide)).trans (Gen.V21_main_arg3 m (outs m) c), (rd main_arg4 (by decide)).trans (Gen.V21_main_arg4 m (outs m) c),
        (rd main_arg5 (by decide)).trans (Gen.V21_main_arg5 m (outs m) c), (rd main_arg6 (by decide)).trans (Gen.V21_main_arg6 m (outs m) c), (rd main_arg7 (by decide)).trans (Gen.V21_main_arg7 m (outs m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

/-- info: 'Cert.KernelIdeal.Hand.run_named' depends on axioms: [propext, Classical.choice, Quot.sound] -/
#guard_msgs in #print axioms run_named
/-- info: 'Cert.KernelIdeal.Hand.frame' depends on axioms: [propext, Classical.choice, Quot.sound] -/
#guard_msgs in #print axioms frame

end Cert.KernelIdeal.Hand

end
-- ==== Proof.KSpec.lean ====
import Idealize.ShloMosaic.PureOps.Ideal
import Idealize.ShloMosaic.Lib.ValueIdx
noncomputable section
namespace Cert.Hand.KSpec
open Idealize.ShloMosaic Idealize.ShloMosaic.ValueIdx
abbrev Mat (r c : Nat) : Type := (⟨2, ![r, c]⟩ : Shape).Idx → EReal
def epsE : EReal := Ideal.ofBits .f32 0x3727C5AC#32
def embedLin (x2 : IVec (⟨2, ![50000, 1]⟩ : Shape) 32) (ew : Mat 30 128) (d2 : Mat 50000 1) : Mat 50000 128 :=
  fun i => d2 (ix2 (i 0) 0) * ∑ v : Fin 30, (if x2 (ix2 (i 0) 0) = BitVec.ofNat 32 v.val then (1 : EReal) else 0) * ew (ix2 v (i 1))
def reluOut (agg : Mat 50000 128) (d2 : Mat 50000 1) (b2 : Mat 1 128) : Mat 50000 128 :=
  fun i => max (d2 (ix2 (i 0) 0) * agg i + b2 (ix2 0 (i 1))) 0
def colSum (a : Mat 50000 128) : Mat 1 128 := fun j => ∑ n : Fin 50000, a (ix2 n (j 1))
def colSumSq (a : Mat 50000 128) : Mat 1 128 := fun j => ∑ n : Fin 50000, a (ix2 n (j 1)) * a (ix2 n (j 1))
def bnRow (a : Mat 50000 128) (mu var ga be : Mat 1 128) : Mat 50000 128 :=
  fun i => ga (ix2 0 (i 1)) * (a i - mu (ix2 0 (i 1))) * Ideal.rsqrt (var (ix2 0 (i 1)) + epsE) + be (ix2 0 (i 1))
def linBn (a : Mat 50000 128) (mu var ga be : Mat 1 128) (w : Mat 128 128) (d2 : Mat 50000 1) : Mat 50000 128 :=
  fun i => d2 (ix2 (i 0) 0) * ∑ k : Fin 128, bnRow a mu var ga be (ix2 (i 0) k) * w (ix2 k (i 1))
def poolSums (bt2 : IVec (⟨2, ![50000, 1]⟩ : Shape) 32) (a : Mat 50000 128) (mu var ga be : Mat 1 128) : Mat 64 128 :=
  fun i => ∑ n : Fin 50000, (if bt2 (ix2 n 0) = BitVec.ofNat 32 (i 0).val then (1 : EReal) else 0) * bnRow a mu var ga be (ix2 n (i 1))
def poolCounts (bt2 : IVec (⟨2, ![50000, 1]⟩ : Shape) 32) : Mat 1 64 :=
  fun i => ∑ n : Fin 50000, (if bt2 (ix2 n 0) = BitVec.ofNat 32 (i 1).val then (1 : EReal) else 0)
end Cert.Hand.KSpec
end
-- ==== Proof.Val.KDefs.lean ====
import proofs.«412548_j82308753260928_3_alg».proof.KernelIdeal
import proofs.«412548_j82308753260928_3_alg».proof.Proof.Gen.KernelIdeal.Launch
import proofs.«412548_j82308753260928_3_alg».proof.Proof.KSpec
noncomputable section
namespace Cert.KernelIdeal.Hand
open Idealize.ShloMosaic
open Cert.KernelIdeal Cert.KernelIdeal.Gen
open Cert.Hand
def kClip (hi : BitVec 32) (a : IVec S50000 32) : IVec S50000 32 :=
  minsi (broadcastInDim S50000 ![] bcast_S_S50000 (constantI S_ 32 hi))
    (maxsi (broadcastInDim S50000 ![] bcast_S_S50000 (constantI S_ 32 0#32)) a)
def kX2 (a0 : IVec S50000 32) : IVec S50000x1 32 :=
  shapeCast S50000x1 (kClip 29#32 a0) shapeCasts_S50000_S50000x1
def kBt2 (a2 : IVec S50000 32) : IVec S50000x1 32 :=
  shapeCast S50000x1 (kClip 63#32 a2) shapeCasts_S50000_S50000x1
def kRow (a1 : IVec S2x800000 32) : IVec S850000 32 :=
  concatenate S850000 0
    [⟨S800000, shapeCast S800000 (extractStridedSlice S1x800000 ![0, 0] a1 slices_S2x800000_S1x800000_0_0) shapeCasts_S1x800000_S800000⟩,
     ⟨S50000, iotaInDim S50000 32 0⟩]
    concatenates_S800000_S50000_S850000_d0
def kCol (a1 : IVec S2x800000 32) : IVec S850000 32 :=
  concatenate S850000 0
    [⟨S800000, shapeCast S800000 (extractStridedSlice S1x800000 ![1, 0] a1 slices_S2x800000_S1x800000_1_0) shapeCasts_S1x800000_S800000⟩,
     ⟨S50000, iotaInDim S50000 32 0⟩]
    concatenates_S800000_S50000_S850000_d0
def kRowIdx (a1 : IVec S2x800000 32) : IVec S850000x1 32 :=
  broadcastInDim S850000x1 ![0] bcast_S850000_S850000x1_0
    (select (cmpi .slt (kRow a1) (broadcastInDim S850000 ![] bcast_S_S850000 (constantI S_ 32 0#32)))
      (addi (kRow a1) (broadcastInDim S850000 ![] bcast_S_S850000 (constantI S_ 32 50000#32)))
      (kRow a1))
def kColIdx (a1 : IVec S2x800000 32) : IVec S850000x1 32 :=
  broadcastInDim S850000x1 ![0] bcast_S850000_S850000x1_0 (kCol a1)
def kDeg (a1 : IVec S2x800000 32) : FVec Ideal S50000 .f32 :=
  Host.scatterAdd scatter_S50000_S850000x1_S850000_n_0_0_1
    (broadcastInDim S50000 ![] bcast_S_S50000 (constant (F := Ideal) S_ .f32 0x00000000#32))
    (kColIdx a1)
    (broadcastInDim S850000 ![] bcast_S_S850000 (constant (F := Ideal) S_ .f32 0x3F800000#32))
def kDinv (a1 : IVec S2x800000 32) : FVec Ideal S50000 .f32 :=
  select (cmpf .ogt (kDeg a1) (broadcastInDim S50000 ![] bcast_S_S50000 (constant (F := Ideal) S_ .f32 0x00000000#32)))
    (Host.rsqrt (kDeg a1))
    (broadcastInDim S50000 ![] bcast_S_S50000 (constant (F := Ideal) S_ .f32 0x00000000#32))
def kDinv2 (a1 : IVec S2x800000 32) : FVec Ideal S50000x1 .f32 :=
  shapeCast S50000x1 (kDinv a1) shapeCasts_S50000_S50000x1
def kW (l : Fin 3) (a4 : FVec Ideal S3x128x128 .f32) : FVec Ideal S128x128 .f32 :=
  match l with
  | 0 => shapeCast S128x128 (extractStridedSlice S1x128x128 ![0, 0, 0] a4 slices_S3x128x128_S1x128x128_0_0_0) shapeCasts_S1x128x128_S128x128
  | 1 => shapeCast S128x128 (extractStridedSlice S1x128x128 ![1, 0, 0] a4 slices_S3x128x128_S1x128x128_1_0_0) shapeCasts_S1x128x128_S128x128
  | 2 => shapeCast S128x128 (extractStridedSlice S1x128x128 ![2, 0, 0] a4 slices_S3x128x128_S1x128x128_2_0_0) shapeCasts_S1x128x128_S128x128
def kVec (l : Fin 3) (a : FVec Ideal S3x128 .f32) : FVec Ideal S128 .f32 :=
  match l with
  | 0 => shapeCast S128 (extractStridedSlice S1x128 ![0, 0] a slices_S3x128_S1x128_0_0) shapeCasts_S1x128_S128
  | 1 => shapeCast S128 (extractStridedSlice S1x128 ![1, 0] a slices_S3x128_S1x128_1_0) shapeCasts_S1x128_S128
  | 2 => shapeCast S128 (extractStridedSlice S1x128 ![2, 0] a slices_S3x128_S1x128_2_0) shapeCasts_S1x128_S128
def kRow1 (l : Fin 3) (a : FVec Ideal S3x128 .f32) : FVec Ideal S1x128 .f32 :=
  shapeCast S1x128 (kVec l a) shapeCasts_S128_S1x128
def kBias (l : Fin 3) (a5 : FVec Ideal S3x128 .f32) : FVec Ideal S1x128 .f32 := kRow1 l a5
def kGamma (l : Fin 3) (a6 : FVec Ideal S3x128 .f32) : FVec Ideal S1x128 .f32 := kRow1 l a6
def kBeta (l : Fin 3) (a7 : FVec Ideal S3x128 .f32) : FVec Ideal S1x128 .f32 := kRow1 l a7
def kEW0 (a3 : FVec Ideal S30x128 .f32) (a4 : FVec Ideal S3x128x128 .f32) : FVec Ideal S30x128 .f32 :=
  Host.dotGeneral dot_S30x128_S128x128_S30x128_1_0_0_1_n_n none a3 (kW 0 a4)
def kAgg (a1 : IVec S2x800000 32) (mOut : FVec Ideal S50000x128 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (kColIdx a1)
    (extf .f32
      (Host.gather gather_S50000x128_S850000x1_S850000x128_1_0_n_n_0_1_1128 (truncf .bf16 mOut bitsLt_bf16_f32) (kRowIdx a1))
      bitsLt_bf16_f32)
def kMu (s : FVec Ideal S1x128 .f32) : FVec Ideal S1x128 .f32 :=
  Host.divf s (broadcastInDim S1x128 ![] bcast_S_S1x128 (constant (F := Ideal) S_ .f32 0x47435000#32))
def kVar (s q : FVec Ideal S1x128 .f32) : FVec Ideal S1x128 .f32 :=
  maximumf
    (subf (Host.divf q (broadcastInDim S1x128 ![] bcast_S_S1x128 (constant (F := Ideal) S_ .f32 0x47435000#32)))
      (mulf (kMu s) (kMu s)))
    (broadcastInDim S1x128 ![] bcast_S_S1x128 (constant (F := Ideal) S_ .f32 0x00000000#32))
def kFinal (sums : FVec Ideal S64x128 .f32) (counts : FVec Ideal S1x64 .f32) : FVec Ideal S64x128 .f32 :=
  Host.divf sums
    (broadcastInDim S64x128 ![0, 1] bcast_S64x1_S64x128_0_1
      (maximumf (shapeCast S64x1 counts shapeCasts_S1x64_S64x1)
        (broadcastInDim S64x1 ![] bcast_S_S64x1 (constant (F := Ideal) S_ .f32 0x3F800000#32))))
def kAct (a1 : IVec S2x800000 32) (a5 : FVec Ideal S3x128 .f32) (l : Fin 3) (mOut : FVec Ideal S50000x128 .f32) :
    FVec Ideal S50000x128 .f32 :=
  KSpec.reluOut (kAgg a1 mOut) (kDinv2 a1) (kBias l a5)
def kMuOf (a : FVec Ideal S50000x128 .f32) : FVec Ideal S1x128 .f32 := kMu (KSpec.colSum a)
def kVarOf (a : FVec Ideal S50000x128 .f32) : FVec Ideal S1x128 .f32 := kVar (KSpec.colSum a) (KSpec.colSumSq a)
def kLin (a1 : IVec S2x800000 32) (a4 : FVec Ideal S3x128x128 .f32) (a6 a7 : FVec Ideal S3x128 .f32) (l lw : Fin 3)
    (a : FVec Ideal S50000x128 .f32) : FVec Ideal S50000x128 .f32 :=
  KSpec.linBn a (kMuOf a) (kVarOf a) (kGamma l a6) (kBeta l a7) (kW lw a4) (kDinv2 a1)
def kM0 (a0 : IVec S50000 32) (a1 : IVec S2x800000 32) (a3 : FVec Ideal S30x128 .f32) (a4 : FVec Ideal S3x128x128 .f32) :
    FVec Ideal S50000x128 .f32 :=
  KSpec.embedLin (kX2 a0) (kEW0 a3 a4) (kDinv2 a1)
def kA0 (a0 : IVec S50000 32) (a1 : IVec S2x800000 32) (a3 : FVec Ideal S30x128 .f32) (a4 : FVec Ideal S3x128x128 .f32)
    (a5 : FVec Ideal S3x128 .f32) : FVec Ideal S50000x128 .f32 :=
  kAct a1 a5 0 (kM0 a0 a1 a3 a4)
def kA1 (a0 : IVec S50000 32) (a1 : IVec S2x800000 32) (a3 : FVec Ideal S30x128 .f32) (a4 : FVec Ideal S3x128x128 .f32)
    (a5 a6 a7 : FVec Ideal S3x128 .f32) : FVec Ideal S50000x128 .f32 :=
  kAct a1 a5 1 (kLin a1 a4 a6 a7 0 1 (kA0 a0 a1 a3 a4 a5))
def kA2 (a0 : IVec S50000 32) (a1 : IVec S2x800000 32) (a3 : FVec Ideal S30x128 .f32) (a4 : FVec Ideal S3x128x128 .f32)
    (a5 a6 a7 : FVec Ideal S3x128 .f32) : FVec Ideal S50000x128 .f32 :=
  kAct a1 a5 2 (kLin a1 a4 a6 a7 1 2 (kA1 a0 a1 a3 a4 a5 a6 a7))
def kOut (a0 : IVec S50000 32) (a1 : IVec S2x800000 32) (a2 : IVec S50000 32) (a3 : FVec Ideal S30x128 .f32)
    (a4 : FVec Ideal S3x128x128 .f32) (a5 a6 a7 : FVec Ideal S3x128 .f32) : FVec Ideal S64x128 .f32 :=
  kFinal
    (KSpec.poolSums (kBt2 a2) (kA2 a0 a1 a3 a4 a5 a6 a7) (kMuOf (kA2 a0 a1 a3 a4 a5 a6 a7)) (kVarOf (kA2 a0 a1 a3 a4 a5 a6 a7))
      (kGamma 2 a6) (kBeta 2 a7))
    (KSpec.poolCounts (kBt2 a2))
end Cert.KernelIdeal.Hand
end
-- ==== Proof.Val.HostRun.lean ====
import proofs.«412548_j82308753260928_3_alg».proof.Proof.Val.KDefs
import proofs.«412548_j82308753260928_3_alg».proof.Proof.Gen.KernelIdeal.Regions

set_option maxRecDepth 4096

set_option maxHeartbeats 1600000

noncomputable section

namespace Cert.KernelIdeal.Hand

open Idealize.ShloMosaic Idealize.ShloMosaic.TcCoe
open Cert.KernelIdeal Cert.KernelIdeal.Gen
open Cert.Hand

section Stretch

variable (W : Valuation τ sig (Elt Ideal))

theorem ops0_c :
    StableHlo.after Gen.hostOps0 W main_c = constantI S_ 32 0#32 := by
  simp only [Gen.hostOps0]; after_results
theorem ops0_c_0 :
    StableHlo.after Gen.hostOps0 W main_c_0 = constantI S_ 32 29#32 := by
  simp only [Gen.hostOps0]; after_results

theorem ops0_1_v0 (a0 : IVec S50000 32) (h1 : W main_c = constantI S_ 32 0#32) (h2 : W main_c_0 = constantI S_ 32 29#32)
    (h3 : W main_arg0 = a0) :
    StableHlo.after Gen.hostOps0_1 W main_v0 = kClip 29#32 a0 := by
  simp only [Gen.hostOps0_1]; after_results
  simp only [StableHlo.TRef.ofBuf, StableHlo.TRef.toBuf, cast_eq]
  rw [h1, h2, h3]; rfl

theorem ops0_2_c_1 :
    StableHlo.after Gen.hostOps0_2 W main_c_1 = constantI S_ 32 0#32 := by
  simp only [Gen.hostOps0_2]; after_results
theorem ops0_2_c_2 :
    StableHlo.after Gen.hostOps0_2 W main_c_2 = constantI S_ 32 63#32 := by
  simp only [Gen.hostOps0_2]; after_results

theorem ops0_3_v1 (a2 : IVec S50000 32) (h1 : W main_c_1 = constantI S_ 32 0#32) (h2 : W main_c_2 = constantI S_ 32 63#32)
    (h3 : W main_arg2 = a2) :
    StableHlo.after Gen.hostOps0_3 W main_v1 = kClip 63#32 a2 := by
  simp only [Gen.hostOps0_3]; after_results
  simp only [StableHlo.TRef.ofBuf, StableHlo.TRef.toBuf, cast_eq]
  rw [h1, h2, h3]; rfl

theorem ops0_4_v7 (a1 : IVec S2x800000 32) (h : W main_arg1 = a1) :
    StableHlo.after Gen.hostOps0_4 W main_v7 = kRow a1 := by
  simp only [Gen.hostOps0_4]; after_results
  rw [h]; rfl
theorem ops0_4_v8 (a1 : IVec S2x800000 32) (h : W main_arg1 = a1) :
    StableHlo.after Gen.hostOps0_4 W main_v8 = kCol a1 := by
  simp only [Gen.hostOps0_4]; after_results
  rw [h]; rfl
theorem ops0_4_v14 (a1 : IVec S2x800000 32) (h : W main_arg1 = a1) :
    StableHlo.after Gen.hostOps0_4 W main_v14 = cmpf .ogt (kDeg a1) (broadcastInDim S50000 ![] bcast_S_S50000 (constant (F := Ideal) S_ .f32 0x00000000#32)) := by
  simp only [Gen.hostOps0_4]; after_results
  rw [h]; rfl
theorem ops0_4_v15 (a1 : IVec S2x800000 32) (h : W main_arg1 = a1) :
    StableHlo.after Gen.hostOps0_4 W main_v15 = Host.rsqrt (kDeg a1) := by
  simp only [Gen.hostOps0_4]; after_results
  rw [h]; rfl
theorem ops0_4_cst_5 :
    StableHlo.after Gen.hostOps0_4 W main_cst_5 = constant (F := Ideal) S_ .f32 0x00000000#32 := by
  simp only [Gen.hostOps0_4]; after_results

theorem ops0_5_v16 (a1 : IVec S2x800000 32)
    (h14 : W main_v14 = cmpf .ogt (kDeg a1) (broadcastInDim S50000 ![] bcast_S_S50000 (constant (F := Ideal) S_ .f32 0x00000000#32)))
    (h15 : W main_v15 = Host.rsqrt (kDeg a1)) (h5 : W main_cst_5 = constant (F := Ideal) S_ .f32 0x00000000#32) :
    StableHlo.after Gen.hostOps0_5 W main_v16 = kDinv a1 := by
  simp only [Gen.hostOps0_5]; after_results
  simp only [StableHlo.TRef.ofBuf, StableHlo.TRef.toBuf, cast_eq]
  rw [h14, h15, h5]; rfl

theorem ops0_6_v17 (a1 : IVec S2x800000 32) (h : W main_v16 = kDinv a1) :
    StableHlo.after Gen.hostOps0_6 W main_v17 = kDinv2 a1 := by
  simp only [Gen.hostOps0_6]; after_results
  rw [h]; rfl
theorem ops0_6_v20 (a3 : FVec Ideal S30x128 .f32) (a4 : FVec Ideal S3x128x128 .f32) (h3 : W main_arg3 = a3) (h4 : W main_arg4 = a4) :
    StableHlo.after Gen.hostOps0_6 W main_v20 = kEW0 a3 a4 := by
  simp only [Gen.hostOps0_6]; after_results
  rw [h3, h4]; rfl
theorem ops0_6_v21 (a0 : IVec S50000 32) (h : W main_v0 = kClip 29#32 a0) :
    StableHlo.after Gen.hostOps0_6 W main_v21 = kX2 a0 := by
  simp only [Gen.hostOps0_6]; after_results
  rw [h]; rfl

theorem ops1_v34 (a1 : IVec S2x800000 32) (mOut : FVec Ideal S50000x128 .f32) (h7 : W main_v7 = kRow a1) (h8 : W main_v8 = kCol a1)
    (hm : W main_v22 = mOut) :
    StableHlo.after Gen.hostOps1 W main_v34 = kAgg a1 mOut := by
  simp only [Gen.hostOps1]; after_results
  rw [h7, h8, hm]; rfl
theorem ops1_v37 (a5 : FVec Ideal S3x128 .f32) (h : W main_arg5 = a5) :
    StableHlo.after Gen.hostOps1 W main_v37 = kBias 0 a5 := by
  simp only [Gen.hostOps1]; after_results
  rw [h]; rfl

theorem ops2_v40 (s : FVec Ideal S1x128 .f32) (h : W main_v38_1 = s) :
    StableHlo.after Gen.hostOps2 W main_v40 = kMu s := by
  simp only [Gen.hostOps2]; after_results
  rw [h]; rfl
theorem ops2_v46 (s q : FVec Ideal S1x128 .f32) (h1 : W main_v38_1 = s) (h2 : W main_v38_2 = q) :
    StableHlo.after Gen.hostOps2 W main_v46 = kVar s q := by
  simp only [Gen.hostOps2]; after_results
  rw [h1, h2]; rfl
theorem ops2_v53 (a6 : FVec Ideal S3x128 .f32) (h : W main_arg6 = a6) :
    StableHlo.after Gen.hostOps2 W main_v53 = kGamma 0 a6 := by
  simp only [Gen.hostOps2]; after_results
  rw [h]; rfl
theorem ops2_v54 (a7 : FVec Ideal S3x128 .f32) (h : W main_arg7 = a7) :
    StableHlo.after Gen.hostOps2 W main_v54 = kBeta 0 a7 := by
  simp only [Gen.hostOps2]; after_results
  rw [h]; rfl
theorem ops2_v52 (a4 : FVec Ideal S3x128x128 .f32) (h : W main_arg4 = a4) :
    StableHlo.after Gen.hostOps2 W main_v52 = kW 1 a4 := by
  simp only [Gen.hostOps2]; after_results
  rw [h]; rfl

theorem ops3_v67 (a1 : IVec S2x800000 32) (mOut : FVec Ideal S50000x128 .f32) (h7 : W main_v7 = kRow a1) (h8 : W main_v8 = kCol a1)
    (hm : W main_v55 = mOut) :
    StableHlo.after Gen.hostOps3 W main_v67 = kAgg a1 mOut := by
  simp only [Gen.hostOps3]; after_results
  rw [h7, h8, hm]; rfl
theorem ops3_v70 (a5 : FVec Ideal S3x128 .f32) (h : W main_arg5 = a5) :
    StableHlo.after Gen.hostOps3 W main_v70 = kBias 1 a5 := by
  simp only [Gen.hostOps3]; after_results
  rw [h]; rfl

theorem ops4_v73 (s : FVec Ideal S1x128 .f32) (h : W main_v71_1 = s) :
    StableHlo.after Gen.hostOps4 W main_v73 = kMu s := by
  simp only [Gen.hostOps4]; after_results
  rw [h]; rfl
theorem ops4_v79 (s q : FVec Ideal S1x128 .f32) (h1 : W main_v71_1 = s) (h2 : W main_v71_2 = q) :
    StableHlo.after Gen.hostOps4 W main_v79 = kVar s q := by
  simp only [Gen.hostOps4]; after_results
  rw [h1, h2]; rfl
theorem ops4_v86 (a6 : FVec Ideal S3x128 .f32) (h : W main_arg6 = a6) :
    StableHlo.after Gen.hostOps4 W main_v86 = kGamma 1 a6 := by
  simp only [Gen.hostOps4]; after_results
  rw [h]; rfl
theorem ops4_v87 (a7 : FVec Ideal S3x128 .f32) (h : W main_arg7 = a7) :
    StableHlo.after Gen.hostOps4 W main_v87 = kBeta 1 a7 := by
  simp only [Gen.hostOps4]; after_results
  rw [h]; rfl
theorem ops4_v85 (a4 : FVec Ideal S3x128x128 .f32) (h : W main_arg4 = a4) :
    StableHlo.after Gen.hostOps4 W main_v85 = kW 2 a4 := by
  simp only [Gen.hostOps4]; after_results
  rw [h]; rfl

theorem ops5_v100 (a1 : IVec S2x800000 32) (mOut : FVec Ideal S50000x128 .f32) (h7 : W main_v7 = kRow a1) (h8 : W main_v8 = kCol a1)
    (hm : W main_v88 = mOut) :
    StableHlo.after Gen.hostOps5 W main_v100 = kAgg a1 mOut := by
  simp only [Gen.hostOps5]; after_results
  rw [h7, h8, hm]; rfl
theorem ops5_v103 (a5 : FVec Ideal S3x128 .f32) (h : W main_arg5 = a5) :
    StableHlo.after Gen.hostOps5 W main_v103 = kBias 2 a5 := by
  simp only [Gen.hostOps5]; after_results
  rw [h]; rfl

theorem ops6_v106 (s : FVec Ideal S1x128 .f32) (h : W main_v104_1 = s) :
    StableHlo.after Gen.hostOps6 W main_v106 = kMu s := by
  simp only [Gen.hostOps6]; after_results
  rw [h]; rfl
theorem ops6_v112 (s q : FVec Ideal S1x128 .f32) (h1 : W main_v104_1 = s) (h2 : W main_v104_2 = q) :
    StableHlo.after Gen.hostOps6 W main_v112 = kVar s q := by
  simp only [Gen.hostOps6]; after_results
  rw [h1, h2]; rfl
theorem ops6_v118 (a6 : FVec Ideal S3x128 .f32) (h : W main_arg6 = a6) :
    StableHlo.after Gen.hostOps6 W main_v118 = kGamma 2 a6 := by
  simp only [Gen.hostOps6]; after_results
  rw [h]; rfl
theorem ops6_v119 (a7 : FVec Ideal S3x128 .f32) (h : W main_arg7 = a7) :
    StableHlo.after Gen.hostOps6 W main_v119 = kBeta 2 a7 := by
  simp only [Gen.hostOps6]; after_results
  rw [h]; rfl
theorem ops6_v117 (a2 : IVec S50000 32) (h : W main_v1 = kClip 63#32 a2) :
    StableHlo.after Gen.hostOps6 W main_v117 = kBt2 a2 := by
  simp only [Gen.hostOps6]; after_results
  rw [h]; rfl

theorem ops7_v125 (sums : FVec Ideal S64x128 .f32) (counts : FVec Ideal S1x64 .f32) (h0 : W main_v120_0 = sums) (h1 : W main_v120_1 = counts) :
    StableHlo.after Gen.hostOps7 W main_v125 = kFinal sums counts := by
  simp only [Gen.hostOps7]; after_results
  rw [h0, h1]; rfl

end Stretch

variable (m : (ℓ : Loc nD τ sig) → Buf (Elt Ideal) ℓ) (outs : Gen.Outs (F := Ideal)) (c : Dev nD)

abbrev hostArgs : List (Ref sig .tc) := [main_arg0, main_arg1, main_arg2, main_arg3, main_arg4, main_arg5, main_arg6, main_arg7]
abbrev hostKept : List (Ref sig .tc) := [main_v1, main_v7, main_v8, main_v17] ++ hostArgs

variable (r : Ref sig .tc)

-- No stretch before the first region writes an argument.
theorem V1_args (h : r ∈ hostArgs) : Gen.V1 m c r = m ((c : Thread nD τ).loc r) :=
  (Gen.V1_of m c r (by revert r; decide)).trans rfl
theorem V2_args (h : r ∈ hostArgs) : Gen.V2 m c r = m ((c : Thread nD τ).loc r) :=
  (Gen.V2_of m c r (by revert r; decide)).trans (V1_args m c r h)
theorem V3_args (h : r ∈ hostArgs) : Gen.V3 m c r = m ((c : Thread nD τ).loc r) :=
  (Gen.V3_of m c r (by revert r; decide)).trans (V2_args m c r h)
theorem V4_args (h : r ∈ hostArgs) : Gen.V4 m c r = m ((c : Thread nD τ).loc r) :=
  (Gen.V4_of m c r (by revert r; decide)).trans (V3_args m c r h)
theorem V5_args (h : r ∈ hostArgs) : Gen.V5 m c r = m ((c : Thread nD τ).loc r) :=
  (Gen.V5_of m c r (by revert r; decide)).trans (V4_args m c r h)
theorem V6_args (h : r ∈ hostArgs) : Gen.V6 m c r = m ((c : Thread nD τ).loc r) :=
  (Gen.V6_of m c r (by revert r; decide)).trans (V5_args m c r h)
theorem V7_args (h : r ∈ hostArgs) : Gen.V7 m c r = m ((c : Thread nD τ).loc r) :=
  (Gen.V7_of m c r (by revert r; decide)).trans (V6_args m c r h)
theorem V8_args (h : r ∈ hostArgs) : Gen.V8 m outs c r = m ((c : Thread nD τ).loc r) :=
  (Gen.V8_of m outs c r (by revert r; decide)).trans (V7_args m c r h)

theorem V1_c : Gen.V1 m c main_c = constantI S_ 32 0#32 :=
  ops0_c _
theorem V1_c_0 : Gen.V1 m c main_c_0 = constantI S_ 32 29#32 :=
  ops0_c_0 _
theorem V2_v0 : Gen.V2 m c main_v0 = kClip 29#32 (m ((c : Thread nD τ).loc main_arg0)) :=
  ops0_1_v0 _ _ (V1_c m c) (V1_c_0 m c) (V1_args m c _ (by decide))
theorem V3_c_1 : Gen.V3 m c main_c_1 = constantI S_ 32 0#32 :=
  ops0_2_c_1 _
theorem V3_c_2 : Gen.V3 m c main_c_2 = constantI S_ 32 63#32 :=
  ops0_2_c_2 _
theorem V4_v1 : Gen.V4 m c main_v1 = kClip 63#32 (m ((c : Thread nD τ).loc main_arg2)) :=
  ops0_3_v1 _ _ (V3_c_1 m c) (V3_c_2 m c) (V3_args m c _ (by decide))
theorem V5_v7 : Gen.V5 m c main_v7 = kRow (m ((c : Thread nD τ).loc main_arg1)) :=
  ops0_4_v7 _ _ (V4_args m c _ (by decide))
theorem V5_v8 : Gen.V5 m c main_v8 = kCol (m ((c : Thread nD τ).loc main_arg1)) :=
  ops0_4_v8 _ _ (V4_args m c _ (by decide))
theorem V6_v16 : Gen.V6 m c main_v16 = kDinv (m ((c : Thread nD τ).loc main_arg1)) :=
  ops0_5_v16 _ _ (ops0_4_v14 _ _ (V4_args m c _ (by decide))) (ops0_4_v15 _ _ (V4_args m c _ (by decide))) (ops0_4_cst_5 _)
theorem V7_v21 : Gen.V7 m c main_v21 = kX2 (m ((c : Thread nD τ).loc main_arg0)) :=
  ops0_6_v21 _ _ ((Gen.V6_of m c main_v0 (by decide)).trans <| (Gen.V5_of m c main_v0 (by decide)).trans <| (Gen.V4_of m c main_v0 (by decide)).trans <| (Gen.V3_of m c main_v0 (by decide)).trans <| V2_v0 m c)
theorem V7_v20 : Gen.V7 m c main_v20 = kEW0 (m ((c : Thread nD τ).loc main_arg3)) (m ((c : Thread nD τ).loc main_arg4)) :=
  ops0_6_v20 _ _ _ (V6_args m c _ (by decide)) (V6_args m c _ (by decide))
theorem V7_v17 : Gen.V7 m c main_v17 = kDinv2 (m ((c : Thread nD τ).loc main_arg1)) :=
  ops0_6_v17 _ _ (V6_v16 m c)

theorem V8_v1 : Gen.V8 m outs c main_v1 = kClip 63#32 (m ((c : Thread nD τ).loc main_arg2)) :=
  (Gen.V8_of m outs c main_v1 (by decide)).trans <| (Gen.V7_of m c main_v1 (by decide)).trans <| (Gen.V6_of m c main_v1 (by decide)).trans <| (Gen.V5_of m c main_v1 (by decide)).trans <| V4_v1 m c
theorem V8_v7 : Gen.V8 m outs c main_v7 = kRow (m ((c : Thread nD τ).loc main_arg1)) :=
  (Gen.V8_of m outs c main_v7 (by decide)).trans <| (Gen.V7_of m c main_v7 (by decide)).trans <| (Gen.V6_of m c main_v7 (by decide)).trans <| V5_v7 m c
theorem V8_v8 : Gen.V8 m outs c main_v8 = kCol (m ((c : Thread nD τ).loc main_arg1)) :=
  (Gen.V8_of m outs c main_v8 (by decide)).trans <| (Gen.V7_of m c main_v8 (by decide)).trans <| (Gen.V6_of m c main_v8 (by decide)).trans <| V5_v8 m c
theorem V8_v17 : Gen.V8 m outs c main_v17 = kDinv2 (m ((c : Thread nD τ).loc main_arg1)) :=
  (Gen.V8_of m outs c main_v17 (by decide)).trans <| V7_v17 m c

-- After the first region no stretch and no region writes an argument or one of the four values every layer reads.
theorem V9_keep (h : r ∈ hostKept) : Gen.V9 m outs c r = Gen.V8 m outs c r :=
  Gen.V9_of m outs c r (by revert r; decide)
theorem V10_keep (h : r ∈ hostKept) : Gen.V10 m outs c r = Gen.V8 m outs c r :=
  (Gen.V10_of m outs c r (by revert r; decide)).trans (V9_keep m outs c r h)
theorem V11_keep (h : r ∈ hostKept) : Gen.V11 m outs c r = Gen.V8 m outs c r :=
  (Gen.V11_of m outs c r (by revert r; decide)).trans (V10_keep m outs c r h)
theorem V12_keep (h : r ∈ hostKept) : Gen.V12 m outs c r = Gen.V8 m outs c r :=
  (Gen.V12_of m outs c r (by revert r; decide)).trans (V11_keep m outs c r h)
theorem V13_keep (h : r ∈ hostKept) : Gen.V13 m outs c r = Gen.V8 m outs c r :=
  (Gen.V13_of m outs c r (by revert r; decide)).trans (V12_keep m outs c r h)
theorem V14_keep (h : r ∈ hostKept) : Gen.V14 m outs c r = Gen.V8 m outs c r :=
  (Gen.V14_of m outs c r (by revert r; decide)).trans (V13_keep m outs c r h)
theorem V15_keep (h : r ∈ hostKept) : Gen.V15 m outs c r = Gen.V8 m outs c r :=
  (Gen.V15_of m outs c r (by revert r; decide)).trans (V14_keep m outs c r h)
theorem V16_keep (h : r ∈ hostKept) : Gen.V16 m outs c r = Gen.V8 m outs c r :=
  (Gen.V16_of m outs c r (by revert r; decide)).trans (V15_keep m outs c r h)
theorem V17_keep (h : r ∈ hostKept) : Gen.V17 m outs c r = Gen.V8 m outs c r :=
  (Gen.V17_of m outs c r (by revert r; decide)).trans (V16_keep m outs c r h)
theorem V18_keep (h : r ∈ hostKept) : Gen.V18 m outs c r = Gen.V8 m outs c r :=
  (Gen.V18_of m outs c r (by revert r; decide)).trans (V17_keep m outs c r h)

theorem V8_v22 : Gen.V8 m outs c main_v22 = outs 8 main_v22 c := by
  simp only [Gen.V8, Function.update_self]
theorem V9_v34 : Gen.V9 m outs c main_v34 = kAgg (m ((c : Thread nD τ).loc main_arg1)) (outs 8 main_v22 c) :=
  ops1_v34 _ _ _ (V8_v7 m outs c) (V8_v8 m outs c) (V8_v22 m outs c)
theorem V9_v37 : Gen.V9 m outs c main_v37 = kBias 0 (m ((c : Thread nD τ).loc main_arg5)) :=
  ops1_v37 _ _ (V8_args m outs c _ (by decide))
theorem V9_v17 : Gen.V9 m outs c main_v17 = kDinv2 (m ((c : Thread nD τ).loc main_arg1)) :=
  ((V9_keep m outs c _ (by decide)).trans (V8_v17 m outs c))
theorem V10_v38_0 : Gen.V10 m outs c main_v38_0 = outs 10 main_v38_0 c := by
  simp only [Gen.V10, Function.update_of_ne (StableHlo.devRef_ne_of_ne (by decide : main_v38_0 ≠ main_v38_2) : (Proc.devRef .tc main_v38_0 : DevRef τ sig) ≠ Proc.devRef .tc main_v38_2), Function.update_of_ne (StableHlo.devRef_ne_of_ne (by decide : main_v38_0 ≠ main_v38_1) : (Proc.devRef .tc main_v38_0 : DevRef τ sig) ≠ Proc.devRef .tc main_v38_1), Function.update_self]
theorem V10_v38_1 : Gen.V10 m outs c main_v38_1 = outs 10 main_v38_1 c := by
  simp only [Gen.V10, Function.update_of_ne (StableHlo.devRef_ne_of_ne (by decide : main_v38_1 ≠ main_v38_2) : (Proc.devRef .tc main_v38_1 : DevRef τ sig) ≠ Proc.devRef .tc main_v38_2), Function.update_self]
theorem V10_v38_2 : Gen.V10 m outs c main_v38_2 = outs 10 main_v38_2 c := by
  simp only [Gen.V10, Function.update_self]
theorem V11_v38_0 : Gen.V11 m outs c main_v38_0 = outs 10 main_v38_0 c :=
  (Gen.V11_of m outs c main_v38_0 (by decide)).trans <| V10_v38_0 m outs c
theorem V11_v40 : Gen.V11 m outs c main_v40 = kMu (outs 10 main_v38_1 c) :=
  ops2_v40 _ _ (V10_v38_1 m outs c)
theorem V11_v46 : Gen.V11 m outs c main_v46 = kVar (outs 10 main_v38_1 c) (outs 10 main_v38_2 c) :=
  ops2_v46 _ _ _ (V10_v38_1 m outs c) (V10_v38_2 m outs c)
theorem V11_v53 : Gen.V11 m outs c main_v53 = kGamma 0 (m ((c : Thread nD τ).loc main_arg6)) :=
  ops2_v53 _ _ ((V10_keep m outs c _ (by decide)).trans (V8_args m outs c main_arg6 (by decide)))
theorem V11_v54 : Gen.V11 m outs c main_v54 = kBeta 0 (m ((c : Thread nD τ).loc main_arg7)) :=
  ops2_v54 _ _ ((V10_keep m outs c _ (by decide)).trans (V8_args m outs c main_arg7 (by decide)))
theorem V11_v52 : Gen.V11 m outs c main_v52 = kW 1 (m ((c : Thread nD τ).loc main_arg4)) :=
  ops2_v52 _ _ ((V10_keep m outs c _ (by decide)).trans (V8_args m outs c main_arg4 (by decide)))
theorem V11_v17 : Gen.V11 m outs c main_v17 = kDinv2 (m ((c : Thread nD τ).loc main_arg1)) :=
  ((V11_keep m outs c _ (by decide)).trans (V8_v17 m outs c))

theorem V12_v55 : Gen.V12 m outs c main_v55 = outs 12 main_v55 c := by
  simp only [Gen.V12, Function.update_self]
theorem V13_v67 : Gen.V13 m outs c main_v67 = kAgg (m ((c : Thread nD τ).loc main_arg1)) (outs 12 main_v55 c) :=
  ops3_v67 _ _ _ ((V12_keep m outs c _ (by decide)).trans (V8_v7 m outs c)) ((V12_keep m outs c _ (by decide)).trans (V8_v8 m outs c)) (V12_v55 m outs c)
theorem V13_v70 : Gen.V13 m outs c main_v70 = kBias 1 (m ((c : Thread nD τ).loc main_arg5)) :=
  ops3_v70 _ _ ((V12_keep m outs c _ (by decide)).trans (V8_args m outs c main_arg5 (by decide)))
theorem V13_v17 : Gen.V13 m outs c main_v17 = kDinv2 (m ((c : Thread nD τ).loc main_arg1)) :=
  ((V13_keep m outs c _ (by decide)).trans (V8_v17 m outs c))
theorem V14_v71_0 : Gen.V14 m outs c main_v71_0 = outs 14 main_v71_0 c := by
  simp only [Gen.V14, Function.update_of_ne (StableHlo.devRef_ne_of_ne (by decide : main_v71_0 ≠ main_v71_2) : (Proc.devRef .tc main_v71_0 : DevRef τ sig) ≠ Proc.devRef .tc main_v71_2), Function.update_of_ne (StableHlo.devRef_ne_of_ne (by decide : main_v71_0 ≠ main_v71_1) : (Proc.devRef .tc main_v71_0 : DevRef τ sig) ≠ Proc.devRef .tc main_v71_1), Function.update_self]
theorem V14_v71_1 : Gen.V14 m outs c main_v71_1 = outs 14 main_v71_1 c := by
  simp only [Gen.V14, Function.update_of_ne (StableHlo.devRef_ne_of_ne (by decide : main_v71_1 ≠ main_v71_2) : (Proc.devRef .tc main_v71_1 : DevRef τ sig) ≠ Proc.devRef .tc main_v71_2), Function.update_self]
theorem V14_v71_2 : Gen.V14 m outs c main_v71_2 = outs 14 main_v71_2 c := by
  simp only [Gen.V14, Function.update_self]
theorem V15_v71_0 : Gen.V15 m outs c main_v71_0 = outs 14 main_v71_0 c :=
  (Gen.V15_of m outs c main_v71_0 (by decide)).trans <| V14_v71_0 m outs c
theorem V15_v73 : Gen.V15 m outs c main_v73 = kMu (outs 14 main_v71_1 c) :=
  ops4_v73 _ _ (V14_v71_1 m outs c)
theorem V15_v79 : Gen.V15 m outs c main_v79 = kVar (outs 14 main_v71_1 c) (outs 14 main_v71_2 c) :=
  ops4_v79 _ _ _ (V14_v71_1 m outs c) (V14_v71_2 m outs c)
theorem V15_v86 : Gen.V15 m outs c main_v86 = kGamma 1 (m ((c : Thread nD τ).loc main_arg6)) :=
  ops4_v86 _ _ ((V14_keep m outs c _ (by decide)).trans (V8_args m outs c main_arg6 (by decide)))
theorem V15_v87 : Gen.V15 m outs c main_v87 = kBeta 1 (m ((c : Thread nD τ).loc main_arg7)) :=
  ops4_v87 _ _ ((V14_keep m outs c _ (by decide)).trans (V8_args m outs c main_arg7 (by decide)))
theorem V15_v85 : Gen.V15 m outs c main_v85 = kW 2 (m ((c : Thread nD τ).loc main_arg4)) :=
  ops4_v85 _ _ ((V14_keep m outs c _ (by decide)).trans (V8_args m outs c main_arg4 (by decide)))
theorem V15_v17 : Gen.V15 m outs c main_v17 = kDinv2 (m ((c : Thread nD τ).loc main_arg1)) :=
  ((V15_keep m outs c _ (by decide)).trans (V8_v17 m outs c))

theorem V16_v88 : Gen.V16 m outs c main_v88 = outs 16 main_v88 c := by
  simp only [Gen.V16, Function.update_self]
theorem V17_v100 : Gen.V17 m outs c main_v100 = kAgg (m ((c : Thread nD τ).loc main_arg1)) (outs 16 main_v88 c) :=
  ops5_v100 _ _ _ ((V16_keep m outs c _ (by decide)).trans (V8_v7 m outs c)) ((V16_keep m outs c _ (by decide)).trans (V8_v8 m outs c)) (V16_v88 m outs c)
theorem V17_v103 : Gen.V17 m outs c main_v103 = kBias 2 (m ((c : Thread nD τ).loc main_arg5)) :=
  ops5_v103 _ _ ((V16_keep m outs c _ (by decide)).trans (V8_args m outs c main_arg5 (by decide)))
theorem V17_v17 : Gen.V17 m outs c main_v17 = kDinv2 (m ((c : Thread nD τ).loc main_arg1)) :=
  ((V17_keep m outs c _ (by decide)).trans (V8_v17 m outs c))
theorem V18_v104_0 : Gen.V18 m outs c main_v104_0 = outs 18 main_v104_0 c := by
  simp only [Gen.V18, Function.update_of_ne (StableHlo.devRef_ne_of_ne (by decide : main_v104_0 ≠ main_v104_2) : (Proc.devRef .tc main_v104_0 : DevRef τ sig) ≠ Proc.devRef .tc main_v104_2), Function.update_of_ne (StableHlo.devRef_ne_of_ne (by decide : main_v104_0 ≠ main_v104_1) : (Proc.devRef .tc main_v104_0 : DevRef τ sig) ≠ Proc.devRef .tc main_v104_1), Function.update_self]
theorem V18_v104_1 : Gen.V18 m outs c main_v104_1 = outs 18 main_v104_1 c := by
  simp only [Gen.V18, Function.update_of_ne (StableHlo.devRef_ne_of_ne (by decide : main_v104_1 ≠ main_v104_2) : (Proc.devRef .tc main_v104_1 : DevRef τ sig) ≠ Proc.devRef .tc main_v104_2), Function.update_self]
theorem V18_v104_2 : Gen.V18 m outs c main_v104_2 = outs 18 main_v104_2 c := by
  simp only [Gen.V18, Function.update_self]
theorem V19_v104_0 : Gen.V19 m outs c main_v104_0 = outs 18 main_v104_0 c :=
  (Gen.V19_of m outs c main_v104_0 (by decide)).trans <| V18_v104_0 m outs c
theorem V19_v106 : Gen.V19 m outs c main_v106 = kMu (outs 18 main_v104_1 c) :=
  ops6_v106 _ _ (V18_v104_1 m outs c)
theorem V19_v112 : Gen.V19 m outs c main_v112 = kVar (outs 18 main_v104_1 c) (outs 18 main_v104_2 c) :=
  ops6_v112 _ _ _ (V18_v104_1 m outs c) (V18_v104_2 m outs c)
theorem V19_v118 : Gen.V19 m outs c main_v118 = kGamma 2 (m ((c : Thread nD τ).loc main_arg6)) :=
  ops6_v118 _ _ ((V18_keep m outs c _ (by decide)).trans (V8_args m outs c main_arg6 (by decide)))
theorem V19_v119 : Gen.V19 m outs c main_v119 = kBeta 2 (m ((c : Thread nD τ).loc main_arg7)) :=
  ops6_v119 _ _ ((V18_keep m outs c _ (by decide)).trans (V8_args m outs c main_arg7 (by decide)))
theorem V19_v117 : Gen.V19 m outs c main_v117 = kBt2 (m ((c : Thread nD τ).loc main_arg2)) :=
  ops6_v117 _ _ ((V18_keep m outs c _ (by decide)).trans (V8_v1 m outs c))

theorem V20_v120_0 : Gen.V20 m outs c main_v120_0 = outs 20 main_v120_0 c := by
  simp only [Gen.V20, Function.update_of_ne (StableHlo.devRef_ne_of_ne (by decide : main_v120_0 ≠ main_v120_1) : (Proc.devRef .tc main_v120_0 : DevRef τ sig) ≠ Proc.devRef .tc main_v120_1), Function.update_self]
theorem V20_v120_1 : Gen.V20 m outs c main_v120_1 = outs 20 main_v120_1 c := by
  simp only [Gen.V20, Function.update_self]
theorem V21_v125 : Gen.V21 m outs c main_v125 = kFinal (outs 20 main_v120_0 c) (outs 20 main_v120_1 c) :=
  ops7_v125 _ _ _ (V20_v120_0 m outs c) (V20_v120_1 m outs c)

end Cert.KernelIdeal.Hand

end
-- ==== Proof.Val.Reg0.lean ====
import proofs.«412548_j82308753260928_3_alg».proof.Proof.KI.Reg0
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
theorem offs0_zero : (![0, 0] : Fin 2 → Nat) = fun _ => 0 := funext fun a => by fin_cases a <;> rfl
theorem embedOut0_eq {F : FTy → Type} [FloatOps F] (ids : Vec F S5000x1 .i32) (tab : Vec F S30x128 .f32) (col : Vec F S5000x1 .f32) :
    embedOut0 ids tab col = k0_pay1 ids tab col := by
  unfold embedOut0
  rw [View.canon_unit_zero offs0_zero]
  simp only [View.ld_unit_zero (S := S5000x1) offs0_zero, View.ld_unit_zero (S := S30x128) offs0_zero]
theorem indicator_eq (a b : BitVec 32) :
    (FloatOps.sitofp (F := Ideal) .f32 ((IntOp.cmpi .eq a b).setWidth 32) : EReal) = if a = b then (1 : EReal) else 0 := by
  by_cases h : a = b
  · subst h
    rw [if_pos rfl]
    show (((((BitVec.ofBool (a == a)).setWidth 32).toInt : ℝ)) : EReal) = 1
    simp
  · rw [if_neg h]
    show (((((BitVec.ofBool (a == b)).setWidth 32).toInt : ℝ)) : EReal) = 0
    have : (a == b) = false := by simpa using h
    rw [this]
    simp
theorem dot0_apply {φ₁ φ₂ : FTy} (lhs : FVec Ideal S5000x30 φ₁) (rhs : FVec Ideal S30x128 φ₂) (r : Fin 5000) (cc : Fin 128) :
    matmul dot_S5000x30_S30x128_S5000x128_1_0_0_1_n_n none lhs rhs (constant S5000x128 .f32 0x00000000#32) (ix2 r cc)
      = ∑ v : Fin 30, lhs (ix2 r v) * rhs (ix2 v cc) := by
  show FloatOps.matmul dot_S5000x30_S30x128_S5000x128_1_0_0_1_n_n none lhs rhs (constant S5000x128 .f32 0x00000000#32) (ix2 r cc) = _
  rw [Ideal.matmul_constant_zero_apply]
  rw [← Equiv.sum_comp (contrEquiv1 dot_S5000x30_S30x128_S5000x128_1_0_0_1_n_n 30 rfl rfl).symm]
  refine Finset.sum_congr rfl fun v _ => ?_
  have hv := contrEquiv1_symm_val dot_S5000x30_S30x128_S5000x128_1_0_0_1_n_n 30 rfl rfl v
  congr 2
  · exact Shape.idx_ext₂ rfl hv
  · exact Shape.idx_ext₂ hv rfl
theorem embedPay_apply (ids : Vec Ideal S5000x1 .i32) (tab : Vec Ideal S30x128 .f32) (col : Vec Ideal S5000x1 .f32) (r : Fin 5000) (cc : Fin 128) :
    k0_pay1 ids tab col (ix2 r cc)
      = col (ix2 r 0) * ∑ v : Fin 30, (if ids (ix2 r 0) = BitVec.ofNat 32 v.val then (1 : EReal) else 0) * tab (ix2 v cc) := by
  unfold k0_pay1
  dsimp only
  rw [mulf_apply, dot0_apply]
  congr 1
  · rw [broadcastTo_apply _ _ (ix2 r cc) (ix2 r 0) (fun a => by
      match a with
      | ⟨0, _⟩ => rfl
      | ⟨1, _⟩ => rfl), shapeCast_self]
  · refine Finset.sum_congr rfl fun v _ => ?_
    rw [truncf_apply, truncf_apply, shapeCast_self, sitofp_apply, extui_apply]
    show FloatOps.sitofp (F := Ideal) .f32 ((IntOp.cmpi .eq _ _).setWidth 32) * _ = _
    rw [indicator_eq]
    congr 2
    rw [iota_single_apply, broadcastTo_apply _ _ (ix2 r v) (ix2 r 0) (fun a => by
      match a with
      | ⟨0, _⟩ => rfl
      | ⟨1, _⟩ => rfl), shapeCast_shapeCast]
variable (V : (c : Dev nD) → (b : Ref sig .tc) → Buf (Elt Ideal) ((c : Thread nD τ).loc b))
theorem embedEntry_eq (x2 : IVec S50000x1 32) (ew : Vec Ideal S30x128 .f32) (d2 : Vec Ideal S50000x1 .f32)
    (ids : Vec Ideal S5000x1 .i32) (tab : Vec Ideal S30x128 .f32) (col : Vec Ideal S5000x1 .f32)
    (y : S5000x128.Idx) (i : S50000x128.Idx)
    (hids : ids (ix2 (y 0) 0) = x2 (ix2 (i 0) 0)) (hcol : col (ix2 (y 0) 0) = d2 (ix2 (i 0) 0))
    (htab : ∀ v : Fin 30, tab (ix2 v (y 1)) = ew (ix2 v (i 1))) :
    k0_pay1 ids tab col y = KSpec.embedLin x2 ew d2 i := by
  obtain ⟨r, cc, rfl⟩ : ∃ (r : Fin 5000) (cc : Fin 128), y = ix2 r cc := ⟨y 0, y 1, eq_ix2 y⟩
  rw [embedPay_apply]
  unfold KSpec.embedLin
  rw [show ids (ix2 r 0) = x2 (ix2 (i 0) 0) from hids, show col (ix2 r 0) = d2 (ix2 (i 0) 0) from hcol]
  congr 1
  refine Finset.sum_congr rfl fun v _ => ?_
  rw [show tab (ix2 v cc) = ew (ix2 v (i 1)) from htab v]
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)
theorem flushed0_eq (c : Dev nD) (t : Fin cfg0.N) :
    (dat0 (F := Ideal) V c).flushed 3 t
      = ((cfg0.win 3).blk t).view.read (Elt Ideal) (KSpec.embedLin (V c main_v21) (V c main_v20) (V c main_v17)) := by
  show (cfg0.win 3).cut (grid0.coords t) ((dat0 V c).after 3 t) = _
  rw [after0_3, embedOut0_eq]
  obtain ⟨e0, e1, e2, e3, e4, e5, e6, e7⟩ := idx_facts0 t
  funext j
  show k0_pay1 (iblk0 V c 0 t) (iblk0 V c 1 t) (iblk0 V c 2 t) j
    = KSpec.embedLin (V c main_v21) (V c main_v20) (V c main_v17) (((cfg0.win 3).blk t).view.emb j)
  refine embedEntry_eq _ _ _ _ _ _ j _ ?_ ?_ ?_
  · show V c main_v21 (((cfg0.win 0).blk t).view.emb (ix2 (j 0) 0)) = V c main_v21 (ix2 ((((cfg0.win 3).blk t).view.emb j) 0) 0)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 1 + 1 * 0 = 0; omega
  · show V c main_v17 (((cfg0.win 2).blk t).view.emb (ix2 (j 0) 0)) = V c main_v17 (ix2 ((((cfg0.win 3).blk t).view.emb j) 0) 0)
    refine congrArg _ (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  · intro v
    show V c main_v20 (((cfg0.win 1).blk t).view.emb (ix2 v (j 1))) = V c main_v20 (ix2 v ((((cfg0.win 3).blk t).view.emb j) 1))
    refine congrArg _ (funext fun a => Fin.ext ?_)
    match a with
    | ⟨0, _⟩ => show win0_1.index t (0 : Fin 2) * 30 + 1 * v.val = v.val; omega
    | ⟨1, _⟩ => show win0_1.index t (1 : Fin 2) * 128 + 1 * (j 1).val = win0_3.index t (1 : Fin 2) * 128 + 1 * (j 1).val; omega
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v22).slice (win0_3.rect t)).set ↔ _
  rw [View.set_slice_whole, Rect.mem_set_unit]
  exact Iff.rfl
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_3 _, ?_⟩
  rw [mem_blk0]
  obtain ⟨e0, e1, e2, e3, e4, e5, e6, e7⟩ := idx_facts0 ⟨(i 0).val / 5000, hN⟩
  have e6' : win0_3.index ⟨(i 0).val / 5000, hN⟩ (0 : Fin 2) = (i 0).val / 5000 := e6
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega
theorem final0 (c : Dev nD) :
    (dat0 (F := Ideal) V c).arrAt 3 cfg0.N = KSpec.embedLin (V c main_v21) (V c main_v20) (V c main_v17) :=
  (dat0 V c).arrAt_eq_of_cover 3 (KSpec.embedLin (V c main_v21) (V c main_v20) (V c main_v17)) (fun t _ => flushed0_eq V c t) cover0
end Cert.KernelIdeal.Hand
end
-- ==== Proof.Val.RS.lean ====
import proofs.«412548_j82308753260928_3_alg».proof.Proof.KI.RS
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
theorem st_bcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl
theorem st_bcast_row_apply {α : Type} {a b : ℕ} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl
-- The three payloads at an index: the rectified affine entry, and a column's sum (of squares) of them on top of the accumulator.
theorem st_relu_pay_apply (col : Vec Ideal S5000x1 .f32) (blk : Vec Ideal S5000x128 .f32) (row : Vec Ideal S1x128 .f32) (p : Fin 5000) (q : Fin 128) :
    k1_pay3 col blk row (ix2 p q) = max (col (ix2 p 0) * blk (ix2 p q) + row (ix2 0 q)) 0 := by
  unfold k1_pay3
  simp only [shapeCast_self]
  rw [maximumf_apply, addf_apply, mulf_apply, st_bcast_col_apply, st_bcast_row_apply, broadcast_apply]
  show max _ (Ideal.ofBits .f32 0x00000000#32) = _
  rw [Ideal.ofBits_zero_f32]
theorem st_csum_pay_apply (col : Vec Ideal S5000x1 .f32) (blk : Vec Ideal S5000x128 .f32) (row acc : Vec Ideal S1x128 .f32) (q : Fin 128) :
    k1_pay4 col blk row acc (ix2 (0 : Fin 1) q) = acc (ix2 0 q) + ∑ r : Fin 5000, k1_pay3 col blk row (ix2 r q) := by
  unfold k1_pay4
  simp only [shapeCast_self]
  rw [addf_apply]
  congr 1
  refine (shapeCast_addUnit_apply ![128] _ _ (ix2 (0 : Fin 1) q)).trans ?_
  refine (Ideal.multiReduction_add_single (k1_pay3 col blk row) _ reduces_S5000x128_S128 _ _ _).trans ?_
  refine Finset.sum_congr rfl fun r _ => congrArg _ (funext fun ax => ?_)
  match ax with
  | ⟨0, _⟩ => rfl
  | ⟨1, _⟩ => rfl
theorem st_csq_pay_apply (col : Vec Ideal S5000x1 .f32) (blk : Vec Ideal S5000x128 .f32) (row acc : Vec Ideal S1x128 .f32) (q : Fin 128) :
    k1_pay5 col blk row acc (ix2 (0 : Fin 1) q) = acc (ix2 0 q) + ∑ r : Fin 5000, k1_pay3 col blk row (ix2 r q) * k1_pay3 col blk row (ix2 r q) := by
  unfold k1_pay5
  simp only [shapeCast_self]
  rw [addf_apply]
  congr 1
  refine (shapeCast_addUnit_apply ![128] _ _ (ix2 (0 : Fin 1) q)).trans ?_
  refine (Ideal.multiReduction_add_single (mulf (k1_pay3 col blk row) (k1_pay3 col blk row)) _ reduces_S5000x128_S128 _ _ _).trans ?_
  refine Finset.sum_congr rfl fun r _ => ?_
  rw [mulf_apply]
  refine congrArg (fun i => k1_pay3 col blk row i * k1_pay3 col blk row i) (funext fun ax => ?_)
  match ax with
  | ⟨0, _⟩ => rfl
  | ⟨1, _⟩ => rfl
theorem st_zero_pay_apply (j : S1x128.Idx) : (k1_pay1 (F := Ideal)) j = 0 ∧ (k1_pay2 (F := Ideal)) j = 0 := by
  unfold k1_pay1 k1_pay2
  simp only [shapeCast_self]
  refine ⟨?_, ?_⟩ <;>
  · rw [broadcast_apply]
    show Ideal.ofBits .f32 0x00000000#32 = 0
    exact Ideal.ofBits_zero_f32
def st_ext (g : Fin 50000 → EReal) (r : ℕ) : EReal := if h : r < 50000 then g ⟨r, h⟩ else 0
-- Ten consecutive blocks of 5000 rows exhaust the 50000 rows.
theorem st_block_sum (g : Fin 50000 → EReal) (n : ℕ) (hn : n < 10) :
    ∑ r : Fin 5000, g ⟨5000 * n + r.val, by have := r.isLt; omega⟩ = ∑ r ∈ Finset.range 5000, st_ext g (5000 * n + r) := by
  rw [← Fin.sum_univ_eq_sum_range (fun r => st_ext g (5000 * n + r)) 5000]
  refine Finset.sum_congr rfl fun r _ => ?_
  unfold st_ext
  rw [dif_pos (by have := r.isLt; omega)]
theorem st_range_succ (f : ℕ → EReal) (n : ℕ) :
    ∑ r ∈ Finset.range (5000 * (n + 1 + 1)), f r = ∑ r ∈ Finset.range (5000 * (n + 1)), f r + ∑ r ∈ Finset.range 5000, f (5000 * (n + 1) + r) := by
  rw [show 5000 * (n + 1 + 1) = 5000 * (n + 1) + 5000 from by ring, Finset.sum_range_add]
theorem st_range_all (g : Fin 50000 → EReal) : ∑ r ∈ Finset.range (5000 * (9 + 1)), st_ext g r = ∑ i : Fin 50000, g i := by
  rw [show 5000 * (9 + 1) = 50000 from rfl, ← Fin.sum_univ_eq_sum_range (st_ext g) 50000]
  refine Finset.sum_congr rfl fun i _ => ?_
  unfold st_ext
  rw [dif_pos i.isLt]
-- The rectified affine entry is the specification's activation entry.
theorem reluEntry_eq (agg : KSpec.Mat 50000 128) (d2 : KSpec.Mat 50000 1) (b2 : KSpec.Mat 1 128)
    (col : Vec Ideal S5000x1 .f32) (blk : Vec Ideal S5000x128 .f32) (row : Vec Ideal S1x128 .f32)
    (y : S5000x128.Idx) (i : S50000x128.Idx)
    (hcol : col (ix2 (y 0) 0) = d2 (ix2 (i 0) 0)) (hblk : blk y = agg i) (hrow : row (ix2 0 (y 1)) = b2 (ix2 0 (i 1))) :
    k1_pay3 col blk row y = KSpec.reluOut agg d2 b2 i := by
  obtain ⟨r, cc, rfl⟩ : ∃ (r : Fin 5000) (cc : Fin 128), y = ix2 r cc := ⟨y 0, y 1, eq_ix2 y⟩
  rw [st_relu_pay_apply]
  unfold KSpec.reluOut
  rw [show col (ix2 r 0) = d2 (ix2 (i 0) 0) from hcol, show blk (ix2 r cc) = agg i from hblk,
    show row (ix2 0 cc) = b2 (ix2 0 (i 1)) from hrow]
end Cert.KernelIdeal.Hand
end
-- ==== Proof.Val.Reg1a.lean ====
import proofs.«412548_j82308753260928_3_alg».proof.Proof.Val.RS
import proofs.«412548_j82308753260928_3_alg».proof.Proof.KI.Reg1
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem reluIdx1_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)
theorem reluFlushed1_eq (c : Dev nD) (t : Fin cfg1.N) :
    (dat1 (F := Ideal) V c).flushed 3 t
      = ((cfg1.win 3).blk t).view.read (Elt Ideal) (KSpec.reluOut (V c main_v34) (V c main_v17) (V c main_v37)) := by
  show (cfg1.win 3).cut (grid1.coords t) ((dat1 V c).after 3 t) = _
  rw [after1_3]
  unfold relu1
  obtain ⟨e0, e1, e2, e3, e4, e5, e6, e7⟩ := reluIdx1_facts t
  funext j
  show k1_pay3 (iblk1 V c 1 t) (iblk1 V c 0 t) (iblk1 V c 2 t) j
    = KSpec.reluOut (V c main_v34) (V c main_v17) (V c main_v37) (((cfg1.win 3).blk t).view.emb j)
  refine reluEntry_eq _ _ _ _ _ _ j _ ?_ ?_ ?_
  · show V c main_v17 (((cfg1.win 1).blk t).view.emb (ix2 (j 0) 0)) = V c main_v17 (ix2 ((((cfg1.win 3).blk t).view.emb j) 0) 0)
    refine congrArg _ (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  · show V c main_v34 (((cfg1.win 0).blk t).view.emb j) = V c main_v34 (((cfg1.win 3).blk t).view.emb j)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c main_v37 (((cfg1.win 2).blk t).view.emb (ix2 0 (j 1))) = V c main_v37 (ix2 0 ((((cfg1.win 3).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
theorem reluMem1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v38_0).slice (win1_3.rect t)).set ↔ _
  rw [View.set_slice_whole, Rect.mem_set_unit]
  exact Iff.rfl
theorem reluCover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_3 _, ?_⟩
  rw [reluMem1]
  obtain ⟨e0, e1, e2, e3, e4, e5, e6, e7⟩ := reluIdx1_facts ⟨(i 0).val / 5000, hN⟩
  have e6' : win1_3.index ⟨(i 0).val / 5000, hN⟩ (0 : Fin 2) = (i 0).val / 5000 := e6
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; omega
theorem final1_3 (c : Dev nD) :
    (dat1 (F := Ideal) V c).arrAt 3 cfg1.N = KSpec.reluOut (V c main_v34) (V c main_v17) (V c main_v37) :=
  (dat1 V c).arrAt_eq_of_cover 3 (KSpec.reluOut (V c main_v34) (V c main_v17) (V c main_v37)) (fun t _ => reluFlushed1_eq V c t) reluCover1
end Cert.KernelIdeal.Hand
end
-- ==== Proof.Val.Reg1.lean ====
import proofs.«412548_j82308753260928_3_alg».proof.Proof.Val.RS
import proofs.«412548_j82308753260928_3_alg».proof.Proof.KI.Reg1
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem st1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)
theorem st1_iblk0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v34 : S50000x128.Idx → EReal) k := by
  obtain ⟨e0, e1, -⟩ := st1_idx_facts t
  unfold iblk1
  rw [View.read_apply]
  show V c main_v34 _ = V c main_v34 _
  refine congrArg _ (funext fun a => Fin.ext ?_)
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega
theorem st1_iblk1_apply (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c main_v17 : S50000x1.Idx → EReal) k := by
  obtain ⟨-, -, e0, e1, -⟩ := st1_idx_facts t
  unfold iblk1
  rw [View.read_apply]
  show V c main_v17 _ = V c main_v17 _
  refine congrArg _ (funext fun a => Fin.ext ?_)
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega
theorem st1_iblk2_apply (c : Dev nD) (t : Fin cfg1.N) (x : S1x128.Idx) (k : S1x128.Idx)
    (hk0 : (k 0).val = (x 0).val) (hk1 : (k 1).val = (x 1).val) :
    (iblk1 V c 2 t : Vec Ideal S1x128 .f32) x = (V c main_v37 : S1x128.Idx → EReal) k := by
  obtain ⟨-, -, -, -, e0, e1, -⟩ := st1_idx_facts t
  unfold iblk1
  rw [View.read_apply]
  show V c main_v37 _ = V c main_v37 _
  refine congrArg _ (funext fun a => Fin.ext ?_)
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega
theorem st1_relu_entry (c : Dev nD) (t : Fin cfg1.N) (p : Fin 5000) (q : Fin 128) :
    k1_pay3 (iblk1 V c 1 t) (iblk1 V c 0 t) (iblk1 V c 2 t) (ix2 p q)
      = (KSpec.reluOut (V c main_v34) (V c main_v17) (V c main_v37)) (ix2 ⟨5000 * t.val + p.val, by have := t.isLt; have : cfg1.N = 10 := N_1; have := p.isLt; omega⟩ q) := by
  refine (st_relu_pay_apply _ _ _ p q).trans ?_
  unfold KSpec.reluOut
  refine congrArg₂ max (congrArg₂ (· + ·) (congrArg₂ (· * ·) ?_ ?_) ?_) rfl
  · exact st1_iblk1_apply V c t (ix2 p 0) _ rfl rfl
  · exact st1_iblk0_apply V c t (ix2 p q) _ rfl rfl
  · exact st1_iblk2_apply V c t (ix2 0 q) _ rfl rfl
theorem st1_point_sum (c : Dev nD) (q : Fin 128) (t : Fin cfg1.N) :
    ∑ r : Fin 5000, k1_pay3 (iblk1 V c 1 t) (iblk1 V c 0 t) (iblk1 V c 2 t) (ix2 r q)
      = ∑ r ∈ Finset.range 5000, st_ext (fun i => (KSpec.reluOut (V c main_v34) (V c main_v17) (V c main_v37)) (ix2 i q)) (5000 * t.val + r) := by
  rw [← st_block_sum _ t.val (by have := t.isLt; have : cfg1.N = 10 := N_1; omega)]
  exact Finset.sum_congr rfl fun r _ => st1_relu_entry V c t r q
theorem st1_point_sumsq (c : Dev nD) (q : Fin 128) (t : Fin cfg1.N) :
    ∑ r : Fin 5000, k1_pay3 (iblk1 V c 1 t) (iblk1 V c 0 t) (iblk1 V c 2 t) (ix2 r q) * k1_pay3 (iblk1 V c 1 t) (iblk1 V c 0 t) (iblk1 V c 2 t) (ix2 r q)
      = ∑ r ∈ Finset.range 5000, st_ext (fun i => (KSpec.reluOut (V c main_v34) (V c main_v17) (V c main_v37)) (ix2 i q) * (KSpec.reluOut (V c main_v34) (V c main_v17) (V c main_v37)) (ix2 i q)) (5000 * t.val + r) := by
  rw [← st_block_sum _ t.val (by have := t.isLt; have : cfg1.N = 10 := N_1; omega)]
  exact Finset.sum_congr rfl fun r _ => by rw [st1_relu_entry V c t r q]
theorem st1_csum_entry (c : Dev nD) (q : Fin 128) : ∀ (n : ℕ) (hn : n < cfg1.N),
    (csum1 V c n hn : Vec Ideal S1x128 .f32) (ix2 (0 : Fin 1) q)
      = ∑ r ∈ Finset.range (5000 * (n + 1)), st_ext (fun i => (KSpec.reluOut (V c main_v34) (V c main_v17) (V c main_v37)) (ix2 i q)) r
  | 0, hn => by
    show k1_pay4 (iblk1 V c 1 ⟨0, hn⟩) (iblk1 V c 0 ⟨0, hn⟩) (iblk1 V c 2 ⟨0, hn⟩) (k1_pay1 (F := Ideal)) (ix2 (0 : Fin 1) q) = _
    refine (st_csum_pay_apply _ _ _ _ q).trans ?_
    rw [(st_zero_pay_apply _).1, zero_add, st1_point_sum V c q ⟨0, hn⟩]
    simp only [Nat.mul_zero, Nat.zero_add, Nat.mul_one]
  | n + 1, hn => by
    show k1_pay4 (iblk1 V c 1 ⟨n + 1, hn⟩) (iblk1 V c 0 ⟨n + 1, hn⟩) (iblk1 V c 2 ⟨n + 1, hn⟩) (csum1 V c n (Nat.lt_of_succ_lt hn)) (ix2 (0 : Fin 1) q) = _
    refine (st_csum_pay_apply _ _ _ _ q).trans ?_
    rw [st1_csum_entry c q n (Nat.lt_of_succ_lt hn), st1_point_sum V c q ⟨n + 1, hn⟩, st_range_succ]
theorem st1_csq_entry (c : Dev nD) (q : Fin 128) : ∀ (n : ℕ) (hn : n < cfg1.N),
    (csq1 V c n hn : Vec Ideal S1x128 .f32) (ix2 (0 : Fin 1) q)
      = ∑ r ∈ Finset.range (5000 * (n + 1)), st_ext (fun i => (KSpec.reluOut (V c main_v34) (V c main_v17) (V c main_v37)) (ix2 i q) * (KSpec.reluOut (V c main_v34) (V c main_v17) (V c main_v37)) (ix2 i q)) r
  | 0, hn => by
    show k1_pay5 (iblk1 V c 1 ⟨0, hn⟩) (iblk1 V c 0 ⟨0, hn⟩) (iblk1 V c 2 ⟨0, hn⟩) (k1_pay2 (F := Ideal)) (ix2 (0 : Fin 1) q) = _
    refine (st_csq_pay_apply _ _ _ _ q).trans ?_
    rw [(st_zero_pay_apply _).2, zero_add, st1_point_sumsq V c q ⟨0, hn⟩]
    simp only [Nat.mul_zero, Nat.zero_add, Nat.mul_one]
  | n + 1, hn => by
    show k1_pay5 (iblk1 V c 1 ⟨n + 1, hn⟩) (iblk1 V c 0 ⟨n + 1, hn⟩) (iblk1 V c 2 ⟨n + 1, hn⟩) (csq1 V c n (Nat.lt_of_succ_lt hn)) (ix2 (0 : Fin 1) q) = _
    refine (st_csq_pay_apply _ _ _ _ q).trans ?_
    rw [st1_csq_entry c q n (Nat.lt_of_succ_lt hn), st1_point_sumsq V c q ⟨n + 1, hn⟩, st_range_succ]
theorem st1_row_idx (j : S1x128.Idx) : j = ix2 (0 : Fin 1) (j 1) :=
  funext fun a => by
    match a with
    | ⟨0, _⟩ => exact Fin.ext (Nat.lt_one_iff.mp (j 0).isLt)
    | ⟨1, _⟩ => rfl
theorem st1_flushed4_eq (c : Dev nD) (t : Fin cfg1.N) (hf : (cfg1.win 4).flush t = true) :
    (dat1 (F := Ideal) V c).flushed 4 t = ((cfg1.win 4).blk t).view.read (Elt Ideal) (KSpec.colSum (KSpec.reluOut (V c main_v34) (V c main_v17) (V c main_v37))) := by
  have h9 : t.val = 9 := by have := (flush1_4 t).mp hf; have := t.isLt; have : cfg1.N = 10 := N_1; omega
  obtain ⟨-, -, -, -, -, -, e0, e1, -⟩ := st1_idx_facts t
  have key : (csum1 V c t.val t.isLt : Vec Ideal S1x128 .f32) = KSpec.colSum (KSpec.reluOut (V c main_v34) (V c main_v17) (V c main_v37)) := funext fun j => by
    obtain ⟨q, hq⟩ : ∃ q : Fin 128, j = ix2 (0 : Fin 1) q := ⟨j 1, st1_row_idx j⟩
    subst hq
    refine (st1_csum_entry V c q t.val t.isLt).trans ?_
    have h := st_range_all (fun i => (KSpec.reluOut (V c main_v34) (V c main_v17) (V c main_v37)) (ix2 i q))
    rw [← h9] at h
    exact h
  have hz' : (fun a => win1_4.index t a * main_v38_1.ty.shape.size a) = fun _ => 0 := funext fun a => by
    match a with
    | ⟨0, _⟩ => show win1_4.index t 0 * _ = 0; rw [e0]; exact Nat.zero_mul _
    | ⟨1, _⟩ => show win1_4.index t 1 * _ = 0; rw [e1]; exact Nat.zero_mul _
  show (cfg1.win 4).cut (grid1.coords t) ((dat1 V c).after 4 t) = _
  rw [after1_4, key]
  exact (Memref.read_access_unit_zero (Elt Ideal) main_v38_1 hz' (fun a => by rw [congrFun hz' a]; simp) (KSpec.colSum (KSpec.reluOut (V c main_v34) (V c main_v17) (V c main_v37)))).symm
theorem st1_flushed5_eq (c : Dev nD) (t : Fin cfg1.N) (hf : (cfg1.win 5).flush t = true) :
    (dat1 (F := Ideal) V c).flushed 5 t = ((cfg1.win 5).blk t).view.read (Elt Ideal) (KSpec.colSumSq (KSpec.reluOut (V c main_v34) (V c main_v17) (V c main_v37))) := by
  have h9 : t.val = 9 := by have := (flush1_5 t).mp hf; have := t.isLt; have : cfg1.N = 10 := N_1; omega
  obtain ⟨-, -, -, -, -, -, -, -, e0, e1⟩ := st1_idx_facts t
  have key : (csq1 V c t.val t.isLt : Vec Ideal S1x128 .f32) = KSpec.colSumSq (KSpec.reluOut (V c main_v34) (V c main_v17) (V c main_v37)) := funext fun j => by
    obtain ⟨q, hq⟩ : ∃ q : Fin 128, j = ix2 (0 : Fin 1) q := ⟨j 1, st1_row_idx j⟩
    subst hq
    refine (st1_csq_entry V c q t.val t.isLt).trans ?_
    have h := st_range_all (fun i => (KSpec.reluOut (V c main_v34) (V c main_v17) (V c main_v37)) (ix2 i q) * (KSpec.reluOut (V c main_v34) (V c main_v17) (V c main_v37)) (ix2 i q))
    rw [← h9] at h
    exact h
  have hz' : (fun a => win1_5.index t a * main_v38_2.ty.shape.size a) = fun _ => 0 := funext fun a => by
    match a with
    | ⟨0, _⟩ => show win1_5.index t 0 * _ = 0; rw [e0]; exact Nat.zero_mul _
    | ⟨1, _⟩ => show win1_5.index t 1 * _ = 0; rw [e1]; exact Nat.zero_mul _
  show (cfg1.win 5).cut (grid1.coords t) ((dat1 V c).after 5 t) = _
  rw [after1_5, key]
  exact (Memref.read_access_unit_zero (Elt Ideal) main_v38_2 hz' (fun a => by rw [congrFun hz' a]; simp) (KSpec.colSumSq (KSpec.reluOut (V c main_v34) (V c main_v17) (V c main_v37)))).symm
theorem st1_cover4 (i : S1x128.Idx) : ∃ t : Fin cfg1.N, (cfg1.win 4).flush t = true ∧ i ∈ ((cfg1.win 4).blk t).view.set :=
  ⟨t1_9, (flush1_4 t1_9).mpr rfl, by
    show i ∈ ((View.whole main_v38_1).slice (win1_4.rect t1_9)).set
    rw [View.set_slice_whole, Rect.mem_set_unit]
    intro a
    have h0 : (i 0 : ℕ) < 1 := (i 0).isLt
    have h1 : (i 1 : ℕ) < 128 := (i 1).isLt
    match a with
    | ⟨0, _⟩ => show win1_4.index t1_9 0 * win1_4.size 0 ≤ (i 0 : ℕ) ∧ (i 0 : ℕ) < win1_4.index t1_9 0 * win1_4.size 0 + win1_4.xsize (grid1.coords t1_9) 0
                rw [show win1_4.index t1_9 0 * win1_4.size 0 = 0 from by decide +kernel, show win1_4.xsize (grid1.coords t1_9) 0 = 1 from by decide +kernel]; omega
    | ⟨1, _⟩ => show win1_4.index t1_9 1 * win1_4.size 1 ≤ (i 1 : ℕ) ∧ (i 1 : ℕ) < win1_4.index t1_9 1 * win1_4.size 1 + win1_4.xsize (grid1.coords t1_9) 1
                rw [show win1_4.index t1_9 1 * win1_4.size 1 = 0 from by decide +kernel, show win1_4.xsize (grid1.coords t1_9) 1 = 128 from by decide +kernel]; omega⟩
theorem st1_cover5 (i : S1x128.Idx) : ∃ t : Fin cfg1.N, (cfg1.win 5).flush t = true ∧ i ∈ ((cfg1.win 5).blk t).view.set :=
  ⟨t1_9, (flush1_5 t1_9).mpr rfl, by
    show i ∈ ((View.whole main_v38_2).slice (win1_5.rect t1_9)).set
    rw [View.set_slice_whole, Rect.mem_set_unit]
    intro a
    have h0 : (i 0 : ℕ) < 1 := (i 0).isLt
    have h1 : (i 1 : ℕ) < 128 := (i 1).isLt
    match a with
    | ⟨0, _⟩ => show win1_5.index t1_9 0 * win1_5.size 0 ≤ (i 0 : ℕ) ∧ (i 0 : ℕ) < win1_5.index t1_9 0 * win1_5.size 0 + win1_5.xsize (grid1.coords t1_9) 0
                rw [show win1_5.index t1_9 0 * win1_5.size 0 = 0 from by decide +kernel, show win1_5.xsize (grid1.coords t1_9) 0 = 1 from by decide +kernel]; omega
    | ⟨1, _⟩ => show win1_5.index t1_9 1 * win1_5.size 1 ≤ (i 1 : ℕ) ∧ (i 1 : ℕ) < win1_5.index t1_9 1 * win1_5.size 1 + win1_5.xsize (grid1.coords t1_9) 1
                rw [show win1_5.index t1_9 1 * win1_5.size 1 = 0 from by decide +kernel, show win1_5.xsize (grid1.coords t1_9) 1 = 128 from by decide +kernel]; omega⟩
theorem final1_4 (c : Dev nD) :
    (dat1 (F := Ideal) V c).arrAt 4 cfg1.N = KSpec.colSum (KSpec.reluOut (V c main_v34) (V c main_v17) (V c main_v37)) :=
  (dat1 (F := Ideal) V c).arrAt_eq_of_cover 4 _ (st1_flushed4_eq V c) (st1_cover4)
theorem final1_5 (c : Dev nD) :
    (dat1 (F := Ideal) V c).arrAt 5 cfg1.N = KSpec.colSumSq (KSpec.reluOut (V c main_v34) (V c main_v17) (V c main_v37)) :=
  (dat1 (F := Ideal) V c).arrAt_eq_of_cover 5 _ (st1_flushed5_eq V c) (st1_cover5)
end Cert.KernelIdeal.Hand
end
-- ==== Proof.LibPlainDot.lean ====
import Idealize.ShloMosaic.Lib.ValueIdx
import Idealize.ShloMosaic.PureOps.Ideal.Laws
noncomputable section
namespace Cert.Lib.PlainDot
open Idealize.ShloMosaic Idealize.ShloMosaic.ValueIdx
variable {M K N : Nat}
abbrev kEquiv (M K N : Nat) : (DotDims.plain M K N).contr.Idx ≃ Fin K :=
  contrEquiv1 (DotDims.plain M K N) K rfl rfl
theorem lhsIdx_eq (p : Fin M) (q : Fin N) (k : Fin K) :
    (DotDims.plain M K N).lhsIdx (ix2 p q) ((kEquiv M K N).symm k) = ix2 p k :=
  funext fun a => Fin.ext (by
    match a with
    | ⟨0, _⟩ => rfl
    | ⟨1, _⟩ => exact contrEquiv1_symm_val (DotDims.plain M K N) K rfl rfl k)
theorem rhsIdx_eq (p : Fin M) (q : Fin N) (k : Fin K) :
    (DotDims.plain M K N).rhsIdx (ix2 p q) ((kEquiv M K N).symm k) = ix2 k q :=
  funext fun a => Fin.ext (by
    match a with
    | ⟨0, _⟩ => exact contrEquiv1_symm_val (DotDims.plain M K N) K rfl rfl k
    | ⟨1, _⟩ => rfl)
-- A plain product contracts over one axis of length `K`, so its contraction sum is a sum over `Fin K`.
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q
end Cert.Lib.PlainDot
end
-- ==== Proof.Val.LB.lean ====
import proofs.«412548_j82308753260928_3_alg».proof.Proof.KI.LB
import proofs.«412548_j82308753260928_3_alg».proof.Proof.KSpec
import proofs.«412548_j82308753260928_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
theorem lb_dot_plain : dot_S5000x128_S128x128_S5000x128_1_0_0_1_n_n = DotDims.plain 5000 128 128 := rfl
theorem lb_rsqrt_apply {s : Shape} {φ : FTy} (a : FVec Ideal s φ) (i : s.Idx) : rsqrt a i = Ideal.rsqrt (a i) := rfl
theorem lb_bcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl
-- The payload at an index: the normalised entry of the product row, scaled and shifted.
theorem lb_pay_apply (x0 : Vec Ideal S5000x128 .f32) (x1 x2 x3 x4 : Vec Ideal S1x128 .f32) (x5 : Vec Ideal S128x128 .f32)
    (x6 : Vec Ideal S5000x1 .f32) (p : Fin 5000) (q : Fin 128) :
    k2_pay1 x0 x1 x2 x3 x4 x5 x6 (ix2 p q)
      = x6 (ix2 p 0) * ∑ k : Fin 128, (x3 (ix2 0 k) * (x0 (ix2 p k) - x1 (ix2 0 k)) * Ideal.rsqrt (x2 (ix2 0 k) + KSpec.epsE) + x4 (ix2 0 k)) * x5 (ix2 k q) := by
  unfold k2_pay1
  simp only [shapeCast_self]
  rw [mulf_apply, lb_bcast_col_apply, lb_dot_plain]
  congr 1
  refine (Cert.Lib.PlainDot.matmul_zero_apply (M := 5000) (K := 128) (N := 128) none _ _ p q).trans ?_
  refine Finset.sum_congr rfl fun k _ => ?_
  simp only [truncf_apply, addf_apply, mulf_apply, subf_apply, broadcastTo_1b_ab_apply, lb_rsqrt_apply, ValueIdx.broadcast_apply]
  rfl
theorem lb_hz : (![0, 0] : Fin 2 → Nat) = fun _ => 0 := funext fun a => by fin_cases a <;> rfl
-- A block of the specification's layer output is the same function of the block's rows.
theorem lb_block (a : KSpec.Mat 50000 128) (mu var ga be : KSpec.Mat 1 128) (w : KSpec.Mat 128 128) (d : KSpec.Mat 50000 1)
    (x0 : Vec Ideal S5000x128 .f32) (x1 x2 x3 x4 : Vec Ideal S1x128 .f32) (x5 : Vec Ideal S128x128 .f32) (x6 : Vec Ideal S5000x1 .f32)
    (n : ℕ)
    (h0 : ∀ (y : S5000x128.Idx) (i : S50000x128.Idx), (i 0).val = n * 5000 + (y 0).val → (i 1).val = (y 1).val → x0 y = a i)
    (h1 : x1 = mu) (h2 : x2 = var) (h3 : x3 = ga) (h4 : x4 = be) (h5 : x5 = w)
    (h6 : ∀ (y : S5000x1.Idx) (i : S50000x1.Idx), (i 0).val = n * 5000 + (y 0).val → x6 y = d i)
    (j : S5000x128.Idx) (i : S50000x128.Idx) (hi0 : (i 0).val = n * 5000 + (j 0).val) (hi1 : (i 1).val = (j 1).val) :
    k2_pay1 x0 x1 x2 x3 x4 x5 x6 j = KSpec.linBn a mu var ga be w d i := by
  subst h1 h2 h3 h4 h5
  obtain ⟨p, q, rfl⟩ : ∃ (p : Fin 5000) (q : Fin 128), j = ix2 p q := ⟨j 0, j 1, eq_ix2 j⟩
  rw [lb_pay_apply]
  unfold KSpec.linBn KSpec.bnRow
  have e6 : x6 (ix2 p 0) = d (ix2 (i 0) 0) := h6 _ _ hi0
  have ej : (i 1) = q := Fin.ext hi1
  rw [e6, ej]
  refine congrArg _ (Finset.sum_congr rfl fun k _ => ?_)
  rw [h0 (ix2 p k) (ix2 (i 0) k) hi0 rfl]
end Cert.KernelIdeal.Hand
end
-- ==== Proof.Val.Reg2.lean ====
import proofs.«412548_j82308753260928_3_alg».proof.Proof.Val.LB
import proofs.«412548_j82308753260928_3_alg».proof.Proof.KI.Reg2
import proofs.«412548_j82308753260928_3_alg».proof.Proof.KSpec
import proofs.«412548_j82308753260928_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem idx2_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0
    ∧ win2_7.index t (0 : Fin 2) = t.val
    ∧ win2_7.index t (1 : Fin 2) = 0 :=
  (by decide +kernel : ∀ t : Fin grid2.N, _)
theorem flushed2_7_eq (c : Dev nD) (t : Fin cfg2.N) :
    (dat2 (F := Ideal) V c).flushed 7 t = ((cfg2.win 7).blk t).view.read (Elt Ideal) (KSpec.linBn (V c main_v38_0) (V c main_v40) (V c main_v46) (V c main_v53) (V c main_v54) (V c main_v52) (V c main_v17)) := by
  show (cfg2.win 7).cut (grid2.coords t) ((dat2 V c).after 7 t) = _
  rw [after2_7]
  unfold lb_out
  rw [View.canon_unit_zero lb_hz]
  simp only [View.ld_unit_zero (S := S5000x128) lb_hz, View.ld_unit_zero (S := S1x128) lb_hz, View.ld_unit_zero (S := S128x128) lb_hz,
    View.ld_unit_zero (S := S5000x1) lb_hz]
  obtain ⟨f00, f01, f10, f11, f20, f21, f30, f31, f40, f41, f50, f51, f60, f61, f70, f71⟩ := idx2_facts t
  funext j
  show k2_pay1 (iblk2 V c 0 t) (iblk2 V c 1 t) (iblk2 V c 2 t) (iblk2 V c 3 t) (iblk2 V c 4 t) (iblk2 V c 5 t) (iblk2 V c 6 t) j = (KSpec.linBn (V c main_v38_0) (V c main_v40) (V c main_v46) (V c main_v53) (V c main_v54) (V c main_v52) (V c main_v17)) (((cfg2.win 7).blk t).view.emb j)
  refine lb_block (V c main_v38_0) (V c main_v40) (V c main_v46) (V c main_v53) (V c main_v54) (V c main_v52) (V c main_v17) (iblk2 V c 0 t) (iblk2 V c 1 t) (iblk2 V c 2 t) (iblk2 V c 3 t) (iblk2 V c 4 t) (iblk2 V c 5 t) (iblk2 V c 6 t) t.val ?_ ?_ ?_ ?_ ?_ ?_ ?_ j _ ?_ ?_
  · intro y i e0 e1
    show V c main_v38_0 (((cfg2.win 0).blk t).view.emb y) = V c main_v38_0 i
    refine congrArg _ (funext fun a => Fin.ext ?_)
    match a with
    | ⟨0, _⟩ => show win2_0.index t (0 : Fin 2) * 5000 + 1 * (y 0).val = (i 0).val; rw [f00]; omega
    | ⟨1, _⟩ => show win2_0.index t (1 : Fin 2) * 128 + 1 * (y 1).val = (i 1).val; rw [f01]; omega
  ·
    funext y
    show V c main_v40 (((cfg2.win 1).blk t).view.emb y) = V c main_v40 y
    refine congrArg _ (funext fun a => Fin.ext ?_)
    match a with
    | ⟨0, _⟩ => show win2_1.index t (0 : Fin 2) * 1 + 1 * (y 0).val = (y 0).val; rw [f10]; omega
    | ⟨1, _⟩ => show win2_1.index t (1 : Fin 2) * 128 + 1 * (y 1).val = (y 1).val; rw [f11]; omega
  ·
    funext y
    show V c main_v46 (((cfg2.win 2).blk t).view.emb y) = V c main_v46 y
    refine congrArg _ (funext fun a => Fin.ext ?_)
    match a with
    | ⟨0, _⟩ => show win2_2.index t (0 : Fin 2) * 1 + 1 * (y 0).val = (y 0).val; rw [f20]; omega
    | ⟨1, _⟩ => show win2_2.index t (1 : Fin 2) * 128 + 1 * (y 1).val = (y 1).val; rw [f21]; omega
  ·
    funext y
    show V c main_v53 (((cfg2.win 3).blk t).view.emb y) = V c main_v53 y
    refine congrArg _ (funext fun a => Fin.ext ?_)
    match a with
    | ⟨0, _⟩ => show win2_3.index t (0 : Fin 2) * 1 + 1 * (y 0).val = (y 0).val; rw [f30]; omega
    | ⟨1, _⟩ => show win2_3.index t (1 : Fin 2) * 128 + 1 * (y 1).val = (y 1).val; rw [f31]; omega
  ·
    funext y
    show V c main_v54 (((cfg2.win 4).blk t).view.emb y) = V c main_v54 y
    refine congrArg _ (funext fun a => Fin.ext ?_)
    match a with
    | ⟨0, _⟩ => show win2_4.index t (0 : Fin 2) * 1 + 1 * (y 0).val = (y 0).val; rw [f40]; omega
    | ⟨1, _⟩ => show win2_4.index t (1 : Fin 2) * 128 + 1 * (y 1).val = (y 1).val; rw [f41]; omega
  ·
    funext y
    show V c main_v52 (((cfg2.win 5).blk t).view.emb y) = V c main_v52 y
    refine congrArg _ (funext fun a => Fin.ext ?_)
    match a with
    | ⟨0, _⟩ => show win2_5.index t (0 : Fin 2) * 128 + 1 * (y 0).val = (y 0).val; rw [f50]; omega
    | ⟨1, _⟩ => show win2_5.index t (1 : Fin 2) * 128 + 1 * (y 1).val = (y 1).val; rw [f51]; omega
  · intro y i e0
    show V c main_v17 (((cfg2.win 6).blk t).view.emb y) = V c main_v17 i
    refine congrArg _ (funext fun a => Fin.ext ?_)
    have hy1 : (y 1).val < 1 := (y 1).isLt
    have hi1 : (i 1).val < 1 := (i 1).isLt
    match a with
    | ⟨0, _⟩ => show win2_6.index t (0 : Fin 2) * 5000 + 1 * (y 0).val = (i 0).val; rw [f60]; omega
    | ⟨1, _⟩ => show win2_6.index t (1 : Fin 2) * 1 + 1 * (y 1).val = (i 1).val; rw [f61]; omega
  · show win2_7.index t (0 : Fin 2) * 5000 + 1 * (j 0).val = t.val * 5000 + (j 0).val; rw [f70]; omega
  · show win2_7.index t (1 : Fin 2) * 128 + 1 * (j 1).val = (j 1).val; rw [f71]; omega
theorem mem_blk2_7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v55).slice (win2_7.rect t)).set ↔ _
  rw [View.set_slice_whole, Rect.mem_set_unit]
  exact Iff.rfl
theorem covered2_7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : (i 0).val / 5000 < grid2.N := by rw [N_2]; omega
  obtain ⟨-, -, -, -, -, -, -, -, -, -, -, -, -, -, f70, f71⟩ := idx2_facts ⟨(i 0).val / 5000, hN⟩
  refine ⟨⟨(i 0).val / 5000, hN⟩, flush2_7 _, ?_⟩
  rw [mem_blk2_7]
  intro a
  match a with
  | ⟨0, _⟩ =>
    show win2_7.index ⟨(i 0).val / 5000, hN⟩ (0 : Fin 2) * 5000 ≤ (i 0).val ∧ (i 0).val < win2_7.index ⟨(i 0).val / 5000, hN⟩ (0 : Fin 2) * 5000 + 5000
    rw [f70]; show (i 0).val / 5000 * 5000 ≤ (i 0).val ∧ (i 0).val < (i 0).val / 5000 * 5000 + 5000; omega
  | ⟨1, _⟩ =>
    show win2_7.index ⟨(i 0).val / 5000, hN⟩ (1 : Fin 2) * 128 ≤ (i 1).val ∧ (i 1).val < win2_7.index ⟨(i 0).val / 5000, hN⟩ (1 : Fin 2) * 128 + 128
    rw [f71]; omega
theorem final2 (c : Dev nD) : (dat2 (F := Ideal) V c).arrAt 7 cfg2.N = (KSpec.linBn (V c main_v38_0) (V c main_v40) (V c main_v46) (V c main_v53) (V c main_v54) (V c main_v52) (V c main_v17)) :=
  (dat2 V c).arrAt_eq_of_cover 7 _ (fun t _ => flushed2_7_eq V c t) covered2_7
end Cert.KernelIdeal.Hand
end
-- ==== Proof.Val.Reg3a.lean ====
import proofs.«412548_j82308753260928_3_alg».proof.Proof.Val.RS
import proofs.«412548_j82308753260928_3_alg».proof.Proof.KI.Reg3
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem reluIdx3_facts : ∀ t : Fin cfg3.N,
    win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)
theorem reluFlushed3_eq (c : Dev nD) (t : Fin cfg3.N) :
    (dat3 (F := Ideal) V c).flushed 3 t
      = ((cfg3.win 3).blk t).view.read (Elt Ideal) (KSpec.reluOut (V c main_v67) (V c main_v17) (V c main_v70)) := by
  show (cfg3.win 3).cut (grid3.coords t) ((dat3 V c).after 3 t) = _
  rw [after3_3]
  unfold relu3
  obtain ⟨e0, e1, e2, e3, e4, e5, e6, e7⟩ := reluIdx3_facts t
  funext j
  show k1_pay3 (iblk3 V c 1 t) (iblk3 V c 0 t) (iblk3 V c 2 t) j
    = KSpec.reluOut (V c main_v67) (V c main_v17) (V c main_v70) (((cfg3.win 3).blk t).view.emb j)
  refine reluEntry_eq _ _ _ _ _ _ j _ ?_ ?_ ?_
  · show V c main_v17 (((cfg3.win 1).blk t).view.emb (ix2 (j 0) 0)) = V c main_v17 (ix2 ((((cfg3.win 3).blk t).view.emb j) 0) 0)
    refine congrArg _ (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  · show V c main_v67 (((cfg3.win 0).blk t).view.emb j) = V c main_v67 (((cfg3.win 3).blk t).view.emb j)
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · show V c main_v70 (((cfg3.win 2).blk t).view.emb (ix2 0 (j 1))) = V c main_v70 (ix2 0 ((((cfg3.win 3).blk t).view.emb j) 1))
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
theorem reluMem3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v71_0).slice (win3_3.rect t)).set ↔ _
  rw [View.set_slice_whole, Rect.mem_set_unit]
  exact Iff.rfl
theorem reluCover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : (i 0).val / 5000 < cfg3.N := by show _ < grid3.N; rw [N_3]; omega
  refine ⟨⟨(i 0).val / 5000, hN⟩, flush3_3 _, ?_⟩
  rw [reluMem3]
  obtain ⟨e0, e1, e2, e3, e4, e5, e6, e7⟩ := reluIdx3_facts ⟨(i 0).val / 5000, hN⟩
  have e6' : win3_3.index ⟨(i 0).val / 5000, hN⟩ (0 : Fin 2) = (i 0).val / 5000 := e6
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; omega
  | ⟨1, _⟩ => show win3_3.index ⟨(i 0).val / 5000, hN⟩ (1 : Fin 2) * 128 ≤ (i 1).val ∧ (i 1).val < win3_3.index ⟨(i 0).val / 5000, hN⟩ (1 : Fin 2) * 128 + 128; omega
theorem final3_3 (c : Dev nD) :
    (dat3 (F := Ideal) V c).arrAt 3 cfg3.N = KSpec.reluOut (V c main_v67) (V c main_v17) (V c main_v70) :=
  (dat3 V c).arrAt_eq_of_cover 3 (KSpec.reluOut (V c main_v67) (V c main_v17) (V c main_v70)) (fun t _ => reluFlushed3_eq V c t) reluCover3
end Cert.KernelIdeal.Hand
end
-- ==== Proof.Val.Reg3.lean ====
import proofs.«412548_j82308753260928_3_alg».proof.Proof.Val.RS
import proofs.«412548_j82308753260928_3_alg».proof.Proof.KI.Reg3
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem st3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)
theorem st3_iblk0_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v67 : S50000x128.Idx → EReal) k := by
  obtain ⟨e0, e1, -⟩ := st3_idx_facts t
  unfold iblk3
  rw [View.read_apply]
  show V c main_v67 _ = V c main_v67 _
  refine congrArg _ (funext fun a => Fin.ext ?_)
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega
theorem st3_iblk1_apply (c : Dev nD) (t : Fin cfg3.N) (x : S5000x1.Idx) (k : S50000x1.Idx)
    (hk0 : (k 0).val = 5000 * t.val + (x 0).val) (hk1 : (k 1).val = (x 1).val) :
    (iblk3 V c 1 t : Vec Ideal S5000x1 .f32) x = (V c main_v17 : S50000x1.Idx → EReal) k := by
  obtain ⟨-, -, e0, e1, -⟩ := st3_idx_facts t
  unfold iblk3
  rw [View.read_apply]
  show V c main_v17 _ = V c main_v17 _
  refine congrArg _ (funext fun a => Fin.ext ?_)
  match a with
  | ⟨0, _⟩ => show win3_1.index t 0 * 5000 + 1 * (x 0).val = (k 0).val; rw [e0, hk0]; omega
  | ⟨1, _⟩ => show win3_1.index t 1 * 1 + 1 * (x 1).val = (k 1).val; rw [e1, hk1]; omega
theorem st3_iblk2_apply (c : Dev nD) (t : Fin cfg3.N) (x : S1x128.Idx) (k : S1x128.Idx)
    (hk0 : (k 0).val = (x 0).val) (hk1 : (k 1).val = (x 1).val) :
    (iblk3 V c 2 t : Vec Ideal S1x128 .f32) x = (V c main_v70 : S1x128.Idx → EReal) k := by
  obtain ⟨-, -, -, -, e0, e1, -⟩ := st3_idx_facts t
  unfold iblk3
  rw [View.read_apply]
  show V c main_v70 _ = V c main_v70 _
  refine congrArg _ (funext fun a => Fin.ext ?_)
  match a with
  | ⟨0, _⟩ => show win3_2.index t 0 * 1 + 1 * (x 0).val = (k 0).val; rw [e0, hk0]; omega
  | ⟨1, _⟩ => show win3_2.index t 1 * 128 + 1 * (x 1).val = (k 1).val; rw [e1, hk1]; omega
theorem st3_relu_entry (c : Dev nD) (t : Fin cfg3.N) (p : Fin 5000) (q : Fin 128) :
    k1_pay3 (iblk3 V c 1 t) (iblk3 V c 0 t) (iblk3 V c 2 t) (ix2 p q)
      = (KSpec.reluOut (V c main_v67) (V c main_v17) (V c main_v70)) (ix2 ⟨5000 * t.val + p.val, by have := t.isLt; have : cfg3.N = 10 := N_3; have := p.isLt; omega⟩ q) := by
  refine (st_relu_pay_apply _ _ _ p q).trans ?_
  unfold KSpec.reluOut
  refine congrArg₂ max (congrArg₂ (· + ·) (congrArg₂ (· * ·) ?_ ?_) ?_) rfl
  · exact st3_iblk1_apply V c t (ix2 p 0) _ rfl rfl
  · exact st3_iblk0_apply V c t (ix2 p q) _ rfl rfl
  · exact st3_iblk2_apply V c t (ix2 0 q) _ rfl rfl
theorem st3_point_sum (c : Dev nD) (q : Fin 128) (t : Fin cfg3.N) :
    ∑ r : Fin 5000, k1_pay3 (iblk3 V c 1 t) (iblk3 V c 0 t) (iblk3 V c 2 t) (ix2 r q)
      = ∑ r ∈ Finset.range 5000, st_ext (fun i => (KSpec.reluOut (V c main_v67) (V c main_v17) (V c main_v70)) (ix2 i q)) (5000 * t.val + r) := by
  rw [← st_block_sum _ t.val (by have := t.isLt; have : cfg3.N = 10 := N_3; omega)]
  exact Finset.sum_congr rfl fun r _ => st3_relu_entry V c t r q
theorem st3_point_sumsq (c : Dev nD) (q : Fin 128) (t : Fin cfg3.N) :
    ∑ r : Fin 5000, k1_pay3 (iblk3 V c 1 t) (iblk3 V c 0 t) (iblk3 V c 2 t) (ix2 r q) * k1_pay3 (iblk3 V c 1 t) (iblk3 V c 0 t) (iblk3 V c 2 t) (ix2 r q)
      = ∑ r ∈ Finset.range 5000, st_ext (fun i => (KSpec.reluOut (V c main_v67) (V c main_v17) (V c main_v70)) (ix2 i q) * (KSpec.reluOut (V c main_v67) (V c main_v17) (V c main_v70)) (ix2 i q)) (5000 * t.val + r) := by
  rw [← st_block_sum _ t.val (by have := t.isLt; have : cfg3.N = 10 := N_3; omega)]
  exact Finset.sum_congr rfl fun r _ => by rw [st3_relu_entry V c t r q]
theorem st3_csum_entry (c : Dev nD) (q : Fin 128) : ∀ (n : ℕ) (hn : n < cfg3.N),
    (csum3 V c n hn : Vec Ideal S1x128 .f32) (ix2 (0 : Fin 1) q)
      = ∑ r ∈ Finset.range (5000 * (n + 1)), st_ext (fun i => (KSpec.reluOut (V c main_v67) (V c main_v17) (V c main_v70)) (ix2 i q)) r
  | 0, hn => by
    show k1_pay4 (iblk3 V c 1 ⟨0, hn⟩) (iblk3 V c 0 ⟨0, hn⟩) (iblk3 V c 2 ⟨0, hn⟩) (k1_pay1 (F := Ideal)) (ix2 (0 : Fin 1) q) = _
    refine (st_csum_pay_apply _ _ _ _ q).trans ?_
    rw [(st_zero_pay_apply _).1, zero_add, st3_point_sum V c q ⟨0, hn⟩]
    simp only [Nat.mul_zero, Nat.zero_add, Nat.mul_one]
  | n + 1, hn => by
    show k1_pay4 (iblk3 V c 1 ⟨n + 1, hn⟩) (iblk3 V c 0 ⟨n + 1, hn⟩) (iblk3 V c 2 ⟨n + 1, hn⟩) (csum3 V c n (Nat.lt_of_succ_lt hn)) (ix2 (0 : Fin 1) q) = _
    refine (st_csum_pay_apply _ _ _ _ q).trans ?_
    rw [st3_csum_entry c q n (Nat.lt_of_succ_lt hn), st3_point_sum V c q ⟨n + 1, hn⟩, st_range_succ]
theorem st3_csq_entry (c : Dev nD) (q : Fin 128) : ∀ (n : ℕ) (hn : n < cfg3.N),
    (csq3 V c n hn : Vec Ideal S1x128 .f32) (ix2 (0 : Fin 1) q)
      = ∑ r ∈ Finset.range (5000 * (n + 1)), st_ext (fun i => (KSpec.reluOut (V c main_v67) (V c main_v17) (V c main_v70)) (ix2 i q) * (KSpec.reluOut (V c main_v67) (V c main_v17) (V c main_v70)) (ix2 i q)) r
  | 0, hn => by
    show k1_pay5 (iblk3 V c 1 ⟨0, hn⟩) (iblk3 V c 0 ⟨0, hn⟩) (iblk3 V c 2 ⟨0, hn⟩) (k1_pay2 (F := Ideal)) (ix2 (0 : Fin 1) q) = _
    refine (st_csq_pay_apply _ _ _ _ q).trans ?_
    rw [(st_zero_pay_apply _).2, zero_add, st3_point_sumsq V c q ⟨0, hn⟩]
    simp only [Nat.mul_zero, Nat.zero_add, Nat.mul_one]
  | n + 1, hn => by
    show k1_pay5 (iblk3 V c 1 ⟨n + 1, hn⟩) (iblk3 V c 0 ⟨n + 1, hn⟩) (iblk3 V c 2 ⟨n + 1, hn⟩) (csq3 V c n (Nat.lt_of_succ_lt hn)) (ix2 (0 : Fin 1) q) = _
    refine (st_csq_pay_apply _ _ _ _ q).trans ?_
    rw [st3_csq_entry c q n (Nat.lt_of_succ_lt hn), st3_point_sumsq V c q ⟨n + 1, hn⟩, st_range_succ]
theorem st3_row_idx (j : S1x128.Idx) : j = ix2 (0 : Fin 1) (j 1) :=
  funext fun a => by
    match a with
    | ⟨0, _⟩ => exact Fin.ext (Nat.lt_one_iff.mp (j 0).isLt)
    | ⟨1, _⟩ => rfl
theorem st3_flushed4_eq (c : Dev nD) (t : Fin cfg3.N) (hf : (cfg3.win 4).flush t = true) :
    (dat3 (F := Ideal) V c).flushed 4 t = ((cfg3.win 4).blk t).view.read (Elt Ideal) (KSpec.colSum (KSpec.reluOut (V c main_v67) (V c main_v17) (V c main_v70))) := by
  have h9 : t.val = 9 := by have := (flush3_4 t).mp hf; have := t.isLt; have : cfg3.N = 10 := N_3; omega
  obtain ⟨-, -, -, -, -, -, e0, e1, -⟩ := st3_idx_facts t
  have key : (csum3 V c t.val t.isLt : Vec Ideal S1x128 .f32) = KSpec.colSum (KSpec.reluOut (V c main_v67) (V c main_v17) (V c main_v70)) := funext fun j => by
    obtain ⟨q, hq⟩ : ∃ q : Fin 128, j = ix2 (0 : Fin 1) q := ⟨j 1, st3_row_idx j⟩
    subst hq
    refine (st3_csum_entry V c q t.val t.isLt).trans ?_
    have h := st_range_all (fun i => (KSpec.reluOut (V c main_v67) (V c main_v17) (V c main_v70)) (ix2 i q))
    rw [← h9] at h
    exact h
  have hz' : (fun a => win3_4.index t a * main_v71_1.ty.shape.size a) = fun _ => 0 := funext fun a => by
    match a with
    | ⟨0, _⟩ => show win3_4.index t 0 * _ = 0; rw [e0]; exact Nat.zero_mul _
    | ⟨1, _⟩ => show win3_4.index t 1 * _ = 0; rw [e1]; exact Nat.zero_mul _
  show (cfg3.win 4).cut (grid3.coords t) ((dat3 V c).after 4 t) = _
  rw [after3_4, key]
  exact (Memref.read_access_unit_zero (Elt Ideal) main_v71_1 hz' (fun a => by rw [congrFun hz' a]; simp) (KSpec.colSum (KSpec.reluOut (V c main_v67) (V c main_v17) (V c main_v70)))).symm
theorem st3_flushed5_eq (c : Dev nD) (t : Fin cfg3.N) (hf : (cfg3.win 5).flush t = true) :
    (dat3 (F := Ideal) V c).flushed 5 t = ((cfg3.win 5).blk t).view.read (Elt Ideal) (KSpec.colSumSq (KSpec.reluOut (V c main_v67) (V c main_v17) (V c main_v70))) := by
  have h9 : t.val = 9 := by have := (flush3_5 t).mp hf; have := t.isLt; have : cfg3.N = 10 := N_3; omega
  obtain ⟨-, -, -, -, -, -, -, -, e0, e1⟩ := st3_idx_facts t
  have key : (csq3 V c t.val t.isLt : Vec Ideal S1x128 .f32) = KSpec.colSumSq (KSpec.reluOut (V c main_v67) (V c main_v17) (V c main_v70)) := funext fun j => by
    obtain ⟨q, hq⟩ : ∃ q : Fin 128, j = ix2 (0 : Fin 1) q := ⟨j 1, st3_row_idx j⟩
    subst hq
    refine (st3_csq_entry V c q t.val t.isLt).trans ?_
    have h := st_range_all (fun i => (KSpec.reluOut (V c main_v67) (V c main_v17) (V c main_v70)) (ix2 i q) * (KSpec.reluOut (V c main_v67) (V c main_v17) (V c main_v70)) (ix2 i q))
    rw [← h9] at h
    exact h
  have hz' : (fun a => win3_5.index t a * main_v71_2.ty.shape.size a) = fun _ => 0 := funext fun a => by
    match a with
    | ⟨0, _⟩ => show win3_5.index t 0 * _ = 0; rw [e0]; exact Nat.zero_mul _
    | ⟨1, _⟩ => show win3_5.index t 1 * _ = 0; rw [e1]; exact Nat.zero_mul _
  show (cfg3.win 5).cut (grid3.coords t) ((dat3 V c).after 5 t) = _
  rw [after3_5, key]
  exact (Memref.read_access_unit_zero (Elt Ideal) main_v71_2 hz' (fun a => by rw [congrFun hz' a]; simp) (KSpec.colSumSq (KSpec.reluOut (V c main_v67) (V c main_v17) (V c main_v70)))).symm
theorem st3_cover4 (i : S1x128.Idx) : ∃ t : Fin cfg3.N, (cfg3.win 4).flush t = true ∧ i ∈ ((cfg3.win 4).blk t).view.set :=
  ⟨t3_9, (flush3_4 t3_9).mpr rfl, by
    show i ∈ ((View.whole main_v71_1).slice (win3_4.rect t3_9)).set
    rw [View.set_slice_whole, Rect.mem_set_unit]
    intro a
    have h0 : (i 0 : ℕ) < 1 := (i 0).isLt
    have h1 : (i 1 : ℕ) < 128 := (i 1).isLt
    match a with
    | ⟨0, _⟩ => show win3_4.index t3_9 0 * win3_4.size 0 ≤ (i 0 : ℕ) ∧ (i 0 : ℕ) < win3_4.index t3_9 0 * win3_4.size 0 + win3_4.xsize (grid3.coords t3_9) 0
                rw [show win3_4.index t3_9 0 * win3_4.size 0 = 0 from by decide +kernel, show win3_4.xsize (grid3.coords t3_9) 0 = 1 from by decide +kernel]; omega
    | ⟨1, _⟩ => show win3_4.index t3_9 1 * win3_4.size 1 ≤ (i 1 : ℕ) ∧ (i 1 : ℕ) < win3_4.index t3_9 1 * win3_4.size 1 + win3_4.xsize (grid3.coords t3_9) 1
                rw [show win3_4.index t3_9 1 * win3_4.size 1 = 0 from by decide +kernel, show win3_4.xsize (grid3.coords t3_9) 1 = 128 from by decide +kernel]; omega⟩
theorem st3_cover5 (i : S1x128.Idx) : ∃ t : Fin cfg3.N, (cfg3.win 5).flush t = true ∧ i ∈ ((cfg3.win 5).blk t).view.set :=
  ⟨t3_9, (flush3_5 t3_9).mpr rfl, by
    show i ∈ ((View.whole main_v71_2).slice (win3_5.rect t3_9)).set
    rw [View.set_slice_whole, Rect.mem_set_unit]
    intro a
    have h0 : (i 0 : ℕ) < 1 := (i 0).isLt
    have h1 : (i 1 : ℕ) < 128 := (i 1).isLt
    match a with
    | ⟨0, _⟩ => show win3_5.index t3_9 0 * win3_5.size 0 ≤ (i 0 : ℕ) ∧ (i 0 : ℕ) < win3_5.index t3_9 0 * win3_5.size 0 + win3_5.xsize (grid3.coords t3_9) 0
                rw [show win3_5.index t3_9 0 * win3_5.size 0 = 0 from by decide +kernel, show win3_5.xsize (grid3.coords t3_9) 0 = 1 from by decide +kernel]; omega
    | ⟨1, _⟩ => show win3_5.index t3_9 1 * win3_5.size 1 ≤ (i 1 : ℕ) ∧ (i 1 : ℕ) < win3_5.index t3_9 1 * win3_5.size 1 + win3_5.xsize (grid3.coords t3_9) 1
                rw [show win3_5.index t3_9 1 * win3_5.size 1 = 0 from by decide +kernel, show win3_5.xsize (grid3.coords t3_9) 1 = 128 from by decide +kernel]; omega⟩
theorem final3_4 (c : Dev nD) :
    (dat3 (F := Ideal) V c).arrAt 4 cfg3.N = KSpec.colSum (KSpec.reluOut (V c main_v67) (V c main_v17) (V c main_v70)) :=
  (dat3 (F := Ideal) V c).arrAt_eq_of_cover 4 _ (st3_flushed4_eq V c) (st3_cover4)
theorem final3_5 (c : Dev nD) :
    (dat3 (F := Ideal) V c).arrAt 5 cfg3.N = KSpec.colSumSq (KSpec.reluOut (V c main_v67) (V c main_v17) (V c main_v70)) :=
  (dat3 (F := Ideal) V c).arrAt_eq_of_cover 5 _ (st3_flushed5_eq V c) (st3_cover5)
end Cert.KernelIdeal.Hand
end
-- ==== Proof.Val.Reg4.lean ====
import proofs.«412548_j82308753260928_3_alg».proof.Proof.Val.LB
import proofs.«412548_j82308753260928_3_alg».proof.Proof.KI.Reg4
import proofs.«412548_j82308753260928_3_alg».proof.Proof.KSpec
import proofs.«412548_j82308753260928_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem idx4_facts : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = t.val
    ∧ win4_6.index t (1 : Fin 2) = 0
    ∧ win4_7.index t (0 : Fin 2) = t.val
    ∧ win4_7.index t (1 : Fin 2) = 0 :=
  (by decide +kernel : ∀ t : Fin grid4.N, _)
theorem flushed4_7_eq (c : Dev nD) (t : Fin cfg4.N) :
    (dat4 (F := Ideal) V c).flushed 7 t = ((cfg4.win 7).blk t).view.read (Elt Ideal) (KSpec.linBn (V c main_v71_0) (V c main_v73) (V c main_v79) (V c main_v86) (V c main_v87) (V c main_v85) (V c main_v17)) := by
  show (cfg4.win 7).cut (grid4.coords t) ((dat4 V c).after 7 t) = _
  rw [after4_7]
  unfold lb_out
  rw [View.canon_unit_zero lb_hz]
  simp only [View.ld_unit_zero (S := S5000x128) lb_hz, View.ld_unit_zero (S := S1x128) lb_hz, View.ld_unit_zero (S := S128x128) lb_hz,
    View.ld_unit_zero (S := S5000x1) lb_hz]
  obtain ⟨f00, f01, f10, f11, f20, f21, f30, f31, f40, f41, f50, f51, f60, f61, f70, f71⟩ := idx4_facts t
  funext j
  show k2_pay1 (iblk4 V c 0 t) (iblk4 V c 1 t) (iblk4 V c 2 t) (iblk4 V c 3 t) (iblk4 V c 4 t) (iblk4 V c 5 t) (iblk4 V c 6 t) j = (KSpec.linBn (V c main_v71_0) (V c main_v73) (V c main_v79) (V c main_v86) (V c main_v87) (V c main_v85) (V c main_v17)) (((cfg4.win 7).blk t).view.emb j)
  refine lb_block (V c main_v71_0) (V c main_v73) (V c main_v79) (V c main_v86) (V c main_v87) (V c main_v85) (V c main_v17) (iblk4 V c 0 t) (iblk4 V c 1 t) (iblk4 V c 2 t) (iblk4 V c 3 t) (iblk4 V c 4 t) (iblk4 V c 5 t) (iblk4 V c 6 t) t.val ?_ ?_ ?_ ?_ ?_ ?_ ?_ j _ ?_ ?_
  · intro y i e0 e1
    show V c main_v71_0 (((cfg4.win 0).blk t).view.emb y) = V c main_v71_0 i
    refine congrArg _ (funext fun a => Fin.ext ?_)
    match a with
    | ⟨0, _⟩ => show win4_0.index t (0 : Fin 2) * 5000 + 1 * (y 0).val = (i 0).val; rw [f00]; omega
    | ⟨1, _⟩ => show win4_0.index t (1 : Fin 2) * 128 + 1 * (y 1).val = (i 1).val; rw [f01]; omega
  ·
    funext y
    show V c main_v73 (((cfg4.win 1).blk t).view.emb y) = V c main_v73 y
    refine congrArg _ (funext fun a => Fin.ext ?_)
    match a with
    | ⟨0, _⟩ => show win4_1.index t (0 : Fin 2) * 1 + 1 * (y 0).val = (y 0).val; rw [f10]; omega
    | ⟨1, _⟩ => show win4_1.index t (1 : Fin 2) * 128 + 1 * (y 1).val = (y 1).val; rw [f11]; omega
  ·
    funext y
    show V c main_v79 (((cfg4.win 2).blk t).view.emb y) = V c main_v79 y
    refine congrArg _ (funext fun a => Fin.ext ?_)
    match a with
    | ⟨0, _⟩ => show win4_2.index t (0 : Fin 2) * 1 + 1 * (y 0).val = (y 0).val; rw [f20]; omega
    | ⟨1, _⟩ => show win4_2.index t (1 : Fin 2) * 128 + 1 * (y 1).val = (y 1).val; rw [f21]; omega
  ·
    funext y
    show V c main_v86 (((cfg4.win 3).blk t).view.emb y) = V c main_v86 y
    refine congrArg _ (funext fun a => Fin.ext ?_)
    match a with
    | ⟨0, _⟩ => show win4_3.index t (0 : Fin 2) * 1 + 1 * (y 0).val = (y 0).val; rw [f30]; omega
    | ⟨1, _⟩ => show win4_3.index t (1 : Fin 2) * 128 + 1 * (y 1).val = (y 1).val; rw [f31]; omega
  ·
    funext y
    show V c main_v87 (((cfg4.win 4).blk t).view.emb y) = V c main_v87 y
    refine congrArg _ (funext fun a => Fin.ext ?_)
    match a with
    | ⟨0, _⟩ => show win4_4.index t (0 : Fin 2) * 1 + 1 * (y 0).val = (y 0).val; rw [f40]; omega
    | ⟨1, _⟩ => show win4_4.index t (1 : Fin 2) * 128 + 1 * (y 1).val = (y 1).val; rw [f41]; omega
  ·
    funext y
    show V c main_v85 (((cfg4.win 5).blk t).view.emb y) = V c main_v85 y
    refine congrArg _ (funext fun a => Fin.ext ?_)
    match a with
    | ⟨0, _⟩ => show win4_5.index t (0 : Fin 2) * 128 + 1 * (y 0).val = (y 0).val; rw [f50]; omega
    | ⟨1, _⟩ => show win4_5.index t (1 : Fin 2) * 128 + 1 * (y 1).val = (y 1).val; rw [f51]; omega
  · intro y i e0
    show V c main_v17 (((cfg4.win 6).blk t).view.emb y) = V c main_v17 i
    refine congrArg _ (funext fun a => Fin.ext ?_)
    have hy1 : (y 1).val < 1 := (y 1).isLt
    have hi1 : (i 1).val < 1 := (i 1).isLt
    match a with
    | ⟨0, _⟩ => show win4_6.index t (0 : Fin 2) * 5000 + 1 * (y 0).val = (i 0).val; rw [f60]; omega
    | ⟨1, _⟩ => show win4_6.index t (1 : Fin 2) * 1 + 1 * (y 1).val = (i 1).val; rw [f61]; omega
  · show win4_7.index t (0 : Fin 2) * 5000 + 1 * (j 0).val = t.val * 5000 + (j 0).val; rw [f70]; omega
  · show win4_7.index t (1 : Fin 2) * 128 + 1 * (j 1).val = (j 1).val; rw [f71]; omega
theorem mem_blk4_7 (t : Fin cfg4.N) (i : S50000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v88).slice (win4_7.rect t)).set ↔ _
  rw [View.set_slice_whole, Rect.mem_set_unit]
  exact Iff.rfl
theorem covered4_7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  have hN : (i 0).val / 5000 < grid4.N := by rw [N_4]; omega
  obtain ⟨-, -, -, -, -, -, -, -, -, -, -, -, -, -, f70, f71⟩ := idx4_facts ⟨(i 0).val / 5000, hN⟩
  refine ⟨⟨(i 0).val / 5000, hN⟩, flush4_7 _, ?_⟩
  rw [mem_blk4_7]
  intro a
  match a with
  | ⟨0, _⟩ =>
    show win4_7.index ⟨(i 0).val / 5000, hN⟩ (0 : Fin 2) * 5000 ≤ (i 0).val ∧ (i 0).val < win4_7.index ⟨(i 0).val / 5000, hN⟩ (0 : Fin 2) * 5000 + 5000
    rw [f70]; show (i 0).val / 5000 * 5000 ≤ (i 0).val ∧ (i 0).val < (i 0).val / 5000 * 5000 + 5000; omega
  | ⟨1, _⟩ =>
    show win4_7.index ⟨(i 0).val / 5000, hN⟩ (1 : Fin 2) * 128 ≤ (i 1).val ∧ (i 1).val < win4_7.index ⟨(i 0).val / 5000, hN⟩ (1 : Fin 2) * 128 + 128
    rw [f71]; omega
theorem final4 (c : Dev nD) : (dat4 (F := Ideal) V c).arrAt 7 cfg4.N = (KSpec.linBn (V c main_v71_0) (V c main_v73) (V c main_v79) (V c main_v86) (V c main_v87) (V c main_v85) (V c main_v17)) :=
  (dat4 V c).arrAt_eq_of_cover 7 _ (fun t _ => flushed4_7_eq V c t) covered4_7
end Cert.KernelIdeal.Hand
end
-- ==== Proof.Val.Reg5a.lean ====
import proofs.«412548_j82308753260928_3_alg».proof.Proof.Val.RS
import proofs.«412548_j82308753260928_3_alg».proof.Proof.KI.Reg5
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem reluIdx5_facts : ∀ t : Fin cfg5.N,
    win5_0.index t (0 : Fin 2) = win5_3.index t (0 : Fin 2) ∧ win5_0.index t (1 : Fin 2) = win5_3.index t (1 : Fin 2)
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)
theorem reluFlushed5_eq (c : Dev nD) (t : Fin cfg5.N) :
    (dat5 (F := Ideal) V c).flushed 3 t
      = ((cfg5.win 3).blk t).view.read (Elt Ideal) (KSpec.reluOut (V c main_v100) (V c main_v17) (V c main_v103)) := by
  show (cfg5.win 3).cut (grid5.coords t) ((dat5 V c).after 3 t) = _
  rw [after5_3]
  unfold relu5
  obtain ⟨e0, e1, e2, e3, e4, e5, e6, e7⟩ := reluIdx5_facts t
  funext j
  show k1_pay3 (iblk5 V c 1 t) (iblk5 V c 0 t) (iblk5 V c 2 t) j
    = KSpec.reluOut (V c main_v100) (V c main_v17) (V c main_v103) (((cfg5.win 3).blk t).view.emb j)
  refine reluEntry_eq _ _ _ _ _ _ j _ ?_ ?_ ?_
  · show V c main_v17 (((cfg5.win 1).blk t).view.emb (ix2 (j 0) 0)) = V c main_v17 (ix2 ((((cfg5.win 3).blk t).view.emb j) 0) 0)
    refine congrArg _ (funext fun a => Fin.ext ?_)
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * 0 = 0; omega
  · show V c main_v100 (((cfg5.win 0).blk t).view.emb j) = V c main_v100 (((cfg5.win 3).blk t).view.emb j)
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · show V c main_v103 (((cfg5.win 2).blk t).view.emb (ix2 0 (j 1))) = V c main_v103 (ix2 0 ((((cfg5.win 3).blk t).view.emb j) 1))
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega
theorem reluMem5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v104_0).slice (win5_3.rect t)).set ↔ _
  rw [View.set_slice_whole, Rect.mem_set_unit]
  exact Iff.rfl
theorem reluCover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : (i 0).val / 5000 < cfg5.N := by show _ < grid5.N; rw [N_5]; omega
  refine ⟨⟨(i 0).val / 5000, hN⟩, flush5_3 _, ?_⟩
  rw [reluMem5]
  obtain ⟨e0, e1, e2, e3, e4, e5, e6, e7⟩ := reluIdx5_facts ⟨(i 0).val / 5000, hN⟩
  have e6' : win5_3.index ⟨(i 0).val / 5000, hN⟩ (0 : Fin 2) = (i 0).val / 5000 := e6
  intro a
  match a with
  | ⟨0, _⟩ => show win5_3.index ⟨(i 0).val / 5000, hN⟩ (0 : Fin 2) * 5000 ≤ (i 0).val ∧ (i 0).val < win5_3.index ⟨(i 0).val / 5000, hN⟩ (0 : Fin 2) * 5000 + 5000; omega
  | ⟨1, _⟩ => show win5_3.index ⟨(i 0).val / 5000, hN⟩ (1 : Fin 2) * 128 ≤ (i 1).val ∧ (i 1).val < win5_3.index ⟨(i 0).val / 5000, hN⟩ (1 : Fin 2) * 128 + 128; omega
theorem final5_3 (c : Dev nD) :
    (dat5 (F := Ideal) V c).arrAt 3 cfg5.N = KSpec.reluOut (V c main_v100) (V c main_v17) (V c main_v103) :=
  (dat5 V c).arrAt_eq_of_cover 3 (KSpec.reluOut (V c main_v100) (V c main_v17) (V c main_v103)) (fun t _ => reluFlushed5_eq V c t) reluCover5
end Cert.KernelIdeal.Hand
end
-- ==== Proof.Val.Reg5.lean ====
import proofs.«412548_j82308753260928_3_alg».proof.Proof.Val.RS
import proofs.«412548_j82308753260928_3_alg».proof.Proof.KI.Reg5
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
variable (V : (c : Dev nD) → (b : Ref sig .tc) → Buf (Elt Ideal) ((c : Thread nD τ).loc b))
theorem st5_idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)
theorem st5_iblk0_apply (c : Dev nD) (t : Fin cfg5.N) (x : S5000x128.Idx) (k : S50000x128.Idx)
    (hk0 : (k 0).val = 5000 * t.val + (x 0).val) (hk1 : (k 1).val = (x 1).val) :
    (iblk5 V c 0 t : Vec Ideal S5000x128 .f32) x = (V c main_v100 : S50000x128.Idx → EReal) k := by
  obtain ⟨e0, e1, -⟩ := st5_idx_facts t
  unfold iblk5
  rw [View.read_apply]
  show V c main_v100 _ = V c main_v100 _
  refine congrArg _ (funext fun a => Fin.ext ?_)
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega
theorem st5_iblk1_apply (c : Dev nD) (t : Fin cfg5.N) (x : S5000x1.Idx) (k : S50000x1.Idx)
    (hk0 : (k 0).val = 5000 * t.val + (x 0).val) (hk1 : (k 1).val = (x 1).val) :
    (iblk5 V c 1 t : Vec Ideal S5000x1 .f32) x = (V c main_v17 : S50000x1.Idx → EReal) k := by
  obtain ⟨-, -, e0, e1, -⟩ := st5_idx_facts t
  unfold iblk5
  rw [View.read_apply]
  show V c main_v17 _ = V c main_v17 _
  refine congrArg _ (funext fun a => Fin.ext ?_)
  match a with
  | ⟨0, _⟩ => show win5_1.index t 0 * 5000 + 1 * (x 0).val = (k 0).val; rw [e0, hk0]; omega
  | ⟨1, _⟩ => show win5_1.index t 1 * 1 + 1 * (x 1).val = (k 1).val; rw [e1, hk1]; omega
theorem st5_iblk2_apply (c : Dev nD) (t : Fin cfg5.N) (x : S1x128.Idx) (k : S1x128.Idx)
    (hk0 : (k 0).val = (x 0).val) (hk1 : (k 1).val = (x 1).val) :
    (iblk5 V c 2 t : Vec Ideal S1x128 .f32) x = (V c main_v103 : S1x128.Idx → EReal) k := by
  obtain ⟨-, -, -, -, e0, e1, -⟩ := st5_idx_facts t
  unfold iblk5
  rw [View.read_apply]
  show V c main_v103 _ = V c main_v103 _
  refine congrArg _ (funext fun a => Fin.ext ?_)
  match a with
  | ⟨0, _⟩ => show win5_2.index t 0 * 1 + 1 * (x 0).val = (k 0).val; rw [e0, hk0]; omega
  | ⟨1, _⟩ => show win5_2.index t 1 * 128 + 1 * (x 1).val = (k 1).val; rw [e1, hk1]; omega
theorem st5_relu_entry (c : Dev nD) (t : Fin cfg5.N) (p : Fin 5000) (q : Fin 128) :
    k1_pay3 (iblk5 V c 1 t) (iblk5 V c 0 t) (iblk5 V c 2 t) (ix2 p q)
      = (KSpec.reluOut (V c main_v100) (V c main_v17) (V c main_v103)) (ix2 ⟨5000 * t.val + p.val, by have := t.isLt; have : cfg5.N = 10 := N_5; have := p.isLt; omega⟩ q) := by
  refine (st_relu_pay_apply _ _ _ p q).trans ?_
  unfold KSpec.reluOut
  refine congrArg₂ max (congrArg₂ (· + ·) (congrArg₂ (· * ·) ?_ ?_) ?_) rfl
  · exact st5_iblk1_apply V c t (ix2 p 0) _ rfl rfl
  · exact st5_iblk0_apply V c t (ix2 p q) _ rfl rfl
  · exact st5_iblk2_apply V c t (ix2 0 q) _ rfl rfl
theorem st5_point_sum (c : Dev nD) (q : Fin 128) (t : Fin cfg5.N) :
    ∑ r : Fin 5000, k1_pay3 (iblk5 V c 1 t) (iblk5 V c 0 t) (iblk5 V c 2 t) (ix2 r q)
      = ∑ r ∈ Finset.range 5000, st_ext (fun i => (KSpec.reluOut (V c main_v100) (V c main_v17) (V c main_v103)) (ix2 i q)) (5000 * t.val + r) := by
  rw [← st_block_sum _ t.val (by have := t.isLt; have : cfg5.N = 10 := N_5; omega)]
  exact Finset.sum_congr rfl fun r _ => st5_relu_entry V c t r q
theorem st5_point_sumsq (c : Dev nD) (q : Fin 128) (t : Fin cfg5.N) :
    ∑ r : Fin 5000, k1_pay3 (iblk5 V c 1 t) (iblk5 V c 0 t) (iblk5 V c 2 t) (ix2 r q) * k1_pay3 (iblk5 V c 1 t) (iblk5 V c 0 t) (iblk5 V c 2 t) (ix2 r q)
      = ∑ r ∈ Finset.range 5000, st_ext (fun i => (KSpec.reluOut (V c main_v100) (V c main_v17) (V c main_v103)) (ix2 i q) * (KSpec.reluOut (V c main_v100) (V c main_v17) (V c main_v103)) (ix2 i q)) (5000 * t.val + r) := by
  rw [← st_block_sum _ t.val (by have := t.isLt; have : cfg5.N = 10 := N_5; omega)]
  exact Finset.sum_congr rfl fun r _ => by rw [st5_relu_entry V c t r q]
theorem st5_csum_entry (c : Dev nD) (q : Fin 128) : ∀ (n : ℕ) (hn : n < cfg5.N),
    (csum5 V c n hn : Vec Ideal S1x128 .f32) (ix2 (0 : Fin 1) q)
      = ∑ r ∈ Finset.range (5000 * (n + 1)), st_ext (fun i => (KSpec.reluOut (V c main_v100) (V c main_v17) (V c main_v103)) (ix2 i q)) r
  | 0, hn => by
    show k1_pay4 (iblk5 V c 1 ⟨0, hn⟩) (iblk5 V c 0 ⟨0, hn⟩) (iblk5 V c 2 ⟨0, hn⟩) (k1_pay1 (F := Ideal)) (ix2 (0 : Fin 1) q) = _
    refine (st_csum_pay_apply _ _ _ _ q).trans ?_
    rw [(st_zero_pay_apply _).1, zero_add, st5_point_sum V c q ⟨0, hn⟩]
    simp only [Nat.mul_zero, Nat.zero_add, Nat.mul_one]
  | n + 1, hn => by
    show k1_pay4 (iblk5 V c 1 ⟨n + 1, hn⟩) (iblk5 V c 0 ⟨n + 1, hn⟩) (iblk5 V c 2 ⟨n + 1, hn⟩) (csum5 V c n (Nat.lt_of_succ_lt hn)) (ix2 (0 : Fin 1) q) = _
    refine (st_csum_pay_apply _ _ _ _ q).trans ?_
    rw [st5_csum_entry c q n (Nat.lt_of_succ_lt hn), st5_point_sum V c q ⟨n + 1, hn⟩, st_range_succ]
theorem st5_csq_entry (c : Dev nD) (q : Fin 128) : ∀ (n : ℕ) (hn : n < cfg5.N),
    (csq5 V c n hn : Vec Ideal S1x128 .f32) (ix2 (0 : Fin 1) q)
      = ∑ r ∈ Finset.range (5000 * (n + 1)), st_ext (fun i => (KSpec.reluOut (V c main_v100) (V c main_v17) (V c main_v103)) (ix2 i q) * (KSpec.reluOut (V c main_v100) (V c main_v17) (V c main_v103)) (ix2 i q)) r
  | 0, hn => by
    show k1_pay5 (iblk5 V c 1 ⟨0, hn⟩) (iblk5 V c 0 ⟨0, hn⟩) (iblk5 V c 2 ⟨0, hn⟩) (k1_pay2 (F := Ideal)) (ix2 (0 : Fin 1) q) = _
    refine (st_csq_pay_apply _ _ _ _ q).trans ?_
    rw [(st_zero_pay_apply _).2, zero_add, st5_point_sumsq V c q ⟨0, hn⟩]
    simp only [Nat.mul_zero, Nat.zero_add, Nat.mul_one]
  | n + 1, hn => by
    show k1_pay5 (iblk5 V c 1 ⟨n + 1, hn⟩) (iblk5 V c 0 ⟨n + 1, hn⟩) (iblk5 V c 2 ⟨n + 1, hn⟩) (csq5 V c n (Nat.lt_of_succ_lt hn)) (ix2 (0 : Fin 1) q) = _
    refine (st_csq_pay_apply _ _ _ _ q).trans ?_
    rw [st5_csq_entry c q n (Nat.lt_of_succ_lt hn), st5_point_sumsq V c q ⟨n + 1, hn⟩, st_range_succ]
theorem st5_row_idx (j : S1x128.Idx) : j = ix2 (0 : Fin 1) (j 1) :=
  funext fun a => by
    match a with
    | ⟨0, _⟩ => exact Fin.ext (Nat.lt_one_iff.mp (j 0).isLt)
    | ⟨1, _⟩ => rfl
theorem st5_flushed4_eq (c : Dev nD) (t : Fin cfg5.N) (hf : (cfg5.win 4).flush t = true) :
    (dat5 (F := Ideal) V c).flushed 4 t = ((cfg5.win 4).blk t).view.read (Elt Ideal) (KSpec.colSum (KSpec.reluOut (V c main_v100) (V c main_v17) (V c main_v103))) := by
  have h9 : t.val = 9 := by have := (flush5_4 t).mp hf; have := t.isLt; have : cfg5.N = 10 := N_5; omega
  obtain ⟨-, -, -, -, -, -, e0, e1, -⟩ := st5_idx_facts t
  have key : (csum5 V c t.val t.isLt : Vec Ideal S1x128 .f32) = KSpec.colSum (KSpec.reluOut (V c main_v100) (V c main_v17) (V c main_v103)) := funext fun j => by
    obtain ⟨q, hq⟩ : ∃ q : Fin 128, j = ix2 (0 : Fin 1) q := ⟨j 1, st5_row_idx j⟩
    subst hq
    refine (st5_csum_entry V c q t.val t.isLt).trans ?_
    have h := st_range_all (fun i => (KSpec.reluOut (V c main_v100) (V c main_v17) (V c main_v103)) (ix2 i q))
    rw [← h9] at h
    exact h
  have hz' : (fun a => win5_4.index t a * main_v104_1.ty.shape.size a) = fun _ => 0 := funext fun a => by
    match a with
    | ⟨0, _⟩ => show win5_4.index t 0 * _ = 0; rw [e0]; exact Nat.zero_mul _
    | ⟨1, _⟩ => show win5_4.index t 1 * _ = 0; rw [e1]; exact Nat.zero_mul _
  show (cfg5.win 4).cut (grid5.coords t) ((dat5 V c).after 4 t) = _
  rw [after5_4, key]
  exact (Memref.read_access_unit_zero (Elt Ideal) main_v104_1 hz' (fun a => by rw [congrFun hz' a]; simp) (KSpec.colSum (KSpec.reluOut (V c main_v100) (V c main_v17) (V c main_v103)))).symm
theorem st5_flushed5_eq (c : Dev nD) (t : Fin cfg5.N) (hf : (cfg5.win 5).flush t = true) :
    (dat5 (F := Ideal) V c).flushed 5 t = ((cfg5.win 5).blk t).view.read (Elt Ideal) (KSpec.colSumSq (KSpec.reluOut (V c main_v100) (V c main_v17) (V c main_v103))) := by
  have h9 : t.val = 9 := by have := (flush5_5 t).mp hf; have := t.isLt; have : cfg5.N = 10 := N_5; omega
  obtain ⟨-, -, -, -, -, -, -, -, e0, e1⟩ := st5_idx_facts t
  have key : (csq5 V c t.val t.isLt : Vec Ideal S1x128 .f32) = KSpec.colSumSq (KSpec.reluOut (V c main_v100) (V c main_v17) (V c main_v103)) := funext fun j => by
    obtain ⟨q, hq⟩ : ∃ q : Fin 128, j = ix2 (0 : Fin 1) q := ⟨j 1, st5_row_idx j⟩
    subst hq
    refine (st5_csq_entry V c q t.val t.isLt).trans ?_
    have h := st_range_all (fun i => (KSpec.reluOut (V c main_v100) (V c main_v17) (V c main_v103)) (ix2 i q) * (KSpec.reluOut (V c main_v100) (V c main_v17) (V c main_v103)) (ix2 i q))
    rw [← h9] at h
    exact h
  have hz' : (fun a => win5_5.index t a * main_v104_2.ty.shape.size a) = fun _ => 0 := funext fun a => by
    match a with
    | ⟨0, _⟩ => show win5_5.index t 0 * _ = 0; rw [e0]; exact Nat.zero_mul _
    | ⟨1, _⟩ => show win5_5.index t 1 * _ = 0; rw [e1]; exact Nat.zero_mul _
  show (cfg5.win 5).cut (grid5.coords t) ((dat5 V c).after 5 t) = _
  rw [after5_5, key]
  exact (Memref.read_access_unit_zero (Elt Ideal) main_v104_2 hz' (fun a => by rw [congrFun hz' a]; simp) (KSpec.colSumSq (KSpec.reluOut (V c main_v100) (V c main_v17) (V c main_v103)))).symm
theorem st5_cover4 (i : S1x128.Idx) : ∃ t : Fin cfg5.N, (cfg5.win 4).flush t = true ∧ i ∈ ((cfg5.win 4).blk t).view.set :=
  ⟨t5_9, (flush5_4 t5_9).mpr rfl, by
    show i ∈ ((View.whole main_v104_1).slice (win5_4.rect t5_9)).set
    rw [View.set_slice_whole, Rect.mem_set_unit]
    intro a
    have h0 : (i 0 : ℕ) < 1 := (i 0).isLt
    have h1 : (i 1 : ℕ) < 128 := (i 1).isLt
    match a with
    | ⟨0, _⟩ => show win5_4.index t5_9 0 * win5_4.size 0 ≤ (i 0 : ℕ) ∧ (i 0 : ℕ) < win5_4.index t5_9 0 * win5_4.size 0 + win5_4.xsize (grid5.coords t5_9) 0
                rw [show win5_4.index t5_9 0 * win5_4.size 0 = 0 from by decide +kernel, show win5_4.xsize (grid5.coords t5_9) 0 = 1 from by decide +kernel]; omega
    | ⟨1, _⟩ => show win5_4.index t5_9 1 * win5_4.size 1 ≤ (i 1 : ℕ) ∧ (i 1 : ℕ) < win5_4.index t5_9 1 * win5_4.size 1 + win5_4.xsize (grid5.coords t5_9) 1
                rw [show win5_4.index t5_9 1 * win5_4.size 1 = 0 from by decide +kernel, show win5_4.xsize (grid5.coords t5_9) 1 = 128 from by decide +kernel]; omega⟩
theorem st5_cover5 (i : S1x128.Idx) : ∃ t : Fin cfg5.N, (cfg5.win 5).flush t = true ∧ i ∈ ((cfg5.win 5).blk t).view.set :=
  ⟨t5_9, (flush5_5 t5_9).mpr rfl, by
    show i ∈ ((View.whole main_v104_2).slice (win5_5.rect t5_9)).set
    rw [View.set_slice_whole, Rect.mem_set_unit]
    intro a
    have h0 : (i 0 : ℕ) < 1 := (i 0).isLt
    have h1 : (i 1 : ℕ) < 128 := (i 1).isLt
    match a with
    | ⟨0, _⟩ => show win5_5.index t5_9 0 * win5_5.size 0 ≤ (i 0 : ℕ) ∧ (i 0 : ℕ) < win5_5.index t5_9 0 * win5_5.size 0 + win5_5.xsize (grid5.coords t5_9) 0
                rw [show win5_5.index t5_9 0 * win5_5.size 0 = 0 from by decide +kernel, show win5_5.xsize (grid5.coords t5_9) 0 = 1 from by decide +kernel]; omega
    | ⟨1, _⟩ => show win5_5.index t5_9 1 * win5_5.size 1 ≤ (i 1 : ℕ) ∧ (i 1 : ℕ) < win5_5.index t5_9 1 * win5_5.size 1 + win5_5.xsize (grid5.coords t5_9) 1
                rw [show win5_5.index t5_9 1 * win5_5.size 1 = 0 from by decide +kernel, show win5_5.xsize (grid5.coords t5_9) 1 = 128 from by decide +kernel]; omega⟩
theorem final5_4 (c : Dev nD) :
    (dat5 (F := Ideal) V c).arrAt 4 cfg5.N = KSpec.colSum (KSpec.reluOut (V c main_v100) (V c main_v17) (V c main_v103)) :=
  (dat5 (F := Ideal) V c).arrAt_eq_of_cover 4 _ (st5_flushed4_eq V c) (st5_cover4)
theorem final5_5 (c : Dev nD) :
    (dat5 (F := Ideal) V c).arrAt 5 cfg5.N = KSpec.colSumSq (KSpec.reluOut (V c main_v100) (V c main_v17) (V c main_v103)) :=
  (dat5 (F := Ideal) V c).arrAt_eq_of_cover 5 _ (st5_flushed5_eq V c) (st5_cover5)
end Cert.KernelIdeal.Hand
end
-- ==== Proof.Val.Reg6.lean ====
import proofs.«412548_j82308753260928_3_alg».proof.Proof.KI.Reg6
import proofs.«412548_j82308753260928_3_alg».proof.Proof.KSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Cert.Hand
variable (V : (c : Dev nD) → (b : Ref sig .tc) → Buf (Elt Ideal) ((c : Thread nD τ).loc b))
theorem ps6_sitofp_eq_bit (a b : BitVec 32) :
    (FloatOps.sitofp .f32 (BitVec.setWidth 32 (IntOp.cmpi .eq a b)) : Ideal .f32) = if a = b then (1 : EReal) else 0 := by
  show ((((BitVec.setWidth 32 (BitVec.ofBool (a == b))).toInt : ℤ) : ℝ) : EReal) = _
  by_cases h : a = b
  · subst h
    rw [if_pos rfl, show (a == a) = true from by simp]
    have : (BitVec.setWidth 32 (BitVec.ofBool true)).toInt = 1 := by decide
    rw [this]; norm_num
  · rw [if_neg h, show (a == b) = false from by simpa using h]
    have : (BitVec.setWidth 32 (BitVec.ofBool false)).toInt = 0 := by decide
    rw [this]; norm_num
theorem ps6_ids_bcast_apply (x0 : Vec Ideal S5000x1 .i32) (r : Fin 5000) (s : Fin 64) :
    broadcastTo S5000x64 (shapeCast S5000x1 (shapeCast S5000 x0 shapeCasts_S5000x1_S5000) shapeCasts_S5000_S5000x1)
      broadcasts_S5000x1_S5000x64 (ix2 r s) = x0 (ix2 r 0) := by
  rw [broadcastTo_apply _ _ (ix2 r s) (ix2 r 0) (fun a => by
    match a with
    | ⟨0, _⟩ => rfl
    | ⟨1, _⟩ => rfl)]
  rw [shapeCast_apply _ _ (ix2 r 0) (ix1 r) (by rw [Shape.rowMajor_val_one, Shape.rowMajor_val_two]; simp)]
  rw [shapeCast_apply _ _ (ix1 r) (ix2 r 0) (by rw [Shape.rowMajor_val_one, Shape.rowMajor_val_two]; simp)]
theorem ps6_pay5_apply (x0 : Vec Ideal S5000x1 .i32) (r : Fin 5000) (s : Fin 64) :
    (k6_pay5 x0 : FVec Ideal S5000x64 .f32) (ix2 r s) = if x0 (ix2 r 0) = BitVec.ofNat 32 s.val then (1 : EReal) else 0 := by
  unfold k6_pay5
  simp only [sitofp_apply, extui_apply]
  show FloatOps.sitofp FTy.f32 (BitVec.setWidth 32 (IntOp.cmpi CmpIPredicate.eq
      (broadcastTo S5000x64 (shapeCast S5000x1 (shapeCast S5000 x0 shapeCasts_S5000x1_S5000) shapeCasts_S5000_S5000x1)
        broadcasts_S5000x1_S5000x64 (ix2 r s))
      (iota Kind.tc S5000x64 32 [1] iota_S5000x64_d1_w32 (ix2 r s)))) = _
  rw [ps6_ids_bcast_apply, ps6_sitofp_eq_bit]
  have e : iota Kind.tc S5000x64 32 [1] iota_S5000x64_d1_w32 (ix2 r s) = BitVec.ofNat 32 s.val := by
    show BitVec.ofNat 32 (0 * _ + s.val) = _
    rw [Nat.zero_mul, Nat.zero_add]
  rw [e]
abbrev ps6_D := dot_S5000x64_S5000x128_S64x128_0_0_1_1_n_n
theorem ps6_lhs_0 (j : S64x128.Idx) (k : ps6_D.contr.Idx) : (ps6_D.lhsIdx j k 0 : ℕ) = k ⟨0, by decide⟩ := by
  simp [DotDims.lhsIdx, ps6_D, dot_S5000x64_S5000x128_S64x128_0_0_1_1_n_n]; rfl
theorem ps6_lhs_1 (j : S64x128.Idx) (k : ps6_D.contr.Idx) : (ps6_D.lhsIdx j k 1 : ℕ) = j 0 := by
  simp [DotDims.lhsIdx, ps6_D, dot_S5000x64_S5000x128_S64x128_0_0_1_1_n_n]; rfl
theorem ps6_rhs_0 (j : S64x128.Idx) (k : ps6_D.contr.Idx) : (ps6_D.rhsIdx j k 0 : ℕ) = k ⟨0, by decide⟩ := by
  simp [DotDims.rhsIdx, ps6_D, dot_S5000x64_S5000x128_S64x128_0_0_1_1_n_n]; rfl
theorem ps6_rhs_1 (j : S64x128.Idx) (k : ps6_D.contr.Idx) : (ps6_D.rhsIdx j k 1 : ℕ) = j 1 := by
  simp [DotDims.rhsIdx, ps6_D, dot_S5000x64_S5000x128_S64x128_0_0_1_1_n_n]; rfl
def ps6_contr : ps6_D.contr.Idx ≃ Fin 5000 := contrEquiv1 ps6_D 5000 (by decide) (by decide)
theorem ps6_contr_symm_val (r : Fin 5000) : ((ps6_contr.symm r) ⟨0, by decide⟩ : ℕ) = r.val :=
  contrEquiv1_symm_val ps6_D 5000 (by decide) (by decide) r
def ps6_bn (x1 : Vec Ideal S5000x128 .f32) (x2 x3 x4 x5 : Vec Ideal S1x128 .f32) (r : Fin 5000) (l : Fin 128) : EReal :=
  x4 (ix2 0 l) * (x1 (ix2 r l) - x2 (ix2 0 l)) * Ideal.rsqrt (x3 (ix2 0 l) + KSpec.epsE) + x5 (ix2 0 l)
theorem ps6_row_bcast_apply (v : FVec Ideal S1x128 .f32) (r : Fin 5000) (l : Fin 128) :
    broadcastTo S5000x128 v broadcasts_S1x128_S5000x128 (ix2 r l) = v (ix2 0 l) :=
  broadcastTo_apply _ _ (ix2 r l) (ix2 0 l) (fun a => by
    match a with
    | ⟨0, _⟩ => rfl
    | ⟨1, _⟩ => rfl)
theorem ps6_pay6_apply (x1 : Vec Ideal S5000x128 .f32) (x2 x3 x4 x5 : Vec Ideal S1x128 .f32) (x0 : Vec Ideal S5000x1 .i32)
    (acc : Vec Ideal S64x128 .f32) (s : Fin 64) (l : Fin 128) :
    (k6_pay6 x1 x2 x3 x4 x5 x0 acc : FVec Ideal S64x128 .f32) (ix2 s l)
      = acc (ix2 s l) + ∑ r : Fin 5000, (if x0 (ix2 r 0) = BitVec.ofNat 32 s.val then (1 : EReal) else 0) * ps6_bn x1 x2 x3 x4 x5 r l := by
  unfold k6_pay6
  simp only [shapeCast_self]
  rw [addf_apply]
  congr 1
  simp only [matmul]
  rw [Ideal.matmul_constant_zero_apply]
  rw [← Equiv.sum_comp ps6_contr.symm]
  refine Finset.sum_congr rfl fun r _ => ?_
  have hl : ps6_D.lhsIdx (ix2 s l) (ps6_contr.symm r) = ix2 r s := by
    funext a
    apply Fin.ext
    match a with
    | ⟨0, _⟩ => exact (ps6_lhs_0 _ _).trans (ps6_contr_symm_val r)
    | ⟨1, _⟩ => exact ps6_lhs_1 _ _
  have hr : ps6_D.rhsIdx (ix2 s l) (ps6_contr.symm r) = ix2 r l := by
    funext a
    apply Fin.ext
    match a with
    | ⟨0, _⟩ => exact (ps6_rhs_0 _ _).trans (ps6_contr_symm_val r)
    | ⟨1, _⟩ => exact ps6_rhs_1 _ _
  rw [hl, hr, truncf_apply, truncf_apply, ps6_pay5_apply]
  congr 1
  rw [addf_apply, mulf_apply, mulf_apply, subf_apply, ps6_row_bcast_apply, ps6_row_bcast_apply, ps6_row_bcast_apply, ps6_row_bcast_apply]
  rfl
theorem ps6_zero2 : (![0, 0] : Fin 2 → ℕ) = fun _ => 0 := funext fun a => by fin_cases a <;> rfl
theorem ps6_idx_facts : ∀ t : Fin cfg6.N,
    win6_0.index t 0 = t.val ∧ win6_0.index t 1 = 0 ∧ win6_1.index t 0 = t.val ∧ win6_1.index t 1 = 0
    ∧ win6_2.index t 0 = 0 ∧ win6_2.index t 1 = 0 ∧ win6_3.index t 0 = 0 ∧ win6_3.index t 1 = 0
    ∧ win6_4.index t 0 = 0 ∧ win6_4.index t 1 = 0 ∧ win6_5.index t 0 = 0 ∧ win6_5.index t 1 = 0 :=
  (by decide +kernel : ∀ t : Fin grid6.N, _)
theorem ps6_blk0_apply (c : Dev nD) (t : Fin cfg6.N) (r : Fin 5000) (k : S50000x1.Idx)
    (hk0 : (k 0).val = 5000 * t.val + r.val) (hk1 : (k 1).val = 0) :
    (iblk6 V c 0 t : Vec Ideal S5000x1 .i32) (ix2 r 0) = (V c main_v117 : S50000x1.Idx → BitVec 32) k := by
  obtain ⟨h0, h1, -⟩ := ps6_idx_facts t
  unfold iblk6
  rw [View.read_apply]
  show V c main_v117 _ = V c main_v117 _
  congr 1
  funext a
  apply Fin.ext
  match a with
  | ⟨0, _⟩ => show win6_0.index t 0 * 5000 + 1 * r.val = (k 0).val; rw [h0, hk0]; omega
  | ⟨1, _⟩ => show win6_0.index t 1 * 1 + 1 * 0 = (k 1).val; rw [h1, hk1]
theorem ps6_blk1_apply (c : Dev nD) (t : Fin cfg6.N) (r : Fin 5000) (l : Fin 128) (k : S50000x128.Idx)
    (hk0 : (k 0).val = 5000 * t.val + r.val) (hk1 : (k 1).val = l.val) :
    (iblk6 V c 1 t : Vec Ideal S5000x128 .f32) (ix2 r l) = (V c main_v104_0 : S50000x128.Idx → EReal) k := by
  obtain ⟨-, -, h0, h1, -⟩ := ps6_idx_facts t
  unfold iblk6
  rw [View.read_apply]
  show V c main_v104_0 _ = V c main_v104_0 _
  congr 1
  funext a
  apply Fin.ext
  match a with
  | ⟨0, _⟩ => show win6_1.index t 0 * 5000 + 1 * r.val = (k 0).val; rw [h0, hk0]; omega
  | ⟨1, _⟩ => show win6_1.index t 1 * 128 + 1 * l.val = (k 1).val; rw [h1, hk1]; omega
theorem ps6_blk2_apply (c : Dev nD) (t : Fin cfg6.N) (l : Fin 128) :
    (iblk6 V c 2 t : Vec Ideal S1x128 .f32) (ix2 0 l) = (V c main_v106 : S1x128.Idx → EReal) (ix2 0 l) := by
  have hi := ps6_idx_facts t
  unfold iblk6
  rw [View.read_apply]
  show V c main_v106 _ = V c main_v106 _
  congr 1
  funext a
  apply Fin.ext
  match a with
  | ⟨0, _⟩ => show win6_2.index t 0 * 1 + 1 * 0 = 0; rw [hi.2.2.2.2.1]
  | ⟨1, _⟩ => show win6_2.index t 1 * 128 + 1 * l.val = l.val; rw [hi.2.2.2.2.2.1]; omega
theorem ps6_blk3_apply (c : Dev nD) (t : Fin cfg6.N) (l : Fin 128) :
    (iblk6 V c 3 t : Vec Ideal S1x128 .f32) (ix2 0 l) = (V c main_v112 : S1x128.Idx → EReal) (ix2 0 l) := by
  have hi := ps6_idx_facts t
  unfold iblk6
  rw [View.read_apply]
  show V c main_v112 _ = V c main_v112 _
  congr 1
  funext a
  apply Fin.ext
  match a with
  | ⟨0, _⟩ => show win6_3.index t 0 * 1 + 1 * 0 = 0; rw [hi.2.2.2.2.2.2.1]
  | ⟨1, _⟩ => show win6_3.index t 1 * 128 + 1 * l.val = l.val; rw [hi.2.2.2.2.2.2.2.1]; omega
theorem ps6_blk4_apply (c : Dev nD) (t : Fin cfg6.N) (l : Fin 128) :
    (iblk6 V c 4 t : Vec Ideal S1x128 .f32) (ix2 0 l) = (V c main_v118 : S1x128.Idx → EReal) (ix2 0 l) := by
  have hi := ps6_idx_facts t
  unfold iblk6
  rw [View.read_apply]
  show V c main_v118 _ = V c main_v118 _
  congr 1
  funext a
  apply Fin.ext
  match a with
  | ⟨0, _⟩ => show win6_4.index t 0 * 1 + 1 * 0 = 0; rw [hi.2.2.2.2.2.2.2.2.1]
  | ⟨1, _⟩ => show win6_4.index t 1 * 128 + 1 * l.val = l.val; rw [hi.2.2.2.2.2.2.2.2.2.1]; omega
theorem ps6_blk5_apply (c : Dev nD) (t : Fin cfg6.N) (l : Fin 128) :
    (iblk6 V c 5 t : Vec Ideal S1x128 .f32) (ix2 0 l) = (V c main_v119 : S1x128.Idx → EReal) (ix2 0 l) := by
  have hi := ps6_idx_facts t
  unfold iblk6
  rw [View.read_apply]
  show V c main_v119 _ = V c main_v119 _
  congr 1
  funext a
  apply Fin.ext
  match a with
  | ⟨0, _⟩ => show win6_5.index t 0 * 1 + 1 * 0 = 0; rw [hi.2.2.2.2.2.2.2.2.2.2.1]
  | ⟨1, _⟩ => show win6_5.index t 1 * 128 + 1 * l.val = l.val; rw [hi.2.2.2.2.2.2.2.2.2.2.2]; omega
def ps6_term (c : Dev nD) (s : Fin 64) (l : Fin 128) (m : ℕ) : EReal :=
  if h : m < 50000 then
    (if (V c main_v117 : S50000x1.Idx → BitVec 32) (ix2 ⟨m, h⟩ 0) = BitVec.ofNat 32 s.val then (1 : EReal) else 0)
      * KSpec.bnRow (V c main_v104_0) (V c main_v106) (V c main_v112) (V c main_v118) (V c main_v119) (ix2 ⟨m, h⟩ l)
  else 0
theorem ps6_step_apply (c : Dev nD) (t : Fin cfg6.N) (p : Vec Ideal S64x128 .f32 × Vec Ideal S1x64 .f32) (s : Fin 64) (l : Fin 128) :
    (step6 V c t p).1 (ix2 s l) = p.1 (ix2 s l) + ∑ r ∈ Finset.range 5000, ps6_term V c s l (5000 * t.val + r) := by
  have hN : t.val < 10 := lt_of_lt_of_eq t.isLt (show cfg6.N = 10 from N_6)
  unfold step6
  dsimp only
  unfold k6_pay1
  simp only [shapeCast_self]
  refine (ps6_pay6_apply _ _ _ _ _ _ _ s l).trans ?_
  congr 1
  rw [← Fin.sum_univ_eq_sum_range (fun r => ps6_term V c s l (5000 * t.val + r)) 5000]
  refine Finset.sum_congr rfl fun r _ => ?_
  have hr : 5000 * t.val + r.val < 50000 := by have := r.isLt; omega
  unfold ps6_term
  rw [dif_pos hr]
  rw [ps6_blk0_apply V c t r (ix2 ⟨5000 * t.val + r.val, hr⟩ 0) rfl rfl]
  congr 1
  unfold ps6_bn KSpec.bnRow
  rw [ps6_blk1_apply V c t r l (ix2 ⟨5000 * t.val + r.val, hr⟩ l) rfl rfl, ps6_blk2_apply, ps6_blk3_apply, ps6_blk4_apply, ps6_blk5_apply]
theorem ps6_pay3_apply (i : S64x128.Idx) : (k6_pay3 : FVec Ideal S64x128 .f32) i = 0 := by
  unfold k6_pay3
  simp only [shapeCast_self]
  exact Ideal.ofBits_zero_f32
theorem ps6_scr_sum (c : Dev nD) (s : Fin 64) (l : Fin 128) : ∀ (n : ℕ) (hn : n < cfg6.N),
    (scrAt6 V c n hn).1 (ix2 s l) = ∑ m ∈ Finset.range (5000 * (n + 1)), ps6_term V c s l m
  | 0, hn => by
    show (step6 V c ⟨0, hn⟩ (k6_pay3 (F := Ideal), k6_pay4 (F := Ideal))).1 (ix2 s l) = _
    rw [ps6_step_apply]
    show (k6_pay3 : FVec Ideal S64x128 .f32) (ix2 s l) + _ = _
    rw [ps6_pay3_apply, zero_add]
    refine Finset.sum_congr rfl fun r _ => ?_
    show ps6_term V c s l (5000 * 0 + r) = _
    rw [Nat.mul_zero, Nat.zero_add]
  | n + 1, hn => by
    show (step6 V c ⟨n + 1, hn⟩ (scrAt6 V c n (Nat.lt_of_succ_lt hn))).1 (ix2 s l) = _
    rw [ps6_step_apply, ps6_scr_sum c s l n (Nat.lt_of_succ_lt hn)]
    rw [show 5000 * (n + 1 + 1) = 5000 * (n + 1) + 5000 from by ring, Finset.sum_range_add]
theorem ps6_scr_last (c : Dev nD) (hn : 9 < cfg6.N) :
    (scrAt6 V c 9 hn).1 = KSpec.poolSums (V c main_v117) (V c main_v104_0) (V c main_v106) (V c main_v112) (V c main_v118) (V c main_v119) := by
  funext i
  have h : ∀ (s : Fin 64) (l : Fin 128), (scrAt6 V c 9 hn).1 (ix2 s l)
      = KSpec.poolSums (V c main_v117) (V c main_v104_0) (V c main_v106) (V c main_v112) (V c main_v118) (V c main_v119) (ix2 s l) := by
    intro s l
    rw [ps6_scr_sum V c s l 9 hn]
    rw [← Fin.sum_univ_eq_sum_range (fun m => ps6_term V c s l m) 50000]
    unfold KSpec.poolSums
    refine Finset.sum_congr rfl fun m _ => ?_
    unfold ps6_term
    rw [dif_pos m.isLt]
  obtain ⟨s, l, rfl⟩ : ∃ (s : Fin 64) (l : Fin 128), i = ix2 s l := ⟨i 0, i 1, eq_ix2 i⟩
  exact h s l
theorem final6_6 (c : Dev nD) :
    (dat6 (F := Ideal) V c).arrAt 6 cfg6.N
      = KSpec.poolSums (V c main_v117) (V c main_v104_0) (V c main_v106) (V c main_v112) (V c main_v118) (V c main_v119) := by
  have hN : cfg6.N = 10 := N_6
  refine (dat6 V c).arrAt_eq_of_cover 6 _ (fun t hf => ?_) (fun i => ?_)
  · have h9 : t.val = 9 := by have := (flush6_6 t).mp hf; have := t.isLt; omega
    obtain rfl : t = t6_9 := Fin.ext h9
    show (cfg6.win 6).cut (grid6.coords t6_9) ((dat6 V c).after 6 t6_9) = _
    rw [after6_6]
    have hz' : (fun a => win6_6.index t6_9 a * main_v120_0.ty.shape.size a) = fun _ => 0 := funext fun a => by fin_cases a <;> decide +kernel
    exact (ps6_scr_last V c t6_9.isLt).trans
      (Memref.read_access_unit_zero (Elt Ideal) main_v120_0 hz' (fun a => by rw [congrFun hz' a]; simp) _).symm
  · refine ⟨t6_9, (flush6_6 t6_9).mpr rfl, ?_⟩
    show i ∈ ((View.whole main_v120_0).slice (win6_6.rect t6_9)).set
    rw [View.set_slice_whole, Rect.mem_set_unit]
    intro a
    have h0 : (i 0 : Nat) < 64 := (i 0).isLt
    have h1 : (i 1 : Nat) < 128 := (i 1).isLt
    match a with
    | ⟨0, _⟩ =>
      show win6_6.index t6_9 0 * win6_6.size 0 ≤ (i 0 : Nat) ∧ (i 0 : Nat) < win6_6.index t6_9 0 * win6_6.size 0 + win6_6.xsize (grid6.coords t6_9) 0
      rw [show win6_6.index t6_9 0 * win6_6.size 0 = 0 from by decide +kernel, show win6_6.xsize (grid6.coords t6_9) 0 = 64 from by decide +kernel]; omega
    | ⟨1, _⟩ =>
      show win6_6.index t6_9 1 * win6_6.size 1 ≤ (i 1 : Nat) ∧ (i 1 : Nat) < win6_6.index t6_9 1 * win6_6.size 1 + win6_6.xsize (grid6.coords t6_9) 1
      rw [show win6_6.index t6_9 1 * win6_6.size 1 = 0 from by decide +kernel, show win6_6.xsize (grid6.coords t6_9) 1 = 128 from by decide +kernel]; omega
end Cert.KernelIdeal.Hand
end
-- ==== Proof.Spec.lean ====
import Idealize.ShloMosaic.PureOps.Ideal
import Idealize.ShloMosaic.Lib.ValueIdx
noncomputable section
namespace Cert.Hand.Spec
open Idealize.ShloMosaic Idealize.ShloMosaic.ValueIdx
def endpoint (a1 : IVec (⟨2, ![2, 800000]⟩ : Shape) 32) (r : Fin 2) (e : Fin 850000) : BitVec 32 :=
  if h : e.val < 800000 then a1 (ix2 r ⟨e.val, h⟩) else BitVec.ofNat 32 (e.val - 800000)
def wrap (v : BitVec 32) : BitVec 32 := if v.toInt < 0 then v + 50000#32 else v
def node (v : BitVec 32) : Fin 50000 := ⟨min (wrap v).toInt.toNat 49999, by omega⟩
def src (a1 : IVec (⟨2, ![2, 800000]⟩ : Shape) 32) (e : Fin 850000) : Fin 50000 := node (endpoint a1 0 e)
def tgtNode (a1 : IVec (⟨2, ![2, 800000]⟩ : Shape) 32) (e : Fin 850000) : Fin 50000 := node (endpoint a1 1 e)
def tgt (a1 : IVec (⟨2, ![2, 800000]⟩ : Shape) 32) (e : Fin 850000) : ℤ := (endpoint a1 1 e).toInt
theorem tgtNode_of_tgt (a1 : IVec (⟨2, ![2, 800000]⟩ : Shape) 32) (e : Fin 850000) (n : Fin 50000)
    (h : tgt a1 e = (n.val : ℤ)) : tgtNode a1 e = n := by
  unfold tgt at h
  have hn := n.isLt
  have h0 : ¬ (endpoint a1 1 e).toInt < 0 := by omega
  have hw : wrap (endpoint a1 1 e) = endpoint a1 1 e := if_neg h0
  apply Fin.ext
  show min (wrap (endpoint a1 1 e)).toInt.toNat 49999 = n.val
  rw [hw]
  omega
def into (a1 : IVec (⟨2, ![2, 800000]⟩ : Shape) 32) (n : Fin 50000) : Finset (Fin 850000) :=
  Finset.univ.filter fun e => tgt a1 e = (n.val : ℤ)
def idOf (a0 : IVec (⟨1, ![50000]⟩ : Shape) 32) (n : Fin 50000) : Fin 30 := ⟨min (a0 (ix1 n)).toInt.toNat 29, by omega⟩
def segment (a2 : IVec (⟨1, ![50000]⟩ : Shape) 32) (q : Fin 64) : Finset (Fin 50000) :=
  Finset.univ.filter fun n => (a2 (ix1 n)).toInt = (q.val : ℤ)
def eps : ℝ := (Ideal.ofBits .f32 0x3727C5AC#32).toReal
section
variable (a1 : IVec (⟨2, ![2, 800000]⟩ : Shape) 32)
def dinv (n : Fin 50000) : ℝ :=
  if 0 < (into a1 n).card then (Real.sqrt ((into a1 n).card : ℝ))⁻¹ else 0
def lin (h : Fin 50000 → Fin 128 → ℝ) (Wl : Fin 128 → Fin 128 → ℝ) (n : Fin 50000) (j : Fin 128) : ℝ := ∑ k, h n k * Wl k j
def agg (mm : Fin 50000 → Fin 128 → ℝ) (n : Fin 50000) (j : Fin 128) : ℝ :=
  dinv a1 n * ∑ e ∈ into a1 n, dinv a1 (src a1 e) * mm (src a1 e) j
def act (z : Fin 50000 → Fin 128 → ℝ) (bl : Fin 128 → ℝ) (n : Fin 50000) (j : Fin 128) : ℝ := max (z n j + bl j) 0
def mean (a : Fin 50000 → Fin 128 → ℝ) (j : Fin 128) : ℝ := (∑ n, a n j) * (1 / 50000)
def var (a : Fin 50000 → Fin 128 → ℝ) (j : Fin 128) : ℝ := (∑ n, (a n j - mean a j) * (a n j - mean a j)) * (1 / 50000)
def bn (a : Fin 50000 → Fin 128 → ℝ) (ga be : Fin 128 → ℝ) (n : Fin 50000) (j : Fin 128) : ℝ :=
  ga j * (a n j - mean a j) * (Real.sqrt (var a j + eps))⁻¹ + be j
def layer (h : Fin 50000 → Fin 128 → ℝ) (Wl : Fin 128 → Fin 128 → ℝ) (bl : Fin 128 → ℝ) : Fin 50000 → Fin 128 → ℝ :=
  act (agg a1 (lin h Wl)) bl
end
def pool (a2 : IVec (⟨1, ![50000]⟩ : Shape) 32) (h : Fin 50000 → Fin 128 → ℝ) (q : Fin 64) (j : Fin 128) : ℝ :=
  (∑ n ∈ segment a2 q, h n j) * (1 / max ((segment a2 q).card : ℝ) 1)
def out (a0 : IVec (⟨1, ![50000]⟩ : Shape) 32) (a1 : IVec (⟨2, ![2, 800000]⟩ : Shape) 32) (a2 : IVec (⟨1, ![50000]⟩ : Shape) 32)
    (embed : Fin 30 → Fin 128 → ℝ) (W : Fin 3 → Fin 128 → Fin 128 → ℝ) (b ga be : Fin 3 → Fin 128 → ℝ) : Fin 64 → Fin 128 → ℝ :=
  let h0 : Fin 50000 → Fin 128 → ℝ := fun n k => embed (idOf a0 n) k
  let a_0 := layer a1 h0 (W 0) (b 0)
  let h1 := bn a_0 (ga 0) (be 0)
  let a_1 := layer a1 h1 (W 1) (b 1)
  let h2 := bn a_1 (ga 1) (be 1)
  let a_2 := layer a1 h2 (W 2) (b 2)
  let h3 := bn a_2 (ga 2) (be 2)
  pool a2 h3
end Cert.Hand.Spec
end
-- ==== Proof.Alg.Real.lean ====
import proofs.«412548_j82308753260928_3_alg».proof.Proof.Spec
import Idealize.ShloMosaic.PureOps.Ideal
import Mathlib.Data.EReal.Basic
import Mathlib.Data.EReal.Operations
import Mathlib.Data.EReal.Inv
import Mathlib.Analysis.Real.Sqrt
import Mathlib.Data.Fintype.BigOperators
import Mathlib.Algebra.BigOperators.Fin
import Mathlib.Algebra.BigOperators.Ring.Finset
import Mathlib.Algebra.Order.BigOperators.Ring.Finset
import Mathlib.Tactic.Ring
import Mathlib.Tactic.Linarith
import Mathlib.Tactic.NormNum
noncomputable section
namespace Cert.Hand.Alg
open Idealize.ShloMosaic Idealize.ShloMosaic.ValueIdx Cert.Hand.Spec
open scoped BigOperators
-- Every edge into `n` ends at `n`, so the target's factor comes out of the sum.
theorem agg_edgewise (a1 : IVec (⟨2, ![2, 800000]⟩ : Shape) 32) (mm : Fin 50000 → Fin 128 → ℝ) (n : Fin 50000)
    (j : Fin 128) :
    (∑ e ∈ into a1 n, (dinv a1 (src a1 e) * dinv a1 (tgtNode a1 e)) * mm (src a1 e) j) = agg a1 mm n j := by
  unfold agg
  rw [Finset.mul_sum]
  refine Finset.sum_congr rfl fun e he => ?_
  have ht : tgtNode a1 e = n := tgtNode_of_tgt a1 e n (Finset.mem_filter.mp he).2
  rw [ht]
  ring
theorem var_nonneg (a : Fin 50000 → Fin 128 → ℝ) (j : Fin 128) : 0 ≤ var a j := by
  unfold var
  exact mul_nonneg (Finset.sum_nonneg fun n _ => mul_self_nonneg _) (by norm_num)
-- Expanding the square: the variance is the mean of the squares less the square of the mean.
theorem var_eq_moments (a : Fin 50000 → Fin 128 → ℝ) (j : Fin 128) :
    var a j = (∑ n, a n j * a n j) * (1 / 50000) - mean a j * mean a j := by
  have hm : (∑ n, a n j) = 50000 * mean a j := by unfold mean; ring
  have h : ∀ n : Fin 50000, (a n j - mean a j) * (a n j - mean a j)
      = a n j * a n j - 2 * mean a j * a n j + mean a j * mean a j := fun n => by ring
  unfold var
  simp only [h]
  rw [Finset.sum_add_distrib, Finset.sum_sub_distrib, ← Finset.mul_sum, hm, Finset.sum_const, Finset.card_univ,
    Fintype.card_fin, nsmul_eq_mul]
  push_cast
  ring
theorem var_from_moments (a : Fin 50000 → Fin 128 → ℝ) (j : Fin 128) :
    max ((∑ n, a n j * a n j) * (1 / 50000) - mean a j * mean a j) 0 = var a j := by
  rw [← var_eq_moments]
  exact max_eq_left (var_nonneg a j)
-- Position `5000 * t + r`, split into its block `t` and its offset `r`.
def blockEquiv : Fin 10 × Fin 5000 ≃ Fin 50000 where
  toFun x := ⟨5000 * x.1.val + x.2.val, by omega⟩
  invFun n := (⟨n.val / 5000, by omega⟩, ⟨n.val % 5000, by omega⟩)
  left_inv := fun ⟨t, r⟩ => by
    apply Prod.ext <;> apply Fin.ext <;> simp only <;> omega
  right_inv n := by
    apply Fin.ext; simp only; omega
theorem eps_word : Ideal.ofBits .f32 0x3727C5AC#32 = (((10995116 : ℝ) / 2 ^ 40 : ℝ) : EReal) := by
  simp [Ideal.ofBits, Ideal.ieee, -EReal.coe_mul]
  norm_num
theorem eps_eq : eps = (10995116 : ℝ) / 2 ^ 40 := by
  unfold eps
  rw [eps_word, EReal.toReal_coe]
theorem eps_coe : Ideal.ofBits .f32 0x3727C5AC#32 = ((eps : ℝ) : EReal) := by
  rw [eps_eq, eps_word]
theorem eps_pos : 0 < eps := by
  rw [eps_eq]; norm_num
theorem ofBits_one : Ideal.ofBits .f32 0x3F800000#32 = ((1 : ℝ) : EReal) := by
  simp [Ideal.ofBits, Ideal.ieee, -EReal.coe_mul]
  norm_num
theorem ofBits_N : Ideal.ofBits .f32 0x47435000#32 = ((50000 : ℝ) : EReal) := by
  simp [Ideal.ofBits, Ideal.ieee, -EReal.coe_mul]
  norm_num
theorem ofBits_zero : Ideal.ofBits .f32 0x00000000#32 = ((0 : ℝ) : EReal) := by
  simp [Ideal.ofBits, Ideal.ieee]
-- The inclusion of the reals is additive, hence commutes with finite sums.
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem sum_coe {ι : Type*} (s : Finset ι) (f : ι → ℝ) :
    (∑ i ∈ s, (f i : EReal)) = ((∑ i ∈ s, f i : ℝ) : EReal) := (coe_sum s f).symm
theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem max_coe (x y : ℝ) : max (x : EReal) (y : EReal) = ((max x y : ℝ) : EReal) :=
  EReal.coe_strictMono.monotone.map_max.symm
theorem rsqrt_coe_pos {r : ℝ} (h : 0 < r) : Ideal.rsqrt ((r : ℝ) : EReal) = (((Real.sqrt r)⁻¹ : ℝ) : EReal) := by
  rw [Ideal.rsqrt_coe, if_neg (not_lt.mpr h.le), if_neg h.ne']
theorem div_coe_coe (x : ℝ) {y : ℝ} (h : y ≠ 0) :
    Ideal.div (x : EReal) ((y : ℝ) : EReal) = ((x * (1 / y) : ℝ) : EReal) := by
  rw [Ideal.div_coe h, ← EReal.coe_mul]
theorem deg_coe (a1 : IVec (⟨2, ![2, 800000]⟩ : Shape) 32) (n : Fin 50000) :
    (∑ _e ∈ into a1 n, ((1 : ℝ) : EReal)) = (((into a1 n).card : ℝ) : EReal) := by
  rw [← coe_sum, Finset.sum_const, nsmul_eq_mul, mul_one]
theorem cmp_ogt_coe (x y : ℝ) : Ideal.cmp .ogt (x : EReal) (y : EReal) = BitVec.ofBool (decide (y < x)) := by
  simp only [Ideal.cmp, EReal.coe_lt_coe_iff]
end Cert.Hand.Alg
end
-- ==== Proof.Val.Reg6b.lean ====
import proofs.«412548_j82308753260928_3_alg».proof.Proof.KI.Reg6
import proofs.«412548_j82308753260928_3_alg».proof.Proof.KSpec
import proofs.«412548_j82308753260928_3_alg».proof.Proof.Alg.Real
import proofs.«412548_j82308753260928_3_alg».proof.Proof.Val.Reg0
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Hand
theorem cnt6_zero_apply (j : S1x64.Idx) : (k6_pay4 (F := Ideal)) j = 0 := by
  unfold k6_pay4
  rw [shapeCast_self, broadcast_apply]
  exact Ideal.ofBits_zero_f32
theorem cnt6_pay_apply (ids : Vec Ideal S5000x1 .i32) (acc : Vec Ideal S1x64 .f32) (q : Fin 64) :
    k6_pay2 (k6_pay5 ids) acc (ix2 0 q)
      = acc (ix2 0 q) + ∑ r : Fin 5000, (if ids (ix2 r 0) = BitVec.ofNat 32 q.val then (1 : EReal) else 0) := by
  unfold k6_pay2
  dsimp only
  rw [shapeCast_self, addf_apply]
  congr 1
  rw [shapeCast_addUnit_apply]
  refine (Ideal.multiReduction_add_single (k6_pay5 ids) _ reduces_S5000x64_S64 _ _ _).trans ?_
  show ∑ r : Fin 5000, k6_pay5 ids (reduces_S5000x64_S64.lift (fun a => ix2 (0 : Fin 1) q a.succ) r) = _
  refine Finset.sum_congr rfl fun r _ => ?_
  unfold k6_pay5
  dsimp only
  rw [sitofp_apply, extui_apply]
  show FloatOps.sitofp (F := Ideal) .f32 ((IntOp.cmpi .eq _ _).setWidth 32) = _
  rw [indicator_eq]
  have hidx : reduces_S5000x64_S64.lift (fun a => ix2 (0 : Fin 1) q a.succ) r = ix2 (n0 := 5000) (n1 := 64) r q := by
    funext a
    match a with
    | ⟨0, _⟩ => exact Fin.ext rfl
    | ⟨1, _⟩ => exact Fin.ext rfl
  rw [hidx, iota_single_apply, broadcastTo_apply _ _ (ix2 r q) (ix2 r 0) (fun a => by
      match a with
      | ⟨0, _⟩ => rfl
      | ⟨1, _⟩ => rfl), shapeCast_shapeCast]
variable (V : (c : Dev nD) → (b : Ref sig .tc) → Buf (Elt Ideal) ((c : Thread nD τ).loc b))
theorem cnt6_idx_facts : ∀ t : Fin cfg6.N,
    win6_0.index t (0 : Fin 2) = t.val ∧ win6_0.index t (1 : Fin 2) = 0
    ∧ win6_7.index t (0 : Fin 2) = 0 ∧ win6_7.index t (1 : Fin 2) = 0 :=
  (by decide +kernel : ∀ t : Fin grid6.N, _)
theorem cnt6_iblk_apply (c : Dev nD) (t : Fin cfg6.N) (r : Fin 5000) (n : Fin 50000) (hn : n.val = 5000 * t.val + r.val) :
    iblk6 V c 0 t (ix2 r 0) = V c main_v117 (ix2 n 0) := by
  obtain ⟨e0, e1, -, -⟩ := cnt6_idx_facts t
  show V c main_v117 (((cfg6.win 0).blk t).view.emb (ix2 r 0)) = V c main_v117 (ix2 n 0)
  refine congrArg _ (funext fun a => Fin.ext ?_)
  match a with
  | ⟨0, _⟩ => show win6_0.index t (0 : Fin 2) * 5000 + 1 * r.val = n.val; rw [e0]; omega
  | ⟨1, _⟩ => show win6_0.index t (1 : Fin 2) * 1 + 1 * 0 = 0; rw [e1]
def cnt6_add (c : Dev nD) (n : ℕ) (q : Fin 64) : EReal :=
  if h : n < cfg6.N then ∑ r : Fin 5000, (if iblk6 V c 0 ⟨n, h⟩ (ix2 r 0) = BitVec.ofNat 32 q.val then (1 : EReal) else 0) else 0
theorem cnt6_acc (c : Dev nD) : ∀ (n : ℕ) (hn : n < cfg6.N) (q : Fin 64),
    (scrAt6 V c n hn).2 (ix2 0 q) = ∑ s ∈ Finset.range (n + 1), cnt6_add V c s q
  | 0, hn, q => by
    show (step6 V c ⟨0, hn⟩ (k6_pay3 (F := Ideal), k6_pay4 (F := Ideal))).2 (ix2 0 q) = _
    unfold step6
    dsimp only
    rw [cnt6_pay_apply, cnt6_zero_apply, zero_add, Finset.sum_range_one, cnt6_add, dif_pos hn]
  | n + 1, hn, q => by
    show (step6 V c ⟨n + 1, hn⟩ (scrAt6 V c n (Nat.lt_of_succ_lt hn))).2 (ix2 0 q) = _
    unfold step6
    dsimp only
    rw [cnt6_pay_apply, cnt6_acc c n (Nat.lt_of_succ_lt hn) q, Finset.sum_range_succ _ (n + 1)]
    congr 1
    rw [cnt6_add, dif_pos hn]
theorem cnt6_total (c : Dev nD) (q : Fin 64) :
    ∑ s ∈ Finset.range 10, cnt6_add V c s q
      = ∑ n : Fin 50000, (if V c main_v117 (ix2 n 0) = BitVec.ofNat 32 q.val then (1 : EReal) else 0) := by
  rw [Finset.sum_range, ← Fintype.sum_equiv Alg.blockEquiv
    (fun x : Fin 10 × Fin 5000 => if V c main_v117 (ix2 (Alg.blockEquiv x) 0) = BitVec.ofNat 32 q.val then (1 : EReal) else 0) _ (fun _ => rfl),
    Fintype.sum_prod_type]
  refine Finset.sum_congr rfl fun t _ => ?_
  have ht : t.val < cfg6.N := lt_of_lt_of_eq t.isLt N_6.symm
  rw [cnt6_add, dif_pos ht]
  refine Finset.sum_congr rfl fun r _ => ?_
  rw [cnt6_iblk_apply V c ⟨t.val, ht⟩ r (Alg.blockEquiv (t, r)) rfl]
theorem cnt6_last (c : Dev nD) (h9 : 9 < cfg6.N) : (scrAt6 V c 9 h9).2 = KSpec.poolCounts (V c main_v117) := by
  funext j
  obtain ⟨z, q, rfl⟩ : ∃ (z : Fin 1) (q : Fin 64), j = ix2 z q := ⟨j 0, j 1, eq_ix2 j⟩
  obtain rfl : z = 0 := Subsingleton.elim _ _
  rw [cnt6_acc, cnt6_total]
  rfl
theorem cnt6_flushed (c : Dev nD) (t : Fin cfg6.N) (hf : (cfg6.win 7).flush t = true) :
    (dat6 (F := Ideal) V c).flushed 7 t = ((cfg6.win 7).blk t).view.read (Elt Ideal) (KSpec.poolCounts (V c main_v117)) := by
  have h9 : t.val = 9 := by
    have hN : cfg6.N = 10 := N_6
    have := (flush6_7 t).mp hf; have := t.isLt; omega
  obtain rfl : t = t6_9 := Fin.ext h9
  show (cfg6.win 7).cut (grid6.coords t6_9) ((dat6 V c).after 7 t6_9) = _
  rw [after6_7]
  refine Eq.trans (cnt6_last V c (lt_of_lt_of_eq (by decide) N_6.symm)) ?_
  obtain ⟨-, -, e2, e3⟩ := cnt6_idx_facts t6_9
  have hz' : (fun a => win6_7.index t6_9 a * main_v120_1.ty.shape.size a) = fun _ => 0 := funext fun a => by
    match a with
    | ⟨0, _⟩ => show win6_7.index _ (0 : Fin 2) * 1 = 0; rw [e2]
    | ⟨1, _⟩ => show win6_7.index _ (1 : Fin 2) * 64 = 0; rw [e3]
  exact (Memref.read_access_unit_zero (Elt Ideal) main_v120_1 hz' (fun a => by rw [congrFun hz' a]; simp) (KSpec.poolCounts (V c main_v117))).symm
theorem cnt6_cover (i : S1x64.Idx) : ∃ t : Fin cfg6.N, (cfg6.win 7).flush t = true ∧ i ∈ ((cfg6.win 7).blk t).view.set := by
  have hi0 : (i 0).val < 1 := (i 0).isLt
  have hi1 : (i 1).val < 64 := (i 1).isLt
  obtain ⟨-, -, e2, e3⟩ := cnt6_idx_facts t6_9
  refine ⟨t6_9, (flush6_7 t6_9).mpr rfl, ?_⟩
  show i ∈ ((View.whole main_v120_1).slice (win6_7.rect t6_9)).set
  rw [View.set_slice_whole, Rect.mem_set_unit]
  intro a
  match a with
  | ⟨0, _⟩ =>
    show win6_7.index t6_9 (0 : Fin 2) * 1 ≤ (i 0).val ∧ (i 0).val < win6_7.index t6_9 (0 : Fin 2) * 1 + 1
    rw [e2]; omega
  | ⟨1, _⟩ =>
    show win6_7.index t6_9 (1 : Fin 2) * 64 ≤ (i 1).val ∧ (i 1).val < win6_7.index t6_9 (1 : Fin 2) * 64 + 64
    rw [e3]; omega
theorem final6_7 (c : Dev nD) : (dat6 (F := Ideal) V c).arrAt 7 cfg6.N = KSpec.poolCounts (V c main_v117) :=
  (dat6 V c).arrAt_eq_of_cover 7 (KSpec.poolCounts (V c main_v117)) (cnt6_flushed V c) cnt6_cover
end Cert.KernelIdeal.Hand
end
-- ==== Proof.Val.Chain.lean ====
import proofs.«412548_j82308753260928_3_alg».proof.Proof.Val.HostRun
import proofs.«412548_j82308753260928_3_alg».proof.Proof.KI.Frame
import proofs.«412548_j82308753260928_3_alg».proof.Proof.Val.Reg0
import proofs.«412548_j82308753260928_3_alg».proof.Proof.Val.Reg1a
import proofs.«412548_j82308753260928_3_alg».proof.Proof.Val.Reg1
import proofs.«412548_j82308753260928_3_alg».proof.Proof.Val.Reg2
import proofs.«412548_j82308753260928_3_alg».proof.Proof.Val.Reg3a
import proofs.«412548_j82308753260928_3_alg».proof.Proof.Val.Reg3
import proofs.«412548_j82308753260928_3_alg».proof.Proof.Val.Reg4
import proofs.«412548_j82308753260928_3_alg».proof.Proof.Val.Reg5a
import proofs.«412548_j82308753260928_3_alg».proof.Proof.Val.Reg5
import proofs.«412548_j82308753260928_3_alg».proof.Proof.Val.Reg6
import proofs.«412548_j82308753260928_3_alg».proof.Proof.Val.Reg6b
set_option maxRecDepth 4096
noncomputable section
namespace Cert.KernelIdeal.Hand
open Idealize.ShloMosaic Idealize.ShloMosaic.TcCoe
open Idealize.SL Idealize.SL.Sem
open Idealize.ShloMosaic.Pipeline (Dat Cfg Window)
open Cert.KernelIdeal Cert.KernelIdeal.Gen
open Cert.Hand
variable (m : (ℓ : Loc nD τ sig) → Buf (Elt Ideal) ℓ) (ρ : Dev nD → PrngReg) (c : Dev nD)
theorem outs_v22_eq : outs m 8 main_v22 c = (kM0 (m ((c : Thread nD τ).loc main_arg0)) (m ((c : Thread nD τ).loc main_arg1)) (m ((c : Thread nD τ).loc main_arg3)) (m ((c : Thread nD τ).loc main_arg4))) := by
  rw [outs_main_v22, final0, V7_v21, V7_v20, V7_v17]; rfl
theorem outs_v38_0_eq : outs m 10 main_v38_0 c = (kA0 (m ((c : Thread nD τ).loc main_arg0)) (m ((c : Thread nD τ).loc main_arg1)) (m ((c : Thread nD τ).loc main_arg3)) (m ((c : Thread nD τ).loc main_arg4)) (m ((c : Thread nD τ).loc main_arg5))) := by
  rw [outs_main_v38_0, final1_3, V9_v34, V9_v17, V9_v37, outs_v22_eq]; rfl
theorem outs_v38_1_eq : outs m 10 main_v38_1 c = KSpec.colSum (kA0 (m ((c : Thread nD τ).loc main_arg0)) (m ((c : Thread nD τ).loc main_arg1)) (m ((c : Thread nD τ).loc main_arg3)) (m ((c : Thread nD τ).loc main_arg4)) (m ((c : Thread nD τ).loc main_arg5))) := by
  rw [outs_main_v38_1, final1_4, V9_v34, V9_v17, V9_v37, outs_v22_eq]; rfl
theorem outs_v38_2_eq : outs m 10 main_v38_2 c = KSpec.colSumSq (kA0 (m ((c : Thread nD τ).loc main_arg0)) (m ((c : Thread nD τ).loc main_arg1)) (m ((c : Thread nD τ).loc main_arg3)) (m ((c : Thread nD τ).loc main_arg4)) (m ((c : Thread nD τ).loc main_arg5))) := by
  rw [outs_main_v38_2, final1_5, V9_v34, V9_v17, V9_v37, outs_v22_eq]; rfl
theorem outs_v55_eq : outs m 12 main_v55 c = (kLin (m ((c : Thread nD τ).loc main_arg1)) (m ((c : Thread nD τ).loc main_arg4)) (m ((c : Thread nD τ).loc main_arg6)) (m ((c : Thread nD τ).loc main_arg7)) 0 1 (kA0 (m ((c : Thread nD τ).loc main_arg0)) (m ((c : Thread nD τ).loc main_arg1)) (m ((c : Thread nD τ).loc main_arg3)) (m ((c : Thread nD τ).loc main_arg4)) (m ((c : Thread nD τ).loc main_arg5)))) := by
  rw [outs_main_v55, final2, V11_v38_0, V11_v40, V11_v46, V11_v53, V11_v54, V11_v52, V11_v17,
    outs_v38_0_eq, outs_v38_1_eq, outs_v38_2_eq]; rfl
theorem outs_v71_0_eq : outs m 14 main_v71_0 c = (kA1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  rw [outs_main_v71_0, final3_3, V13_v67, V13_v17, V13_v70, outs_v55_eq]; rfl
theorem outs_v71_1_eq : outs m 14 main_v71_1 c = KSpec.colSum (kA1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  rw [outs_main_v71_1, final3_4, V13_v67, V13_v17, V13_v70, outs_v55_eq]; rfl
theorem outs_v71_2_eq : outs m 14 main_v71_2 c = KSpec.colSumSq (kA1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  rw [outs_main_v71_2, final3_5, V13_v67, V13_v17, V13_v70, outs_v55_eq]; rfl
theorem outs_v88_eq : outs m 16 main_v88 c = (kLin (m ((c : Thread nD τ).loc main_arg1)) (m ((c : Thread nD τ).loc main_arg4)) (m ((c : Thread nD τ).loc main_arg6)) (m ((c : Thread nD τ).loc main_arg7)) 1 2 (kA1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))) := by
  rw [outs_main_v88, final4, V15_v71_0, V15_v73, V15_v79, V15_v86, V15_v87, V15_v85, V15_v17,
    outs_v71_0_eq, outs_v71_1_eq, outs_v71_2_eq]; rfl
theorem outs_v104_0_eq : outs m 18 main_v104_0 c = (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  rw [outs_main_v104_0, final5_3, V17_v100, V17_v17, V17_v103, outs_v88_eq]; rfl
theorem outs_v104_1_eq : outs m 18 main_v104_1 c = KSpec.colSum (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  rw [outs_main_v104_1, final5_4, V17_v100, V17_v17, V17_v103, outs_v88_eq]; rfl
theorem outs_v104_2_eq : outs m 18 main_v104_2 c = KSpec.colSumSq (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  rw [outs_main_v104_2, final5_5, V17_v100, V17_v17, V17_v103, outs_v88_eq]; rfl
theorem outs_v120_0_eq : outs m 20 main_v120_0 c
    = KSpec.poolSums (kBt2 (m ((c : Thread nD τ).loc main_arg2))) (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kMuOf (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))) (kVarOf (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))) (kGamma 2 (m ((c : Thread nD τ).loc main_arg6))) (kBeta 2 (m ((c : Thread nD τ).loc main_arg7))) := by
  rw [outs_main_v120_0, final6_6, V19_v117, V19_v104_0, V19_v106, V19_v112, V19_v118, V19_v119,
    outs_v104_0_eq, outs_v104_1_eq, outs_v104_2_eq]; rfl
theorem outs_v120_1_eq : outs m 20 main_v120_1 c = KSpec.poolCounts (kBt2 (m ((c : Thread nD τ).loc main_arg2))) := by
  rw [outs_main_v120_1, final6_7, V19_v117]
theorem V21_eq : Gen.V21 m (outs m) c main_v125
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [V21_v125, outs_v120_0_eq, outs_v120_1_eq]; rfl
theorem run_kernel : θ_run defs (onTc (τ := τ) (main (F := Ideal))) ⟨m, fun _ => 0, ρ⟩ (fun r => ∀ c : Dev nD,
    r.2.mem ((c.tc : Thread nD τ).loc main_v125)
      = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r h c => ⟨(h c).1.trans (V21_eq m c), (h c).2⟩) (run_named m ρ)
end Cert.KernelIdeal.Hand
end
-- ==== Proof.Alg.ScatterGather.lean ====
import Idealize.ShloMosaic.Lib.ValueIdx
import Idealize.ShloMosaic.Lib.StableHlo.Predicate
noncomputable section
open scoped BigOperators
namespace Cert.Hand.SG
open Idealize.ShloMosaic Idealize.ShloMosaic.ValueIdx
section GatherRows
variable {α : Type}
abbrev rowGatherDims (N E H : Nat)
    (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf
theorem gather_rows_apply {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (e : Fin E) (k : Fin H) :
    Host.gather (rowGatherDims N E H wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E H wf).start (ix2 e k) idx 0 + (rowGatherDims N E H wf).batchCoord (ix2 e k) 0
      + (rowGatherDims N E H wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E H wf).startIndexMap from List.mem_singleton.mpr rfl)]
    exact congrArg (fun i => min (idx i).toInt.toNat (N - 1)) ((eq_ix2 _).trans (congrArg₂ ix2 (Fin.ext rfl) (Fin.ext rfl)))
  | ⟨1, _⟩ =>
    show (rowGatherDims N E H wf).start (ix2 e k) idx 1 + (rowGatherDims N E H wf).batchCoord (ix2 e k) 1
      + (rowGatherDims N E H wf).offCoord (ix2 e k) 1 = _
    rw [GatherDims.batchCoord_eq_zero _ _ _ List.not_mem_nil]
    have hst : (rowGatherDims N E H wf).start (ix2 e k) idx 1 = 0 := by
      unfold GatherDims.start
      rw [dif_neg (fun h => Nat.one_ne_zero (congrArg Fin.val (List.mem_singleton.mp h)))]
    rw [hst]
    simp only [Nat.add_zero, Nat.zero_add]
    rfl
end GatherRows
section GatherVec
variable {α : Type}
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  have o : ∀ {n : Nat} (k : Fin n), ix1 k = Shape.Idx.ofFin k := fun k => (eq_ix1 _).symm
  rw [o, o]
  exact (StableHlo.Predicate.gather_take _ rfl rfl rfl rfl x idx e hN).trans (congrArg (fun k => x (Shape.Idx.ofFin k))
    (Fin.ext (congrArg (fun j => min (idx j).toInt.toNat (N - 1)) (eq_ix2 (StableHlo.Predicate.ixP e)))))
end GatherVec
section Scatter
variable {s si su : Shape} (d : ScatterDims s si su) {w : Nat}
-- Landing on `i` is agreeing with `i` on every axis; a coordinate of `i` is never out of range.
theorem resultIdx?_eq_some (j : su.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq, funext_iff]
    exact forall_congr' fun a => by have := h a; simp only [Fin.ext_iff]; omega
  · next h =>
    exact iff_of_false nofun fun hall => h fun a => by have := hall a; have := (i a).isLt; omega
-- Re-indexes the sum over the updates landing on `i` along an injection `g` whose image of `Q` they are.
theorem scatterAdd_apply_of {ι : Type} [Fintype ι] (x : s.Idx → EReal) (idx : IVec si w) (upd : su.Idx → EReal) (i : s.Idx)
    (g : ι → su.Idx) (hg : Function.Injective g) (Q : ι → Prop) [DecidablePred Q]
    (h : ∀ j, d.resultIdx? j idx = some i ↔ ∃ e, Q e ∧ g e = j) :
    Ideal.hostScatterAdd d x idx upd i = x i + ∑ e ∈ Finset.univ.filter Q, upd (g e) := by
  unfold Ideal.hostScatterAdd
  rw [← Finset.sum_image (f := upd) (g := g) (s := Finset.univ.filter Q) fun _ _ _ _ e => hg e]
  exact congrArg (x i + ·) (Finset.sum_congr (Finset.ext fun j => by
    simp only [Finset.mem_filter, Finset.mem_univ, true_and, Finset.mem_image, h]) fun _ _ => rfl)
end Scatter
section ScatterRows
abbrev rowScatterDims (N E H : Nat)
    (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ where
  updateWindowDims := [1]
  insertedWindowDims := [0]
  scatterDimsToOperandDims := [0]
  indexVectorDim := 1
  wf := wf
variable {N E H w : Nat} (wf : ScatterDims.WF ⟨2, ![N, H]⟩ ⟨2, ![E, 1]⟩ ⟨2, ![E, H]⟩ [1] [0] [0] 1)
theorem rows_start0 (idx : IVec ⟨2, ![E, 1]⟩ w) (e : Fin E) (k : Fin H) :
    (rowScatterDims N E H wf).start (ix2 e k) idx 0 = (idx (ix2 e 0)).toInt := by
  unfold ScatterDims.start
  rw [dif_pos (show (0 : Fin 2) ∈ (rowScatterDims N E H wf).scatterDimsToOperandDims from List.mem_singleton.mpr rfl)]
  exact congrArg (fun i => (idx i).toInt) ((eq_ix2 _).trans (congrArg₂ ix2 (Fin.ext rfl) (Fin.ext rfl)))
theorem rows_start1 (idx : IVec ⟨2, ![E, 1]⟩ w) (e : Fin E) (k : Fin H) :
    (rowScatterDims N E H wf).start (ix2 e k) idx 1 = 0 := by
  unfold ScatterDims.start
  rw [dif_neg (fun h => Nat.one_ne_zero (congrArg Fin.val (List.mem_singleton.mp h)))]
theorem rows_window0 (e : Fin E) (k : Fin H) : (rowScatterDims N E H wf).window (ix2 e k) 0 = 0 := by
  unfold ScatterDims.window
  have h0 : (0 : Fin 2) ∉ (rowScatterDims N E H wf).sKept := by
    show (0 : Fin 2) ∉ (List.finRange 2).filter (· ∉ [(0 : Fin 2)])
    decide
  rw [dif_neg h0]
theorem rows_window1 (e : Fin E) (k : Fin H) : (rowScatterDims N E H wf).window (ix2 e k) 1 = k.val := by
  unfold ScatterDims.window
  have h1 : (1 : Fin 2) ∈ (rowScatterDims N E H wf).sKept := by
    show (1 : Fin 2) ∈ (List.finRange 2).filter (· ∉ [(0 : Fin 2)])
    decide
  rw [dif_pos h1]
  rfl
theorem host_scatterAdd_rows_apply {φ : FTy} (x : FVec Ideal ⟨2, ![N, H]⟩ φ) (idx : IVec ⟨2, ![E, 1]⟩ w)
    (upd : FVec Ideal ⟨2, ![E, H]⟩ φ) (n : Fin N) (k : Fin H) :
    Host.scatterAdd (rowScatterDims N E H wf) x idx upd (ix2 n k)
      = x (ix2 n k) + ∑ e ∈ Finset.univ.filter (fun e : Fin E => (idx (ix2 e 0)).toInt = (n.val : ℤ)), upd (ix2 e k) := by
  refine scatterAdd_apply_of (rowScatterDims N E H wf) x idx upd (ix2 n k) (fun e => ix2 e k) (fun _ _ h => congrFun h 0) _ fun j => ?_
  obtain ⟨a, b, rfl⟩ : ∃ (a : Fin E) (b : Fin H), j = ix2 a b := ⟨_, _, eq_ix2 j⟩
  rw [resultIdx?_eq_some]
  constructor
  · intro h
    have h0 : _ = (n.val : ℤ) := h 0
    have h1 : _ = (k.val : ℤ) := h 1
    rw [rows_start0, rows_window0] at h0
    rw [rows_start1, rows_window1] at h1
    obtain rfl : k = b := Fin.ext (by omega)
    exact ⟨a, by omega, rfl⟩
  · rintro ⟨e, he, hj⟩
    obtain rfl : e = a := congrFun hj 0
    obtain rfl : k = b := congrFun hj 1
    refine Fin.forall_fin_two.mpr ⟨?_, ?_⟩
    · rw [rows_start0, rows_window0]; exact (show _ = (n.val : ℤ) by omega)
    · rw [rows_start1, rows_window1]; exact (show _ = (k.val : ℤ) by omega)
end ScatterRows
section ScatterVec
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf
variable {N E w : Nat} (wf : ScatterDims.WF ⟨1, ![N]⟩ ⟨2, ![E, 1]⟩ ⟨1, ![E]⟩ [] [0] [0] 1)
theorem vec_start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  exact congrArg (fun i => (idx i).toInt) ((eq_ix2 _).trans (congrArg₂ ix2 (Fin.ext rfl) (Fin.ext rfl)))
theorem vec_window0 (e : Fin E) : (vecScatterDims N E wf).window (ix1 e) 0 = 0 := by
  unfold ScatterDims.window
  have h0 : (0 : Fin 1) ∉ (vecScatterDims N E wf).sKept := by
    show (0 : Fin 1) ∉ (List.finRange 1).filter (· ∉ [(0 : Fin 1)])
    decide
  rw [dif_neg h0]
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : ℤ)), upd (ix1 e) := by
  refine scatterAdd_apply_of (vecScatterDims N E wf) x idx upd (ix1 n) (fun e => ix1 e) (fun _ _ h => congrFun h 0) _ fun j => ?_
  obtain ⟨a, rfl⟩ : ∃ a : Fin E, j = ix1 a := ⟨_, eq_ix1 j⟩
  rw [resultIdx?_eq_some]
  constructor
  · intro h
    have h0 : _ = (n.val : ℤ) := h 0
    rw [vec_start0, vec_window0] at h0
    exact ⟨a, by omega, rfl⟩
  · rintro ⟨e, he, hj⟩ c
    obtain rfl : e = a := congrFun hj 0
    obtain rfl : c = 0 := Subsingleton.elim _ _
    exact (show _ = (n.val : ℤ) by rw [vec_start0, vec_window0]; omega)
end ScatterVec
end Cert.Hand.SG
end
-- ==== Proof.Alg.Edges.lean ====
import proofs.«412548_j82308753260928_3_alg».proof.Proof.Spec
import proofs.«412548_j82308753260928_3_alg».proof.Proof.Alg.ScatterGather
import proofs.«412548_j82308753260928_3_alg».proof.Proof.Alg.Real
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
noncomputable section
open scoped BigOperators
namespace Cert.Hand.Edges
open Idealize.ShloMosaic Idealize.ShloMosaic.ValueIdx Cert.Hand
def edgeCol (a1 : IVec (⟨2, ![2, 800000]⟩ : Shape) 32) (r : Fin 2)
    (hs : (⟨2, ![2, 800000]⟩ : Shape).Slices ![r.val, 0] ⟨2, ![1, 800000]⟩)
    (hc : (⟨2, ![1, 800000]⟩ : Shape).ShapeCasts ⟨1, ![800000]⟩)
    (hcat : Shape.Concatenates [(⟨1, ![800000]⟩ : Shape), ⟨1, ![50000]⟩] ⟨1, ![850000]⟩ 0) :
    IVec (⟨1, ![850000]⟩ : Shape) 32 :=
  concatenate ⟨1, ![850000]⟩ 0
    [⟨⟨1, ![800000]⟩, shapeCast ⟨1, ![800000]⟩ (extractStridedSlice ⟨2, ![1, 800000]⟩ ![r.val, 0] a1 hs) hc⟩,
     ⟨⟨1, ![50000]⟩, iotaInDim ⟨1, ![50000]⟩ 32 0⟩] hcat
-- The edge list followed by one self-loop per node: position `e` is an input edge below 800000, the node `e - 800000` from there on.
theorem edgeCol_apply (a1 : IVec (⟨2, ![2, 800000]⟩ : Shape) 32) (r : Fin 2)
    (hs : (⟨2, ![2, 800000]⟩ : Shape).Slices ![r.val, 0] ⟨2, ![1, 800000]⟩)
    (hc : (⟨2, ![1, 800000]⟩ : Shape).ShapeCasts ⟨1, ![800000]⟩)
    (hcat : Shape.Concatenates [(⟨1, ![800000]⟩ : Shape), ⟨1, ![50000]⟩] ⟨1, ![850000]⟩ 0)
    (e : Fin 850000) : edgeCol a1 r hs hc hcat (ix1 e) = Spec.endpoint a1 r e := by
  unfold edgeCol Spec.endpoint
  by_cases h : e.val < 800000
  · rw [dif_pos h]
    refine (concatenate_pair_apply_left (t := ⟨1, ![850000]⟩) (s₁ := ⟨1, ![800000]⟩) (s₂ := ⟨1, ![50000]⟩) (0 : Fin 1) _ _ hcat
      (ix1 e) rfl (ix1 (⟨e.val, h⟩ : Fin 800000)) ?_).trans ?_
    · intro b; match b with | ⟨0, _⟩ => rfl
    · refine (ValueIdx.shapeCast_1a_a_apply _ hc _).trans ?_
      refine extractStridedSlice_apply _ a1 hs _ (ix2 r (⟨e.val, h⟩ : Fin 800000)) ?_
      intro a; match a with
      | ⟨0, _⟩ => rfl
      | ⟨1, _⟩ => exact (Nat.zero_add _).symm
  · rw [dif_neg h]
    have he := e.isLt
    refine (concatenate_pair_apply_right (t := ⟨1, ![850000]⟩) (s₁ := ⟨1, ![800000]⟩) (s₂ := ⟨1, ![50000]⟩) (0 : Fin 1) _ _ hcat
      (ix1 e) rfl rfl (ix1 (⟨e.val - 800000, by omega⟩ : Fin 50000)) ?_ ?_).trans rfl
    · intro b hb; exact absurd (Subsingleton.elim _ _) hb
    · show e.val - 800000 + 800000 = e.val
      omega
-- Adding the node count to a negative index is the specification's wrap-around.
theorem select_wrap (v : BitVec 32) :
    Scalar.select (IntOp.cmpi .slt v 0#32) (IntOp.addi v 50000#32) v = Spec.wrap v := by
  have h0 : (0#32 : BitVec 32).toInt = 0 := by decide
  have hiff : IntOp.cmpi .slt v 0#32 = 1#1 ↔ v.toInt < 0 := by rw [IntOp.cmpi_slt, h0]
  unfold Scalar.select Spec.wrap
  by_cases h : v.toInt < 0
  · exact (if_pos (hiff.2 h)).trans (if_pos h).symm
  · exact (if_neg (fun hc => h (hiff.1 hc))).trans (if_neg h).symm
theorem bcast_col_apply {α : Type} (hb1 : (⟨1, ![850000]⟩ : Shape).BroadcastsInDim ⟨2, ![850000, 1]⟩ (![0] : Fin 1 → Fin 2))
    (v : (⟨1, ![850000]⟩ : Shape).Idx → α) (e : Fin 850000) (z : Fin 1) :
    broadcastInDim ⟨2, ![850000, 1]⟩ ![0] hb1 v (ix2 e z) = v (ix1 e) := by
  unfold broadcastInDim
  congr 1
  funext a
  match a with
  | ⟨0, _⟩ =>
    apply Fin.ext
    split
    · next h1 => change (850000 : Nat) = 1 at h1; omega
    · rfl
def gatherIdx (col : IVec (⟨1, ![850000]⟩ : Shape) 32)
    (hb0 : (⟨0, ![]⟩ : Shape).BroadcastsInDim ⟨1, ![850000]⟩ (![] : Fin 0 → Fin 1))
    (hb1 : (⟨1, ![850000]⟩ : Shape).BroadcastsInDim ⟨2, ![850000, 1]⟩ (![0] : Fin 1 → Fin 2)) :
    IVec (⟨2, ![850000, 1]⟩ : Shape) 32 :=
  broadcastInDim ⟨2, ![850000, 1]⟩ ![0] hb1
    (select (cmpi .slt col (broadcastInDim ⟨1, ![850000]⟩ ![] hb0 (constantI ⟨0, ![]⟩ 32 0#32)))
      (addi col (broadcastInDim ⟨1, ![850000]⟩ ![] hb0 (constantI ⟨0, ![]⟩ 32 50000#32)))
      col)
theorem gatherIdx_apply (col : IVec (⟨1, ![850000]⟩ : Shape) 32)
    (hb0 : (⟨0, ![]⟩ : Shape).BroadcastsInDim ⟨1, ![850000]⟩ (![] : Fin 0 → Fin 1))
    (hb1 : (⟨1, ![850000]⟩ : Shape).BroadcastsInDim ⟨2, ![850000, 1]⟩ (![0] : Fin 1 → Fin 2))
    (e : Fin 850000) (z : Fin 1) : gatherIdx col hb0 hb1 (ix2 e z) = Spec.wrap (col (ix1 e)) :=
  (bcast_col_apply hb1 _ e z).trans (select_wrap (col (ix1 e)))
def scatterIdx (col : IVec (⟨1, ![850000]⟩ : Shape) 32)
    (hb1 : (⟨1, ![850000]⟩ : Shape).BroadcastsInDim ⟨2, ![850000, 1]⟩ (![0] : Fin 1 → Fin 2)) :
    IVec (⟨2, ![850000, 1]⟩ : Shape) 32 :=
  broadcastInDim ⟨2, ![850000, 1]⟩ ![0] hb1 col
theorem scatterIdx_apply (col : IVec (⟨1, ![850000]⟩ : Shape) 32)
    (hb1 : (⟨1, ![850000]⟩ : Shape).BroadcastsInDim ⟨2, ![850000, 1]⟩ (![0] : Fin 1 → Fin 2))
    (e : Fin 850000) (z : Fin 1) : scatterIdx col hb1 (ix2 e z) = col (ix1 e) :=
  bcast_col_apply hb1 col e z
section Degree
variable (a1 : IVec (⟨2, ![2, 800000]⟩ : Shape) 32)
  (hs1 : (⟨2, ![2, 800000]⟩ : Shape).Slices ![(1 : Fin 2).val, 0] ⟨2, ![1, 800000]⟩)
  (hc : (⟨2, ![1, 800000]⟩ : Shape).ShapeCasts ⟨1, ![800000]⟩)
  (hcat : Shape.Concatenates [(⟨1, ![800000]⟩ : Shape), ⟨1, ![50000]⟩] ⟨1, ![850000]⟩ 0)
  (hb1 : (⟨1, ![850000]⟩ : Shape).BroadcastsInDim ⟨2, ![850000, 1]⟩ (![0] : Fin 1 → Fin 2))
  (hbN : (⟨0, ![]⟩ : Shape).BroadcastsInDim ⟨1, ![50000]⟩ (![] : Fin 0 → Fin 1))
  (hbE : (⟨0, ![]⟩ : Shape).BroadcastsInDim ⟨1, ![850000]⟩ (![] : Fin 0 → Fin 1))
  (wfS : ScatterDims.WF ⟨1, ![50000]⟩ ⟨2, ![850000, 1]⟩ ⟨1, ![850000]⟩ [] [0] [0] 1)
theorem filter_scatterIdx (n : Fin 50000) :
    Finset.univ.filter (fun e : Fin 850000 =>
        (scatterIdx (edgeCol a1 1 hs1 hc hcat) hb1 (ix2 e 0)).toInt = (n.val : ℤ)) = Spec.into a1 n := by
  unfold Spec.into Spec.tgt
  refine Finset.filter_congr fun e _ => ?_
  rw [scatterIdx_apply, edgeCol_apply]
def degHost : FVec Ideal (⟨1, ![50000]⟩ : Shape) .f32 :=
  Host.scatterAdd (SG.vecScatterDims 50000 850000 wfS)
    (broadcastInDim ⟨1, ![50000]⟩ ![] hbN (constant (F := Ideal) ⟨0, ![]⟩ .f32 0x00000000#32))
    (scatterIdx (edgeCol a1 1 hs1 hc hcat) hb1)
    (broadcastInDim ⟨1, ![850000]⟩ ![] hbE (constant (F := Ideal) ⟨0, ![]⟩ .f32 0x3F800000#32))
theorem degHost_apply (n : Fin 50000) :
    degHost a1 hs1 hc hcat hb1 hbN hbE wfS (ix1 n) = (((Spec.into a1 n).card : ℝ) : EReal) := by
  unfold degHost
  rw [SG.host_scatterAdd_vec_apply wfS _ _ _ n, filter_scatterIdx a1 hs1 hc hcat hb1 n]
  have h0 : broadcastInDim ⟨1, ![50000]⟩ ![] hbN (constant (F := Ideal) ⟨0, ![]⟩ .f32 0x00000000#32) (ix1 n)
      = ((0 : ℝ) : EReal) := Alg.ofBits_zero
  have h1 : ∀ e : Fin 850000,
      broadcastInDim ⟨1, ![850000]⟩ ![] hbE (constant (F := Ideal) ⟨0, ![]⟩ .f32 0x3F800000#32) (ix1 e)
        = ((1 : ℝ) : EReal) := fun _ => Alg.ofBits_one
  rw [h0, Finset.sum_congr rfl fun e _ => h1 e, Alg.deg_coe, EReal.coe_zero, zero_add]
def dinvHost : FVec Ideal (⟨1, ![50000]⟩ : Shape) .f32 :=
  select
    (cmpf .ogt (degHost a1 hs1 hc hcat hb1 hbN hbE wfS)
      (broadcastInDim ⟨1, ![50000]⟩ ![] hbN (constant (F := Ideal) ⟨0, ![]⟩ .f32 0x00000000#32)))
    (Host.rsqrt (degHost a1 hs1 hc hcat hb1 hbN hbE wfS))
    (broadcastInDim ⟨1, ![50000]⟩ ![] hbN (constant (F := Ideal) ⟨0, ![]⟩ .f32 0x00000000#32))
theorem select_rsqrt_apply {s : Shape} (deg z : FVec Ideal s .f32) (i : s.Idx) (c : ℕ)
    (hd : deg i = (((c : ℕ) : ℝ) : EReal)) (hz : z i = ((0 : ℝ) : EReal)) :
    select (cmpf .ogt deg z) (Host.rsqrt deg) z i
      = (((if 0 < c then (Real.sqrt (c : ℝ))⁻¹ else 0 : ℝ)) : EReal) := by
  have hr : Host.rsqrt deg i = Ideal.rsqrt (deg i) := rfl
  rw [ValueIdx.select_apply, ValueIdx.cmpf_apply, hr, hz, hd, Ideal.cmpf_def, Alg.cmp_ogt_coe]
  by_cases h : 0 < c
  · have h' : (0 : ℝ) < (c : ℝ) := Nat.cast_pos.mpr h
    rw [decide_eq_true h', if_pos h, Alg.rsqrt_coe_pos h']
    exact ValueIdx.select_one _ _
  · have h' : ¬ (0 : ℝ) < (c : ℝ) := fun hc => h (Nat.cast_pos.mp hc)
    rw [decide_eq_false h', if_neg h]
    exact ValueIdx.select_zero _ _
theorem dinvHost_apply (n : Fin 50000) :
    dinvHost a1 hs1 hc hcat hb1 hbN hbE wfS (ix1 n) = ((Spec.dinv a1 n : ℝ) : EReal) := by
  unfold dinvHost Spec.dinv
  exact select_rsqrt_apply _ _ (ix1 n) (Spec.into a1 n).card (degHost_apply a1 hs1 hc hcat hb1 hbN hbE wfS n)
    Alg.ofBits_zero
end Degree
section Rows
variable (a1 : IVec (⟨2, ![2, 800000]⟩ : Shape) 32)
  (hs0 : (⟨2, ![2, 800000]⟩ : Shape).Slices ![(0 : Fin 2).val, 0] ⟨2, ![1, 800000]⟩)
  (hs1 : (⟨2, ![2, 800000]⟩ : Shape).Slices ![(1 : Fin 2).val, 0] ⟨2, ![1, 800000]⟩)
  (hc : (⟨2, ![1, 800000]⟩ : Shape).ShapeCasts ⟨1, ![800000]⟩)
  (hcat : Shape.Concatenates [(⟨1, ![800000]⟩ : Shape), ⟨1, ![50000]⟩] ⟨1, ![850000]⟩ 0)
  (hb0 : (⟨0, ![]⟩ : Shape).BroadcastsInDim ⟨1, ![850000]⟩ (![] : Fin 0 → Fin 1))
  (hb1 : (⟨1, ![850000]⟩ : Shape).BroadcastsInDim ⟨2, ![850000, 1]⟩ (![0] : Fin 1 → Fin 2))
  (hbNH : (⟨0, ![]⟩ : Shape).BroadcastsInDim ⟨2, ![50000, 128]⟩ (![] : Fin 0 → Fin 2))
  (wfG : GatherDims.WF ⟨2, ![50000, 128]⟩ ⟨2, ![850000, 1]⟩ ⟨2, ![850000, 128]⟩ [1] [0] [] [0] [] 1 ![1, 128])
  (wfS : ScatterDims.WF ⟨2, ![50000, 128]⟩ ⟨2, ![850000, 1]⟩ ⟨2, ![850000, 128]⟩ [1] [0] [0] 1)
theorem gather_rows_node {α : Type} (col : IVec (⟨1, ![850000]⟩ : Shape) 32)
    (m : (⟨2, ![50000, 128]⟩ : Shape).Idx → α) (e : Fin 850000) (j : Fin 128) :
    Host.gather (SG.rowGatherDims 50000 850000 128 wfG) m (gatherIdx col hb0 hb1) (ix2 e j)
      = m (ix2 (Spec.node (col (ix1 e))) j) := by
  rw [SG.gather_rows_apply (by decide) wfG m _ e j]
  simp only [gatherIdx_apply]
  rfl
theorem scatter_rows_into (upd : FVec Ideal (⟨2, ![850000, 128]⟩ : Shape) .f32) (n : Fin 50000) (j : Fin 128) :
    Host.scatterAdd (SG.rowScatterDims 50000 850000 128 wfS)
        (broadcastInDim ⟨2, ![50000, 128]⟩ ![] hbNH (constant (F := Ideal) ⟨0, ![]⟩ .f32 0x00000000#32))
        (scatterIdx (edgeCol a1 1 hs1 hc hcat) hb1) upd (ix2 n j)
      = ∑ e ∈ Spec.into a1 n, upd (ix2 e j) := by
  rw [SG.host_scatterAdd_rows_apply wfS _ _ _ n j, filter_scatterIdx a1 hs1 hc hcat hb1 n]
  have h0 : broadcastInDim ⟨2, ![50000, 128]⟩ ![] hbNH (constant (F := Ideal) ⟨0, ![]⟩ .f32 0x00000000#32) (ix2 n j)
      = ((0 : ℝ) : EReal) := Alg.ofBits_zero
  rw [h0, EReal.coe_zero, zero_add]
theorem scatter_gather_rows (mOut : FVec Ideal (⟨2, ![50000, 128]⟩ : Shape) .f32) (n : Fin 50000) (j : Fin 128) :
    Host.scatterAdd (SG.rowScatterDims 50000 850000 128 wfS)
        (broadcastInDim ⟨2, ![50000, 128]⟩ ![] hbNH (constant (F := Ideal) ⟨0, ![]⟩ .f32 0x00000000#32))
        (scatterIdx (edgeCol a1 1 hs1 hc hcat) hb1)
        (Host.gather (SG.rowGatherDims 50000 850000 128 wfG) mOut (gatherIdx (edgeCol a1 0 hs0 hc hcat) hb0 hb1)) (ix2 n j)
      = ∑ e ∈ Spec.into a1 n, mOut (ix2 (Spec.src a1 e) j) := by
  rw [scatter_rows_into a1 hs1 hc hcat hb1 hbNH wfS _ n j]
  refine Finset.sum_congr rfl fun e _ => ?_
  rw [gather_rows_node hb0 hb1 wfG _ mOut e j, edgeCol_apply]
  rfl
end Rows
theorem gather_vec_node {α : Type} (col : IVec (⟨1, ![850000]⟩ : Shape) 32)
    (hb0 : (⟨0, ![]⟩ : Shape).BroadcastsInDim ⟨1, ![850000]⟩ (![] : Fin 0 → Fin 1))
    (hb1 : (⟨1, ![850000]⟩ : Shape).BroadcastsInDim ⟨2, ![850000, 1]⟩ (![0] : Fin 1 → Fin 2))
    (wfGv : GatherDims.WF ⟨1, ![50000]⟩ ⟨2, ![850000, 1]⟩ ⟨1, ![850000]⟩ [] [0] [] [0] [] 1 ![1])
    (d : (⟨1, ![50000]⟩ : Shape).Idx → α) (e : Fin 850000) :
    Host.gather (SG.vecGatherDims 50000 850000 wfGv) d (gatherIdx col hb0 hb1) (ix1 e)
      = d (ix1 (Spec.node (col (ix1 e)))) := by
  rw [SG.gather_vec_apply (by decide) wfGv d _ e]
  simp only [gatherIdx_apply]
  rfl
end Cert.Hand.Edges
end
-- ==== Proof.Alg.KMath.lean ====
import proofs.«412548_j82308753260928_3_alg».proof.Proof.KSpec
import proofs.«412548_j82308753260928_3_alg».proof.Proof.Spec
import proofs.«412548_j82308753260928_3_alg».proof.Proof.Alg.Real
import Idealize.ShloMosaic.PureOps.Ideal
import Idealize.ShloMosaic.Lib.ValueIdx
import Mathlib.Data.EReal.Basic
import Mathlib.Data.EReal.Operations
import Mathlib.Data.EReal.Inv
import Mathlib.Algebra.BigOperators.Group.Finset.Basic
import Mathlib.Algebra.BigOperators.Ring.Finset
import Mathlib.Tactic.NormNum
noncomputable section
namespace Cert.Hand.KMath
open Idealize.ShloMosaic Idealize.ShloMosaic.ValueIdx Cert.Hand.Spec Cert.Hand.KSpec
open scoped BigOperators
theorem id_word_iff (a0 : IVec (⟨1, ![50000]⟩ : Shape) 32) (n : Fin 50000)
    (hr : 0 ≤ (a0 (ix1 n)).toInt ∧ (a0 (ix1 n)).toInt < 30) (v : Fin 30) :
    a0 (ix1 n) = BitVec.ofNat 32 v.val ↔ idOf a0 n = v := by
  have hc := BitVec.toInt_eq_toNat_cond (a0 (ix1 n))
  have hlt := (a0 (ix1 n)).isLt
  have hv := v.isLt
  constructor
  · intro h
    apply Fin.ext
    show min (a0 (ix1 n)).toInt.toNat 29 = v.val
    have ht : (a0 (ix1 n)).toNat = v.val := by rw [h, BitVec.toNat_ofNat]; omega
    omega
  · intro h
    have hm : min (a0 (ix1 n)).toInt.toNat 29 = v.val := congrArg Fin.val h
    apply BitVec.eq_of_toNat_eq
    rw [BitVec.toNat_ofNat]
    omega
theorem seg_word_iff (w : BitVec 32) (q : Fin 64) : w = BitVec.ofNat 32 q.val ↔ w.toInt = (q.val : ℤ) := by
  have hc := BitVec.toInt_eq_toNat_cond w
  have hlt := w.isLt
  have hq := q.isLt
  constructor
  · intro h
    have ht : w.toNat = q.val := by rw [h, BitVec.toNat_ofNat]; omega
    omega
  · intro h
    apply BitVec.eq_of_toNat_eq
    rw [BitVec.toNat_ofNat]
    omega
-- Against a one-hot row only the term where the word matches survives.
theorem onehot_row {N : Nat} (w : BitVec 32) (r : Fin N) (f : Fin N → EReal)
    (h : ∀ v : Fin N, w = BitVec.ofNat 32 v.val ↔ r = v) :
    ∑ v : Fin N, (if w = BitVec.ofNat 32 v.val then (1 : EReal) else 0) * f v = f r := by
  rw [Finset.sum_eq_single r]
  · rw [if_pos ((h r).mpr rfl), one_mul]
  · intro v _ hv
    rw [if_neg (fun hw => hv ((h v).mp hw).symm), zero_mul]
  · intro hr
    exact absurd (Finset.mem_univ r) hr
-- A 0/1 weight inside a sum is a filter on the index set.
theorem onehot_sum (P : Fin 50000 → Prop) [DecidablePred P] (f : Fin 50000 → ℝ) :
    ∑ n, (if P n then (1 : EReal) else 0) * ((f n : ℝ) : EReal)
      = ((∑ n ∈ Finset.univ.filter P, f n : ℝ) : EReal) := by
  rw [Finset.sum_filter, Alg.coe_sum]
  refine Finset.sum_congr rfl fun n _ => ?_
  by_cases h : P n
  · rw [if_pos h, if_pos h, one_mul]
  · rw [if_neg h, if_neg h, zero_mul, EReal.coe_zero]
theorem onehot_card (P : Fin 50000 → Prop) [DecidablePred P] :
    ∑ n, (if P n then (1 : EReal) else 0) = (((Finset.univ.filter P).card : ℝ) : EReal) := by
  have hc : ((Finset.univ.filter P).card : ℝ) = ∑ n, if P n then (1 : ℝ) else 0 := by rw [Finset.sum_boole]
  rw [hc, Alg.coe_sum]
  refine Finset.sum_congr rfl fun n _ => ?_
  by_cases h : P n
  · rw [if_pos h, if_pos h, EReal.coe_one]
  · rw [if_neg h, if_neg h, EReal.coe_zero]
theorem embedLin_coe (a0 : IVec (⟨1, ![50000]⟩ : Shape) 32) (a1 : IVec (⟨2, ![2, 800000]⟩ : Shape) 32)
    (x2 : IVec (⟨2, ![50000, 1]⟩ : Shape) 32) (ew : Mat 30 128) (d2 : Mat 50000 1)
    (embed : Fin 30 → Fin 128 → ℝ) (W0 : Fin 128 → Fin 128 → ℝ)
    (hx : ∀ n, x2 (ix2 n 0) = a0 (ix1 n))
    (hr : ∀ n, 0 ≤ (a0 (ix1 n)).toInt ∧ (a0 (ix1 n)).toInt < 30)
    (hew : ∀ v j, ew (ix2 v j) = ((∑ k, embed v k * W0 k j : ℝ) : EReal))
    (hd : ∀ n, d2 (ix2 n 0) = ((dinv a1 n : ℝ) : EReal)) :
    ∀ n j, embedLin x2 ew d2 (ix2 n j)
      = ((dinv a1 n * lin (fun n k => embed (idOf a0 n) k) W0 n j : ℝ) : EReal) := by
  intro n j
  show d2 (ix2 n 0) * ∑ v : Fin 30, (if x2 (ix2 n 0) = BitVec.ofNat 32 v.val then (1 : EReal) else 0) * ew (ix2 v j) = _
  rw [hx n, hd n, onehot_row (a0 (ix1 n)) (idOf a0 n) (fun v => ew (ix2 v j)) (id_word_iff a0 n (hr n)), hew,
    ← EReal.coe_mul]
  rfl
theorem reluOut_coe (a1 : IVec (⟨2, ![2, 800000]⟩ : Shape) 32) (agg' : Mat 50000 128) (d2 : Mat 50000 1) (b2 : Mat 1 128)
    (mm : Fin 50000 → Fin 128 → ℝ) (bl : Fin 128 → ℝ)
    (hagg : ∀ n j, agg' (ix2 n j) = ((∑ e ∈ into a1 n, dinv a1 (src a1 e) * mm (src a1 e) j : ℝ) : EReal))
    (hd : ∀ n, d2 (ix2 n 0) = ((dinv a1 n : ℝ) : EReal))
    (hb : ∀ j, b2 (ix2 0 j) = ((bl j : ℝ) : EReal)) :
    ∀ n j, reluOut agg' d2 b2 (ix2 n j) = ((act (agg a1 mm) bl n j : ℝ) : EReal) := by
  intro n j
  show max (d2 (ix2 n 0) * agg' (ix2 n j) + b2 (ix2 0 j)) 0 = _
  rw [hd n, hagg n j, hb j, ← EReal.coe_mul, ← EReal.coe_add, ← EReal.coe_zero, Alg.max_coe]
  rfl
theorem colSum_coe (a' : Mat 50000 128) (a : Fin 50000 → Fin 128 → ℝ)
    (ha : ∀ n j, a' (ix2 n j) = ((a n j : ℝ) : EReal)) :
    ∀ j, colSum a' (ix2 0 j) = ((∑ n, a n j : ℝ) : EReal) := by
  intro j
  show ∑ n : Fin 50000, a' (ix2 n j) = _
  rw [Alg.coe_sum]
  exact Finset.sum_congr rfl fun n _ => ha n j
theorem colSumSq_coe (a' : Mat 50000 128) (a : Fin 50000 → Fin 128 → ℝ)
    (ha : ∀ n j, a' (ix2 n j) = ((a n j : ℝ) : EReal)) :
    ∀ j, colSumSq a' (ix2 0 j) = ((∑ n, a n j * a n j : ℝ) : EReal) := by
  intro j
  show ∑ n : Fin 50000, a' (ix2 n j) * a' (ix2 n j) = _
  rw [Alg.coe_sum]
  refine Finset.sum_congr rfl fun n _ => ?_
  rw [ha n j, ← EReal.coe_mul]
theorem bnRow_coe (a' : Mat 50000 128) (mu' var' ga' be' : Mat 1 128)
    (a : Fin 50000 → Fin 128 → ℝ) (ga be : Fin 128 → ℝ)
    (ha : ∀ n j, a' (ix2 n j) = ((a n j : ℝ) : EReal))
    (hmu : ∀ j, mu' (ix2 0 j) = ((mean a j : ℝ) : EReal))
    (hvar : ∀ j, var' (ix2 0 j) = ((var a j : ℝ) : EReal))
    (hga : ∀ j, ga' (ix2 0 j) = ((ga j : ℝ) : EReal))
    (hbe : ∀ j, be' (ix2 0 j) = ((be j : ℝ) : EReal)) :
    ∀ n j, bnRow a' mu' var' ga' be' (ix2 n j) = ((bn a ga be n j : ℝ) : EReal) := by
  intro n j
  have hpos : 0 < var a j + eps := add_pos_of_nonneg_of_pos (Alg.var_nonneg a j) Alg.eps_pos
  show ga' (ix2 0 j) * (a' (ix2 n j) - mu' (ix2 0 j)) * Ideal.rsqrt (var' (ix2 0 j) + epsE) + be' (ix2 0 j) = _
  rw [hga j, ha n j, hmu j, hvar j, hbe j, epsE, Alg.eps_coe, ← EReal.coe_sub, ← EReal.coe_add, Alg.rsqrt_coe_pos hpos,
    ← EReal.coe_mul, ← EReal.coe_mul, ← EReal.coe_add]
  rfl
theorem linBn_coe (a1 : IVec (⟨2, ![2, 800000]⟩ : Shape) 32) (a' : Mat 50000 128) (mu' var' ga' be' : Mat 1 128)
    (w : Mat 128 128) (d2 : Mat 50000 1)
    (a : Fin 50000 → Fin 128 → ℝ) (ga be : Fin 128 → ℝ) (Wl : Fin 128 → Fin 128 → ℝ)
    (ha : ∀ n j, a' (ix2 n j) = ((a n j : ℝ) : EReal))
    (hmu : ∀ j, mu' (ix2 0 j) = ((mean a j : ℝ) : EReal))
    (hvar : ∀ j, var' (ix2 0 j) = ((var a j : ℝ) : EReal))
    (hga : ∀ j, ga' (ix2 0 j) = ((ga j : ℝ) : EReal))
    (hbe : ∀ j, be' (ix2 0 j) = ((be j : ℝ) : EReal))
    (hw : ∀ k j, w (ix2 k j) = ((Wl k j : ℝ) : EReal))
    (hd : ∀ n, d2 (ix2 n 0) = ((dinv a1 n : ℝ) : EReal)) :
    ∀ n j, linBn a' mu' var' ga' be' w d2 (ix2 n j) = ((dinv a1 n * lin (bn a ga be) Wl n j : ℝ) : EReal) := by
  intro n j
  show d2 (ix2 n 0) * ∑ k : Fin 128, bnRow a' mu' var' ga' be' (ix2 n k) * w (ix2 k j) = _
  have hk : ∀ k : Fin 128, bnRow a' mu' var' ga' be' (ix2 n k) * w (ix2 k j) = ((bn a ga be n k * Wl k j : ℝ) : EReal) :=
    fun k => by rw [bnRow_coe a' mu' var' ga' be' a ga be ha hmu hvar hga hbe n k, hw k j, ← EReal.coe_mul]
  rw [hd n, Finset.sum_congr rfl fun k _ => hk k, ← Alg.coe_sum, ← EReal.coe_mul]
  rfl
theorem poolSums_coe (a2 : IVec (⟨1, ![50000]⟩ : Shape) 32) (bt2 : IVec (⟨2, ![50000, 1]⟩ : Shape) 32)
    (a' : Mat 50000 128) (mu' var' ga' be' : Mat 1 128)
    (a : Fin 50000 → Fin 128 → ℝ) (ga be : Fin 128 → ℝ)
    (hbt : ∀ n, bt2 (ix2 n 0) = a2 (ix1 n))
    (ha : ∀ n j, a' (ix2 n j) = ((a n j : ℝ) : EReal))
    (hmu : ∀ j, mu' (ix2 0 j) = ((mean a j : ℝ) : EReal))
    (hvar : ∀ j, var' (ix2 0 j) = ((var a j : ℝ) : EReal))
    (hga : ∀ j, ga' (ix2 0 j) = ((ga j : ℝ) : EReal))
    (hbe : ∀ j, be' (ix2 0 j) = ((be j : ℝ) : EReal)) :
    ∀ q j, poolSums bt2 a' mu' var' ga' be' (ix2 q j) = ((∑ n ∈ segment a2 q, bn a ga be n j : ℝ) : EReal) := by
  intro q j
  show ∑ n : Fin 50000, (if bt2 (ix2 n 0) = BitVec.ofNat 32 q.val then (1 : EReal) else 0)
      * bnRow a' mu' var' ga' be' (ix2 n j) = _
  have hn : ∀ n : Fin 50000, (if bt2 (ix2 n 0) = BitVec.ofNat 32 q.val then (1 : EReal) else 0)
      * bnRow a' mu' var' ga' be' (ix2 n j)
      = (if (a2 (ix1 n)).toInt = (q.val : ℤ) then (1 : EReal) else 0) * ((bn a ga be n j : ℝ) : EReal) := fun n => by
    rw [hbt n, bnRow_coe a' mu' var' ga' be' a ga be ha hmu hvar hga hbe n j,
      if_congr (seg_word_iff (a2 (ix1 n)) q) rfl rfl]
  rw [Finset.sum_congr rfl fun n _ => hn n, onehot_sum (fun n => (a2 (ix1 n)).toInt = (q.val : ℤ)) (fun n => bn a ga be n j)]
  rfl
theorem poolCounts_coe (a2 : IVec (⟨1, ![50000]⟩ : Shape) 32) (bt2 : IVec (⟨2, ![50000, 1]⟩ : Shape) 32)
    (hbt : ∀ n, bt2 (ix2 n 0) = a2 (ix1 n)) :
    ∀ q, poolCounts bt2 (ix2 0 q) = (((segment a2 q).card : ℝ) : EReal) := by
  intro q
  show ∑ n : Fin 50000, (if bt2 (ix2 n 0) = BitVec.ofNat 32 q.val then (1 : EReal) else 0) = _
  have hn : ∀ n : Fin 50000, (if bt2 (ix2 n 0) = BitVec.ofNat 32 q.val then (1 : EReal) else 0)
      = (if (a2 (ix1 n)).toInt = (q.val : ℤ) then (1 : EReal) else 0) := fun n => by
    rw [hbt n, if_congr (seg_word_iff (a2 (ix1 n)) q) rfl rfl]
  rw [Finset.sum_congr rfl fun n _ => hn n, onehot_card (fun n => (a2 (ix1 n)).toInt = (q.val : ℤ))]
  rfl
theorem mean_coe (s' : Mat 1 128) (a : Fin 50000 → Fin 128 → ℝ)
    (hs : ∀ j, s' (ix2 0 j) = ((∑ n, a n j : ℝ) : EReal)) :
    ∀ j, Ideal.div (s' (ix2 0 j)) ((50000 : ℝ) : EReal) = ((mean a j : ℝ) : EReal) := by
  intro j
  rw [hs j, Ideal.div_coe (by norm_num : (50000 : ℝ) ≠ 0), ← EReal.coe_mul]
  rfl
theorem var_coe_row (q' mu' : Mat 1 128) (a : Fin 50000 → Fin 128 → ℝ)
    (hq : ∀ j, q' (ix2 0 j) = ((∑ n, a n j * a n j : ℝ) : EReal))
    (hmu : ∀ j, mu' (ix2 0 j) = ((mean a j : ℝ) : EReal)) :
    ∀ j, max (Ideal.div (q' (ix2 0 j)) ((50000 : ℝ) : EReal) - mu' (ix2 0 j) * mu' (ix2 0 j)) 0
      = ((var a j : ℝ) : EReal) := by
  intro j
  rw [hmu j, hq j, Ideal.div_coe (by norm_num : (50000 : ℝ) ≠ 0), ← EReal.coe_mul, ← EReal.coe_mul, ← EReal.coe_sub,
    ← EReal.coe_zero, Alg.max_coe, Alg.var_from_moments]
theorem pool_coe_row (a2 : IVec (⟨1, ![50000]⟩ : Shape) 32) (S' : Mat 64 128) (C' : Mat 1 64)
    (h : Fin 50000 → Fin 128 → ℝ)
    (hS : ∀ q j, S' (ix2 q j) = ((∑ n ∈ segment a2 q, h n j : ℝ) : EReal))
    (hC : ∀ q, C' (ix2 0 q) = (((segment a2 q).card : ℝ) : EReal)) :
    ∀ q j, Ideal.div (S' (ix2 q j)) (max (C' (ix2 0 q)) 1) = ((pool a2 h q j : ℝ) : EReal) := by
  intro q j
  have hne : max ((segment a2 q).card : ℝ) 1 ≠ 0 := ne_of_gt (lt_of_lt_of_le one_pos (le_max_right _ _))
  rw [hS q j, hC q, ← EReal.coe_one, Alg.max_coe, Ideal.div_coe hne, ← EReal.coe_mul]
  rfl
end Cert.Hand.KMath
end
-- ==== Proof.Alg.HostRead.lean ====
import Idealize.ShloMosaic.Lib.IdealHost
import Idealize.ShloMosaic.Lib.ValueLayout
import Idealize.ShloMosaic.Lib.KernelVsHost
import Idealize.ShloMosaic.Lib.StableHlo.Predicate
import Idealize.ShloMosaic.PureOps.Ideal.Laws
import proofs.«412548_j82308753260928_3_alg».proof.Proof.Spec
import proofs.«412548_j82308753260928_3_alg».proof.Proof.Alg.Real
noncomputable section
open scoped BigOperators
namespace Cert.Hand.HostRead
open Idealize.ShloMosaic Idealize.ShloMosaic.ValueIdx
section Bcast
variable {α : Type}
open StableHlo.Predicate
theorem bcast_vec_oneRow_apply {n : Nat} (h : (⟨1, ![n]⟩ : Shape).BroadcastsInDim ⟨2, ![1, n]⟩ ![1])
    (v : (⟨1, ![n]⟩ : Shape).Idx → α) (u : Fin 1) (j : Fin n) :
    broadcastInDim ⟨2, ![1, n]⟩ ![1] h v (ix2 u j) = v (ix1 j) := by
  obtain rfl : u = 0 := Subsingleton.elim _ _
  rw [show ix2 (0 : Fin 1) j = i1q j from (eq_ix2 _).symm, bcast_row1]
  exact congrArg v (eq_ix1 _)
theorem rows_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (j : Fin n) :
    broadcastInDim ⟨2, ![m, n]⟩ ![0, 1] h2 (broadcastInDim ⟨2, ![1, n]⟩ ![1] h1 v) (ix2 r j) = v (ix1 j) := by
  rw [show ix2 r j = ij r j from (eq_ix2 _).symm, bcast_cols]
  exact congrArg v (eq_ix1 _)
theorem cols_apply {e n : Nat} (h1 : (⟨1, ![e]⟩ : Shape).BroadcastsInDim ⟨2, ![e, 1]⟩ ![0])
    (h2 : (⟨2, ![e, 1]⟩ : Shape).BroadcastsInDim ⟨2, ![e, n]⟩ ![0, 1])
    (v : (⟨1, ![e]⟩ : Shape).Idx → α) (i : Fin e) (j : Fin n) :
    broadcastInDim ⟨2, ![e, n]⟩ ![0, 1] h2 (broadcastInDim ⟨2, ![e, 1]⟩ ![0] h1 v) (ix2 i j) = v (ix1 i) := by
  rw [show ix2 i j = ij i j from (eq_ix2 _).symm, bcast_rows]
  exact congrArg v (eq_ix1 _)
end Bcast
section Stack
variable {α : Type}
theorem vec_of_stack_apply {m n : Nat} (st : Fin 2 → Nat) (hs : (⟨2, ![m, n]⟩ : Shape).Slices st ⟨2, ![1, n]⟩)
    (hc : (⟨2, ![1, n]⟩ : Shape).ShapeCasts ⟨1, ![n]⟩) (a : (⟨2, ![m, n]⟩ : Shape).Idx → α)
    (l : Fin m) (h0 : st 0 = l.val) (h1 : st 1 = 0) (j : Fin n) :
    shapeCast ⟨1, ![n]⟩ (extractStridedSlice ⟨2, ![1, n]⟩ st a hs) hc (ix1 j) = a (ix2 l j) := by
  rw [shapeCast_1a_a_apply]
  refine extractStridedSlice_apply st a hs _ (ix2 l j) ?_
  intro c
  match c with
  | ⟨0, _⟩ => show l.val = st 0 + 0; omega
  | ⟨1, _⟩ => show j.val = st 1 + j.val; omega
theorem mat_of_stack_apply {m a b : Nat} (st : Fin 3 → Nat) (hs : (⟨3, ![m, a, b]⟩ : Shape).Slices st ⟨3, ![1, a, b]⟩)
    (hc : (⟨3, ![1, a, b]⟩ : Shape).ShapeCasts ⟨2, ![a, b]⟩) (x : (⟨3, ![m, a, b]⟩ : Shape).Idx → α)
    (l : Fin m) (h0 : st 0 = l.val) (h1 : st 1 = 0) (h2 : st 2 = 0) (i : Fin a) (j : Fin b) :
    shapeCast ⟨2, ![a, b]⟩ (extractStridedSlice ⟨3, ![1, a, b]⟩ st x hs) hc (ix2 i j) = x (ix3 l i j) := by
  rw [shapeCast_1ab_ab_apply]
  refine extractStridedSlice_apply st x hs _ (ix3 l i j) ?_
  intro c
  match c with
  | ⟨0, _⟩ => show l.val = st 0 + 0; omega
  | ⟨1, _⟩ => show i.val = st 1 + i.val; omega
  | ⟨2, _⟩ => show j.val = st 2 + j.val; omega
end Stack
-- Reducing the first axis of a matrix sums each column over its rows.
theorem reduce_rows_apply {m n : Nat} {φ : FTy} (h' : (⟨2, ![m, n]⟩ : Shape).ReducesTo [0] ⟨1, ![n]⟩)
    (h : (⟨2, ![m, n]⟩ : Shape).Reduces [0] ⟨1, ![n]⟩) (x : FVec Ideal ⟨2, ![m, n]⟩ φ)
    (init : (⟨0, ![]⟩ : Shape).Idx → Ideal φ) (hu : 0 < (⟨0, ![]⟩ : Shape).numel) (j : Fin n) :
    Host.reduceAdd x init h' hu (ix1 j) = init ix0 + ∑ r : Fin m, x (ix2 r j) := by
  rw [hostReduceAdd_apply, Ideal.hostReduceAdd_single h' h, eq_ix0 (Shape.Idx.first hu)]
  congr 1
  refine Finset.sum_congr rfl fun r _ => congrArg x ?_
  funext c
  match c with
  | ⟨0, _⟩ => rfl
  | ⟨1, _⟩ => rfl
section Elementwise
variable {s : Shape} {φ : FTy}
theorem hostRsqrt_apply (a : FVec Ideal s φ) (i : s.Idx) : Host.rsqrt a i = Ideal.rsqrt (a i) := rfl
theorem select_ofBool {α : Type} (p : Prop) [Decidable p] (x y : α) :
    Scalar.select (BitVec.ofBool (decide p)) x y = if p then x else y := by
  by_cases hp : p
  · rw [if_pos hp, decide_eq_true hp]; exact select_one x y
  · rw [if_neg hp, decide_eq_false hp]; exact select_zero x y
theorem select_scalar_apply {α : Type} (hb : (⟨0, ![]⟩ : Shape).BroadcastsInDim s ![]) (c : IVec ⟨0, ![]⟩ 1)
    (x y : s.Idx → α) (i : s.Idx) :
    select (broadcastInDim s ![] hb c) x y i = Scalar.select (c ix0) (x i) (y i) := by
  rw [select_apply, broadcastInDim_scalar_apply]
end Elementwise
section Stats
variable (a : FVec Ideal ⟨2, ![50000, 128]⟩ .f32) (A : Fin 50000 → Fin 128 → ℝ)
  (ha : ∀ n j, a (ix2 n j) = ((A n j : ℝ) : EReal))
  (h' : (⟨2, ![50000, 128]⟩ : Shape).ReducesTo [0] ⟨1, ![128]⟩)
  (hu : 0 < (⟨0, ![]⟩ : Shape).numel)
open Cert.Hand.Alg Cert.Hand.Spec
include ha in
theorem colsum_apply (j : Fin 128) :
    Host.reduceAdd a (constant ⟨0, ![]⟩ .f32 0x00000000#32) h' hu (ix1 j) = ((∑ n, A n j : ℝ) : EReal) := by
  rw [reduce_rows_apply h' (by decide), constant_apply, ofBits_zero]
  simp only [ha]
  rw [sum_coe, add_coe, zero_add]
include ha in
theorem mu_apply (hb : (⟨0, ![]⟩ : Shape).BroadcastsInDim ⟨1, ![128]⟩ ![]) (j : Fin 128) :
    Host.divf (Host.reduceAdd a (constant ⟨0, ![]⟩ .f32 0x00000000#32) h' hu)
        (broadcastInDim ⟨1, ![128]⟩ ![] hb (constant ⟨0, ![]⟩ .f32 0x47435000#32)) (ix1 j)
      = ((mean A j : ℝ) : EReal) := by
  rw [hostDivf_apply, colsum_apply a A ha h' hu, broadcastInDim_scalar_apply, constant_apply, ofBits_N,
    div_coe_coe _ (by norm_num)]
  rfl
include ha in
theorem dev_apply (h1 : (⟨1, ![128]⟩ : Shape).BroadcastsInDim ⟨2, ![1, 128]⟩ ![1])
    (h2 : (⟨2, ![1, 128]⟩ : Shape).BroadcastsInDim ⟨2, ![50000, 128]⟩ ![0, 1])
    (hb : (⟨0, ![]⟩ : Shape).BroadcastsInDim ⟨2, ![1, 128]⟩ ![]) (n : Fin 50000) (j : Fin 128) :
    subf a (broadcastInDim ⟨2, ![50000, 128]⟩ ![0, 1] h2
        (Host.divf (broadcastInDim ⟨2, ![1, 128]⟩ ![1] h1
            (Host.reduceAdd a (constant ⟨0, ![]⟩ .f32 0x00000000#32) h' hu))
          (broadcastInDim ⟨2, ![1, 128]⟩ ![] hb (constant ⟨0, ![]⟩ .f32 0x47435000#32)))) (ix2 n j)
      = ((A n j - mean A j : ℝ) : EReal) := by
  rw [subf_apply, broadcastInDim_oneRow_apply h2, hostDivf_apply, bcast_vec_oneRow_apply h1,
    colsum_apply a A ha h' hu, broadcastInDim_scalar_apply, constant_apply, ofBits_N, div_coe_coe _ (by norm_num), ha,
    sub_coe]
  rfl
theorem dof_apply :
    (subf (constant ⟨0, ![]⟩ .f32 0x47435000#32) (sitofp .f32 (constantI ⟨0, ![]⟩ 32 0#32)) :
        FVec Ideal ⟨0, ![]⟩ .f32) ix0 = ((50000 : ℝ) : EReal) := by
  rw [subf_apply, constant_apply, ofBits_N]
  show ((50000 : ℝ) : EReal) - (((0#32 : BitVec 32).toInt : ℝ) : EReal) = _
  rw [sub_coe]
  norm_num
theorem var_apply (dev : FVec Ideal ⟨2, ![50000, 128]⟩ .f32)
    (hdev : ∀ n j, dev (ix2 n j) = ((A n j - mean A j : ℝ) : EReal))
    (dof : FVec Ideal ⟨0, ![]⟩ .f32) (hdof : dof ix0 = ((50000 : ℝ) : EReal))
    (other : FVec Ideal ⟨1, ![128]⟩ .f32)
    (hb : (⟨0, ![]⟩ : Shape).BroadcastsInDim ⟨1, ![128]⟩ ![]) (j : Fin 128) :
    select (broadcastInDim ⟨1, ![128]⟩ ![] hb (cmpf .ogt dof (constant ⟨0, ![]⟩ .f32 0x00000000#32)))
        (Host.divf (Host.reduceAdd (mulf dev dev) (constant ⟨0, ![]⟩ .f32 0x00000000#32) h' hu)
          (broadcastInDim ⟨1, ![128]⟩ ![] hb dof)) other (ix1 j)
      = ((var A j : ℝ) : EReal) := by
  have hsq : ∀ n j, mulf dev dev (ix2 n j) = (((A n j - mean A j) * (A n j - mean A j) : ℝ) : EReal) := fun n j => by
    rw [mulf_apply, hdev, mul_coe]
  rw [select_scalar_apply, cmpf_apply, hdof, constant_apply, ofBits_zero]
  show Scalar.select (Ideal.cmp .ogt ((50000 : ℝ) : EReal) ((0 : ℝ) : EReal)) _ _ = _
  rw [cmp_ogt_coe, select_ofBool, if_pos (by norm_num), hostDivf_apply,
    colsum_apply (mulf dev dev) (fun n j => (A n j - mean A j) * (A n j - mean A j)) hsq h' hu,
    broadcastInDim_scalar_apply, hdof, div_coe_coe _ (by norm_num)]
  rfl
include ha in
theorem next_apply (h1 : (⟨1, ![128]⟩ : Shape).BroadcastsInDim ⟨2, ![1, 128]⟩ ![1])
    (h2 : (⟨2, ![1, 128]⟩ : Shape).BroadcastsInDim ⟨2, ![50000, 128]⟩ ![0, 1])
    (hb : (⟨0, ![]⟩ : Shape).BroadcastsInDim ⟨1, ![128]⟩ ![])
    (g mu vr bt : FVec Ideal ⟨1, ![128]⟩ .f32) (ga be : Fin 128 → ℝ)
    (hg : ∀ j, g (ix1 j) = ((ga j : ℝ) : EReal)) (hmu : ∀ j, mu (ix1 j) = ((mean A j : ℝ) : EReal))
    (hvr : ∀ j, vr (ix1 j) = ((var A j : ℝ) : EReal)) (hbt : ∀ j, bt (ix1 j) = ((be j : ℝ) : EReal))
    (n : Fin 50000) (j : Fin 128) :
    addf (mulf (mulf (broadcastInDim ⟨2, ![50000, 128]⟩ ![0, 1] h2 (broadcastInDim ⟨2, ![1, 128]⟩ ![1] h1 g))
          (subf a (broadcastInDim ⟨2, ![50000, 128]⟩ ![0, 1] h2 (broadcastInDim ⟨2, ![1, 128]⟩ ![1] h1 mu))))
        (broadcastInDim ⟨2, ![50000, 128]⟩ ![0, 1] h2 (broadcastInDim ⟨2, ![1, 128]⟩ ![1] h1
          (Host.rsqrt (addf vr (broadcastInDim ⟨1, ![128]⟩ ![] hb (constant ⟨0, ![]⟩ .f32 0x3727C5AC#32)))))))
      (broadcastInDim ⟨2, ![50000, 128]⟩ ![0, 1] h2 (broadcastInDim ⟨2, ![1, 128]⟩ ![1] h1 bt)) (ix2 n j)
      = ((bn A ga be n j : ℝ) : EReal) := by
  have hpos : 0 < var A j + eps := add_pos_of_nonneg_of_pos (var_nonneg A j) eps_pos
  rw [addf_apply, mulf_apply, mulf_apply, subf_apply, rows_apply h1 h2, rows_apply h1 h2, rows_apply h1 h2,
    rows_apply h1 h2, hostRsqrt_apply, addf_apply, broadcastInDim_scalar_apply, constant_apply, eps_coe,
    hg, hmu, hvr, hbt, ha, add_coe, rsqrt_coe_pos hpos, sub_coe, mul_coe, mul_coe, add_coe]
  rfl
end Stats
end Cert.Hand.HostRead
end
-- ==== Proof.Val.KOutMath.lean ====
import proofs.«412548_j82308753260928_3_alg».proof.Proof.Val.KDefs
import proofs.«412548_j82308753260928_3_alg».proof.Proof.Spec
import proofs.«412548_j82308753260928_3_alg».proof.Proof.Alg.Real
import proofs.«412548_j82308753260928_3_alg».proof.Proof.Alg.Edges
import proofs.«412548_j82308753260928_3_alg».proof.Proof.Alg.KMath
import proofs.«412548_j82308753260928_3_alg».proof.Proof.Alg.HostRead
import proofs.«412548_j82308753260928_3_alg».proof.Proof.LibPlainDot
import Idealize.ShloMosaic.Lib.ValueIdx
import Idealize.ShloMosaic.Lib.ValueLayout
import Idealize.ShloMosaic.Lib.IdealHost
noncomputable section
namespace Cert.KernelIdeal.Hand
open Idealize.ShloMosaic Idealize.ShloMosaic.ValueIdx
open Cert.KernelIdeal Cert.KernelIdeal.Gen
open Cert.Hand
open scoped BigOperators
theorem clip_inRange (hi : BitVec 32) (a : IVec S50000 32) (i : S50000.Idx)
    (h0 : 0 ≤ (a i).toInt) (h1 : (a i).toInt ≤ hi.toInt) : kClip hi a i = a i := by
  unfold kClip
  show IntOp.minsi (broadcastInDim S50000 ![] bcast_S_S50000 (constantI S_ 32 hi) i)
    (IntOp.maxsi (broadcastInDim S50000 ![] bcast_S_S50000 (constantI S_ 32 0#32) i) (a i)) = a i
  rw [broadcastInDim_scalar_apply, broadcastInDim_scalar_apply, constantI_apply, constantI_apply]
  have hm : IntOp.maxsi 0#32 (a i) = a i := by
    unfold IntOp.maxsi
    rw [if_neg]
    rw [BitVec.slt_iff_toInt_lt]
    show ¬ (a i).toInt < (0#32).toInt
    rw [BitVec.toInt_zero]
    omega
  rw [hm]
  unfold IntOp.minsi
  rw [if_neg]
  rw [BitVec.slt_iff_toInt_lt]
  omega
theorem col_read {α : Type} (x : S50000.Idx → α) (n : Fin 50000) (u : Fin 1) :
    shapeCast S50000x1 x shapeCasts_S50000_S50000x1 (ix2 n u) = x (ix1 n) :=
  shapeCast_apply x _ _ _ (by
    have hu : u.val = 0 := by omega
    rw [Shape.rowMajor_val_one, Shape.rowMajor_val_two]
    show n.val = n.val * 1 + u.val
    omega)
theorem kX2_read (a0 : IVec S50000 32) (n : Fin 50000)
    (h : 0 ≤ (a0 (ix1 n)).toInt ∧ (a0 (ix1 n)).toInt < 30) : kX2 a0 (ix2 n 0) = a0 (ix1 n) := by
  unfold kX2
  rw [col_read]
  have h29 : (29#32 : BitVec 32).toInt = 29 := by decide
  exact clip_inRange 29#32 a0 (ix1 n) h.1 (by rw [h29]; omega)
theorem kBt2_read (a2 : IVec S50000 32) (n : Fin 50000)
    (h : 0 ≤ (a2 (ix1 n)).toInt ∧ (a2 (ix1 n)).toInt < 64) : kBt2 a2 (ix2 n 0) = a2 (ix1 n) := by
  unfold kBt2
  rw [col_read]
  have h63 : (63#32 : BitVec 32).toInt = 63 := by decide
  exact clip_inRange 63#32 a2 (ix1 n) h.1 (by rw [h63]; omega)
theorem kW_read (l : Fin 3) (a4 : FVec Ideal S3x128x128 .f32) (k j : Fin 128) :
    kW l a4 (ix2 k j) = a4 (ix3 l k j) := by
  match l with
  | ⟨0, _⟩ => exact HostRead.mat_of_stack_apply ![0, 0, 0] _ _ a4 0 rfl rfl rfl k j
  | ⟨1, _⟩ => exact HostRead.mat_of_stack_apply ![1, 0, 0] _ _ a4 1 rfl rfl rfl k j
  | ⟨2, _⟩ => exact HostRead.mat_of_stack_apply ![2, 0, 0] _ _ a4 2 rfl rfl rfl k j
theorem kRow1_read (l : Fin 3) (a : FVec Ideal S3x128 .f32) (u : Fin 1) (j : Fin 128) :
    kRow1 l a (ix2 u j) = a (ix2 l j) := by
  unfold kRow1
  rw [shapeCast_a_1a_apply]
  match l with
  | ⟨0, _⟩ => exact HostRead.vec_of_stack_apply ![0, 0] _ _ a 0 rfl rfl j
  | ⟨1, _⟩ => exact HostRead.vec_of_stack_apply ![1, 0] _ _ a 1 rfl rfl j
  | ⟨2, _⟩ => exact HostRead.vec_of_stack_apply ![2, 0] _ _ a 2 rfl rfl j
theorem kEW0_read (a3 : FVec Ideal S30x128 .f32) (a4 : FVec Ideal S3x128x128 .f32) (v : Fin 30) (j : Fin 128) :
    kEW0 a3 a4 (ix2 v j) = ∑ k : Fin 128, a3 (ix2 v k) * a4 (ix3 0 k j) := by
  unfold kEW0
  show FloatOps.dotGeneral (DotDims.plain 30 128 128) none .single a3 (kW 0 a4) (ix2 v j) = _
  rw [Cert.Lib.PlainDot.dotGeneral_apply]
  exact Finset.sum_congr rfl fun k _ => by rw [kW_read]
theorem splat_read (T : Shape) (h : S_.BroadcastsInDim T ![]) (b : BitVec 32) (i : T.Idx) :
    broadcastInDim T ![] h (constant (F := Ideal) S_ .f32 b) i = Ideal.ofBits .f32 b := by
  rw [broadcastInDim_scalar_apply]
  rfl
theorem kMu_read (s : FVec Ideal S1x128 .f32) (j : S1x128.Idx) :
    kMu s j = Ideal.div (s j) ((50000 : ℝ) : EReal) := by
  unfold kMu
  rw [hostDivf_apply, splat_read, Alg.ofBits_N]
theorem kVar_read (s q : FVec Ideal S1x128 .f32) (j : S1x128.Idx) :
    kVar s q j = max (Ideal.div (q j) ((50000 : ℝ) : EReal) - kMu s j * kMu s j) 0 := by
  unfold kVar
  rw [maximumf_apply, subf_apply, mulf_apply, hostDivf_apply, splat_read, splat_read, Alg.ofBits_N, Alg.ofBits_zero,
    EReal.coe_zero]
theorem kFinal_read (sums : FVec Ideal S64x128 .f32) (counts : FVec Ideal S1x64 .f32) (q : Fin 64) (j : Fin 128) :
    kFinal sums counts (ix2 q j) = Ideal.div (sums (ix2 q j)) (max (counts (ix2 0 q)) 1) := by
  unfold kFinal
  rw [hostDivf_apply]
  congr 1
  rw [broadcastInDim_apply ![0, 1] bcast_S64x1_S64x128_0_1 _ (ix2 q j) (ix2 q 0) (fun a => by
    match a with
    | ⟨0, _⟩ => rfl
    | ⟨1, _⟩ => rfl)]
  rw [maximumf_apply, splat_read, Alg.ofBits_one, EReal.coe_one]
  congr 1
  exact shapeCast_apply counts _ _ _ (by
    rw [Shape.rowMajor_val_two, Shape.rowMajor_val_two]
    show 0 * 64 + q.val = q.val * 1 + 0
    omega)
theorem kDinv2_read (a1 : IVec S2x800000 32) (n : Fin 50000) :
    kDinv2 a1 (ix2 n 0) = ((Spec.dinv a1 n : ℝ) : EReal) := by
  unfold kDinv2
  rw [col_read]
  exact Edges.dinvHost_apply a1 slices_S2x800000_S1x800000_1_0 shapeCasts_S1x800000_S800000
    concatenates_S800000_S50000_S850000_d0 bcast_S850000_S850000x1_0 bcast_S_S50000 bcast_S_S850000
    scatter_S50000_S850000x1_S850000_n_0_0_1_wf n
theorem kAgg_read (a1 : IVec S2x800000 32) (mOut : FVec Ideal S50000x128 .f32) (n : Fin 50000) (j : Fin 128) :
    kAgg a1 mOut (ix2 n j) = ∑ e ∈ Spec.into a1 n, mOut (ix2 (Spec.src a1 e) j) :=
  Edges.scatter_gather_rows a1 slices_S2x800000_S1x800000_0_0 slices_S2x800000_S1x800000_1_0 shapeCasts_S1x800000_S800000
    concatenates_S800000_S50000_S850000_d0 bcast_S_S850000 bcast_S850000_S850000x1_0 bcast_S_S50000x128
    gather_S50000x128_S850000x1_S850000x128_1_0_n_n_0_1_1128_wf scatter_S50000x128_S850000x1_S850000x128_1_0_0_1_wf
    mOut n j
abbrev coe2 {r c : Nat} (M : Fin r → Fin c → ℝ) : (⟨2, ![r, c]⟩ : Shape).Idx → EReal :=
  fun i => ((M (i 0) (i 1) : ℝ) : EReal)
abbrev coe3 {p r c : Nat} (M : Fin p → Fin r → Fin c → ℝ) : (⟨3, ![p, r, c]⟩ : Shape).Idx → EReal :=
  fun i => ((M (i 0) (i 1) (i 2) : ℝ) : EReal)
section Thread
variable (a1 : IVec S2x800000 32)
variable (hD : ∀ n : Fin 50000, kDinv2 a1 (ix2 n 0) = ((Spec.dinv a1 n : ℝ) : EReal))
variable (hA : ∀ (mOut : FVec Ideal S50000x128 .f32) (n : Fin 50000) (j : Fin 128),
  kAgg a1 mOut (ix2 n j) = ∑ e ∈ Spec.into a1 n, mOut (ix2 (Spec.src a1 e) j))
include hD hA in
theorem kAct_coe (b : Fin 3 → Fin 128 → ℝ) (l : Fin 3) (mOut : FVec Ideal S50000x128 .f32)
    (mm : Fin 50000 → Fin 128 → ℝ)
    (hm : ∀ n j, mOut (ix2 n j) = ((Spec.dinv a1 n * mm n j : ℝ) : EReal)) :
    ∀ n j, kAct a1 (coe2 b) l mOut (ix2 n j) = ((Spec.act (Spec.agg a1 mm) (b l) n j : ℝ) : EReal) := by
  unfold kAct
  refine KMath.reluOut_coe a1 _ _ _ mm (b l) ?_ hD ?_
  · intro n j
    rw [hA, Alg.coe_sum]
    exact Finset.sum_congr rfl fun e _ => hm _ _
  · intro j
    unfold kBias
    rw [kRow1_read]
theorem kMuOf_coe (a : FVec Ideal S50000x128 .f32) (A : Fin 50000 → Fin 128 → ℝ)
    (ha : ∀ n j, a (ix2 n j) = ((A n j : ℝ) : EReal)) :
    ∀ j, kMuOf a (ix2 0 j) = ((Spec.mean A j : ℝ) : EReal) := by
  intro j
  unfold kMuOf
  rw [kMu_read]
  exact KMath.mean_coe (KSpec.colSum a) A (KMath.colSum_coe a A ha) j
theorem kVarOf_coe (a : FVec Ideal S50000x128 .f32) (A : Fin 50000 → Fin 128 → ℝ)
    (ha : ∀ n j, a (ix2 n j) = ((A n j : ℝ) : EReal)) :
    ∀ j, kVarOf a (ix2 0 j) = ((Spec.var A j : ℝ) : EReal) := by
  intro j
  unfold kVarOf
  rw [kVar_read]
  exact KMath.var_coe_row (KSpec.colSumSq a) (kMu (KSpec.colSum a)) A (KMath.colSumSq_coe a A ha)
    (kMuOf_coe a A ha) j
include hD in
theorem kLin_coe (W : Fin 3 → Fin 128 → Fin 128 → ℝ) (ga be : Fin 3 → Fin 128 → ℝ) (l lw : Fin 3)
    (a : FVec Ideal S50000x128 .f32) (A : Fin 50000 → Fin 128 → ℝ)
    (ha : ∀ n j, a (ix2 n j) = ((A n j : ℝ) : EReal)) :
    ∀ n j, kLin a1 (coe3 W) (coe2 ga) (coe2 be) l lw a (ix2 n j)
      = ((Spec.dinv a1 n * Spec.lin (Spec.bn A (ga l) (be l)) (W lw) n j : ℝ) : EReal) := by
  unfold kLin
  refine KMath.linBn_coe a1 a _ _ _ _ _ _ A (ga l) (be l) (W lw) ha (kMuOf_coe a A ha) (kVarOf_coe a A ha) ?_ ?_ ?_ hD
  · intro j
    unfold kGamma
    rw [kRow1_read]
  · intro j
    unfold kBeta
    rw [kRow1_read]
  · intro k j
    rw [kW_read]
include hD in
theorem kM0_coe (a0 : IVec S50000 32) (hx : ∀ i, 0 ≤ (a0 i).toInt ∧ (a0 i).toInt < 30)
    (embed : Fin 30 → Fin 128 → ℝ) (W : Fin 3 → Fin 128 → Fin 128 → ℝ) :
    ∀ n j, kM0 a0 a1 (coe2 embed) (coe3 W) (ix2 n j)
      = ((Spec.dinv a1 n * Spec.lin (fun n k => embed (Spec.idOf a0 n) k) (W 0) n j : ℝ) : EReal) := by
  unfold kM0
  refine KMath.embedLin_coe a0 a1 _ _ _ embed (W 0) (fun n => kX2_read a0 n (hx (ix1 n))) (fun n => hx (ix1 n)) ?_ hD
  intro v j
  rw [kEW0_read, Alg.coe_sum]
  exact Finset.sum_congr rfl fun k _ => (EReal.coe_mul _ _).symm
include hD hA in
theorem kOut_coe (a0 : IVec S50000 32) (a2 : IVec S50000 32)
    (embed : Fin 30 → Fin 128 → ℝ) (W : Fin 3 → Fin 128 → Fin 128 → ℝ) (b ga be : Fin 3 → Fin 128 → ℝ)
    (hx : ∀ i, 0 ≤ (a0 i).toInt ∧ (a0 i).toInt < 30) (hb : ∀ i, 0 ≤ (a2 i).toInt ∧ (a2 i).toInt < 64) :
    ∀ q j, kOut a0 a1 a2 (coe2 embed) (coe3 W) (coe2 b) (coe2 ga) (coe2 be) (ix2 q j)
      = ((Spec.out a0 a1 a2 embed W b ga be q j : ℝ) : EReal) := by
  intro q j
  have h0 := kM0_coe a1 hD a0 hx embed W
  have hA0 := kAct_coe a1 hD hA b 0 _ _ h0
  have h1 := kLin_coe a1 hD W ga be 0 1 _ _ hA0
  have hA1 := kAct_coe a1 hD hA b 1 _ _ h1
  have h2 := kLin_coe a1 hD W ga be 1 2 _ _ hA1
  have hA2 := kAct_coe a1 hD hA b 2 _ _ h2
  have hbt : ∀ n : Fin 50000, kBt2 a2 (ix2 n 0) = a2 (ix1 n) := fun n => kBt2_read a2 n (hb (ix1 n))
  unfold kOut
  rw [kFinal_read]
  exact KMath.pool_coe_row a2 _ _ _
    (KMath.poolSums_coe a2 _ _ _ _ _ _ _ (ga 2) (be 2) hbt hA2 (kMuOf_coe _ _ hA2) (kVarOf_coe _ _ hA2)
      (fun j => by unfold kGamma; rw [kRow1_read]) (fun j => by unfold kBeta; rw [kRow1_read]))
    (KMath.poolCounts_coe a2 _ hbt) q j
end Thread
theorem kOut_eq (a0 : IVec S50000 32) (a1 : IVec S2x800000 32) (a2 : IVec S50000 32)
    (embed : Fin 30 → Fin 128 → ℝ) (W : Fin 3 → Fin 128 → Fin 128 → ℝ) (b ga be : Fin 3 → Fin 128 → ℝ)
    (hx : ∀ i, 0 ≤ (a0 i).toInt ∧ (a0 i).toInt < 30) (hb : ∀ i, 0 ≤ (a2 i).toInt ∧ (a2 i).toInt < 64) :
    kOut a0 a1 a2 (fun i => ((embed (i 0) (i 1) : ℝ) : EReal)) (fun i => ((W (i 0) (i 1) (i 2) : ℝ) : EReal))
        (fun i => ((b (i 0) (i 1) : ℝ) : EReal)) (fun i => ((ga (i 0) (i 1) : ℝ) : EReal))
        (fun i => ((be (i 0) (i 1) : ℝ) : EReal))
      = fun i => ((Cert.Hand.Spec.out a0 a1 a2 embed W b ga be (i 0) (i 1) : ℝ) : EReal) := by
  funext i
  obtain ⟨q, j, rfl⟩ : ∃ (q : Fin 64) (j : Fin 128), i = ix2 q j := ⟨i 0, i 1, eq_ix2 i⟩
  exact kOut_coe a1 (kDinv2_read a1) (kAgg_read a1) a0 a2 embed W b ga be hx hb q j
end Cert.KernelIdeal.Hand
end
-- ==== Proof.Ref.Run.lean ====
import proofs.«412548_j82308753260928_3_alg».proof.ReferenceIdeal
import proofs.«412548_j82308753260928_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev w0 : List (HloOp τ sig (Elt F)) :=
  [ nullary main_c (constantI S_ 32 0#32),
    unary main_c main_v0 (broadcastInDim S50000 ![] bcast_S_S50000 : (⟨S_, .i32⟩ : BufTy).Contents (Elt F) → (⟨S50000, .i32⟩ : BufTy).Contents (Elt F)),
    binary main_arg0 main_v0 main_v1 (cmpi .slt : (⟨S50000, .i32⟩ : BufTy).Contents (Elt F) → (⟨S50000, .i32⟩ : BufTy).Contents (Elt F) → (⟨S50000, .i1⟩ : BufTy).Contents (Elt F)),
    nullary main_c_0 (constantI S_ 32 30#32),
    unary main_c_0 main_v2 (broadcastInDim S50000 ![] bcast_S_S50000 : (⟨S_, .i32⟩ : BufTy).Contents (Elt F) → (⟨S50000, .i32⟩ : BufTy).Contents (Elt F)),
    binary main_arg0 main_v2 main_v3 (addi : (⟨S50000, .i32⟩ : BufTy).Contents (Elt F) → (⟨S50000, .i32⟩ : BufTy).Contents (Elt F) → (⟨S50000, .i32⟩ : BufTy).Contents (Elt F)),
    ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v4 main_v5 (broadcastInDim S50000x1 ![0] bcast_S50000_S50000x1_0 : (⟨S50000, .i32⟩ : BufTy).Contents (Elt F) → (⟨S50000x1, .i32⟩ : BufTy).Contents (Elt F)),
    binary main_arg3 main_v5 main_v6 ((fun x i => Host.gather gather_S30x128_S50000x1_S50000x128_1_0_n_n_0_1_1128 x i) : (⟨S30x128, .f32⟩ : BufTy).Contents (Elt F) → (⟨S50000x1, .i32⟩ : BufTy).Contents (Elt F) → (⟨S50000x128, .f32⟩ : BufTy).Contents (Elt F)),
    nullary main_v7 (iotaInDim S50000 32 0),
    unary main_arg1 main_v8 ((extractStridedSlice S1x800000 ![0, 0] · slices_S2x800000_S1x800000_0_0) : (⟨S2x800000, .i32⟩ : BufTy).Contents (Elt F) → (⟨S1x800000, .i32⟩ : BufTy).Contents (Elt F)),
    reshape main_v8 main_v9 rfl shapeCasts_S1x800000_S800000,
    binary main_v9 main_v7 main_v10 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v11 ((extractStridedSlice S1x800000 ![1, 0] · slices_S2x800000_S1x800000_1_0) : (⟨S2x800000, .i32⟩ : BufTy).Contents (Elt F) → (⟨S1x800000, .i32⟩ : BufTy).Contents (Elt F)),
    reshape main_v11 main_v12 rfl shapeCasts_S1x800000_S800000,
    binary main_v12 main_v7 main_v13 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

abbrev w1 : List (HloOp τ sig (Elt F)) :=
  [ nullary main_cst (constant S_ .f32 0x3F800000#32),
    unary main_cst main_v14 (broadcastInDim S850000 ![] bcast_S_S850000 : (⟨S_, .f32⟩ : BufTy).Contents (Elt F) → (⟨S850000, .f32⟩ : BufTy).Contents (Elt F)),
    nullary main_cst_1 (constant S_ .f32 0x00000000#32),
    unary main_cst_1 main_v15 (broadcastInDim S50000 ![] bcast_S_S50000 : (⟨S_, .f32⟩ : BufTy).Contents (Elt F) → (⟨S50000, .f32⟩ : BufTy).Contents (Elt F)),
    unary main_v13 main_v16 (broadcastInDim S850000x1 ![0] bcast_S850000_S850000x1_0 : (⟨S850000, .i32⟩ : BufTy).Contents (Elt F) → (⟨S850000x1, .i32⟩ : BufTy).Contents (Elt F)),
    ternary main_v15 main_v16 main_v14 main_v17 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_2 (constant S_ .f32 0x00000000#32),
    unary main_cst_2 main_v18 (broadcastInDim S50000 ![] bcast_S_S50000 : (⟨S_, .f32⟩ : BufTy).Contents (Elt F) → (⟨S50000, .f32⟩ : BufTy).Contents (Elt F)),
    binary main_v17 main_v18 main_v19 (cmpf .ogt : (⟨S50000, .f32⟩ : BufTy).Contents (Elt F) → (⟨S50000, .f32⟩ : BufTy).Contents (Elt F) → (⟨S50000, .i1⟩ : BufTy).Contents (Elt F)),
    unary main_v17 main_v20 (Host.rsqrt : (⟨S50000, .f32⟩ : BufTy).Contents (Elt F) → (⟨S50000, .f32⟩ : BufTy).Contents (Elt F)),
    nullary main_cst_3 (constant S_ .f32 0x00000000#32),
    TRef.unary (TRef.of main_cst_3 : TRef sig ⟨S_, .f32⟩) main_call0.v0 id,
    TRef.unary main_call0.v0 main_call0.v1 (broadcastInDim S50000 ![] bcast_S_S50000),
    TRef.ternary (TRef.of main_v19 : TRef sig ⟨S50000, .i1⟩) (TRef.of main_v20 : TRef sig ⟨S50000, .f32⟩) main_call0.v1 main_call0.v2 select,
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v10 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v10 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v10 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v21 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_6 (constantI S_ 32 0#32),
    unary main_c_6 main_v29 (broadcastInDim S850000 ![] bcast_S_S850000 : (⟨S_, .i32⟩ : BufTy).Contents (Elt F) → (⟨S850000, .i32⟩ : BufTy).Contents (Elt F)),
    binary main_v13 main_v29 main_v30 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v31 (broadcastInDim S850000 ![] bcast_S_S850000 : (⟨S_, .i32⟩ : BufTy).Contents (Elt F) → (⟨S850000, .i32⟩ : BufTy).Contents (Elt F)),
    binary main_v13 main_v31 main_v32 (addi : (⟨S850000, .i32⟩ : BufTy).Contents (Elt F) → (⟨S850000, .i32⟩ : BufTy).Contents (Elt F) → (⟨S850000, .i32⟩ : BufTy).Contents (Elt F)),
    ternary main_v30 main_v32 main_v13 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v33 main_v34 (broadcastInDim S850000x1 ![0] bcast_S850000_S850000x1_0 : (⟨S850000, .i32⟩ : BufTy).Contents (Elt F) → (⟨S850000x1, .i32⟩ : BufTy).Contents (Elt F)),
    binary main_v21 main_v34 main_v35 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v28 main_v35 main_v36 (mulf : (⟨S850000, .f32⟩ : BufTy).Contents (Elt F) → (⟨S850000, .f32⟩ : BufTy).Contents (Elt F) → (⟨S850000, .f32⟩ : BufTy).Contents (Elt F)) ]

abbrev w2 : List (HloOp τ sig (Elt F)) :=
  [ unary main_arg4 main_v37 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v37 main_v38 rfl shapeCasts_S1x128x128_S128x128,
    binary main_v6 main_v38 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v36 main_v40 (broadcastInDim S850000x1 ![0] bcast_S850000_S850000x1_0 : (⟨S850000, .f32⟩ : BufTy).Contents (Elt F) → (⟨S850000x1, .f32⟩ : BufTy).Contents (Elt F)),
    nullary main_c_8 (constantI S_ 32 0#32),
    unary main_c_8 main_v41 (broadcastInDim S850000 ![] bcast_S_S850000 : (⟨S_, .i32⟩ : BufTy).Contents (Elt F) → (⟨S850000, .i32⟩ : BufTy).Contents (Elt F)),
    binary main_v10 main_v41 main_v42 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v43 (broadcastInDim S850000 ![] bcast_S_S850000 : (⟨S_, .i32⟩ : BufTy).Contents (Elt F) → (⟨S850000, .i32⟩ : BufTy).Contents (Elt F)),
    binary main_v10 main_v43 main_v44 (addi : (⟨S850000, .i32⟩ : BufTy).Contents (Elt F) → (⟨S850000, .i32⟩ : BufTy).Contents (Elt F) → (⟨S850000, .i32⟩ : BufTy).Contents (Elt F)),
    ternary main_v42 main_v44 main_v10 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v45 main_v46 (broadcastInDim S850000x1 ![0] bcast_S850000_S850000x1_0 : (⟨S850000, .i32⟩ : BufTy).Contents (Elt F) → (⟨S850000x1, .i32⟩ : BufTy).Contents (Elt F)),
    binary main_v39 main_v46 main_v47 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]

abbrev w3 : List (HloOp τ sig (Elt F)) :=
  [ unary main_v40 main_v48 (broadcastInDim S850000x128 ![0, 1] bcast_S850000x1_S850000x128_0_1 : (⟨S850000x1, .f32⟩ : BufTy).Contents (Elt F) → (⟨S850000x128, .f32⟩ : BufTy).Contents (Elt F)),
    binary main_v48 main_v47 main_v49 (mulf : (⟨S850000x128, .f32⟩ : BufTy).Contents (Elt F) → (⟨S850000x128, .f32⟩ : BufTy).Contents (Elt F) → (⟨S850000x128, .f32⟩ : BufTy).Contents (Elt F)),
    nullary main_cst_10 (constant S_ .f32 0x00000000#32),
    unary main_cst_10 main_v50 (broadcastInDim S50000x128 ![] bcast_S_S50000x128 : (⟨S_, .f32⟩ : BufTy).Contents (Elt F) → (⟨S50000x128, .f32⟩ : BufTy).Contents (Elt F)),
    unary main_v13 main_v51 (broadcastInDim S850000x1 ![0] bcast_S850000_S850000x1_0 : (⟨S850000, .i32⟩ : BufTy).Contents (Elt F) → (⟨S850000x1, .i32⟩ : BufTy).Contents (Elt F)),
    ternary main_v50 main_v51 main_v49 main_v52 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v52 main_v56 main_v57 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (TRef.of main_v57 : TRef sig ⟨S50000x128, .f32⟩) main_call1.v0 main_call1.v1 maximumf ]

abbrev w4 : List (HloOp τ sig (Elt F)) :=
  [ nullary main_cst_11 (constant S_ .f32 0x00000000#32),
    binary main_v58 main_cst_11 main_v59 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v60 (broadcastInDim S128 ![] bcast_S_S128 : (⟨S_, .f32⟩ : BufTy).Contents (Elt F) → (⟨S128, .f32⟩ : BufTy).Contents (Elt F)),
    binary main_v59 main_v60 main_v61 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (TRef.of main_v58 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (TRef.of main_v58 : TRef sig ⟨S50000x128, .f32⟩) main_call2.v4 main_call2.v5 subf,
    TRef.binary main_call2.v5 main_call2.v5 main_call2.v6 mulf,
    TRef.unary (TRef.of main_c_13 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_arg6 main_v63 ((extractStridedSlice S1x128 ![0, 0] · slices_S3x128_S1x128_0_0) : (⟨S3x128, .f32⟩ : BufTy).Contents (Elt F) → (⟨S1x128, .f32⟩ : BufTy).Contents (Elt F)),
    reshape main_v63 main_v64 rfl shapeCasts_S1x128_S128,
    unary main_v61 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v58 main_v66 main_v67 (subf : (⟨S50000x128, .f32⟩ : BufTy).Contents (Elt F) → (⟨S50000x128, .f32⟩ : BufTy).Contents (Elt F) → (⟨S50000x128, .f32⟩ : BufTy).Contents (Elt F)),
    unary main_v64 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v69 main_v67 main_v70 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v71 (broadcastInDim S128 ![] bcast_S_S128 : (⟨S_, .f32⟩ : BufTy).Contents (Elt F) → (⟨S128, .f32⟩ : BufTy).Contents (Elt F)),
    binary main_v62 main_v71 main_v72 (addf : (⟨S128, .f32⟩ : BufTy).Contents (Elt F) → (⟨S128, .f32⟩ : BufTy).Contents (Elt F) → (⟨S128, .f32⟩ : BufTy).Contents (Elt F)),
    unary main_v72 main_v73 (Host.rsqrt : (⟨S128, .f32⟩ : BufTy).Contents (Elt F) → (⟨S128, .f32⟩ : BufTy).Contents (Elt F)),
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v70 main_v75 main_v76 (mulf : (⟨S50000x128, .f32⟩ : BufTy).Contents (Elt F) → (⟨S50000x128, .f32⟩ : BufTy).Contents (Elt F) → (⟨S50000x128, .f32⟩ : BufTy).Contents (Elt F)),
    unary main_arg7 main_v77 ((extractStridedSlice S1x128 ![0, 0] · slices_S3x128_S1x128_0_0) : (⟨S3x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v76 main_v80 main_v81 (addf : (⟨S50000x128, .f32⟩ : BufTy).Contents (Elt F) → (⟨S50000x128, .f32⟩ : BufTy).Contents (Elt F) → (⟨S50000x128, .f32⟩ : BufTy).Contents (Elt F)) ]

abbrev w5 : List (HloOp τ sig (Elt F)) :=
  [ unary main_arg4 main_v82 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v82 main_v83 rfl shapeCasts_S1x128x128_S128x128,
    binary main_v81 main_v83 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v36 main_v85 (broadcastInDim S850000x1 ![0] bcast_S850000_S850000x1_0 : (⟨S850000, .f32⟩ : BufTy).Contents (Elt F) → (⟨S850000x1, .f32⟩ : BufTy).Contents (Elt F)),
    nullary main_c_15 (constantI S_ 32 0#32),
    unary main_c_15 main_v86 (broadcastInDim S850000 ![] bcast_S_S850000 : (⟨S_, .i32⟩ : BufTy).Contents (Elt F) → (⟨S850000, .i32⟩ : BufTy).Contents (Elt F)),
    binary main_v10 main_v86 main_v87 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v88 (broadcastInDim S850000 ![] bcast_S_S850000 : (⟨S_, .i32⟩ : BufTy).Contents (Elt F) → (⟨S850000, .i32⟩ : BufTy).Contents (Elt F)),
    binary main_v10 main_v88 main_v89 (addi : (⟨S850000, .i32⟩ : BufTy).Contents (Elt F) → (⟨S850000, .i32⟩ : BufTy).Contents (Elt F) → (⟨S850000, .i32⟩ : BufTy).Contents (Elt F)),
    ternary main_v87 main_v89 main_v10 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v90 main_v91 (broadcastInDim S850000x1 ![0] bcast_S850000_S850000x1_0 : (⟨S850000, .i32⟩ : BufTy).Contents (Elt F) → (⟨S850000x1, .i32⟩ : BufTy).Contents (Elt F)),
    binary main_v84 main_v91 main_v92 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v85 main_v93 (broadcastInDim S850000x128 ![0, 1] bcast_S850000x1_S850000x128_0_1 : (⟨S850000x1, .f32⟩ : BufTy).Contents (Elt F) → (⟨S850000x128, .f32⟩ : BufTy).Contents (Elt F)),
    binary main_v93 main_v92 main_v94 (mulf : (⟨S850000x128, .f32⟩ : BufTy).Contents (Elt F) → (⟨S850000x128, .f32⟩ : BufTy).Contents (Elt F) → (⟨S850000x128, .f32⟩ : BufTy).Contents (Elt F)),
    nullary main_cst_17 (constant S_ .f32 0x00000000#32),
    unary main_cst_17 main_v95 (broadcastInDim S50000x128 ![] bcast_S_S50000x128 : (⟨S_, .f32⟩ : BufTy).Contents (Elt F) → (⟨S50000x128, .f32⟩ : BufTy).Contents (Elt F)),
    unary main_v13 main_v96 (broadcastInDim S850000x1 ![0] bcast_S850000_S850000x1_0 : (⟨S850000, .i32⟩ : BufTy).Contents (Elt F) → (⟨S850000x1, .i32⟩ : BufTy).Contents (Elt F)),
    ternary main_v95 main_v96 main_v94 main_v97 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v98 ((extractStridedSlice S1x128 ![1, 0] · slices_S3x128_S1x128_1_0) : (⟨S3x128, .f32⟩ : BufTy).Contents (Elt F) → (⟨S1x128, .f32⟩ : BufTy).Contents (Elt F)),
    reshape main_v98 main_v99 rfl shapeCasts_S1x128_S128 ]

abbrev w6 : List (HloOp τ sig (Elt F)) :=
  [ unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v97 main_v101 main_v102 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (TRef.of main_v102 : TRef sig ⟨S50000x128, .f32⟩) main_call3.v0 main_call3.v1 maximumf ]

abbrev w7 : List (HloOp τ sig (Elt F)) :=
  [ nullary main_cst_18 (constant S_ .f32 0x00000000#32),
    binary main_v103 main_cst_18 main_v104 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v105 (broadcastInDim S128 ![] bcast_S_S128 : (⟨S_, .f32⟩ : BufTy).Contents (Elt F) → (⟨S128, .f32⟩ : BufTy).Contents (Elt F)),
    binary main_v104 main_v105 main_v106 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call4.cst (constant S_ .f32 0x00000000#32),
    TRef.binary (TRef.of main_v103 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (TRef.of main_v103 : TRef sig ⟨S50000x128, .f32⟩) main_call4.v4 main_call4.v5 subf,
    TRef.binary main_call4.v5 main_call4.v5 main_call4.v6 mulf,
    TRef.unary (TRef.of main_c_20 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_arg6 main_v108 ((extractStridedSlice S1x128 ![1, 0] · slices_S3x128_S1x128_1_0) : (⟨S3x128, .f32⟩ : BufTy).Contents (Elt F) → (⟨S1x128, .f32⟩ : BufTy).Contents (Elt F)),
    reshape main_v108 main_v109 rfl shapeCasts_S1x128_S128,
    unary main_v106 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v103 main_v111 main_v112 (subf : (⟨S50000x128, .f32⟩ : BufTy).Contents (Elt F) → (⟨S50000x128, .f32⟩ : BufTy).Contents (Elt F) → (⟨S50000x128, .f32⟩ : BufTy).Contents (Elt F)),
    unary main_v109 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v114 main_v112 main_v115 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v116 (broadcastInDim S128 ![] bcast_S_S128 : (⟨S_, .f32⟩ : BufTy).Contents (Elt F) → (⟨S128, .f32⟩ : BufTy).Contents (Elt F)),
    binary main_v107 main_v116 main_v117 (addf : (⟨S128, .f32⟩ : BufTy).Contents (Elt F) → (⟨S128, .f32⟩ : BufTy).Contents (Elt F) → (⟨S128, .f32⟩ : BufTy).Contents (Elt F)),
    unary main_v117 main_v118 (Host.rsqrt : (⟨S128, .f32⟩ : BufTy).Contents (Elt F) → (⟨S128, .f32⟩ : BufTy).Contents (Elt F)),
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v115 main_v120 main_v121 (mulf : (⟨S50000x128, .f32⟩ : BufTy).Contents (Elt F) → (⟨S50000x128, .f32⟩ : BufTy).Contents (Elt F) → (⟨S50000x128, .f32⟩ : BufTy).Contents (Elt F)),
    unary main_arg7 main_v122 ((extractStridedSlice S1x128 ![1, 0] · slices_S3x128_S1x128_1_0) : (⟨S3x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v121 main_v125 main_v126 (addf : (⟨S50000x128, .f32⟩ : BufTy).Contents (Elt F) → (⟨S50000x128, .f32⟩ : BufTy).Contents (Elt F) → (⟨S50000x128, .f32⟩ : BufTy).Contents (Elt F)) ]

abbrev w8 : List (HloOp τ sig (Elt F)) :=
  [ unary main_arg4 main_v127 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v127 main_v128 rfl shapeCasts_S1x128x128_S128x128,
    binary main_v126 main_v128 main_v129 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v36 main_v130 (broadcastInDim S850000x1 ![0] bcast_S850000_S850000x1_0 : (⟨S850000, .f32⟩ : BufTy).Contents (Elt F) → (⟨S850000x1, .f32⟩ : BufTy).Contents (Elt F)),
    nullary main_c_22 (constantI S_ 32 0#32),
    unary main_c_22 main_v131 (broadcastInDim S850000 ![] bcast_S_S850000 : (⟨S_, .i32⟩ : BufTy).Contents (Elt F) → (⟨S850000, .i32⟩ : BufTy).Contents (Elt F)),
    binary main_v10 main_v131 main_v132 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v133 (broadcastInDim S850000 ![] bcast_S_S850000 : (⟨S_, .i32⟩ : BufTy).Contents (Elt F) → (⟨S850000, .i32⟩ : BufTy).Contents (Elt F)),
    binary main_v10 main_v133 main_v134 (addi : (⟨S850000, .i32⟩ : BufTy).Contents (Elt F) → (⟨S850000, .i32⟩ : BufTy).Contents (Elt F) → (⟨S850000, .i32⟩ : BufTy).Contents (Elt F)),
    ternary main_v132 main_v134 main_v10 main_v135 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v135 main_v136 (broadcastInDim S850000x1 ![0] bcast_S850000_S850000x1_0 : (⟨S850000, .i32⟩ : BufTy).Contents (Elt F) → (⟨S850000x1, .i32⟩ : BufTy).Contents (Elt F)),
    binary main_v129 main_v136 main_v137 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v130 main_v138 (broadcastInDim S850000x128 ![0, 1] bcast_S850000x1_S850000x128_0_1 : (⟨S850000x1, .f32⟩ : BufTy).Contents (Elt F) → (⟨S850000x128, .f32⟩ : BufTy).Contents (Elt F)),
    binary main_v138 main_v137 main_v139 (mulf : (⟨S850000x128, .f32⟩ : BufTy).Contents (Elt F) → (⟨S850000x128, .f32⟩ : BufTy).Contents (Elt F) → (⟨S850000x128, .f32⟩ : BufTy).Contents (Elt F)),
    nullary main_cst_24 (constant S_ .f32 0x00000000#32),
    unary main_cst_24 main_v140 (broadcastInDim S50000x128 ![] bcast_S_S50000x128 : (⟨S_, .f32⟩ : BufTy).Contents (Elt F) → (⟨S50000x128, .f32⟩ : BufTy).Contents (Elt F)),
    unary main_v13 main_v141 (broadcastInDim S850000x1 ![0] bcast_S850000_S850000x1_0 : (⟨S850000, .i32⟩ : BufTy).Contents (Elt F) → (⟨S850000x1, .i32⟩ : BufTy).Contents (Elt F)),
    ternary main_v140 main_v141 main_v139 main_v142 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v143 ((extractStridedSlice S1x128 ![2, 0] · slices_S3x128_S1x128_2_0) : (⟨S3x128, .f32⟩ : BufTy).Contents (Elt F) → (⟨S1x128, .f32⟩ : BufTy).Contents (Elt F)),
    reshape main_v143 main_v144 rfl shapeCasts_S1x128_S128,
    unary main_v144 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v142 main_v146 main_v147 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (TRef.of main_v147 : TRef sig ⟨S50000x128, .f32⟩) main_call5.v0 main_call5.v1 maximumf ]

abbrev w9 : List (HloOp τ sig (Elt F)) :=
  [ nullary main_cst_25 (constant S_ .f32 0x00000000#32),
    binary main_v148 main_cst_25 main_v149 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v150 (broadcastInDim S128 ![] bcast_S_S128 : (⟨S_, .f32⟩ : BufTy).Contents (Elt F) → (⟨S128, .f32⟩ : BufTy).Contents (Elt F)) ]

abbrev w10 : List (HloOp τ sig (Elt F)) :=
  [ binary main_v149 main_v150 main_v151 (Host.divf : (⟨S128, .f32⟩ : BufTy).Contents (Elt F) → (⟨S128, .f32⟩ : BufTy).Contents (Elt F) → (⟨S128, .f32⟩ : BufTy).Contents (Elt F)),
    nullary main_c_27 (constantI S_ 32 0#32),
    TRef.nullary main_call6.cst (constant S_ .f32 0x00000000#32),
    TRef.binary (TRef.of main_v148 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (TRef.of main_v148 : TRef sig ⟨S50000x128, .f32⟩) main_call6.v4 main_call6.v5 subf,
    TRef.binary main_call6.v5 main_call6.v5 main_call6.v6 mulf,
    TRef.unary (TRef.of main_c_27 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_arg6 main_v153 ((extractStridedSlice S1x128 ![2, 0] · slices_S3x128_S1x128_2_0) : (⟨S3x128, .f32⟩ : BufTy).Contents (Elt F) → (⟨S1x128, .f32⟩ : BufTy).Contents (Elt F)),
    reshape main_v153 main_v154 rfl shapeCasts_S1x128_S128,
    unary main_v151 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v148 main_v156 main_v157 (subf : (⟨S50000x128, .f32⟩ : BufTy).Contents (Elt F) → (⟨S50000x128, .f32⟩ : BufTy).Contents (Elt F) → (⟨S50000x128, .f32⟩ : BufTy).Contents (Elt F)),
    unary main_v154 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v159 main_v157 main_v160 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3727C5AC#32),
    unary main_cst_28 main_v161 (broadcastInDim S128 ![] bcast_S_S128 : (⟨S_, .f32⟩ : BufTy).Contents (Elt F) → (⟨S128, .f32⟩ : BufTy).Contents (Elt F)),
    binary main_v152 main_v161 main_v162 (addf : (⟨S128, .f32⟩ : BufTy).Contents (Elt F) → (⟨S128, .f32⟩ : BufTy).Contents (Elt F) → (⟨S128, .f32⟩ : BufTy).Contents (Elt F)),
    unary main_v162 main_v163 (Host.rsqrt : (⟨S128, .f32⟩ : BufTy).Contents (Elt F) → (⟨S128, .f32⟩ : BufTy).Contents (Elt F)),
    unary main_v163 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v160 main_v165 main_v166 (mulf : (⟨S50000x128, .f32⟩ : BufTy).Contents (Elt F) → (⟨S50000x128, .f32⟩ : BufTy).Contents (Elt F) → (⟨S50000x128, .f32⟩ : BufTy).Contents (Elt F)),
    unary main_arg7 main_v167 ((extractStridedSlice S1x128 ![2, 0] · slices_S3x128_S1x128_2_0) : (⟨S3x128, .f32⟩ : BufTy).Contents (Elt F) → (⟨S1x128, .f32⟩ : BufTy).Contents (Elt F)),
    reshape main_v167 main_v168 rfl shapeCasts_S1x128_S128,
    unary main_v168 main_v169 (broadcastInDim S1x128 ![1] bcast_S128_S1x128_1 : (⟨S128, .f32⟩ : BufTy).Contents (Elt F) → (⟨S1x128, .f32⟩ : BufTy).Contents (Elt F)),
    unary main_v169 main_v170 (broadcastInDim S50000x128 ![0, 1] bcast_S1x128_S50000x128_0_1 : (⟨S1x128, .f32⟩ : BufTy).Contents (Elt F) → (⟨S50000x128, .f32⟩ : BufTy).Contents (Elt F)),
    binary main_v166 main_v170 main_v171 (addf : (⟨S50000x128, .f32⟩ : BufTy).Contents (Elt F) → (⟨S50000x128, .f32⟩ : BufTy).Contents (Elt F) → (⟨S50000x128, .f32⟩ : BufTy).Contents (Elt F)) ]

abbrev w11 : List (HloOp τ sig (Elt F)) :=
  [ nullary main_cst_29 (constant S_ .f32 0x00000000#32),
    unary main_cst_29 main_v172 (broadcastInDim S64x128 ![] bcast_S_S64x128 : (⟨S_, .f32⟩ : BufTy).Contents (Elt F) → (⟨S64x128, .f32⟩ : BufTy).Contents (Elt F)),
    unary main_arg2 main_v173 (broadcastInDim S50000x1 ![0] bcast_S50000_S50000x1_0 : (⟨S50000, .i32⟩ : BufTy).Contents (Elt F) → (⟨S50000x1, .i32⟩ : BufTy).Contents (Elt F)),
    ternary main_v172 main_v173 main_v171 main_v174 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_cst_30 (constant S_ .f32 0x3F800000#32),
    unary main_cst_30 main_v175 (broadcastInDim S50000 ![] bcast_S_S50000 : (⟨S_, .f32⟩ : BufTy).Contents (Elt F) → (⟨S50000, .f32⟩ : BufTy).Contents (Elt F)),
    nullary main_cst_31 (constant S_ .f32 0x00000000#32),
    unary main_cst_31 main_v176 (broadcastInDim S64 ![] bcast_S_S64 : (⟨S_, .f32⟩ : BufTy).Contents (Elt F) → (⟨S64, .f32⟩ : BufTy).Contents (Elt F)),
    unary main_arg2 main_v177 (broadcastInDim S50000x1 ![0] bcast_S50000_S50000x1_0 : (⟨S50000, .i32⟩ : BufTy).Contents (Elt F) → (⟨S50000x1, .i32⟩ : BufTy).Contents (Elt F)),
    ternary main_v176 main_v177 main_v175 main_v178 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_32 (constant S_ .f32 0x3F800000#32),
    unary main_cst_32 main_v179 (broadcastInDim S64 ![] bcast_S_S64 : (⟨S_, .f32⟩ : BufTy).Contents (Elt F) → (⟨S64, .f32⟩ : BufTy).Contents (Elt F)),
    binary main_v178 main_v179 main_v180 (maximumf : (⟨S64, .f32⟩ : BufTy).Contents (Elt F) → (⟨S64, .f32⟩ : BufTy).Contents (Elt F) → (⟨S64, .f32⟩ : BufTy).Contents (Elt F)),
    unary main_v180 main_v181 (broadcastInDim S64x1 ![0] bcast_S64_S64x1_0 : (⟨S64, .f32⟩ : BufTy).Contents (Elt F) → (⟨S64x1, .f32⟩ : BufTy).Contents (Elt F)),
    unary main_v181 main_v182 (broadcastInDim S64x128 ![0, 1] bcast_S64x1_S64x128_0_1 : (⟨S64x1, .f32⟩ : BufTy).Contents (Elt F) → (⟨S64x128, .f32⟩ : BufTy).Contents (Elt F)),
    binary main_v174 main_v182 main_v183 (Host.divf : (⟨S64x128, .f32⟩ : BufTy).Contents (Elt F) → (⟨S64x128, .f32⟩ : BufTy).Contents (Elt F) → (⟨S64x128, .f32⟩ : BufTy).Contents (Elt F)) ]

abbrev ops_part0 : List (HloOp τ sig (Elt F)) := w0 ++ (w1 ++ (w2))
abbrev ops_part1 : List (HloOp τ sig (Elt F)) := w3 ++ (w4 ++ (w5))
abbrev ops_part2 : List (HloOp τ sig (Elt F)) := w6 ++ (w7 ++ (w8 ++ (w9)))
abbrev ops_part3 : List (HloOp τ sig (Elt F)) := w10 ++ (w11)

abbrev ops : List (HloOp τ sig (Elt F)) := ops_part0 ++ (ops_part1 ++ (ops_part2 ++ ops_part3))

set_option maxRecDepth 8192 in
set_option maxHeartbeats 4000000 in
theorem main_parts_eq (c : Dev nD) : main_part0 (F := F) c = seq ops_part0 ∧ main_part1 (F := F) c = seq ops_part1
    ∧ main_part2 (F := F) c = seq ops_part2 ∧ main_part3 (F := F) c = seq ops_part3 := by
  refine ⟨?_, ?_, ?_, ?_⟩ <;>
    (simp only [main_part0, main_part1, main_part2, main_part3, fn_where.body, fn_relu.body, fn_var.body, fn_where_0.body, seq,
      List.cons_append, List.nil_append, bind_assoc, pure_bind] <;> rfl)

theorem main_eq (c : Dev nD) : main (F := F) c = seq ops := by
  simp only [ops, seq_append, ← (main_parts_eq c).1, ← (main_parts_eq c).2.1, ← (main_parts_eq c).2.2.1, ← (main_parts_eq c).2.2.2]
  rfl

theorem scopedRefs_eq : (Finset.univ.filter fun b : Ref sig .tc => b.isScoped) = ∅ := by decide
theorem scopedSems_eq : (Finset.univ.filter fun sm : SemLoc sig => sm.isScoped .tc) = ∅ := by decide

-- An operation touches only the references it is built from.
theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

def rWrap (i : (⟨S850000, .i32⟩ : BufTy).Contents (Elt F)) : (⟨S850000x1, .i32⟩ : BufTy).Contents (Elt F) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

def rCol1 (i : (⟨S850000, .i32⟩ : BufTy).Contents (Elt F)) : (⟨S850000x1, .i32⟩ : BufTy).Contents (Elt F) :=
  broadcastInDim S850000x1 ![0] bcast_S850000_S850000x1_0 i

def rRow (a1 : (⟨S2x800000, .i32⟩ : BufTy).Contents (Elt F)) : (⟨S850000, .i32⟩ : BufTy).Contents (Elt F) :=
  concatenate S850000 0
    [⟨S800000, shapeCast S800000 (extractStridedSlice S1x800000 ![0, 0] a1 slices_S2x800000_S1x800000_0_0) shapeCasts_S1x800000_S800000⟩,
      ⟨S50000, iotaInDim S50000 32 0⟩] concatenates_S800000_S50000_S850000_d0

def rCol (a1 : (⟨S2x800000, .i32⟩ : BufTy).Contents (Elt F)) : (⟨S850000, .i32⟩ : BufTy).Contents (Elt F) :=
  concatenate S850000 0
    [⟨S800000, shapeCast S800000 (extractStridedSlice S1x800000 ![1, 0] a1 slices_S2x800000_S1x800000_1_0) shapeCasts_S1x800000_S800000⟩,
      ⟨S50000, iotaInDim S50000 32 0⟩] concatenates_S800000_S50000_S850000_d0

def rH0 (a0 : (⟨S50000, .i32⟩ : BufTy).Contents (Elt F)) (a3 : (⟨S30x128, .f32⟩ : BufTy).Contents (Elt F)) :
    (⟨S50000x128, .f32⟩ : BufTy).Contents (Elt F) :=
  Host.gather gather_S30x128_S50000x1_S50000x128_1_0_n_n_0_1_1128 a3
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 30#32))) a0))

def rDeg (a1 : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32)) (rCol1 (rCol a1))
    (broadcastInDim S850000 ![] bcast_S_S850000 (constant S_ .f32 0x3F800000#32))

def rDinv (a1 : (⟨S2x800000, .i32⟩ : BufTy).Contents (Elt F)) : (⟨S50000, .f32⟩ : BufTy).Contents (Elt F) :=
  select (cmpf .ogt (rDeg a1) (broadcastInDim S50000 ![] bcast_S_S50000 (constant S_ .f32 0x00000000#32)))
    (Host.rsqrt (rDeg a1)) (broadcastInDim S50000 ![] bcast_S_S50000 (id (constant S_ .f32 0x00000000#32)))

def rNorm (a1 : (⟨S2x800000, .i32⟩ : BufTy).Contents (Elt F)) : (⟨S850000, .f32⟩ : BufTy).Contents (Elt F) :=
  mulf (Host.gather gather_S50000_S850000x1_S850000_n_0_n_n_0_1_1 (rDinv a1) (rWrap (rRow a1)))
    (Host.gather gather_S50000_S850000x1_S850000_n_0_n_n_0_1_1 (rDinv a1) (rWrap (rCol a1)))

def rMat (st : Fin 3 → Nat) (hs : S3x128x128.Slices st S1x128x128) (a4 : (⟨S3x128x128, .f32⟩ : BufTy).Contents (Elt F)) :
    (⟨S128x128, .f32⟩ : BufTy).Contents (Elt F) :=
  shapeCast S128x128 (extractStridedSlice S1x128x128 st a4 hs) shapeCasts_S1x128x128_S128x128

def rVec (st : Fin 2 → Nat) (hs : S3x128.Slices st S1x128) (a : (⟨S3x128, .f32⟩ : BufTy).Contents (Elt F)) :
    (⟨S128, .f32⟩ : BufTy).Contents (Elt F) :=
  shapeCast S128 (extractStridedSlice S1x128 st a hs) shapeCasts_S1x128_S128

def rRows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

def rLin (h : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none h W

def rMsg (norm : (⟨S850000, .f32⟩ : BufTy).Contents (Elt F)) (m : (⟨S50000x128, .f32⟩ : BufTy).Contents (Elt F))
    (row : (⟨S850000, .i32⟩ : BufTy).Contents (Elt F)) : (⟨S850000x128, .f32⟩ : BufTy).Contents (Elt F) :=
  mulf (broadcastInDim S850000x128 ![0, 1] bcast_S850000x1_S850000x128_0_1 (broadcastInDim S850000x1 ![0] bcast_S850000_S850000x1_0 norm))
    (Host.gather gather_S50000x128_S850000x1_S850000x128_1_0_n_n_0_1_1128 m (rWrap row))

def rAgg (norm : (⟨S850000, .f32⟩ : BufTy).Contents (Elt F)) (m : (⟨S50000x128, .f32⟩ : BufTy).Contents (Elt F))
    (row col : (⟨S850000, .i32⟩ : BufTy).Contents (Elt F)) (b : (⟨S128, .f32⟩ : BufTy).Contents (Elt F)) :
    (⟨S50000x128, .f32⟩ : BufTy).Contents (Elt F) :=
  addf (Host.scatterAdd scatter_S50000x128_S850000x1_S850000x128_1_0_0_1
      (broadcastInDim S50000x128 ![] bcast_S_S50000x128 (constant S_ .f32 0x00000000#32)) (rCol1 col) (rMsg norm m row))
    (rRows b)

def rAct (agg : (⟨S50000x128, .f32⟩ : BufTy).Contents (Elt F)) : (⟨S50000x128, .f32⟩ : BufTy).Contents (Elt F) :=
  maximumf agg (broadcastInDim S50000x128 ![] bcast_S_S50000x128 (constant S_ .f32 0x00000000#32))

def rMu (a : (⟨S50000x128, .f32⟩ : BufTy).Contents (Elt F)) : (⟨S128, .f32⟩ : BufTy).Contents (Elt F) :=
  Host.divf (Host.reduceAdd a (constant S_ .f32 0x00000000#32) reducesTo_S50000x128_S128_d0 h_S_)
    (broadcastInDim S128 ![] bcast_S_S128 (constant S_ .f32 0x47435000#32))

def rDev (a : (⟨S50000x128, .f32⟩ : BufTy).Contents (Elt F)) : (⟨S50000x128, .f32⟩ : BufTy).Contents (Elt F) :=
  subf a (broadcastInDim S50000x128 ![0, 1] bcast_S1x128_S50000x128_0_1
    (Host.divf (broadcastInDim S1x128 ![1] bcast_S128_S1x128_1 (Host.reduceAdd a (constant S_ .f32 0x00000000#32) reducesTo_S50000x128_S128_d0 h_S_))
      (broadcastInDim S1x128 ![] bcast_S_S1x128 (constant S_ .f32 0x47435000#32))))

def rDof : (⟨S_, .f32⟩ : BufTy).Contents (Elt F) :=
  subf (constant S_ .f32 0x47435000#32) (sitofp .f32 (constantI S_ 32 0#32))

def rVar (a : (⟨S50000x128, .f32⟩ : BufTy).Contents (Elt F)) : (⟨S128, .f32⟩ : BufTy).Contents (Elt F) :=
  select (broadcastInDim S128 ![] bcast_S_S128 (cmpf .ogt (rDof (F := F)) (constant S_ .f32 0x00000000#32)))
    (Host.divf (Host.reduceAdd (mulf (rDev a) (rDev a)) (constant S_ .f32 0x00000000#32) reducesTo_S50000x128_S128_d0 h_S_)
      (broadcastInDim S128 ![] bcast_S_S128 (rDof (F := F))))
    (broadcastInDim S128 ![] bcast_S_S128 (id (constant S_ .f32 0x7FC00000#32)))

def rNext (a : (⟨S50000x128, .f32⟩ : BufTy).Contents (Elt F)) (g be : (⟨S128, .f32⟩ : BufTy).Contents (Elt F)) :
    (⟨S50000x128, .f32⟩ : BufTy).Contents (Elt F) :=
  addf (mulf (mulf (rRows g) (subf a (rRows (rMu a))))
      (rRows (Host.rsqrt (addf (rVar a) (broadcastInDim S128 ![] bcast_S_S128 (constant S_ .f32 0x3727C5AC#32))))))
    (rRows be)

def rLayer (a1 : (⟨S2x800000, .i32⟩ : BufTy).Contents (Elt F)) (h : (⟨S50000x128, .f32⟩ : BufTy).Contents (Elt F))
    (W : (⟨S128x128, .f32⟩ : BufTy).Contents (Elt F)) (b g be : (⟨S128, .f32⟩ : BufTy).Contents (Elt F)) :
    (⟨S50000x128, .f32⟩ : BufTy).Contents (Elt F) :=
  rNext (rAct (rAgg (rNorm a1) (rLin h W) (rRow a1) (rCol a1) b)) g be

def rSums (h : (⟨S50000x128, .f32⟩ : BufTy).Contents (Elt F)) (a2 : (⟨S50000, .i32⟩ : BufTy).Contents (Elt F)) :
    (⟨S64x128, .f32⟩ : BufTy).Contents (Elt F) :=
  Host.scatterAdd scatter_S64x128_S50000x1_S50000x128_1_0_0_1
    (broadcastInDim S64x128 ![] bcast_S_S64x128 (constant S_ .f32 0x00000000#32))
    (broadcastInDim S50000x1 ![0] bcast_S50000_S50000x1_0 a2) h

def rCounts (a2 : (⟨S50000, .i32⟩ : BufTy).Contents (Elt F)) : (⟨S64, .f32⟩ : BufTy).Contents (Elt F) :=
  Host.scatterAdd scatter_S64_S50000x1_S50000_n_0_0_1
    (broadcastInDim S64 ![] bcast_S_S64 (constant S_ .f32 0x00000000#32))
    (broadcastInDim S50000x1 ![0] bcast_S50000_S50000x1_0 a2)
    (broadcastInDim S50000 ![] bcast_S_S50000 (constant S_ .f32 0x3F800000#32))

def rPool (h : (⟨S50000x128, .f32⟩ : BufTy).Contents (Elt F)) (a2 : (⟨S50000, .i32⟩ : BufTy).Contents (Elt F)) :
    (⟨S64x128, .f32⟩ : BufTy).Contents (Elt F) :=
  Host.divf (rSums h a2)
    (broadcastInDim S64x128 ![0, 1] bcast_S64x1_S64x128_0_1 (broadcastInDim S64x1 ![0] bcast_S64_S64x1_0
      (maximumf (rCounts (F := F) a2) (broadcastInDim S64 ![] bcast_S_S64 (constant S_ .f32 0x3F800000#32)))))

def rH1 (a0 : (⟨S50000, .i32⟩ : BufTy).Contents (Elt F)) (a1 : (⟨S2x800000, .i32⟩ : BufTy).Contents (Elt F))
    (a3 : (⟨S30x128, .f32⟩ : BufTy).Contents (Elt F)) (a4 : (⟨S3x128x128, .f32⟩ : BufTy).Contents (Elt F))
    (a5 a6 a7 : (⟨S3x128, .f32⟩ : BufTy).Contents (Elt F)) : (⟨S50000x128, .f32⟩ : BufTy).Contents (Elt F) :=
  rLayer a1 (rH0 a0 a3) (rMat ![0, 0, 0] slices_S3x128x128_S1x128x128_0_0_0 a4) (rVec ![0, 0] slices_S3x128_S1x128_0_0 a5)
    (rVec ![0, 0] slices_S3x128_S1x128_0_0 a6) (rVec ![0, 0] slices_S3x128_S1x128_0_0 a7)

def rH2 (a0 : (⟨S50000, .i32⟩ : BufTy).Contents (Elt F)) (a1 : (⟨S2x800000, .i32⟩ : BufTy).Contents (Elt F))
    (a3 : (⟨S30x128, .f32⟩ : BufTy).Contents (Elt F)) (a4 : (⟨S3x128x128, .f32⟩ : BufTy).Contents (Elt F))
    (a5 a6 a7 : (⟨S3x128, .f32⟩ : BufTy).Contents (Elt F)) : (⟨S50000x128, .f32⟩ : BufTy).Contents (Elt F) :=
  rLayer a1 (rH1 a0 a1 a3 a4 a5 a6 a7) (rMat ![1, 0, 0] slices_S3x128x128_S1x128x128_1_0_0 a4) (rVec ![1, 0] slices_S3x128_S1x128_1_0 a5)
    (rVec ![1, 0] slices_S3x128_S1x128_1_0 a6) (rVec ![1, 0] slices_S3x128_S1x128_1_0 a7)

def rH3 (a0 : (⟨S50000, .i32⟩ : BufTy).Contents (Elt F)) (a1 : (⟨S2x800000, .i32⟩ : BufTy).Contents (Elt F))
    (a3 : (⟨S30x128, .f32⟩ : BufTy).Contents (Elt F)) (a4 : (⟨S3x128x128, .f32⟩ : BufTy).Contents (Elt F))
    (a5 a6 a7 : (⟨S3x128, .f32⟩ : BufTy).Contents (Elt F)) : (⟨S50000x128, .f32⟩ : BufTy).Contents (Elt F) :=
  rLayer a1 (rH2 a0 a1 a3 a4 a5 a6 a7) (rMat ![2, 0, 0] slices_S3x128x128_S1x128x128_2_0_0 a4) (rVec ![2, 0] slices_S3x128_S1x128_2_0 a5)
    (rVec ![2, 0] slices_S3x128_S1x128_2_0 a6) (rVec ![2, 0] slices_S3x128_S1x128_2_0 a7)

def rOut (a0 : (⟨S50000, .i32⟩ : BufTy).Contents (Elt F)) (a1 : (⟨S2x800000, .i32⟩ : BufTy).Contents (Elt F))
    (a2 : (⟨S50000, .i32⟩ : BufTy).Contents (Elt F)) (a3 : (⟨S30x128, .f32⟩ : BufTy).Contents (Elt F))
    (a4 : (⟨S3x128x128, .f32⟩ : BufTy).Contents (Elt F)) (a5 a6 a7 : (⟨S3x128, .f32⟩ : BufTy).Contents (Elt F)) :
    (⟨S64x128, .f32⟩ : BufTy).Contents (Elt F) :=
  rPool (rH3 a0 a1 a3 a4 a5 a6 a7) a2

abbrev argRefs : List (Ref sig .tc) := [main_arg0, main_arg1, main_arg2, main_arg3, main_arg4, main_arg5, main_arg6, main_arg7]
abbrev kept : List (Ref sig .tc) := [main_v6, main_v10, main_v13, main_v36] ++ argRefs

abbrev Spares (K : List (Ref sig .tc)) (op : HloOp τ sig (Elt F)) : Prop :=
  ∃ y ∉ K, op.writes = {Proc.devRef .tc y}

-- A buffer no operation of the line writes keeps its contents.
theorem after_spares {K : List (Ref sig .tc)} {l : List (HloOp τ sig (Elt F))} (hl : l.Forall (Spares K))
    (V : Valuation τ sig (Elt F)) {r : Ref sig .tc} (hr : r ∈ K) :
    after l V (no_index (Proc.devRef .tc r)) = V (Proc.devRef .tc r) :=
  after_of_forall_not_mem l V fun op hop hb => by
    obtain ⟨y, hy, e⟩ := List.forall_iff_forall_mem.mp hl op hop
    rw [e, Finset.mem_singleton] at hb
    exact hy (Proc.devRef_injective _ hb ▸ hr)

-- Each operation writes one reference, its result; no result is an argument or one of the four values every layer reads.
theorem spares : (w0 : List (HloOp τ sig (Elt F))).Forall (Spares argRefs)
    ∧ (w1 : List (HloOp τ sig (Elt F))).Forall (Spares ([main_v6, main_v10, main_v13] ++ argRefs))
    ∧ (w2 ++ w3 : List (HloOp τ sig (Elt F))).Forall (Spares kept) ∧ (w4 : List (HloOp τ sig (Elt F))).Forall (Spares kept)
    ∧ (w5 ++ w6 : List (HloOp τ sig (Elt F))).Forall (Spares kept) ∧ (w7 : List (HloOp τ sig (Elt F))).Forall (Spares kept)
    ∧ (w8 : List (HloOp τ sig (Elt F))).Forall (Spares kept) ∧ (w9 ++ w10 : List (HloOp τ sig (Elt F))).Forall (Spares kept)
    ∧ (w11 : List (HloOp τ sig (Elt F))).Forall (Spares kept) := by
  simp only [List.forall_append, List.Forall]
  repeat' apply And.intro
  all_goals exact ⟨_, by decide, rfl⟩

variable (V0 : Valuation τ sig (Elt F)) {r : Ref sig .tc}

def val1 : Valuation τ sig (Elt F) := after w0 V0
def val2 : Valuation τ sig (Elt F) := after w1 (val1 V0)
def val3 : Valuation τ sig (Elt F) := after (w2 ++ w3) (val2 V0)
def val4 : Valuation τ sig (Elt F) := after w4 (val3 V0)
def val5 : Valuation τ sig (Elt F) := after (w5 ++ w6) (val4 V0)
def val6 : Valuation τ sig (Elt F) := after w7 (val5 V0)
def val7 : Valuation τ sig (Elt F) := after w8 (val6 V0)
def val8 : Valuation τ sig (Elt F) := after (w9 ++ w10) (val7 V0)
def val9 : Valuation τ sig (Elt F) := after w11 (val8 V0)

theorem after_ops : after ops V0 = val9 V0 := by
  simp only [ops, ops_part0, ops_part1, ops_part2, ops_part3, val9, val8, val7, val6, val5, val4, val3, val2, val1, after_append]

theorem val1_keep (h : r ∈ argRefs) :
    val1 V0 (no_index (Proc.devRef .tc r)) = V0 (Proc.devRef .tc r) := after_spares spares.1 _ h
theorem val2_keep (h : r ∈ [main_v6, main_v10, main_v13] ++ argRefs) :
    val2 V0 (no_index (Proc.devRef .tc r)) = val1 V0 (Proc.devRef .tc r) := after_spares spares.2.1 _ h
theorem val3_keep (h : r ∈ kept) :
    val3 V0 (no_index (Proc.devRef .tc r)) = val2 V0 (Proc.devRef .tc r) := after_spares spares.2.2.1 _ h
theorem val4_keep (h : r ∈ kept) :
    val4 V0 (no_index (Proc.devRef .tc r)) = val3 V0 (Proc.devRef .tc r) := after_spares spares.2.2.2.1 _ h
theorem val5_keep (h : r ∈ kept) :
    val5 V0 (no_index (Proc.devRef .tc r)) = val4 V0 (Proc.devRef .tc r) := after_spares spares.2.2.2.2.1 _ h
theorem val6_keep (h : r ∈ kept) :
    val6 V0 (no_index (Proc.devRef .tc r)) = val5 V0 (Proc.devRef .tc r) := after_spares spares.2.2.2.2.2.1 _ h
theorem val7_keep (h : r ∈ kept) :
    val7 V0 (no_index (Proc.devRef .tc r)) = val6 V0 (Proc.devRef .tc r) := after_spares spares.2.2.2.2.2.2.1 _ h
theorem val8_keep (h : r ∈ kept) :
    val8 V0 (no_index (Proc.devRef .tc r)) = val7 V0 (Proc.devRef .tc r) := after_spares spares.2.2.2.2.2.2.2.1 _ h
theorem val9_keep (h : r ∈ kept) :
    val9 V0 (no_index (Proc.devRef .tc r)) = val8 V0 (Proc.devRef .tc r) := after_spares spares.2.2.2.2.2.2.2.2 _ h

section
set_option maxRecDepth 8192
set_option maxHeartbeats 4000000
attribute [local irreducible] Host.gather Host.scatterAdd Host.reduceAdd concatenate

theorem val1_v6 :
    val1 V0 (no_index (Proc.devRef .tc main_v6)) = rH0 (V0 (Proc.devRef .tc main_arg0)) (V0 (Proc.devRef .tc main_arg3)) := by
  unfold val1
  simp only [w0]
  after_results_simp
  rfl

theorem val1_v10 :
    val1 V0 (no_index (Proc.devRef .tc main_v10)) = rRow (V0 (Proc.devRef .tc main_arg1)) := by
  unfold val1
  simp only [w0]
  after_results
  rfl

theorem val1_v13 :
    val1 V0 (no_index (Proc.devRef .tc main_v13)) = rCol (V0 (Proc.devRef .tc main_arg1)) := by
  unfold val1
  simp only [w0]
  after_results
  rfl

theorem val2_v36 :
    val2 V0 (no_index (Proc.devRef .tc main_v36)) = rNorm (V0 (Proc.devRef .tc main_arg1)) := by
  unfold val2
  simp only [w1]
  after_results_simp
  simp only [val1_v10, val1_v13]
  rfl

theorem val3_v58 :
    val3 V0 (no_index (Proc.devRef .tc main_v58))
      = rAct (rAgg (rNorm (V0 (Proc.devRef .tc main_arg1))) (rLin (rH0 (V0 (Proc.devRef .tc main_arg0)) (V0 (Proc.devRef .tc main_arg3))) (rMat ![0, 0, 0] slices_S3x128x128_S1x128x128_0_0_0 (V0 (Proc.devRef .tc main_arg4))))
          (rRow (V0 (Proc.devRef .tc main_arg1))) (rCol (V0 (Proc.devRef .tc main_arg1))) (rVec ![0, 0] slices_S3x128_S1x128_0_0 (V0 (Proc.devRef .tc main_arg5)))) := by
  unfold val3
  simp only [w2, w3, List.cons_append, List.nil_append]
  after_results_simp
  simp (disch := decide) only [val2_keep, val1_keep, val1_v6, val1_v10, val1_v13, val2_v36]
  rfl

theorem val4_v81 :
    val4 V0 (no_index (Proc.devRef .tc main_v81)) = rH1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [w4]
  after_results_simp
  simp (disch := decide) only [val3_keep, val2_keep, val1_keep, val3_v58]
  rfl

theorem val5_v103 :
    val5 V0 (no_index (Proc.devRef .tc main_v103))
      = rAct (rAgg (rNorm (V0 (Proc.devRef .tc main_arg1))) (rLin (rH1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7))) (rMat ![1, 0, 0] slices_S3x128x128_S1x128x128_1_0_0 (V0 (Proc.devRef .tc main_arg4))))
          (rRow (V0 (Proc.devRef .tc main_arg1))) (rCol (V0 (Proc.devRef .tc main_arg1))) (rVec ![1, 0] slices_S3x128_S1x128_1_0 (V0 (Proc.devRef .tc main_arg5)))) := by
  unfold val5
  simp only [w5, w6, List.cons_append, List.nil_append]
  after_results_simp
  simp (disch := decide) only [val4_keep, val3_keep, val2_keep, val1_keep, val1_v10, val1_v13, val2_v36, val4_v81]
  rfl

theorem val6_v126 :
    val6 V0 (no_index (Proc.devRef .tc main_v126)) = rH2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold val6
  simp only [w7]
  after_results_simp
  simp (disch := decide) only [val5_keep, val4_keep, val3_keep, val2_keep, val1_keep, val5_v103]
  rfl

theorem val7_v148 :
    val7 V0 (no_index (Proc.devRef .tc main_v148))
      = rAct (rAgg (rNorm (V0 (Proc.devRef .tc main_arg1))) (rLin (rH2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7))) (rMat ![2, 0, 0] slices_S3x128x128_S1x128x128_2_0_0 (V0 (Proc.devRef .tc main_arg4))))
          (rRow (V0 (Proc.devRef .tc main_arg1))) (rCol (V0 (Proc.devRef .tc main_arg1))) (rVec ![2, 0] slices_S3x128_S1x128_2_0 (V0 (Proc.devRef .tc main_arg5)))) := by
  unfold val7
  simp only [w8]
  after_results_simp
  simp (disch := decide) only [val6_keep, val5_keep, val4_keep, val3_keep, val2_keep, val1_keep, val1_v10, val1_v13, val2_v36, val6_v126]
  rfl

theorem val8_v171 :
    val8 V0 (no_index (Proc.devRef .tc main_v171)) = rH3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold val8
  simp only [w9, w10, List.cons_append, List.nil_append]
  after_results_simp
  simp (disch := decide) only [val7_keep, val6_keep, val5_keep, val4_keep, val3_keep, val2_keep, val1_keep, val7_v148]
  rfl

theorem val9_v183 :
    val9 V0 (no_index (Proc.devRef .tc main_v183)) = rOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val9
  simp only [w11]
  after_results_simp
  simp (disch := decide) only [val8_keep, val7_keep, val6_keep, val5_keep, val4_keep, val3_keep, val2_keep, val1_keep, val8_v171]
  rfl

end

-- No operation writes an argument.
theorem val9_args (r : Ref sig .tc) (h : r ∈ argRefs) :
    val9 V0 (Proc.devRef .tc r) = V0 (Proc.devRef .tc r) := by
  have hk : r ∈ kept := List.mem_append_right _ h
  rw [val9_keep V0 hk, val8_keep V0 hk, val7_keep V0 hk, val6_keep V0 hk, val5_keep V0 hk, val4_keep V0 hk, val3_keep V0 hk,
    val2_keep V0 (List.mem_append_right _ h), val1_keep V0 h]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v183)
        = rOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      have e := fun b => (h c b).trans (congrFun (after_ops (launchContents m c)) _)
      ⟨(e main_v183).trans (val9_v183 _), (e main_arg0).trans (val9_args _ _ (by decide)),
        (e main_arg1).trans (val9_args _ _ (by decide)),
        (e main_arg2).trans (val9_args _ _ (by decide)),
        (e main_arg3).trans (val9_args _ _ (by decide)),
        (e main_arg4).trans (val9_args _ _ (by decide)),
        (e main_arg5).trans (val9_args _ _ (by decide)),
        (e main_arg6).trans (val9_args _ _ (by decide)),
        (e main_arg7).trans (val9_args _ _ (by decide))⟩)
    (run_seq scopedRefs_eq scopedSems_eq defs main (fun _ => ops) main_eq (fun _ => ops_sub) m ρ)

end Cert.ReferenceIdeal.Hand

end
-- ==== Proof.Ref.RStats.lean ====
import proofs.«412548_j82308753260928_3_alg».proof.Proof.Ref.Run
import proofs.«412548_j82308753260928_3_alg».proof.Proof.Alg.HostRead
import proofs.«412548_j82308753260928_3_alg».proof.Proof.Alg.Real
import proofs.«412548_j82308753260928_3_alg».proof.Proof.Spec
noncomputable section
namespace Cert.ReferenceIdeal.Hand
open Cert.ReferenceIdeal Idealize.ShloMosaic
open Idealize.ShloMosaic.ValueIdx Cert.Hand.Spec Cert.Hand.Alg Cert.Hand.HostRead
open Facts₀ Facts
theorem rVec_apply (st : Fin 2 → Nat) (hs : S3x128.Slices st S1x128) (a : FVec Ideal S3x128 .f32) (l : Fin 3)
    (h0 : st 0 = l.val) (h1 : st 1 = 0) (j : Fin 128) : rVec (F := Ideal) st hs a (ix1 j) = a (ix2 l j) :=
  vec_of_stack_apply st hs shapeCasts_S1x128_S128 a l h0 h1 j
theorem rMat_apply (st : Fin 3 → Nat) (hs : S3x128x128.Slices st S1x128x128) (a4 : FVec Ideal S3x128x128 .f32) (l : Fin 3)
    (h0 : st 0 = l.val) (h1 : st 1 = 0) (h2 : st 2 = 0) (k j : Fin 128) :
    rMat (F := Ideal) st hs a4 (ix2 k j) = a4 (ix3 l k j) :=
  mat_of_stack_apply st hs shapeCasts_S1x128x128_S128x128 a4 l h0 h1 h2 k j
section Stats
variable (a : FVec Ideal S50000x128 .f32) (A : Fin 50000 → Fin 128 → ℝ) (ha : ∀ n j, a (ix2 n j) = ((A n j : ℝ) : EReal))
include ha
theorem rNext_apply (g bt : FVec Ideal S128 .f32) (ga be : Fin 128 → ℝ)
    (hg : ∀ j, g (ix1 j) = ((ga j : ℝ) : EReal)) (hbt : ∀ j, bt (ix1 j) = ((be j : ℝ) : EReal))
    (n : Fin 50000) (j : Fin 128) : rNext (F := Ideal) a g bt (ix2 n j) = ((bn A ga be n j : ℝ) : EReal) := by
  unfold rNext rRows
  exact next_apply a A ha bcast_S128_S1x128_1 bcast_S1x128_S50000x128_0_1 bcast_S_S128 g (rMu (F := Ideal) a) (rVar (F := Ideal) a) bt ga be hg
    (mu_apply a A ha reducesTo_S50000x128_S128_d0 h_S_ bcast_S_S128)
    (var_apply A reducesTo_S50000x128_S128_d0 h_S_ (rDev (F := Ideal) a)
      (dev_apply a A ha reducesTo_S50000x128_S128_d0 h_S_ bcast_S128_S1x128_1 bcast_S1x128_S50000x128_0_1 bcast_S_S1x128)
      (rDof (F := Ideal)) dof_apply _ bcast_S_S128) hbt n j
end Stats
end Cert.ReferenceIdeal.Hand
end
-- ==== Proof.Ref.REnds.lean ====
import proofs.«412548_j82308753260928_3_alg».proof.Proof.Ref.Run
import proofs.«412548_j82308753260928_3_alg».proof.Proof.Gen.ReferenceIdeal
import proofs.«412548_j82308753260928_3_alg».proof.Proof.Spec
import proofs.«412548_j82308753260928_3_alg».proof.Proof.Alg.ScatterGather
import proofs.«412548_j82308753260928_3_alg».proof.Proof.Alg.Real
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
noncomputable section
namespace Cert.ReferenceIdeal.Hand
open Idealize.ShloMosaic Idealize.ShloMosaic.ValueIdx
open Idealize.SL.Sem
open Cert.ReferenceIdeal Cert.ReferenceIdeal.Gen
open Cert.Hand
open scoped BigOperators
theorem col_apply {α : Type} (x : S50000.Idx → α) (n : Fin 50000) :
    broadcastInDim S50000x1 ![0] bcast_S50000_S50000x1_0 x (ix2 n 0) = x (ix1 n) :=
  broadcastInDim_apply _ _ x (ix2 n 0) (ix1 n) (fun a => by
    match a with
    | ⟨0, _⟩ => rfl)
theorem slt_zero_of_nonneg (v : BitVec 32) (h : 0 ≤ v.toInt) : IntOp.cmpi .slt v 0#32 = 0#1 := by
  show BitVec.ofBool (v.slt 0#32) = 0#1
  have : v.slt 0#32 = false := by
    rw [BitVec.slt]
    simp
    omega
  rw [this]; rfl
theorem embed_pick (embed : Fin 30 → Fin 128 → ℝ) (v w : BitVec 32) (hvw : v = w) (h1 : min v.toInt.toNat (30 - 1) < 30)
    (h2 : min w.toInt.toNat 29 < 30) (k : Fin 128) :
    ((embed ⟨min v.toInt.toNat (30 - 1), h1⟩ k : ℝ) : EReal) = ((embed ⟨min w.toInt.toNat 29, h2⟩ k : ℝ) : EReal) := by
  subst hvw; rfl
theorem rH0_apply (a0 : (⟨S50000, .i32⟩ : BufTy).Contents (Elt Ideal)) (embed : Fin 30 → Fin 128 → ℝ)
    (hx : ∀ i, 0 ≤ (a0 i).toInt ∧ (a0 i).toInt < 30) (n : Fin 50000) (k : Fin 128) :
    rH0 (F := Ideal) a0 (fun i => ((embed (i 0) (i 1) : ℝ) : EReal)) (ix2 n k) = ((embed (Spec.idOf a0 n) k : ℝ) : EReal) := by
  unfold rH0
  refine (SG.gather_rows_apply (N := 30) (E := 50000) (H := 128) (by decide) _ _ _ n k).trans ?_
  have hc : (cmpi .slt a0 (broadcastInDim S50000 ![] bcast_S_S50000 (constantI S_ 32 0#32))) (ix1 n) = 0#1 :=
    slt_zero_of_nonneg _ (hx (ix1 n)).1
  have hidx : (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 30#32))) a0)) (ix2 n 0) = a0 (ix1 n) := by
    rw [col_apply, select_apply, hc, select_zero]
  exact embed_pick embed _ _ hidx _ _ k
theorem splat_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ _ _ j ix0 (fun a => a.elim0)
theorem filter_segment (a2 : (⟨S50000, .i32⟩ : BufTy).Contents (Elt Ideal)) (q : Fin 64) :
    (Finset.univ.filter fun e : Fin 50000 =>
      ((broadcastInDim S50000x1 ![0] bcast_S50000_S50000x1_0 a2) (ix2 e 0)).toInt = (q.val : ℤ)) = Spec.segment a2 q := by
  unfold Spec.segment
  exact Finset.filter_congr fun e _ => by rw [col_apply]
theorem rSums_apply (a2 : (⟨S50000, .i32⟩ : BufTy).Contents (Elt Ideal)) (h' : (⟨S50000x128, .f32⟩ : BufTy).Contents (Elt Ideal))
    (h : Fin 50000 → Fin 128 → ℝ) (hh : ∀ n j, h' (ix2 n j) = ((h n j : ℝ) : EReal)) (q : Fin 64) (j : Fin 128) :
    rSums (F := Ideal) h' a2 (ix2 q j) = ((∑ n ∈ Spec.segment a2 q, h n j : ℝ) : EReal) := by
  unfold rSums
  refine (SG.host_scatterAdd_rows_apply (N := 64) (E := 50000) (H := 128) _ _ _ _ q j).trans ?_
  rw [splat_apply, Alg.ofBits_zero, filter_segment, Finset.sum_congr rfl (fun e _ => hh e j), Alg.sum_coe, Alg.add_coe, zero_add]
theorem rCounts_apply (a2 : (⟨S50000, .i32⟩ : BufTy).Contents (Elt Ideal)) (q : Fin 64) :
    rCounts (F := Ideal) a2 (ix1 q) = ((((Spec.segment a2 q).card : ℝ)) : EReal) := by
  unfold rCounts
  refine (SG.host_scatterAdd_vec_apply (N := 64) (E := 50000) _ _ _ _ q).trans ?_
  rw [splat_apply, Alg.ofBits_zero, filter_segment,
    Finset.sum_congr rfl (fun e _ => (splat_apply bcast_S_S50000 0x3F800000#32 (ix1 e)).trans Alg.ofBits_one),
    Alg.sum_coe, Alg.add_coe, zero_add, Finset.sum_const, nsmul_eq_mul, mul_one]
theorem rPool_apply (a2 : (⟨S50000, .i32⟩ : BufTy).Contents (Elt Ideal)) (hb : ∀ i, 0 ≤ (a2 i).toInt ∧ (a2 i).toInt < 64)
    (h' : (⟨S50000x128, .f32⟩ : BufTy).Contents (Elt Ideal)) (h : Fin 50000 → Fin 128 → ℝ)
    (hh : ∀ n j, h' (ix2 n j) = ((h n j : ℝ) : EReal)) (q : Fin 64) (j : Fin 128) :
    rPool (F := Ideal) h' a2 (ix2 q j) = ((Spec.pool a2 h q j : ℝ) : EReal) := by
  unfold rPool
  rw [hostDivf_apply, rSums_apply a2 h' h hh q j,
    broadcastInDim_apply ![0, 1] _ _ (ix2 q j) (ix2 q 0) (fun a => by
      match a with
      | ⟨0, _⟩ => rfl
      | ⟨1, _⟩ => rfl),
    broadcastInDim_apply ![0] _ _ (ix2 q 0) (ix1 q) (fun a => by
      match a with
      | ⟨0, _⟩ => rfl),
    maximumf_apply, rCounts_apply, splat_apply, Alg.ofBits_one, Alg.max_coe,
    Alg.div_coe_coe _ (ne_of_gt (lt_of_lt_of_le one_pos (le_max_right _ _)))]
  rfl
end Cert.ReferenceIdeal.Hand
end
-- ==== Proof.Ref.RAggMath.lean ====
import proofs.«412548_j82308753260928_3_alg».proof.Proof.Ref.Run
import proofs.«412548_j82308753260928_3_alg».proof.Proof.Spec
import proofs.«412548_j82308753260928_3_alg».proof.Proof.Alg.Real
import proofs.«412548_j82308753260928_3_alg».proof.Proof.Alg.ScatterGather
import proofs.«412548_j82308753260928_3_alg».proof.Proof.Alg.Edges
import proofs.«412548_j82308753260928_3_alg».proof.Proof.Alg.HostRead
import proofs.«412548_j82308753260928_3_alg».proof.Proof.LibPlainDot
import Idealize.ShloMosaic.PureOps.Ideal
import Idealize.ShloMosaic.Lib.ValueIdx
import Mathlib.Data.EReal.Basic
import Mathlib.Algebra.BigOperators.Group.Finset.Basic
noncomputable section
namespace Cert.ReferenceIdeal.Hand
open Cert.ReferenceIdeal Cert.ReferenceIdeal.Gen Idealize.ShloMosaic Idealize.ShloMosaic.ValueIdx Cert.Hand
open scoped BigOperators
theorem rRow_apply {F : FTy → Type} (a1 : IVec (⟨2, ![2, 800000]⟩ : Shape) 32) (e : Fin 850000) :
    rRow (F := F) a1 (ix1 e) = Spec.endpoint a1 0 e :=
  Edges.edgeCol_apply a1 0 slices_S2x800000_S1x800000_0_0 shapeCasts_S1x800000_S800000 concatenates_S800000_S50000_S850000_d0 e
theorem rCol_apply {F : FTy → Type} (a1 : IVec (⟨2, ![2, 800000]⟩ : Shape) 32) (e : Fin 850000) :
    rCol (F := F) a1 (ix1 e) = Spec.endpoint a1 1 e :=
  Edges.edgeCol_apply a1 1 slices_S2x800000_S1x800000_1_0 shapeCasts_S1x800000_S800000 concatenates_S800000_S50000_S850000_d0 e
theorem rLin_apply (h' : (⟨2, ![50000, 128]⟩ : Shape).Idx → EReal) (W' : (⟨2, ![128, 128]⟩ : Shape).Idx → EReal)
    (h : Fin 50000 → Fin 128 → ℝ) (Wl : Fin 128 → Fin 128 → ℝ)
    (hh : ∀ n k, h' (ix2 n k) = ((h n k : ℝ) : EReal)) (hW : ∀ k j, W' (ix2 k j) = ((Wl k j : ℝ) : EReal)) :
    ∀ n j, rLin (F := Ideal) h' W' (ix2 n j) = ((Spec.lin h Wl n j : ℝ) : EReal) := by
  intro n j
  refine (Cert.Lib.PlainDot.dotGeneral_apply (M := 50000) (K := 128) (N := 128) (φ₁ := .f32) (φ₂ := .f32) none .single h' W' n j).trans ?_
  unfold Spec.lin
  rw [Alg.coe_sum]
  refine Finset.sum_congr rfl fun k _ => ?_
  rw [hh n k, hW k j, ← EReal.coe_mul]
theorem rDinv_apply (a1 : IVec (⟨2, ![2, 800000]⟩ : Shape) 32) (n : Fin 50000) :
    rDinv (F := Ideal) a1 (ix1 n) = ((Spec.dinv a1 n : ℝ) : EReal) :=
  Edges.dinvHost_apply a1 slices_S2x800000_S1x800000_1_0 shapeCasts_S1x800000_S800000
    concatenates_S800000_S50000_S850000_d0 bcast_S850000_S850000x1_0 bcast_S_S50000 bcast_S_S850000
    scatter_S50000_S850000x1_S850000_n_0_0_1_wf n
theorem norm_of_vec (a1 : IVec (⟨2, ![2, 800000]⟩ : Shape) 32) (d : (⟨1, ![50000]⟩ : Shape).Idx → EReal) (e : Fin 850000) :
    mulf (F := Ideal) (φ := .f32)
        (Host.gather gather_S50000_S850000x1_S850000_n_0_n_n_0_1_1 d (rWrap (F := Ideal) (rRow a1)))
        (Host.gather gather_S50000_S850000x1_S850000_n_0_n_n_0_1_1 d (rWrap (F := Ideal) (rCol a1))) (ix1 e)
      = d (ix1 (Spec.src a1 e)) * d (ix1 (Spec.tgtNode a1 e)) := by
  have h0 := Edges.gather_vec_node (rRow (F := Ideal) a1) bcast_S_S850000 bcast_S850000_S850000x1_0
    gather_S50000_S850000x1_S850000_n_0_n_n_0_1_1_wf d e
  have h1 := Edges.gather_vec_node (rCol (F := Ideal) a1) bcast_S_S850000 bcast_S850000_S850000x1_0
    gather_S50000_S850000x1_S850000_n_0_n_n_0_1_1_wf d e
  rw [rRow_apply] at h0
  rw [rCol_apply] at h1
  exact congrArg₂ (· * ·) h0 h1
theorem rNorm_apply (a1 : IVec (⟨2, ![2, 800000]⟩ : Shape) 32) (e : Fin 850000) :
    rNorm (F := Ideal) a1 (ix1 e)
      = ((Spec.dinv a1 (Spec.src a1 e) * Spec.dinv a1 (Spec.tgtNode a1 e) : ℝ) : EReal) := by
  have h := norm_of_vec a1 (rDinv (F := Ideal) a1) e
  rw [rDinv_apply, rDinv_apply, ← EReal.coe_mul] at h
  exact h
theorem msg_of_vec (a1 : IVec (⟨2, ![2, 800000]⟩ : Shape) 32) (w : (⟨1, ![850000]⟩ : Shape).Idx → EReal)
    (m' : (⟨2, ![50000, 128]⟩ : Shape).Idx → EReal) (e : Fin 850000) (j : Fin 128) :
    rMsg (F := Ideal) w m' (rRow a1) (ix2 e j) = w (ix1 e) * m' (ix2 (Spec.src a1 e) j) := by
  have hw : broadcastInDim S850000x128 ![0, 1] bcast_S850000x1_S850000x128_0_1
      (broadcastInDim S850000x1 ![0] bcast_S850000_S850000x1_0 w) (ix2 e j) = w (ix1 e) :=
    HostRead.cols_apply bcast_S850000_S850000x1_0 bcast_S850000x1_S850000x128_0_1 w e j
  have hg := Edges.gather_rows_node bcast_S_S850000 bcast_S850000_S850000x1_0
    gather_S50000x128_S850000x1_S850000x128_1_0_n_n_0_1_1128_wf (rRow (F := Ideal) a1) m' e j
  rw [rRow_apply] at hg
  exact congrArg₂ (· * ·) hw hg
theorem act_agg_of_vec (a1 : IVec (⟨2, ![2, 800000]⟩ : Shape) 32) (w : (⟨1, ![850000]⟩ : Shape).Idx → EReal)
    (m' : (⟨2, ![50000, 128]⟩ : Shape).Idx → EReal) (b' : (⟨1, ![128]⟩ : Shape).Idx → EReal) (n : Fin 50000) (j : Fin 128) :
    rAct (F := Ideal) (rAgg w m' (rRow a1) (rCol a1) b') (ix2 n j)
      = max ((∑ e ∈ Spec.into a1 n, w (ix1 e) * m' (ix2 (Spec.src a1 e) j)) + b' (ix1 j)) 0 := by
  have hsc : Host.scatterAdd scatter_S50000x128_S850000x1_S850000x128_1_0_0_1
      (broadcastInDim S50000x128 ![] bcast_S_S50000x128 (constant (F := Ideal) S_ .f32 0x00000000#32))
      (rCol1 (F := Ideal) (rCol a1)) (rMsg (F := Ideal) w m' (rRow a1)) (ix2 n j)
      = ∑ e ∈ Spec.into a1 n, rMsg (F := Ideal) w m' (rRow a1) (ix2 e j) :=
    Edges.scatter_rows_into a1 slices_S2x800000_S1x800000_1_0 shapeCasts_S1x800000_S800000
      concatenates_S800000_S50000_S850000_d0 bcast_S850000_S850000x1_0 bcast_S_S50000x128
      scatter_S50000x128_S850000x1_S850000x128_1_0_0_1_wf (rMsg (F := Ideal) w m' (rRow a1)) n j
  have hrow : rRows (F := Ideal) b' (ix2 n j) = b' (ix1 j) :=
    HostRead.rows_apply bcast_S128_S1x128_1 bcast_S1x128_S50000x128_0_1 b' n j
  have hz : broadcastInDim S50000x128 ![] bcast_S_S50000x128 (constant (F := Ideal) S_ .f32 0x00000000#32) (ix2 n j)
      = (0 : EReal) := Alg.ofBits_zero.trans EReal.coe_zero
  unfold rAct rAgg
  rw [ValueIdx.maximumf_apply, ValueIdx.addf_apply, hsc, hrow, hz,
    Finset.sum_congr rfl fun e _ => msg_of_vec a1 w m' e j]
theorem rAct_rAgg_apply (a1 : IVec (⟨2, ![2, 800000]⟩ : Shape) 32) (m' : (⟨2, ![50000, 128]⟩ : Shape).Idx → EReal)
    (b' : (⟨1, ![128]⟩ : Shape).Idx → EReal) (mm : Fin 50000 → Fin 128 → ℝ) (bl : Fin 128 → ℝ)
    (hm : ∀ n j, m' (ix2 n j) = ((mm n j : ℝ) : EReal)) (hb : ∀ j, b' (ix1 j) = ((bl j : ℝ) : EReal)) :
    ∀ n j, rAct (F := Ideal) (rAgg (rNorm a1) m' (rRow a1) (rCol a1) b') (ix2 n j)
      = ((Spec.act (Spec.agg a1 mm) bl n j : ℝ) : EReal) := by
  intro n j
  have he : ∀ e : Fin 850000, rNorm (F := Ideal) a1 (ix1 e) * m' (ix2 (Spec.src a1 e) j)
      = ((Spec.dinv a1 (Spec.src a1 e) * Spec.dinv a1 (Spec.tgtNode a1 e) * mm (Spec.src a1 e) j : ℝ) : EReal) :=
    fun e => by rw [rNorm_apply, hm, ← EReal.coe_mul]
  rw [act_agg_of_vec, Finset.sum_congr rfl fun e _ => he e, ← Alg.coe_sum, Alg.agg_edgewise, hb j, ← EReal.coe_add,
    ← EReal.coe_zero, Alg.max_coe]
  rfl
end Cert.ReferenceIdeal.Hand
end
-- ==== Proof.Ref.ROutMath.lean ====
import proofs.«412548_j82308753260928_3_alg».proof.Proof.Ref.RStats
import proofs.«412548_j82308753260928_3_alg».proof.Proof.Ref.REnds
import proofs.«412548_j82308753260928_3_alg».proof.Proof.Ref.RAggMath
import proofs.«412548_j82308753260928_3_alg».proof.Proof.Spec
noncomputable section
namespace Cert.ReferenceIdeal.Hand
open Cert.ReferenceIdeal Idealize.ShloMosaic
open Idealize.ShloMosaic.ValueIdx Cert.Hand.Spec Cert.Hand.Alg Cert.Hand.HostRead
open Facts₀ Facts
section Chain
variable (a0 : IVec S50000 32) (a1 : IVec S2x800000 32) (a2 : IVec S50000 32)
  (embed : Fin 30 → Fin 128 → ℝ) (W : Fin 3 → Fin 128 → Fin 128 → ℝ) (b ga be : Fin 3 → Fin 128 → ℝ)
theorem rStep_apply (l : Fin 3) (st3 : Fin 3 → Nat) (hs3 : S3x128x128.Slices st3 S1x128x128) (st2 : Fin 2 → Nat)
    (hs2 : S3x128.Slices st2 S1x128) (h30 : st3 0 = l.val) (h31 : st3 1 = 0) (h32 : st3 2 = 0) (h20 : st2 0 = l.val)
    (h21 : st2 1 = 0) (h' : FVec Ideal S50000x128 .f32) (h : Fin 50000 → Fin 128 → ℝ)
    (hh : ∀ n k, h' (ix2 n k) = ((h n k : ℝ) : EReal)) (n : Fin 50000) (j : Fin 128) :
    rLayer (F := Ideal) a1 h' (rMat st3 hs3 (fun i => ((W (i 0) (i 1) (i 2) : ℝ) : EReal)))
        (rVec st2 hs2 (fun i => ((b (i 0) (i 1) : ℝ) : EReal))) (rVec st2 hs2 (fun i => ((ga (i 0) (i 1) : ℝ) : EReal)))
        (rVec st2 hs2 (fun i => ((be (i 0) (i 1) : ℝ) : EReal))) (ix2 n j)
      = ((bn (layer a1 h (W l) (b l)) (ga l) (be l) n j : ℝ) : EReal) :=
  rNext_apply _ (layer a1 h (W l) (b l))
    (rAct_rAgg_apply a1 (rLin (F := Ideal) h' _) _ (lin h (W l)) (b l)
      (rLin_apply h' _ h (W l) hh fun k j => rMat_apply st3 hs3 _ l h30 h31 h32 k j) fun j => rVec_apply st2 hs2 _ l h20 h21 j)
    _ _ (ga l) (be l) (fun j => rVec_apply st2 hs2 _ l h20 h21 j) (fun j => rVec_apply st2 hs2 _ l h20 h21 j) n j
variable (hx : ∀ i, 0 ≤ (a0 i).toInt ∧ (a0 i).toInt < 30)
include hx
theorem rOut_eq (hb : ∀ i, 0 ≤ (a2 i).toInt ∧ (a2 i).toInt < 64) :
    rOut (F := Ideal) a0 a1 a2 (fun i => ((embed (i 0) (i 1) : ℝ) : EReal)) (fun i => ((W (i 0) (i 1) (i 2) : ℝ) : EReal))
        (fun i => ((b (i 0) (i 1) : ℝ) : EReal)) (fun i => ((ga (i 0) (i 1) : ℝ) : EReal))
        (fun i => ((be (i 0) (i 1) : ℝ) : EReal))
      = fun i => ((out a0 a1 a2 embed W b ga be (i 0) (i 1) : ℝ) : EReal) := by
  funext i
  obtain ⟨q, j, rfl⟩ : ∃ (q : Fin 64) (j : Fin 128), i = ix2 q j := ⟨i 0, i 1, eq_ix2 i⟩
  have h1 := rStep_apply a1 W b ga be 0 ![0, 0, 0] slices_S3x128x128_S1x128x128_0_0_0 ![0, 0] slices_S3x128_S1x128_0_0 rfl rfl rfl rfl rfl
    _ _ (rH0_apply a0 embed hx)
  have h2 := rStep_apply a1 W b ga be 1 ![1, 0, 0] slices_S3x128x128_S1x128x128_1_0_0 ![1, 0] slices_S3x128_S1x128_1_0 rfl rfl rfl rfl rfl
    _ _ h1
  exact rPool_apply a2 hb _ _ (rStep_apply a1 W b ga be 2 ![2, 0, 0] slices_S3x128x128_S1x128x128_2_0_0 ![2, 0]
    slices_S3x128_S1x128_2_0 rfl rfl rfl rfl rfl _ _ h2) q j
end Chain
end Cert.ReferenceIdeal.Hand
end
-- ==== Proof.PreFacts.lean ====
import proofs.«412548_j82308753260928_3_alg».proof.Pre_finite_inputs
import proofs.«412548_j82308753260928_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx
noncomputable section
namespace Cert.Hand.PreFacts
open Idealize.ShloMosaic Cert.Pre_finite_inputs
instance : Subsingleton S_.Idx := ⟨fun a b => funext fun d => d.elim0⟩
theorem inf_pattern : Ideal.ofBits .f32 0x7F800000#32 = (⊤ : EReal) := by
  simp [Ideal.ofBits, Ideal.ieee]
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32))) init hr hu ValueIdx.ix0 = 1#1)
    (i : s.Idx) : ∃ r : ℝ, a i = (r : EReal) :=
  real_of_abs_lt_inf (a i) (Host.reduce_andi_all _ init hr hu ValueIdx.ix0 e i)
theorem all_in_range {n : Nat} {axes : List (Fin (⟨1, ![n]⟩ : Shape).rank)} (a : IVec ⟨1, ![n]⟩ 32) (hi : BitVec 32)
    (hb : S_.BroadcastsInDim ⟨1, ![n]⟩ (![] : Fin 0 → Fin 1)) (hr : (⟨1, ![n]⟩ : Shape).ReducesTo axes S_) (hu : 0 < S_.numel)
    (init : IVec S_ 1)
    (e : Host.reduce IntOp.andi
        (andi (cmpi .sge a (broadcastInDim ⟨1, ![n]⟩ ![] hb (constantI S_ 32 0#32)))
              (cmpi .slt a (broadcastInDim ⟨1, ![n]⟩ ![] hb (constantI S_ 32 hi)))) init hr hu ValueIdx.ix0 = 1#1)
    (i : (⟨1, ![n]⟩ : Shape).Idx) : 0 ≤ (a i).toInt ∧ (a i).toInt < hi.toInt := by
  have hi1 := Host.reduce_andi_all _ init hr hu ValueIdx.ix0 e i
  obtain ⟨h0, h1⟩ := IntOp.andi_eq_one.1 hi1
  have h0' : (0#32 : BitVec 32).toInt ≤ (a i).toInt := IntOp.cmpi_sge.1 h0
  have h1' : (a i).toInt < hi.toInt := IntOp.cmpi_slt.1 h1
  rw [show (0#32 : BitVec 32).toInt = 0 from by decide] at h0'
  exact ⟨h0', h1'⟩
theorem decode (a0 : IVec S50000 32) (a1 : IVec S2x800000 32) (a2 : IVec S50000 32) (a3 : FVec Ideal S30x128 .f32) (a4 : FVec Ideal S3x128x128 .f32) (a5 a6 a7 : FVec Ideal S3x128 .f32)
    (h : Cert.Pre_finite_inputs.fn (F := Ideal) a0 a1 a2 a3 a4 a5 a6 a7 = fun _ => 1#1) :
    (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal))
    ∧ (∀ i, 0 ≤ (a0 i).toInt ∧ (a0 i).toInt < 30) ∧ (∀ i, 0 ≤ (a2 i).toInt ∧ (a2 i).toInt < 64) := by
  have e := congrFun h ValueIdx.ix0
  dsimp only [fn, fn_part1, fn_part2] at e
  obtain ⟨e, h2⟩ := IntOp.andi_eq_one.1 e
  obtain ⟨e, h0⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨h3, h4⟩ := IntOp.andi_eq_one.1 e
  refine ⟨all_real a3 _ _ _ _ h3, all_real a4 _ _ _ _ h4, all_real a5 _ _ _ _ h5, all_real a6 _ _ _ _ h6,
    all_real a7 _ _ _ _ h7, fun i => ?_, fun i => ?_⟩
  · have hr := all_in_range a0 30#32 _ _ _ _ h0 i
    rwa [show (30#32 : BitVec 32).toInt = 30 from by decide] at hr
  · have hr := all_in_range a2 64#32 _ _ _ _ h2 i
    rwa [show (64#32 : BitVec 32).toInt = 64 from by decide] at hr
end Cert.Hand.PreFacts
end
-- ==== Proof.lean ====
import proofs.«412548_j82308753260928_3_alg».proof.Defs
import proofs.«412548_j82308753260928_3_alg».proof.Proof.Gen.Kernel
import proofs.«412548_j82308753260928_3_alg».proof.Proof.Gen.KernelIdeal
import proofs.«412548_j82308753260928_3_alg».proof.Proof.Gen.ReferenceIdeal
import proofs.«412548_j82308753260928_3_alg».proof.Proof.Gen.Pre_finite_inputs
import proofs.«412548_j82308753260928_3_alg».proof.Proof.KB.Frame
import proofs.«412548_j82308753260928_3_alg».proof.Proof.KI.Frame
import proofs.«412548_j82308753260928_3_alg».proof.Proof.Val.Chain
import proofs.«412548_j82308753260928_3_alg».proof.Proof.Val.KOutMath
import proofs.«412548_j82308753260928_3_alg».proof.Proof.Ref.Run
import proofs.«412548_j82308753260928_3_alg».proof.Proof.Ref.ROutMath
import proofs.«412548_j82308753260928_3_alg».proof.Proof.PreFacts
import Idealize.ShloMosaic.PureOps.IdealRules
noncomputable section
namespace Cert.Proof
open Idealize.ShloMosaic Idealize.SL.Sem Idealize.ShloMosaic.ValueIdx
theorem results_agree (a0 : IVec Cert.KernelIdeal.S50000 32) (a1 : IVec Cert.KernelIdeal.S2x800000 32) (a2 : IVec Cert.KernelIdeal.S50000 32)
    (a3 : FVec Ideal Cert.KernelIdeal.S30x128 .f32) (a4 : FVec Ideal Cert.KernelIdeal.S3x128x128 .f32) (a5 a6 a7 : FVec Ideal Cert.KernelIdeal.S3x128 .f32)
    (h : Cert.Pre_finite_inputs.fn (F := Ideal) a0 a1 a2 a3 a4 a5 a6 a7 = fun _ => 1#1) :
    Cert.ReferenceIdeal.Hand.rOut (F := Ideal) a0 a1 a2 a3 a4 a5 a6 a7 = Cert.KernelIdeal.Hand.kOut a0 a1 a2 a3 a4 a5 a6 a7 := by
  obtain ⟨h3, h4, h5, h6, h7, hx, hb⟩ := Cert.Hand.PreFacts.decode a0 a1 a2 a3 a4 a5 a6 a7 h
  choose e3 he3 using h3
  choose e4 he4 using h4
  choose e5 he5 using h5
  choose e6 he6 using h6
  choose e7 he7 using h7
  have r3 : a3 = fun i => ((e3 (ix2 (i 0) (i 1)) : ℝ) : EReal) := funext fun i => (he3 i).trans (congrArg (fun z => ((e3 z : ℝ) : EReal)) (eq_ix2 i))
  have r4 : a4 = fun i => ((e4 (ix3 (i 0) (i 1) (i 2)) : ℝ) : EReal) := funext fun i => (he4 i).trans (congrArg (fun z => ((e4 z : ℝ) : EReal)) (eq_ix3 i))
  have r5 : a5 = fun i => ((e5 (ix2 (i 0) (i 1)) : ℝ) : EReal) := funext fun i => (he5 i).trans (congrArg (fun z => ((e5 z : ℝ) : EReal)) (eq_ix2 i))
  have r6 : a6 = fun i => ((e6 (ix2 (i 0) (i 1)) : ℝ) : EReal) := funext fun i => (he6 i).trans (congrArg (fun z => ((e6 z : ℝ) : EReal)) (eq_ix2 i))
  have r7 : a7 = fun i => ((e7 (ix2 (i 0) (i 1)) : ℝ) : EReal) := funext fun i => (he7 i).trans (congrArg (fun z => ((e7 z : ℝ) : EReal)) (eq_ix2 i))
  rw [r3, r4, r5, r6, r7]
  exact (Cert.ReferenceIdeal.Hand.rOut_eq a0 a1 a2 (fun v k => e3 (ix2 v k)) (fun l k j => e4 (ix3 l k j)) (fun l j => e5 (ix2 l j))
      (fun l j => e6 (ix2 l j)) (fun l j => e7 (ix2 l j)) hx hb).trans
    (Cert.KernelIdeal.Hand.kOut_eq a0 a1 a2 (fun v k => e3 (ix2 v k)) (fun l k j => e4 (ix3 l k j)) (fun l j => e5 (ix2 l j))
      (fun l j => e6 (ix2 l j)) (fun l j => e7 (ix2 l j)) hx hb).symm
theorem frame_k : @Cert.frame_Kernel Cert.Kernel.Gen.facts Cert.Pre_finite_inputs.Gen.facts :=
  fun m ρ _ => Cert.Kernel.Hand.frame m ρ
theorem frame_ki : @Cert.frame_KernelIdeal Cert.KernelIdeal.Gen.facts Cert.Pre_finite_inputs.Gen.facts :=
  fun m ρ _ => Cert.KernelIdeal.Hand.frame m ρ
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run (F := Ideal) m ρ)
theorem preserves : Cert.preserves_Kernel_KernelIdeal := IdealRules.truncf_extf.statement _ .f32 .bf16
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Hand.run_kernel m ρ, ?_⟩
  refine (θ_run Cert.ReferenceIdeal.defs _ _).mono (fun _ h c => ⟨(h c).1.trans ?_, (h c).2⟩)
    (Cert.ReferenceIdeal.Hand.run (F := Ideal) m' ρ')
  obtain ⟨g0, g1, g2, g3, g4, g5, g6, g7⟩ := hagree c
  rw [g0, g1, g2, g3, g4, g5, g6, g7]
  exact results_agree _ _ _ _ _ _ _ _ (hpre c)
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩
end Cert.Proof
end
